-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v116)) (v1 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_v119) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_v261) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_arg1 : IVec S2x320000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S2x320000 32 := broadcastInDim S2x320000 ![] bcast_S_S2x320000 main_c_20
  let main_v55 : IVec S2x320000 1 := cmpi .sge main_arg1 main_v54
  let main_c_21 : IVec S_ 1 := constantI S_ 1 1#1
  let main_v56 : IVec S_ 1 := (fun x v => Host.reduce IntOp.andi x v reducesTo_S2x320000_S_d0_1 h_S_) main_v55 main_c_21
  let main_v57 : IVec S_ 1 := andi main_v53 main_v56
  let main_c_22 : IVec S_ 32 := constantI S_ 32 10000#32
  let main_v58 : IVec S2x320000 32 := broadcastInDim S2x320000 ![] bcast_S_S2x320000 main_c_22
  let main_v59 : IVec S2x320000 1 := cmpi .slt main_arg1 main_v58
  let main_c_23 : IVec S_ 1 := constantI S_ 1 1#1
  let main_v60 : IVec S_ 1 := (fun x v => Host.reduce IntOp.andi x v reducesTo_S2x320000_S_d0_1 h_S_) main_v59 main_c_23
  let main_v61 : IVec S_ 1 := andi main_v57 main_v60
  main_v61

def fn_part2 {F : FTy → Type} [FloatOps F] (main_arg1 : IVec S2x320000 32) (main_arg8 : FVec F S64x256 .f32) (main_arg9 : FVec F S256 .f32) (main_arg10 : FVec F S64x64 .f32) (main_arg11 : FVec F S64 .f32) (main_v33 : IVec S_ 1) : IVec S_ 1 :=
  let main_v34 : FVec F S64x256 .f32 := Host.absf main_arg8
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S2x320000 32) (main_arg5 : FVec F S64 .f32) (main_arg6 : FVec F S64x64 .f32) (main_arg7 : FVec F S64 .f32) (main_arg8 : FVec F S64x256 .f32) (main_arg9 : FVec F S256 .f32) (main_arg10 : FVec F S64x64 .f32) (main_arg11 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S10000x256 .f32) (main_arg1 : IVec S2x320000 32) (main_arg2 : FVec F S256x64 .f32) (main_arg3 : FVec F S64 .f32) (main_arg4 : FVec F S64x64 .f32) (main_arg5 : FVec F S64 .f32) (main_arg6 : FVec F S64x64 .f32) (main_arg7 : FVec F S64 .f32) (main_arg8 : FVec F S64x256 .f32) (main_arg9 : FVec F S256 .f32) (main_arg10 : FVec F S64x64 .f32) (main_arg11 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_arg10 main_arg11 main_v13 main_v16
-- ==== Kernel.lean ====
abbrev S10000x256 : Shape := ⟨2, ![10000, 256]⟩
abbrev S2x320000 : Shape := ⟨2, ![2, 320000]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S10240 : Shape := ⟨1, ![10240]⟩
abbrev S320000x1 : Shape := ⟨2, ![320000, 1]⟩
abbrev S10240x1 : Shape := ⟨2, ![10240, 1]⟩
abbrev S10240x10240 : Shape := ⟨2, ![10240, 10240]⟩
abbrev S320000x2 : Shape := ⟨2, ![320000, 2]⟩
abbrev S10240x256 : Shape := ⟨2, ![10240, 256]⟩
abbrev S1 : Shape := ⟨1, ![1]⟩
abbrev S512x10240 : Shape := ⟨2, ![512, 10240]⟩
abbrev S512x1 : Shape := ⟨2, ![512, 1]⟩
abbrev S512x256 : Shape := ⟨2, ![512, 256]⟩
abbrev S10240x64 : Shape := ⟨2, ![10240, 64]⟩
abbrev S1x64 : Shape := ⟨2, ![1, 64]⟩
abbrev S512x64 : Shape := ⟨2, ![512, 64]⟩
abbrev S64x128 : Shape := ⟨2, ![64, 128]⟩
abbrev S128 : Shape := ⟨1, ![128]⟩
abbrev S10240x128 : Shape := ⟨2, ![10240, 128]⟩
abbrev S1x128 : Shape := ⟨2, ![1, 128]⟩
abbrev S512x128 : Shape := ⟨2, ![512, 128]⟩
abbrev S1x256 : Shape := ⟨2, ![1, 256]⟩
abbrev S10000x64 : Shape := ⟨2, ![10000, 64]⟩
abbrev S10000x10000 : Shape := ⟨2, ![10000, 10000]⟩
abbrev S200x64 : Shape := ⟨2, ![200, 64]⟩
abbrev S200x10000 : Shape := ⟨2, ![200, 10000]⟩

abbrev nBuf : Space → Nat
  | .hbm => 158
  | .vmem => 59
  | .smem => 0
  | _ => 0

abbrev hbmTy0_0 (i : Nat) : BufTy := match i % 128 with
  | 0 => ⟨S10000x256, .f32⟩
  | 1 => ⟨S2x320000, .i32⟩
  | 2 => ⟨S256x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x256, .f32⟩
  | 9 => ⟨S256, .f32⟩
  | 10 => ⟨S64x64, .f32⟩
  | 11 => ⟨S64, .f32⟩
  | 12 => ⟨S1x320000, .i32⟩
  | 13 => ⟨S320000, .i32⟩
  | 14 => ⟨S1x320000, .i32⟩
  | 15 => ⟨S320000, .i32⟩
  | 16 => ⟨S_, .f32⟩
  | 17 => ⟨S320000, .f32⟩
  | 18 => ⟨S10240, .i32⟩
  | 19 => ⟨S_, .i32⟩
  | 20 => ⟨S10240, .i32⟩
  | 21 => ⟨S10240, .i1⟩
  | 22 => ⟨S10240, .f32⟩
  | 23 => ⟨S_, .f32⟩
  | 24 => ⟨S10240, .f32⟩
  | 25 => ⟨S320000x1, .i32⟩
  | 26 => ⟨S10240, .f32⟩
  | 27 => ⟨S_, .f32⟩
  | 28 => ⟨S10240, .f32⟩
  | 29 => ⟨S10240, .f32⟩
  | 30 => ⟨S_, .f32⟩
  | 31 => ⟨S10240, .f32⟩
  | 32 => ⟨S320000x1, .i32⟩
  | 33 => ⟨S10240, .f32⟩
  | 34 => ⟨S_, .f32⟩
  | 35 => ⟨S10240, .f32⟩
  | 36 => ⟨S10240, .f32⟩
  | 37 => ⟨S_, .f32⟩
  | 38 => ⟨S10240, .f32⟩
  | 39 => ⟨S10240, .f32⟩
  | 40 => ⟨S10240, .f32⟩
  | 41 => ⟨S10240x1, .f32⟩
  | 42 => ⟨S_, .f32⟩
  | 43 => ⟨S10240, .f32⟩
  | 44 => ⟨S10240, .f32⟩
  | 45 => ⟨S10240, .f32⟩
  | 46 => ⟨S10240x1, .f32⟩
  | 47 => ⟨S_, .f32⟩
  | 48 => ⟨S10240, .f32⟩
  | 49 => ⟨S320000x1, .i32⟩
  | 50 => ⟨S10240, .f32⟩
  | 51 => ⟨S10240, .f32⟩
  | 52 => ⟨S_, .f32⟩
  | 53 => ⟨S10240, .f32⟩
  | 54 => ⟨S10240, .i1⟩
  | 55 => ⟨S10240, .f32⟩
  | 56 => ⟨S_, .f32⟩
  | 57 => ⟨S_, .f32⟩
  | 58 => ⟨S10240, .f32⟩
  | 59 => ⟨S10240, .f32⟩
  | 60 => ⟨S10240x1, .f32⟩
  | 61 => ⟨S_, .f32⟩
  | 62 => ⟨S10240x10240, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S320000x1, .i32⟩
  | 79 => ⟨S320000x2, .i32⟩
  | 80 => ⟨S_, .f32⟩
  | 81 => ⟨S320000, .f32⟩
  | 82 => ⟨S10240x10240, .f32⟩
  | 83 => ⟨S10240x10240, .bf16⟩
  | 84 => ⟨S10240x10240, .bf16⟩
  | 85 => ⟨S_, .f32⟩
  | 86 => ⟨S10240x256, .f32⟩
  | 87 => ⟨S_, .i32⟩
  | 88 => ⟨S1, .i32⟩
  | 89 => ⟨S10240x256, .f32⟩
  | 90 => ⟨S10240x256, .bf16⟩
  | 91 => ⟨S_, .f32⟩
  | 92 => ⟨S10240x256, .f32⟩
  | 93 => ⟨S10240x256, .f32⟩
  | 94 => ⟨S10240x256, .f32⟩
  | 95 => ⟨S_, .f32⟩
  | 96 => ⟨S10240x256, .f32⟩
  | 97 => ⟨S10240x256, .f32⟩
  | 98 => ⟨S10240x256, .f32⟩
  | 99 => ⟨S_, .f32⟩
  | 100 => ⟨S10240x256, .f32⟩
  | 101 => ⟨S10240x256, .f32⟩
  | 102 => ⟨S10240x256, .f32⟩
  | 103 => ⟨S10240x64, .f32⟩
  | 104 => ⟨S10240x64, .f32⟩
  | 105 => ⟨S10240x64, .f32⟩
  | 106 => ⟨S10240x64, .bf16⟩
  | 107 => ⟨S10240x1, .f32⟩
  | 108 => ⟨S10240x64, .f32⟩
  | 109 => ⟨S10240x64, .f32⟩
  | 110 => ⟨S1x64, .f32⟩
  | 111 => ⟨S10240x64, .f32⟩
  | 112 => ⟨S10240x64, .f32⟩
  | 113 => ⟨S10240x64, .f32⟩
  | 114 => ⟨S10240x64, .f32⟩
  | 115 => ⟨S10240x64, .f32⟩
  | 116 => ⟨S10240x64, .f32⟩
  | 117 => ⟨S10240x64, .bf16⟩
  | 118 => ⟨S10240x1, .f32⟩
  | 119 => ⟨S10240x64, .f32⟩
  | 120 => ⟨S10240x64, .f32⟩
  | 121 => ⟨S1x64, .f32⟩
  | 122 => ⟨S10240x64, .f32⟩
  | 123 => ⟨S10240x64, .f32⟩
  | 124 => ⟨S10240x64, .f32⟩
  | 125 => ⟨S64x128, .f32⟩
  | 126 => ⟨S128, .f32⟩
  | 127 => ⟨S10240x128, .f32⟩
  | _ => ⟨S10000x256, .f32⟩

abbrev hbmTy0_1 (i : Nat) : BufTy := match i % 128 with
  | 0 => ⟨S10240x128, .f32⟩
  | 1 => ⟨S10240x128, .f32⟩
  | 2 => ⟨S10240x128, .bf16⟩
  | 3 => ⟨S10240x1, .f32⟩
  | 4 => ⟨S10240x128, .f32⟩
  | 5 => ⟨S10240x128, .f32⟩
  | 6 => ⟨S1x128, .f32⟩
  | 7 => ⟨S10240x128, .f32⟩
  | 8 => ⟨S10240x128, .f32⟩
  | 9 => ⟨S10240x128, .f32⟩
  | 10 => ⟨S10240x64, .f32⟩
  | 11 => ⟨S_, .f32⟩
  | 12 => ⟨S10240x64, .f32⟩
  | 13 => ⟨S10240x64, .f32⟩
  | 14 => ⟨S10240x64, .f32⟩
  | 15 => ⟨S10240x256, .f32⟩
  | 16 => ⟨S10240x256, .f32⟩
  | 17 => ⟨S10240x256, .f32⟩
  | 18 => ⟨S10240x256, .bf16⟩
  | 19 => ⟨S10240x1, .f32⟩
  | 20 => ⟨S10240x256, .f32⟩
  | 21 => ⟨S10240x256, .f32⟩
  | 22 => ⟨S1x256, .f32⟩
  | 23 => ⟨S10240x256, .f32⟩
  | 24 => ⟨S10240x256, .f32⟩
  | 25 => ⟨S10240x256, .f32⟩
  | 26 => ⟨S10000x256, .f32⟩
  | 27 => ⟨S10000x64, .f32⟩
  | 28 => ⟨S10000x64, .bf16⟩
  | 29 => ⟨S10000x10000, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S512x10240, .bf16⟩
  | .local _ .vmem, ⟨1, _⟩ => ⟨S512x10240, .bf16⟩
  | .local _ .vmem, ⟨2, _⟩ => ⟨S10240x256, .bf16⟩
  | .local _ .vmem, ⟨3, _⟩ => ⟨S512x1, .f32⟩
  | .local _ .vmem, ⟨4, _⟩ => ⟨S512x1, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x10240, .bf16⟩
  | .local _ .vmem, ⟨10, _⟩ => ⟨S512x10240, .bf16⟩
  | .local _ .vmem, ⟨11, _⟩ => ⟨S10240x256, .bf16⟩
  | .local _ .vmem, ⟨12, _⟩ => ⟨S512x1, .f32⟩
  | .local _ .vmem, ⟨13, _⟩ => ⟨S512x1, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x10240, .bf16⟩
  | .local _ .vmem, ⟨19, _⟩ => ⟨S512x10240, .bf16⟩
  | .local _ .vmem, ⟨20, _⟩ => ⟨S10240x64, .bf16⟩
  | .local _ .vmem, ⟨21, _⟩ => ⟨S512x1, .f32⟩
  | .local _ .vmem, ⟨22, _⟩ => ⟨S512x1, .f32⟩
  | .local _ .vmem, ⟨23, _⟩ => ⟨S512x64, .f32⟩
  | .local _ .vmem, ⟨24, _⟩ => ⟨S512x64, .f32⟩
  | .local _ .vmem, ⟨25, _⟩ => ⟨S512x64, .f32⟩
  | .local _ .vmem, ⟨26, _⟩ => ⟨S512x64, .f32⟩
  | .local _ .vmem, ⟨27, _⟩ => ⟨S512x10240, .bf16⟩
  | .local _ .vmem, ⟨28, _⟩ => ⟨S512x10240, .bf16⟩
  | .local _ .vmem, ⟨29, _⟩ => ⟨S10240x64, .bf16⟩
  | .local _ .vmem, ⟨30, _⟩ => ⟨S512x1, .f32⟩
  | .local _ .vmem, ⟨31, _⟩ => ⟨S512x1, .f32⟩
  | .local _ .vmem, ⟨32, _⟩ => ⟨S512x64, .f32⟩
  | .local _ .vmem, ⟨33, _⟩ => ⟨S512x64, .f32⟩
  | .local _ .vmem, ⟨34, _⟩ => ⟨S512x64, .f32⟩
  | .local _ .vmem, ⟨35, _⟩ => ⟨S512x64, .f32⟩
  | .local _ .vmem, ⟨36, _⟩ => ⟨S512x10240, .bf16⟩
  | .local _ .vmem, ⟨37, _⟩ => ⟨S512x10240, .bf16⟩
  | .local _ .vmem, ⟨38, _⟩ => ⟨S10240x128, .bf16⟩
  | .local _ .vmem, ⟨39, _⟩ => ⟨S512x1, .f32⟩
  | .local _ .vmem, ⟨40, _⟩ => ⟨S512x1, .f32⟩
  | .local _ .vmem, ⟨41, _⟩ => ⟨S512x128, .f32⟩
  | .local _ .vmem, ⟨42, _⟩ => ⟨S512x128, .f32⟩
  | .local _ .vmem, ⟨43, _⟩ => ⟨S512x128, .f32⟩
  | .local _ .vmem, ⟨44, _⟩ => ⟨S512x128, .f32⟩
  | .local _ .vmem, ⟨45, _⟩ => ⟨S512x10240, .bf16⟩
  | .local _ .vmem, ⟨46, _⟩ => ⟨S512x10240, .bf16⟩
  | .local _ .vmem, ⟨47, _⟩ => ⟨S10240x256, .bf16⟩
  | .local _ .vmem, ⟨48, _⟩ => ⟨S512x1, .f32⟩
  | .local _ .vmem, ⟨49, _⟩ => ⟨S512x1, .f32⟩
  | .local _ .vmem, ⟨50, _⟩ => ⟨S512x256, .f32⟩
  | .local _ .vmem, ⟨51, _⟩ => ⟨S512x256, .f32⟩
  | .local _ .vmem, ⟨52, _⟩ => ⟨S512x256, .f32⟩
  | .local _ .vmem, ⟨53, _⟩ => ⟨S512x256, .f32⟩
  | .local _ .vmem, ⟨54, _⟩ => ⟨S200x64, .bf16⟩
  | .local _ .vmem, ⟨55, _⟩ => ⟨S200x64, .bf16⟩
  | .local _ .vmem, ⟨56, _⟩ => ⟨S10000x64, .bf16⟩
  | .local _ .vmem, ⟨57, _⟩ => ⟨S200x10000, .f32⟩
  | .local _ .vmem, ⟨58, _⟩ => ⟨S200x10000, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_v34 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_c_10 : Ref sig .tc := ⟨.hbm, 63, rfl⟩
abbrev main_v37 : Ref sig .tc := ⟨.hbm, 64, rfl⟩
abbrev main_v38 : Ref sig .tc := ⟨.hbm, 65, rfl⟩
abbrev main_c_11 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_12 : Ref sig .tc := ⟨.hbm, 70, rfl⟩
abbrev main_v42 : Ref sig .tc := ⟨.hbm, 71, rfl⟩
abbrev main_v43 : Ref sig .tc := ⟨.hbm, 72, rfl⟩
abbrev main_c_13 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_c_16 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_17 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_18 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_19 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_call1_cst : Ref sig .tc := ⟨.hbm, 139, rfl⟩
abbrev main_call1_v0 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_stg4_0 : Ref sig .tc := ⟨.vmem, 43, rfl⟩
abbrev cc4_stg4_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg3_1 : Ref sig .tc := ⟨.vmem, 51, rfl⟩
abbrev cc5_stg4_0 : Ref sig .tc := ⟨.vmem, 52, rfl⟩
abbrev cc5_stg4_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg2_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc4_sem3_0 : DmaSem sig := 41
abbrev cc4_sem3_1 : DmaSem sig := 42
abbrev cc4_sem4_0 : DmaSem sig := 43
abbrev cc4_sem4_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem2_1 : DmaSem sig := 49
abbrev cc5_sem3_0 : DmaSem sig := 50
abbrev cc5_sem3_1 : DmaSem sig := 51
abbrev cc5_sem4_0 : DmaSem sig := 52
abbrev cc5_sem4_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem2_1 : DmaSem sig := 58

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x10240 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10240x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x10240 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10240x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x10240 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10240x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x10240 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10240x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S512x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S200x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S200x10000 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10240 : S_.BroadcastsInDim S10240 (![] : Fin 0 → Fin S10240.rank)
  bcast_S320000_S320000x1_0 : S320000.BroadcastsInDim S320000x1 (![0] : Fin 1 → Fin S320000x1.rank)
  shapeCasts_S10240_S10240x1 : S10240.ShapeCasts S10240x1
  bcast_S_S10240x10240 : S_.BroadcastsInDim S10240x10240 (![] : Fin 0 → Fin S10240x10240.rank)
  concatenates_S320000x1_S320000x1_S320000x2_d1 : Shape.Concatenates [S320000x1, S320000x1] S320000x2 1
  bitsLt_bf16_f32 : FTy.bits .bf16 < FTy.bits .f32
  transposes_S10240x10240_S10240x10240_1_0 : S10240x10240.Transposes [1, 0] S10240x10240
  bcast_S_S10240x256 : S_.BroadcastsInDim S10240x256 (![] : Fin 0 → Fin S10240x256.rank)
  bcast_S_S1 : S_.BroadcastsInDim S1 (![] : Fin 0 → Fin S1.rank)
  inb_S512x10240_S512x10240_0_0 : ∀ a, (![0, 0] : Fin 2 → Nat) a + S512x10240.size a ≤ S512x10240.size a
  h_S512x10240 : 0 < S512x10240.numel
  shapeCasts_S512x10240_S512x10240 : S512x10240.ShapeCasts S512x10240
  inb_S10240x256_S10240x256_0_0 : ∀ a, (![0, 0] : Fin 2 → Nat) a + S10240x256.size a ≤ S10240x256.size a
  h_S10240x256 : 0 < S10240x256.numel
  shapeCasts_S10240x256_S10240x256 : S10240x256.ShapeCasts S10240x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bcast_S10240x1_S10240x64_0_1 : S10240x1.BroadcastsInDim S10240x64 (![0, 1] : Fin 2 → Fin S10240x64.rank)
  bcast_S64_S1x64_1 : S64.BroadcastsInDim S1x64 (![1] : Fin 1 → Fin S1x64.rank)
  bcast_S1x64_S10240x64_0_1 : S1x64.BroadcastsInDim S10240x64 (![0, 1] : Fin 2 → Fin S10240x64.rank)
  inb_S10240x64_S10240x64_0_0 : ∀ a, (![0, 0] : Fin 2 → Nat) a + S10240x64.size a ≤ S10240x64.size a
  h_S10240x64 : 0 < S10240x64.numel
  shapeCasts_S10240x64_S10240x64 : S10240x64.ShapeCasts S10240x64
  broadcasts_S512x1_S512x64 : S512x1.Broadcasts S512x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  concatenates_S64x64_S64x64_S64x128_d1 : Shape.Concatenates [S64x64, S64x64] S64x128 1
  concatenates_S64_S64_S128_d0 : Shape.Concatenates [S64, S64] S128 0
  bcast_S10240x1_S10240x128_0_1 : S10240x1.BroadcastsInDim S10240x128 (![0, 1] : Fin 2 → Fin S10240x128.rank)
  bcast_S128_S1x128_1 : S128.BroadcastsInDim S1x128 (![1] : Fin 1 → Fin S1x128.rank)
  bcast_S1x128_S10240x128_0_1 : S1x128.BroadcastsInDim S10240x128 (![0, 1] : Fin 2 → Fin S10240x128.rank)
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  broadcasts_S512x1_S512x128 : S512x1.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S10240x128_S10240x64_0_0 : S10240x128.Slices ![0, 0] S10240x64
  bcast_S_S10240x64 : S_.BroadcastsInDim S10240x64 (![] : Fin 0 → Fin S10240x64.rank)
  slices_S10240x128_S10240x64_0_64 : S10240x128.Slices ![0, 64] S10240x64
  bcast_S10240x1_S10240x256_0_1 : S10240x1.BroadcastsInDim S10240x256 (![0, 1] : Fin 2 → Fin S10240x256.rank)
  bcast_S256_S1x256_1 : S256.BroadcastsInDim S1x256 (![1] : Fin 1 → Fin S1x256.rank)
  bcast_S1x256_S10240x256_0_1 : S1x256.BroadcastsInDim S10240x256 (![0, 1] : Fin 2 → Fin S10240x256.rank)
  slices_S10240x256_S10000x256_0_0 : S10240x256.Slices ![0, 0] S10000x256
  slices_S10240x64_S10000x64_0_0 : S10240x64.Slices ![0, 0] S10000x64
  inb_S200x64_S200x64_0_0 : ∀ a, (![0, 0] : Fin 2 → Nat) a + S200x64.size a ≤ S200x64.size a
  h_S200x64 : 0 < S200x64.numel
  shapeCasts_S200x64_S200x64 : S200x64.ShapeCasts S200x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x10000_S200x10000_0_0 : ∀ a, (![0, 0] : Fin 2 → Nat) a + S200x10000.size a ≤ S200x10000.size a
  h_S200x10000 : 0 < S200x10000.numel
  scatter_S10240_S320000x1_S320000_n_0_0_1_wf : ScatterDims.WF S10240 S320000x1 S320000 [] [0] [0] 1
  scatter_S10240x10240_S320000x2_S320000_n_01_01_1_wf : ScatterDims.WF S10240x10240 S320000x2 S320000 [] [0, 1] [0, 1] 1
  scatter_S10240x256_S1_S10000x256_01_n_0_0_wf : ScatterDims.WF S10240x256 S1 S10000x256 [0, 1] [] [0] 0
  dot_S512x10240_S10240x256_S512x256_1_0_0_1_n_n_wf : DotDims.WF S512x10240 S10240x256 S512x256 [1] [0] [0] [1] [] []
  dot_S10240x256_S256x64_S10240x64_1_0_0_1_n_n_wf : DotDims.WF S10240x256 S256x64 S10240x64 [1] [0] [0] [1] [] []
  dot_S512x10240_S10240x64_S512x64_1_0_0_1_n_n_wf : DotDims.WF S512x10240 S10240x64 S512x64 [1] [0] [0] [1] [] []
  dot_S10240x64_S64x64_S10240x64_1_0_0_1_n_n_wf : DotDims.WF S10240x64 S64x64 S10240x64 [1] [0] [0] [1] [] []
  dot_S10240x64_S64x128_S10240x128_1_0_0_1_n_n_wf : DotDims.WF S10240x64 S64x128 S10240x128 [1] [0] [0] [1] [] []
  dot_S512x10240_S10240x128_S512x128_1_0_0_1_n_n_wf : DotDims.WF S512x10240 S10240x128 S512x128 [1] [0] [0] [1] [] []
  dot_S10240x64_S64x256_S10240x256_1_0_0_1_n_n_wf : DotDims.WF S10240x64 S64x256 S10240x256 [1] [0] [0] [1] [] []
  dot_S200x64_S10000x64_S200x10000_1_1_0_0_n_n_wf : DotDims.WF S200x64 S10000x64 S200x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x10240.size a ≤ S10240x10240.size a
  hwx0_0 : ∀ i : grid0.Coords, EltTy.bits .bf16 = 32 ∨ (Rect.block (s := S10240x10240) S512x10240.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x256.size a ≤ S10240x256.size a
  hwx0_1 : ∀ i : grid0.Coords, EltTy.bits .bf16 = 32 ∨ (Rect.block (s := S10240x256) S10240x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S10240x1.size a
  hwx0_2 : ∀ i : grid0.Coords, EltTy.bits .f32 = 32 ∨ (Rect.block (s := S10240x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S10240x256.size a
  hwx0_3 : ∀ i : grid0.Coords, EltTy.bits .f32 = 32 ∨ (Rect.block (s := S10240x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S10240x256.size a
  hwx0_4 : ∀ i : grid0.Coords, EltTy.bits .f32 = 32 ∨ (Rect.block (s := S10240x256) S512x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x10240.size a ≤ S10240x10240.size a
  hwx1_0 : ∀ i : grid1.Coords, EltTy.bits .bf16 = 32 ∨ (Rect.block (s := S10240x10240) S512x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x256.size a ≤ S10240x256.size a
  hwx1_1 : ∀ i : grid1.Coords, EltTy.bits .bf16 = 32 ∨ (Rect.block (s := S10240x256) S10240x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S10240x1.size a
  hwx1_2 : ∀ i : grid1.Coords, EltTy.bits .f32 = 32 ∨ (Rect.block (s := S10240x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S10240x256.size a
  hwx1_3 : ∀ i : grid1.Coords, EltTy.bits .f32 = 32 ∨ (Rect.block (s := S10240x256) S512x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S10240x256.size a
  hwx1_4 : ∀ i : grid1.Coords, EltTy.bits .f32 = 32 ∨ (Rect.block (s := S10240x256) S512x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x10240.size a ≤ S10240x10240.size a
  hwx2_0 : ∀ i : grid2.Coords, EltTy.bits .bf16 = 32 ∨ (Rect.block (s := S10240x10240) S512x10240.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x64.size a ≤ S10240x64.size a
  hwx2_1 : ∀ i : grid2.Coords, EltTy.bits .bf16 = 32 ∨ (Rect.block (s := S10240x64) S10240x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S10240x1.size a
  hwx2_2 : ∀ i : grid2.Coords, EltTy.bits .f32 = 32 ∨ (Rect.block (s := S10240x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S10240x64.size a
  hwx2_3 : ∀ i : grid2.Coords, EltTy.bits .f32 = 32 ∨ (Rect.block (s := S10240x64) S512x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x64.size a ≤ S10240x64.size a
  hwx2_4 : ∀ i : grid2.Coords, EltTy.bits .f32 = 32 ∨ (Rect.block (s := S10240x64) S512x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x10240.size a ≤ S10240x10240.size a
  hwx3_0 : ∀ i : grid3.Coords, EltTy.bits .bf16 = 32 ∨ (Rect.block (s := S10240x10240) S512x10240.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x64.size a ≤ S10240x64.size a
  hwx3_1 : ∀ i : grid3.Coords, EltTy.bits .bf16 = 32 ∨ (Rect.block (s := S10240x64) S10240x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1.size a ≤ S10240x1.size a
  hwx3_2 : ∀ i : grid3.Coords, EltTy.bits .f32 = 32 ∨ (Rect.block (s := S10240x1) S512x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x64.size a ≤ S10240x64.size a
  hwx3_3 : ∀ i : grid3.Coords, EltTy.bits .f32 = 32 ∨ (Rect.block (s := S10240x64) S512x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x64.size a ≤ S10240x64.size a
  hwx3_4 : ∀ i : grid3.Coords, EltTy.bits .f32 = 32 ∨ (Rect.block (s := S10240x64) S512x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x10240.size a ≤ S10240x10240.size a
  hwx4_0 : ∀ i : grid4.Coords, EltTy.bits .bf16 = 32 ∨ (Rect.block (s := S10240x10240) S512x10240.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10240x128.size a ≤ S10240x128.size a
  hwx4_1 : ∀ i : grid4.Coords, EltTy.bits .bf16 = 32 ∨ (Rect.block (s := S10240x128) S10240x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1.size a ≤ S10240x1.size a
  hwx4_2 : ∀ i : grid4.Coords, EltTy.bits .f32 = 32 ∨ (Rect.block (s := S10240x1) S512x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x128.size a ≤ S10240x128.size a
  hwx4_3 : ∀ i : grid4.Coords, EltTy.bits .f32 = 32 ∨ (Rect.block (s := S10240x128) S512x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x128.size a ≤ S10240x128.size a
  hwx4_4 : ∀ i : grid4.Coords, EltTy.bits .f32 = 32 ∨ (Rect.block (s := S10240x128) S512x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x10240.size a ≤ S10240x10240.size a
  hwx5_0 : ∀ i : grid5.Coords, EltTy.bits .bf16 = 32 ∨ (Rect.block (s := S10240x10240) S512x10240.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10240x256.size a ≤ S10240x256.size a
  hwx5_1 : ∀ i : grid5.Coords, EltTy.bits .bf16 = 32 ∨ (Rect.block (s := S10240x256) S10240x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x1.size a ≤ S10240x1.size a
  hwx5_2 : ∀ i : grid5.Coords, EltTy.bits .f32 = 32 ∨ (Rect.block (s := S10240x1) S512x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x256.size a ≤ S10240x256.size a
  hwx5_3 : ∀ i : grid5.Coords, EltTy.bits .f32 = 32 ∨ (Rect.block (s := S10240x256) S512x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x256.size a ≤ S10240x256.size a
  hwx5_4 : ∀ i : grid5.Coords, EltTy.bits .f32 = 32 ∨ (Rect.block (s := S10240x256) S512x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S200x64.size a ≤ S10000x64.size a
  hwx6_0 : ∀ i : grid6.Coords, EltTy.bits .bf16 = 32 ∨ (Rect.block (s := S10000x64) S200x64.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S10000x64.size a
  hwx6_1 : ∀ i : grid6.Coords, EltTy.bits .bf16 = 32 ∨ (Rect.block (s := S10000x64) S10000x64.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S200x10000.size a ≤ S10000x10000.size a
  hwx6_2 : ∀ i : grid6.Coords, EltTy.bits .f32 = 32 ∨ (Rect.block (s := S10000x10000) S200x10000.size (cc6_transform_2 i) (hinb6_2 i)).WholeWords (EltTy.packing .f32)

variable [Facts₀]

def scatter_S10240_S320000x1_S320000_n_0_0_1 : ScatterDims S10240 S320000x1 S320000 where
  updateWindowDims := []
  insertedWindowDims := [0]
  scatterDimsToOperandDims := [0]
  indexVectorDim := 1
  wf := scatter_S10240_S320000x1_S320000_n_0_0_1_wf
def scatter_S10240x10240_S320000x2_S320000_n_01_01_1 : ScatterDims S10240x10240 S320000x2 S320000 where
  updateWindowDims := []
  insertedWindowDims := [0, 1]
  scatterDimsToOperandDims := [0, 1]
  indexVectorDim := 1
  wf := scatter_S10240x10240_S320000x2_S320000_n_01_01_1_wf
def scatter_S10240x256_S1_S10000x256_01_n_0_0 : ScatterDims S10240x256 S1 S10000x256 where
  updateWindowDims := [0, 1]
  insertedWindowDims := []
  scatterDimsToOperandDims := [0]
  indexVectorDim := 0
  wf := scatter_S10240x256_S1_S10000x256_01_n_0_0_wf
def dot_S512x10240_S10240x256_S512x256_1_0_0_1_n_n : DotDims S512x10240 S10240x256 S512x256 where
  lhsContracting := [1]
  rhsContracting := [0]
  lhsNonContracting := [0]
  rhsNonContracting := [1]
  lhsBatch := []
  rhsBatch := []
  wf := dot_S512x10240_S10240x256_S512x256_1_0_0_1_n_n_wf
def dot_S10240x256_S256x64_S10240x64_1_0_0_1_n_n : DotDims S10240x256 S256x64 S10240x64 where
  lhsContracting := [1]
  rhsContracting := [0]
  lhsNonContracting := [0]
  rhsNonContracting := [1]
  lhsBatch := []
  rhsBatch := []
  wf := dot_S10240x256_S256x64_S10240x64_1_0_0_1_n_n_wf
def dot_S512x10240_S10240x64_S512x64_1_0_0_1_n_n : DotDims S512x10240 S10240x64 S512x64 where
  lhsContracting := [1]
  rhsContracting := [0]
  lhsNonContracting := [0]
  rhsNonContracting := [1]
  lhsBatch := []
  rhsBatch := []
  wf := dot_S512x10240_S10240x64_S512x64_1_0_0_1_n_n_wf
def dot_S10240x64_S64x64_S10240x64_1_0_0_1_n_n : DotDims S10240x64 S64x64 S10240x64 where
  lhsContracting := [1]
  rhsContracting := [0]
  lhsNonContracting := [0]
  rhsNonContracting := [1]
  lhsBatch := []
  rhsBatch := []
  wf := dot_S10240x64_S64x64_S10240x64_1_0_0_1_n_n_wf
def dot_S10240x64_S64x128_S10240x128_1_0_0_1_n_n : DotDims S10240x64 S64x128 S10240x128 where
  lhsContracting := [1]
  rhsContracting := [0]
  lhsNonContracting := [0]
  rhsNonContracting := [1]
  lhsBatch := []
  rhsBatch := []
  wf := dot_S10240x64_S64x128_S10240x128_1_0_0_1_n_n_wf
def dot_S512x10240_S10240x128_S512x128_1_0_0_1_n_n : DotDims S512x10240 S10240x128 S512x128 where
  lhsContracting := [1]
  rhsContracting := [0]
  lhsNonContracting := [0]
  rhsNonContracting := [1]
  lhsBatch := []
  rhsBatch := []
  wf := dot_S512x10240_S10240x128_S512x128_1_0_0_1_n_n_wf
def dot_S10240x64_S64x256_S10240x256_1_0_0_1_n_n : DotDims S10240x64 S64x256 S10240x256 where
  lhsContracting := [1]
  rhsContracting := [0]
  lhsNonContracting := [0]
  rhsNonContracting := [1]
  lhsBatch := []
  rhsBatch := []
  wf := dot_S10240x64_S64x256_S10240x256_1_0_0_1_n_n_wf
def dot_S200x64_S10000x64_S200x10000_1_1_0_0_n_n : DotDims S200x64 S10000x64 S200x10000 where
  lhsContracting := [1]
  rhsContracting := [1]
  lhsNonContracting := [0]
  rhsNonContracting := [0]
  lhsBatch := []
  rhsBatch := []
  wf := dot_S200x64_S10000x64_S200x10000_1_1_0_0_n_n_wf

abbrev win0_0 : Pipeline.Window sig grid0 :=
  Pipeline.Window.ofSpec (Memref.whole main_v53) S512x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S10240x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v59) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v52) S512x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S10240x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v60) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S512x10240.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S10240x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v76) S512x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v77) S512x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S512x10240.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S10240x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S512x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v87) S512x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v88) S512x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v52) S512x10240.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v94) S10240x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S512x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v100) S512x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v101) S512x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v52) S512x10240.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v108) S10240x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v35) S512x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v114) S512x256.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v115) S512x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v118) S200x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v118) S10000x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v119) S200x10000.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S10000x10000 : Shape := ⟨2, ![10000, 10000]⟩
abbrev S320000x1 : Shape := ⟨2, ![320000, 1]⟩
abbrev S320000x2 : Shape := ⟨2, ![320000, 2]⟩
abbrev S10000 : Shape := ⟨1, ![10000]⟩
abbrev S10000x1 : Shape := ⟨2, ![10000, 1]⟩
abbrev S1x10000 : Shape := ⟨2, ![1, 10000]⟩
abbrev S10000x64 : Shape := ⟨2, ![10000, 64]⟩
abbrev S330000 : Shape := ⟨1, ![330000]⟩
abbrev S330000x1 : Shape := ⟨2, ![330000, 1]⟩
abbrev S330000x64 : Shape := ⟨2, ![330000, 64]⟩
abbrev S1x64 : Shape := ⟨2, ![1, 64]⟩
abbrev S330000x256 : Shape := ⟨2, ![330000, 256]⟩
abbrev S1x256 : Shape := ⟨2, ![1, 256]⟩
abbrev S64x10000 : Shape := ⟨2, ![64, 10000]⟩

abbrev nBuf : Space → Nat
  | .hbm => 356
  | .vmem => 0
  | .smem => 0
  | _ => 0

abbrev hbmTy0_0 (i : Nat) : BufTy := match i % 128 with
  | 0 => ⟨S10000x256, .f32⟩
  | 1 => ⟨S2x320000, .i32⟩
  | 2 => ⟨S256x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x256, .f32⟩
  | 9 => ⟨S256, .f32⟩
  | 10 => ⟨S64x64, .f32⟩
  | 11 => ⟨S64, .f32⟩
  | 12 => ⟨S1x320000, .i32⟩
  | 13 => ⟨S320000, .i32⟩
  | 14 => ⟨S1x320000, .i32⟩
  | 15 => ⟨S320000, .i32⟩
  | 16 => ⟨S_, .f32⟩
  | 17 => ⟨S10000x10000, .f32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x1, .i32⟩
  | 34 => ⟨S320000x2, .i32⟩
  | 35 => ⟨S_, .f32⟩
  | 36 => ⟨S320000, .f32⟩
  | 37 => ⟨S10000x10000, .f32⟩
  | 38 => ⟨S_, .f32⟩
  | 39 => ⟨S10000, .f32⟩
  | 40 => ⟨S_, .f32⟩
  | 41 => ⟨S10000, .f32⟩
  | 42 => ⟨S10000, .f32⟩
  | 43 => ⟨S10000x1, .f32⟩
  | 44 => ⟨S10000x10000, .f32⟩
  | 45 => ⟨S10000x10000, .f32⟩
  | 46 => ⟨S10000x256, .f32⟩
  | 47 => ⟨S_, .f32⟩
  | 48 => ⟨S10000, .f32⟩
  | 49 => ⟨S_, .f32⟩
  | 50 => ⟨S10000, .f32⟩
  | 51 => ⟨S10000, .f32⟩
  | 52 => ⟨S_, .f32⟩
  | 53 => ⟨S10000, .f32⟩
  | 54 => ⟨S10000, .f32⟩
  | 55 => ⟨S1x10000, .f32⟩
  | 56 => ⟨S10000x10000, .f32⟩
  | 57 => ⟨S10000x10000, .f32⟩
  | 58 => ⟨S10000x10000, .f32⟩
  | 59 => ⟨S10000x256, .f32⟩
  | 60 => ⟨S_, .f32⟩
  | 61 => ⟨S10000x256, .f32⟩
  | 62 => ⟨S10000x256, .f32⟩
  | 63 => ⟨S10000x256, .f32⟩
  | 64 => ⟨S_, .f32⟩
  | 65 => ⟨S10000x256, .f32⟩
  | 66 => ⟨S10000x256, .f32⟩
  | 67 => ⟨S10000x256, .f32⟩
  | 68 => ⟨S10000x64, .f32⟩
  | 69 => ⟨S10000, .i32⟩
  | 70 => ⟨S330000, .i32⟩
  | 71 => ⟨S330000, .i32⟩
  | 72 => ⟨S_, .f32⟩
  | 73 => ⟨S330000, .f32⟩
  | 74 => ⟨S_, .f32⟩
  | 75 => ⟨S10000, .f32⟩
  | 76 => ⟨S330000x1, .i32⟩
  | 77 => ⟨S10000, .f32⟩
  | 78 => ⟨S_, .f32⟩
  | 79 => ⟨S10000, .f32⟩
  | 80 => ⟨S10000, .i1⟩
  | 81 => ⟨S10000, .f32⟩
  | 82 => ⟨S_, .f32⟩
  | 83 => ⟨S_, .f32⟩
  | 84 => ⟨S10000, .f32⟩
  | 85 => ⟨S10000, .f32⟩
  | 86 => ⟨S_, .i32⟩
  | 87 => ⟨S330000, .i32⟩
  | 88 => ⟨S330000, .i1⟩
  | 89 => ⟨S_, .i32⟩
  | 90 => ⟨S330000, .i32⟩
  | 91 => ⟨S330000, .i32⟩
  | 92 => ⟨S330000, .i32⟩
  | 93 => ⟨S330000x1, .i32⟩
  | 94 => ⟨S330000, .f32⟩
  | 95 => ⟨S_, .i32⟩
  | 96 => ⟨S330000, .i32⟩
  | 97 => ⟨S330000, .i1⟩
  | 98 => ⟨S_, .i32⟩
  | 99 => ⟨S330000, .i32⟩
  | 100 => ⟨S330000, .i32⟩
  | 101 => ⟨S330000, .i32⟩
  | 102 => ⟨S330000x1, .i32⟩
  | 103 => ⟨S330000, .f32⟩
  | 104 => ⟨S330000, .f32⟩
  | 105 => ⟨S_, .i32⟩
  | 106 => ⟨S330000, .i32⟩
  | 107 => ⟨S330000, .i1⟩
  | 108 => ⟨S_, .i32⟩
  | 109 => ⟨S330000, .i32⟩
  | 110 => ⟨S330000, .i32⟩
  | 111 => ⟨S330000, .i32⟩
  | 112 => ⟨S330000x1, .i32⟩
  | 113 => ⟨S330000x64, .f32⟩
  | 114 => ⟨S330000x1, .f32⟩
  | 115 => ⟨S330000x64, .f32⟩
  | 116 => ⟨S330000x64, .f32⟩
  | 117 => ⟨S_, .f32⟩
  | 118 => ⟨S10000x64, .f32⟩
  | 119 => ⟨S330000x1, .i32⟩
  | 120 => ⟨S10000x64, .f32⟩
  | 121 => ⟨S1x64, .f32⟩
  | 122 => ⟨S10000x64, .f32⟩
  | 123 => ⟨S10000x64, .f32⟩
  | 124 => ⟨S_, .f32⟩
  | 125 => ⟨S10000x64, .f32⟩
  | 126 => ⟨S10000x64, .f32⟩
  | 127 => ⟨S10000x64, .f32⟩
  | _ => ⟨S10000x256, .f32⟩

abbrev hbmTy0_1 (i : Nat) : BufTy := match i % 128 with
  | 0 => ⟨S10000, .i32⟩
  | 1 => ⟨S330000, .i32⟩
  | 2 => ⟨S330000, .i32⟩
  | 3 => ⟨S_, .f32⟩
  | 4 => ⟨S330000, .f32⟩
  | 5 => ⟨S_, .f32⟩
  | 6 => ⟨S10000, .f32⟩
  | 7 => ⟨S330000x1, .i32⟩
  | 8 => ⟨S10000, .f32⟩
  | 9 => ⟨S_, .f32⟩
  | 10 => ⟨S10000, .f32⟩
  | 11 => ⟨S10000, .i1⟩
  | 12 => ⟨S10000, .f32⟩
  | 13 => ⟨S_, .f32⟩
  | 14 => ⟨S_, .f32⟩
  | 15 => ⟨S10000, .f32⟩
  | 16 => ⟨S10000, .f32⟩
  | 17 => ⟨S_, .i32⟩
  | 18 => ⟨S330000, .i32⟩
  | 19 => ⟨S330000, .i1⟩
  | 20 => ⟨S_, .i32⟩
  | 21 => ⟨S330000, .i32⟩
  | 22 => ⟨S330000, .i32⟩
  | 23 => ⟨S330000, .i32⟩
  | 24 => ⟨S330000x1, .i32⟩
  | 25 => ⟨S330000, .f32⟩
  | 26 => ⟨S_, .i32⟩
  | 27 => ⟨S330000, .i32⟩
  | 28 => ⟨S330000, .i1⟩
  | 29 => ⟨S_, .i32⟩
  | 30 => ⟨S330000, .i32⟩
  | 31 => ⟨S330000, .i32⟩
  | 32 => ⟨S330000, .i32⟩
  | 33 => ⟨S330000x1, .i32⟩
  | 34 => ⟨S330000, .f32⟩
  | 35 => ⟨S330000, .f32⟩
  | 36 => ⟨S_, .i32⟩
  | 37 => ⟨S330000, .i32⟩
  | 38 => ⟨S330000, .i1⟩
  | 39 => ⟨S_, .i32⟩
  | 40 => ⟨S330000, .i32⟩
  | 41 => ⟨S330000, .i32⟩
  | 42 => ⟨S330000, .i32⟩
  | 43 => ⟨S330000x1, .i32⟩
  | 44 => ⟨S330000x64, .f32⟩
  | 45 => ⟨S330000x1, .f32⟩
  | 46 => ⟨S330000x64, .f32⟩
  | 47 => ⟨S330000x64, .f32⟩
  | 48 => ⟨S_, .f32⟩
  | 49 => ⟨S10000x64, .f32⟩
  | 50 => ⟨S330000x1, .i32⟩
  | 51 => ⟨S10000x64, .f32⟩
  | 52 => ⟨S1x64, .f32⟩
  | 53 => ⟨S10000x64, .f32⟩
  | 54 => ⟨S10000x64, .f32⟩
  | 55 => ⟨S10000x64, .f32⟩
  | 56 => ⟨S10000, .i32⟩
  | 57 => ⟨S330000, .i32⟩
  | 58 => ⟨S330000, .i32⟩
  | 59 => ⟨S_, .f32⟩
  | 60 => ⟨S330000, .f32⟩
  | 61 => ⟨S_, .f32⟩
  | 62 => ⟨S10000, .f32⟩
  | 63 => ⟨S330000x1, .i32⟩
  | 64 => ⟨S10000, .f32⟩
  | 65 => ⟨S_, .f32⟩
  | 66 => ⟨S10000, .f32⟩
  | 67 => ⟨S10000, .i1⟩
  | 68 => ⟨S10000, .f32⟩
  | 69 => ⟨S_, .f32⟩
  | 70 => ⟨S_, .f32⟩
  | 71 => ⟨S10000, .f32⟩
  | 72 => ⟨S10000, .f32⟩
  | 73 => ⟨S_, .i32⟩
  | 74 => ⟨S330000, .i32⟩
  | 75 => ⟨S330000, .i1⟩
  | 76 => ⟨S_, .i32⟩
  | 77 => ⟨S330000, .i32⟩
  | 78 => ⟨S330000, .i32⟩
  | 79 => ⟨S330000, .i32⟩
  | 80 => ⟨S330000x1, .i32⟩
  | 81 => ⟨S330000, .f32⟩
  | 82 => ⟨S_, .i32⟩
  | 83 => ⟨S330000, .i32⟩
  | 84 => ⟨S330000, .i1⟩
  | 85 => ⟨S_, .i32⟩
  | 86 => ⟨S330000, .i32⟩
  | 87 => ⟨S330000, .i32⟩
  | 88 => ⟨S330000, .i32⟩
  | 89 => ⟨S330000x1, .i32⟩
  | 90 => ⟨S330000, .f32⟩
  | 91 => ⟨S330000, .f32⟩
  | 92 => ⟨S_, .i32⟩
  | 93 => ⟨S330000, .i32⟩
  | 94 => ⟨S330000, .i1⟩
  | 95 => ⟨S_, .i32⟩
  | 96 => ⟨S330000, .i32⟩
  | 97 => ⟨S330000, .i32⟩
  | 98 => ⟨S330000, .i32⟩
  | 99 => ⟨S330000x1, .i32⟩
  | 100 => ⟨S330000x64, .f32⟩
  | 101 => ⟨S330000x1, .f32⟩
  | 102 => ⟨S330000x64, .f32⟩
  | 103 => ⟨S330000x64, .f32⟩
  | 104 => ⟨S_, .f32⟩
  | 105 => ⟨S10000x64, .f32⟩
  | 106 => ⟨S330000x1, .i32⟩
  | 107 => ⟨S10000x64, .f32⟩
  | 108 => ⟨S1x64, .f32⟩
  | 109 => ⟨S10000x64, .f32⟩
  | 110 => ⟨S10000x64, .f32⟩
  | 111 => ⟨S_, .f32⟩
  | 112 => ⟨S10000x64, .f32⟩
  | 113 => ⟨S10000x64, .f32⟩
  | 114 => ⟨S10000x256, .f32⟩
  | 115 => ⟨S10000, .i32⟩
  | 116 => ⟨S330000, .i32⟩
  | 117 => ⟨S330000, .i32⟩
  | 118 => ⟨S_, .f32⟩
  | 119 => ⟨S330000, .f32⟩
  | 120 => ⟨S_, .f32⟩
  | 121 => ⟨S10000, .f32⟩
  | 122 => ⟨S330000x1, .i32⟩
  | 123 => ⟨S10000, .f32⟩
  | 124 => ⟨S_, .f32⟩
  | 125 => ⟨S10000, .f32⟩
  | 126 => ⟨S10000, .i1⟩
  | 127 => ⟨S10000, .f32⟩
  | _ => ⟨S10000x256, .f32⟩

abbrev hbmTy0_2 (i : Nat) : BufTy := match i % 128 with
  | 0 => ⟨S_, .f32⟩
  | 1 => ⟨S_, .f32⟩
  | 2 => ⟨S10000, .f32⟩
  | 3 => ⟨S10000, .f32⟩
  | 4 => ⟨S_, .i32⟩
  | 5 => ⟨S330000, .i32⟩
  | 6 => ⟨S330000, .i1⟩
  | 7 => ⟨S_, .i32⟩
  | 8 => ⟨S330000, .i32⟩
  | 9 => ⟨S330000, .i32⟩
  | 10 => ⟨S330000, .i32⟩
  | 11 => ⟨S330000x1, .i32⟩
  | 12 => ⟨S330000, .f32⟩
  | 13 => ⟨S_, .i32⟩
  | 14 => ⟨S330000, .i32⟩
  | 15 => ⟨S330000, .i1⟩
  | 16 => ⟨S_, .i32⟩
  | 17 => ⟨S330000, .i32⟩
  | 18 => ⟨S330000, .i32⟩
  | 19 => ⟨S330000, .i32⟩
  | 20 => ⟨S330000x1, .i32⟩
  | 21 => ⟨S330000, .f32⟩
  | 22 => ⟨S330000, .f32⟩
  | 23 => ⟨S_, .i32⟩
  | 24 => ⟨S330000, .i32⟩
  | 25 => ⟨S330000, .i1⟩
  | 26 => ⟨S_, .i32⟩
  | 27 => ⟨S330000, .i32⟩
  | 28 => ⟨S330000, .i32⟩
  | 29 => ⟨S330000, .i32⟩
  | 30 => ⟨S330000x1, .i32⟩
  | 31 => ⟨S330000x256, .f32⟩
  | 32 => ⟨S330000x1, .f32⟩
  | 33 => ⟨S330000x256, .f32⟩
  | 34 => ⟨S330000x256, .f32⟩
  | 35 => ⟨S_, .f32⟩
  | 36 => ⟨S10000x256, .f32⟩
  | 37 => ⟨S330000x1, .i32⟩
  | 38 => ⟨S10000x256, .f32⟩
  | 39 => ⟨S1x256, .f32⟩
  | 40 => ⟨S10000x256, .f32⟩
  | 41 => ⟨S10000x256, .f32⟩
  | 42 => ⟨S10000x64, .f32⟩
  | 43 => ⟨S10000, .i32⟩
  | 44 => ⟨S330000, .i32⟩
  | 45 => ⟨S330000, .i32⟩
  | 46 => ⟨S_, .f32⟩
  | 47 => ⟨S330000, .f32⟩
  | 48 => ⟨S_, .f32⟩
  | 49 => ⟨S10000, .f32⟩
  | 50 => ⟨S330000x1, .i32⟩
  | 51 => ⟨S10000, .f32⟩
  | 52 => ⟨S_, .f32⟩
  | 53 => ⟨S10000, .f32⟩
  | 54 => ⟨S10000, .i1⟩
  | 55 => ⟨S10000, .f32⟩
  | 56 => ⟨S_, .f32⟩
  | 57 => ⟨S_, .f32⟩
  | 58 => ⟨S10000, .f32⟩
  | 59 => ⟨S10000, .f32⟩
  | 60 => ⟨S_, .i32⟩
  | 61 => ⟨S330000, .i32⟩
  | 62 => ⟨S330000, .i1⟩
  | 63 => ⟨S_, .i32⟩
  | 64 => ⟨S330000, .i32⟩
  | 65 => ⟨S330000, .i32⟩
  | 66 => ⟨S330000, .i32⟩
  | 67 => ⟨S330000x1, .i32⟩
  | 68 => ⟨S330000, .f32⟩
  | 69 => ⟨S_, .i32⟩
  | 70 => ⟨S330000, .i32⟩
  | 71 => ⟨S330000, .i1⟩
  | 72 => ⟨S_, .i32⟩
  | 73 => ⟨S330000, .i32⟩
  | 74 => ⟨S330000, .i32⟩
  | 75 => ⟨S330000, .i32⟩
  | 76 => ⟨S330000x1, .i32⟩
  | 77 => ⟨S330000, .f32⟩
  | 78 => ⟨S330000, .f32⟩
  | 79 => ⟨S_, .i32⟩
  | 80 => ⟨S330000, .i32⟩
  | 81 => ⟨S330000, .i1⟩
  | 82 => ⟨S_, .i32⟩
  | 83 => ⟨S330000, .i32⟩
  | 84 => ⟨S330000, .i32⟩
  | 85 => ⟨S330000, .i32⟩
  | 86 => ⟨S330000x1, .i32⟩
  | 87 => ⟨S330000x64, .f32⟩
  | 88 => ⟨S330000x1, .f32⟩
  | 89 => ⟨S330000x64, .f32⟩
  | 90 => ⟨S330000x64, .f32⟩
  | 91 => ⟨S_, .f32⟩
  | 92 => ⟨S10000x64, .f32⟩
  | 93 => ⟨S330000x1, .i32⟩
  | 94 => ⟨S10000x64, .f32⟩
  | 95 => ⟨S1x64, .f32⟩
  | 96 => ⟨S10000x64, .f32⟩
  | 97 => ⟨S10000x64, .f32⟩
  | 98 => ⟨S64x10000, .f32⟩
  | 99 => ⟨S10000x10000, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_14 : Ref sig .tc := ⟨.hbm, 82, rfl⟩
abbrev main_call0_v0 : Ref sig .tc := ⟨.hbm, 83, rfl⟩
abbrev main_call0_v1 : Ref sig .tc := ⟨.hbm, 84, rfl⟩
abbrev main_v54 : Ref sig .tc := ⟨.hbm, 85, rfl⟩
abbrev main_c_15 : Ref sig .tc := ⟨.hbm, 86, rfl⟩
abbrev main_v55 : Ref sig .tc := ⟨.hbm, 87, rfl⟩
abbrev main_v56 : Ref sig .tc := ⟨.hbm, 88, rfl⟩
abbrev main_c_16 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_17 : Ref sig .tc := ⟨.hbm, 95, rfl⟩
abbrev main_v62 : Ref sig .tc := ⟨.hbm, 96, rfl⟩
abbrev main_v63 : Ref sig .tc := ⟨.hbm, 97, rfl⟩
abbrev main_c_18 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_19 : Ref sig .tc := ⟨.hbm, 105, rfl⟩
abbrev main_v70 : Ref sig .tc := ⟨.hbm, 106, rfl⟩
abbrev main_v71 : Ref sig .tc := ⟨.hbm, 107, rfl⟩
abbrev main_c_20 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_21 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_call1_cst : Ref sig .tc := ⟨.hbm, 124, rfl⟩
abbrev main_call1_v0 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_22 : Ref sig .tc := ⟨.hbm, 131, rfl⟩
abbrev main_v91 : Ref sig .tc := ⟨.hbm, 132, rfl⟩
abbrev main_cst_23 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_24 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_25 : Ref sig .tc := ⟨.hbm, 141, rfl⟩
abbrev main_call2_v0 : Ref sig .tc := ⟨.hbm, 142, rfl⟩
abbrev main_call2_v1 : Ref sig .tc := ⟨.hbm, 143, rfl⟩
abbrev main_v98 : Ref sig .tc := ⟨.hbm, 144, rfl⟩
abbrev main_c_26 : Ref sig .tc := ⟨.hbm, 145, rfl⟩
abbrev main_v99 : Ref sig .tc := ⟨.hbm, 146, rfl⟩
abbrev main_v100 : Ref sig .tc := ⟨.hbm, 147, rfl⟩
abbrev main_c_27 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_c_28 : Ref sig .tc := ⟨.hbm, 154, rfl⟩
abbrev main_v106 : Ref sig .tc := ⟨.hbm, 155, rfl⟩
abbrev main_v107 : Ref sig .tc := ⟨.hbm, 156, rfl⟩
abbrev main_c_29 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_c_30 : Ref sig .tc := ⟨.hbm, 164, rfl⟩
abbrev main_v114 : Ref sig .tc := ⟨.hbm, 165, rfl⟩
abbrev main_v115 : Ref sig .tc := ⟨.hbm, 166, rfl⟩
abbrev main_c_31 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_32 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_33 : Ref sig .tc := ⟨.hbm, 187, rfl⟩
abbrev main_v134 : Ref sig .tc := ⟨.hbm, 188, rfl⟩
abbrev main_cst_34 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_35 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_36 : Ref sig .tc := ⟨.hbm, 197, rfl⟩
abbrev main_call3_v0 : Ref sig .tc := ⟨.hbm, 198, rfl⟩
abbrev main_call3_v1 : Ref sig .tc := ⟨.hbm, 199, rfl⟩
abbrev main_v141 : Ref sig .tc := ⟨.hbm, 200, rfl⟩
abbrev main_c_37 : Ref sig .tc := ⟨.hbm, 201, rfl⟩
abbrev main_v142 : Ref sig .tc := ⟨.hbm, 202, rfl⟩
abbrev main_v143 : Ref sig .tc := ⟨.hbm, 203, rfl⟩
abbrev main_c_38 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_c_39 : Ref sig .tc := ⟨.hbm, 210, rfl⟩
abbrev main_v149 : Ref sig .tc := ⟨.hbm, 211, rfl⟩
abbrev main_v150 : Ref sig .tc := ⟨.hbm, 212, rfl⟩
abbrev main_c_40 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_c_41 : Ref sig .tc := ⟨.hbm, 220, rfl⟩
abbrev main_v157 : Ref sig .tc := ⟨.hbm, 221, rfl⟩
abbrev main_v158 : Ref sig .tc := ⟨.hbm, 222, rfl⟩
abbrev main_c_42 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_cst_43 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_call4_cst : Ref sig .tc := ⟨.hbm, 239, rfl⟩
abbrev main_call4_v0 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_cst_44 : Ref sig .tc := ⟨.hbm, 246, rfl⟩
abbrev main_v178 : Ref sig .tc := ⟨.hbm, 247, rfl⟩
abbrev main_cst_45 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_cst_46 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_cst_47 : Ref sig .tc := ⟨.hbm, 256, rfl⟩
abbrev main_call5_v0 : Ref sig .tc := ⟨.hbm, 257, rfl⟩
abbrev main_call5_v1 : Ref sig .tc := ⟨.hbm, 258, rfl⟩
abbrev main_v185 : Ref sig .tc := ⟨.hbm, 259, rfl⟩
abbrev main_c_48 : Ref sig .tc := ⟨.hbm, 260, rfl⟩
abbrev main_v186 : Ref sig .tc := ⟨.hbm, 261, rfl⟩
abbrev main_v187 : Ref sig .tc := ⟨.hbm, 262, rfl⟩
abbrev main_c_49 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_c_50 : Ref sig .tc := ⟨.hbm, 269, rfl⟩
abbrev main_v193 : Ref sig .tc := ⟨.hbm, 270, rfl⟩
abbrev main_v194 : Ref sig .tc := ⟨.hbm, 271, rfl⟩
abbrev main_c_51 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_c_52 : Ref sig .tc := ⟨.hbm, 279, rfl⟩
abbrev main_v201 : Ref sig .tc := ⟨.hbm, 280, rfl⟩
abbrev main_v202 : Ref sig .tc := ⟨.hbm, 281, rfl⟩
abbrev main_c_53 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_cst_54 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_cst_55 : Ref sig .tc := ⟨.hbm, 302, rfl⟩
abbrev main_v221 : Ref sig .tc := ⟨.hbm, 303, rfl⟩
abbrev main_cst_56 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_cst_57 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_cst_58 : Ref sig .tc := ⟨.hbm, 312, rfl⟩
abbrev main_call6_v0 : Ref sig .tc := ⟨.hbm, 313, rfl⟩
abbrev main_call6_v1 : Ref sig .tc := ⟨.hbm, 314, rfl⟩
abbrev main_v228 : Ref sig .tc := ⟨.hbm, 315, rfl⟩
abbrev main_c_59 : Ref sig .tc := ⟨.hbm, 316, rfl⟩
abbrev main_v229 : Ref sig .tc := ⟨.hbm, 317, rfl⟩
abbrev main_v230 : Ref sig .tc := ⟨.hbm, 318, rfl⟩
abbrev main_c_60 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_c_61 : Ref sig .tc := ⟨.hbm, 325, rfl⟩
abbrev main_v236 : Ref sig .tc := ⟨.hbm, 326, rfl⟩
abbrev main_v237 : Ref sig .tc := ⟨.hbm, 327, rfl⟩
abbrev main_c_62 : Ref sig .tc := ⟨.hbm, 328, rfl⟩
abbrev main_v238 : Ref sig .tc := ⟨.hbm, 329, rfl⟩
abbrev main_v239 : Ref sig .tc := ⟨.hbm, 330, rfl⟩
abbrev main_v240 : Ref sig .tc := ⟨.hbm, 331, rfl⟩
abbrev main_v241 : Ref sig .tc := ⟨.hbm, 332, rfl⟩
abbrev main_v242 : Ref sig .tc := ⟨.hbm, 333, rfl⟩
abbrev main_v243 : Ref sig .tc := ⟨.hbm, 334, rfl⟩
abbrev main_c_63 : Ref sig .tc := ⟨.hbm, 335, rfl⟩
abbrev main_v244 : Ref sig .tc := ⟨.hbm, 336, rfl⟩
abbrev main_v245 : Ref sig .tc := ⟨.hbm, 337, rfl⟩
abbrev main_c_64 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_cst_65 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_v261 : Ref sig .tc := ⟨.hbm, 355, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000x10000 : S_.BroadcastsInDim S10000x10000 (![] : Fin 0 → Fin S10000x10000.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  reducesTo_S10000x10000_S10000_d0 : S10000x10000.ReducesTo [0] S10000
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  transposes_S10000x10000_S10000x10000_1_0 : S10000x10000.Transposes [1, 0] S10000x10000
  bcast_S_S10000x256 : S_.BroadcastsInDim S10000x256 (![] : Fin 0 → Fin S10000x256.rank)
  concatenates_S320000_S10000_S330000_d0 : Shape.Concatenates [S320000, S10000] S330000 0
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S330000x1_S330000x256_0_1 : S330000x1.BroadcastsInDim S330000x256 (![0, 1] : Fin 2 → Fin S330000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  transposes_S10000x64_S64x10000_1_0 : S10000x64.Transposes [1, 0] S64x10000
  scatter_S10000x10000_S320000x2_S320000_n_01_01_1_wf : ScatterDims.WF S10000x10000 S320000x2 S320000 [] [0, 1] [0, 1] 1
  dot_S10000x10000_S10000x256_S10000x256_1_0_0_1_n_n_wf : DotDims.WF S10000x10000 S10000x256 S10000x256 [1] [0] [0] [1] [] []
  dot_S10000x256_S256x64_S10000x64_1_0_0_1_n_n_wf : DotDims.WF S10000x256 S256x64 S10000x64 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S10000x64_S64x256_S10000x256_1_0_0_1_n_n_wf : DotDims.WF S10000x64 S64x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x64_S64x10000_S10000x10000_1_0_0_1_n_n_wf : DotDims.WF S10000x64 S64x10000 S10000x10000 [1] [0] [0] [1] [] []

variable [Facts₀]

def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.LibBody.lean ====
import Idealize.ShloMosaic.Lib.Pipeline.FrameBody
import Idealize.ShloMosaic.Lib.Pipeline.Value
import Idealize.ShloMosaic.Lib.Ring
import Idealize.ShloMosaic.Lib.Tactic

noncomputable section

namespace Cert.LibBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : Nat} {τ : Topo} {sig : RefSig} {Λ₀ : Labels}

local notation "𝕄" => MT nD τ sig Unit (Elt F) ℕ (UR sig nD τ) ℕ

theorem origin : (![0, 0] : Fin 2 → Nat) = fun _ => 0 := funext fun a => by fin_cases a <;> rfl

variable {S0 S1 S2 S3 : Shape} {e0 e1 e2 : EltTy}
  {o0 : Fin S0.rank → Nat} {o1 : Fin S1.rank → Nat} {o2 : Fin S2.rank → Nat} {o3 : Fin S3.rank → Nat}

-- A whole load reads the contents and a whole store leaves its payload.
theorem canon_pay (h0 : o0 = fun _ => 0) (h1 : o1 = fun _ => 0) (h2 : o2 = fun _ => 0) (h3 : o3 = fun _ => 0)
    (i0 : ∀ a, o0 a + S0.size a ≤ S0.size a) (i1 : ∀ a, o1 a + S1.size a ≤ S1.size a)
    (i2 : ∀ a, o2 a + S2.size a ≤ S2.size a) (i3 : ∀ a, o3 a + S3.size a ≤ S3.size a)
    (pay : Vec F S0 e0 → Vec F S1 e1 → Vec F S2 e2 → Vec F S3 .f32 → Vec F S3 .f32)
    (x0 : Vec F S0 e0) (x1 : Vec F S1 e1) (x2 : Vec F S2 e2) (x3 : Vec F S3 .f32) :
    View.canon [(⟨Rect.unit o3 S3.size i3, pay (View.ld x0 (Rect.unit o0 S0.size i0)) (View.ld x1 (Rect.unit o1 S1.size i1))
      (View.ld x2 (Rect.unit o2 S2.size i2)) (View.ld x3 (Rect.unit o3 S3.size i3))⟩ : View.Piece (Elt F) S3 .f32)] = pay x0 x1 x2 x3 := by
  rw [View.canon_unit_zero h3, View.ld_unit_zero h0, View.ld_unit_zero h1, View.ld_unit_zero h2, View.ld_unit_zero h3]

-- Whole loads read the contents and one whole store leaves its payload: the inputs stay and the result holds the payload.
theorem wp_load4_store {defs : Defs nD τ sig (Elt F) Λ₀} {c : Dev nD} {E : Set ℕ}
    (h0 : o0 = fun _ => 0) (h1 : o1 = fun _ => 0) (h2 : o2 = fun _ => 0) (h3 : o3 = fun _ => 0)
    {i0 : ∀ a, o0 a + S0.size a ≤ S0.size a} {i1 : ∀ a, o1 a + S1.size a ≤ S1.size a}
    {i2 : ∀ a, o2 a + S2.size a ≤ S2.size a} {i3 : ∀ a, o3 a + S3.size a ≤ S3.size a}
    {n0 : 0 < S0.numel} {n1 : 0 < S1.numel} {n2 : 0 < S2.numel} {n3 : 0 < S3.numel}
    {a1 : Memref sig .tc .vmem S0 e0} {a2 : Memref sig .tc .vmem S1 e1} {a3 : Memref sig .tc .vmem S2 e2}
    {a4 a5 : Memref sig .tc .vmem S3 .f32}
    (pay : Vec F S0 e0 → Vec F S1 e1 → Vec F S2 e2 → Vec F S3 .f32 → Vec F S3 .f32)
    {D0 D1 D2 D3 D4 : Type} {b0 : D0 → Vec F S0 e0} {b1 : D1 → Vec F S1 e1} {b2 : D2 → Vec F S2 e2}
    {b3 : D3 → Vec F S3 .f32} {b4 : D4 → Vec F S3 .f32}
    {x0 : Vec F S0 e0} {x1 : Vec F S1 e1} {x2 : Vec F S2 e2} {x3 y : Vec F S3 .f32}
    (hb0 : ∀ d, b0 d = x0) (hb1 : ∀ d, b1 d = x1) (hb2 : ∀ d, b2 d = x2) (hb3 : ∀ d, b3 d = x3)
    (hy : y = pay x0 x1 x2 x3) {R R' : sProp 𝕄} :
    iprop(R ∗ R' ∗ (∃ d, owns (c : Thread nD τ) a1 fullShare (b0 d)) ∗ (∃ d, owns (c : Thread nD τ) a2 fullShare (b1 d))
        ∗ (∃ d, owns (c : Thread nD τ) a3 fullShare (b2 d)) ∗ (∃ d, owns (c : Thread nD τ) a4 fullShare (b3 d))
        ∗ (∃ d, owns (c : Thread nD τ) a5 fullShare (b4 d)))
      ⊢ wp frame (wpE defs Variants.none c none) E (do
          let v0 ← Prog.lift (.load a1 (Rect.unit (s := S0) o0 S0.size i0).toLoadRect (View.loadsAt_vmem n0))
          let v2 ← Prog.lift (.load a2 (Rect.unit (s := S1) o1 S1.size i1).toLoadRect (View.loadsAt_vmem n1))
          let v5 ← Prog.lift (.load a3 (Rect.unit (s := S2) o2 S2.size i2).toLoadRect (View.loadsAt_vmem n2))
          let v9 ← Prog.lift (.load a4 (Rect.unit (s := S3) o3 S3.size i3).toLoadRect (View.loadsAt_vmem n3))
          let v12 ← Prog.lift (.load a5 (Rect.unit (s := S3) o3 S3.size i3).toLoadRect (View.loadsAt_vmem n3))
          Prog.lift (.store a5 (Rect.unit (s := S3) o3 S3.size i3) (pay v0 v2 v5 v9) Finset.univ (View.stores_vmem_bits_univ n3 rfl) (.inl rfl))
          pure ⟨⟩ : Prog (TpuEff nD τ sig (Elt F) Λ₀ .tc) PUnit) fun _ =>
        iprop(R ∗ R' ∗ owns (c : Thread nD τ) a1 fullShare x0 ∗ owns (c : Thread nD τ) a2 fullShare x1
          ∗ owns (c : Thread nD τ) a3 fullShare x2 ∗ owns (c : Thread nD τ) a4 fullShare x3 ∗ owns (c : Thread nD τ) a5 fullShare y) := by
  subst h0 h1 h2 h3 hy
  unfold owns
  iintro ⟨HR, HR', ⟨%d0, %f0, %hf0, H0⟩, ⟨%d1, %f1, %hf1, H1⟩, ⟨%d2, %f2, %hf2, H2⟩, ⟨%d3, %f3, %hf3, H3⟩, ⟨%d4, %f4, -, H4⟩⟩
  rw [hb0] at hf0; rw [hb1] at hf1; rw [hb2] at hf2; rw [hb3] at hf3
  subst hf0 hf1 hf2 hf3
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ fun y => ⟨_, List.mem_singleton_self _, View.mem_set_unit_zero rfl i3 y⟩,
    View.canon_unit_zero rfl]
  simp only [View.readAt_eq_ld, View.ld_unit_zero rfl]

end Cert.LibBody
-- ==== Proof.K.Reg0.lean ====
import proofs.«430304_j36258113913429_2_alg».proof.Proof.Gen.Kernel.Launch
import proofs.«430304_j36258113913429_2_alg».proof.Proof.Gen.Kernel.Skeleton
import proofs.«430304_j36258113913429_2_alg».proof.Proof.Gen.Kernel.Points
import proofs.«430304_j36258113913429_2_alg».proof.Proof.LibBody

noncomputable section

namespace Cert.Kernel.Hand

open Cert.Kernel Cert.Kernel.Gen Cert.LibBody
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x10240 := Rect.unit (s := S512x10240) ![0, 0] S512x10240.size inb_S512x10240_S512x10240_0_0
abbrev r0_1 : Rect S10240x256 := Rect.unit (s := S10240x256) ![0, 0] S10240x256.size inb_S10240x256_S10240x256_0_0
abbrev r0_2 : Rect S512x1 := Rect.unit (s := S512x1) ![0, 0] S512x1.size inb_S512x1_S512x1_0_0
abbrev r0_3 : Rect S512x256 := Rect.unit (s := S512x256) ![0, 0] S512x256.size inb_S512x256_S512x256_0_0

def out0_4 (x0 : Vec F S512x10240 .bf16) (x1 : Vec F S10240x256 .bf16) (x2 : Vec F S512x1 .f32) (x3 : Vec F S512x256 .f32) : Vec F S512x256 .f32 :=
  View.canon [⟨r0_3, k0_pay1 (View.ld x0 r0_0) (View.ld x1 r0_1) (View.ld x2 r0_2) (View.ld x3 r0_3)⟩]

theorem out0_4_eq (x0 : Vec F S512x10240 .bf16) (x1 : Vec F S10240x256 .bf16) (x2 : Vec F S512x1 .f32) (x3 : Vec F S512x256 .f32) :
    out0_4 x0 x1 x2 x3 = k0_pay1 x0 x1 x2 x3 :=
  canon_pay origin origin origin origin _ _ _ _ k0_pay1 x0 x1 x2 x3

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

-- An input is left as found, so by induction on the point it reads as its block there.
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

-- The kernel's triple at the inputs' blocks, framed by the invariant and the debts.
theorem body_obligation0 (c : Dev nD) : BodyObligation (dat0 (F := F) V c) (defs₀ (F := F)) Variants.none () Set.univ := fun t => by
  rw [bigSep_W0, bigSep_W0]
  change _ ⊢ wp frame _ _ (bodyAt0 t) _
  unfold bodyAt0
  simp only [cc0__adjmm_kernel_eq_skeleton]; unfold cc0__adjmm_kernel_skel
  exact wp_load4_store (S0 := S512x10240) (S1 := S10240x256) (S2 := S512x1) (S3 := S512x256)
    (n0 := h_S512x10240) (n1 := h_S10240x256) (n2 := h_S512x1) (n3 := h_S512x256) origin origin origin origin k0_pay1
    (before0_0 V c t) (before0_1 V c t) (before0_2 V c t) (before0_3 V c t) ((after0_4 V c t).trans (out0_4_eq _ _ _ _))

end Cert.Kernel.Hand
-- ==== Proof.K.Reg1.lean ====
import proofs.«430304_j36258113913429_2_alg».proof.Proof.Gen.Kernel.Launch
import proofs.«430304_j36258113913429_2_alg».proof.Proof.Gen.Kernel.Skeleton
import proofs.«430304_j36258113913429_2_alg».proof.Proof.Gen.Kernel.Points
import proofs.«430304_j36258113913429_2_alg».proof.Proof.LibBody

noncomputable section

namespace Cert.Kernel.Hand

open Cert.Kernel Cert.Kernel.Gen Cert.LibBody
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S512x10240 := Rect.unit (s := S512x10240) ![0, 0] S512x10240.size inb_S512x10240_S512x10240_0_0
abbrev r1_1 : Rect S10240x256 := Rect.unit (s := S10240x256) ![0, 0] S10240x256.size inb_S10240x256_S10240x256_0_0
abbrev r1_2 : Rect S512x1 := Rect.unit (s := S512x1) ![0, 0] S512x1.size inb_S512x1_S512x1_0_0
abbrev r1_3 : Rect S512x256 := Rect.unit (s := S512x256) ![0, 0] S512x256.size inb_S512x256_S512x256_0_0

def out1_4 (x0 : Vec F S512x10240 .bf16) (x1 : Vec F S10240x256 .bf16) (x2 : Vec F S512x1 .f32) (x3 : Vec F S512x256 .f32) : Vec F S512x256 .f32 :=
  View.canon [⟨r1_3, k1_pay1 (View.ld x0 r1_0) (View.ld x1 r1_1) (View.ld x2 r1_2) (View.ld x3 r1_3)⟩]

theorem out1_4_eq (x0 : Vec F S512x10240 .bf16) (x1 : Vec F S10240x256 .bf16) (x2 : Vec F S512x1 .f32) (x3 : Vec F S512x256 .f32) :
    out1_4 x0 x1 x2 x3 = k1_pay1 x0 x1 x2 x3 :=
  canon_pay origin origin origin origin _ _ _ _ k1_pay1 x0 x1 x2 x3

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = out1_4 (iblk1 V c 0 t) (iblk1 V c 1 t) (iblk1 V c 2 t) (iblk1 V c 3 t) := by dsimp only [dat1]

-- An input is left as found, so by induction on the point it reads as its block there.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

-- The kernel's triple at the inputs' blocks, framed by the invariant and the debts.
theorem body_obligation1 (c : Dev nD) : BodyObligation (dat1 (F := F) V c) (defs₀ (F := F)) Variants.none () Set.univ := fun t => by
  rw [bigSep_W1, bigSep_W1]
  change _ ⊢ wp frame _ _ (bodyAt1 t) _
  unfold bodyAt1
  simp only [cc1__adjmm_kernel_eq_skeleton]; unfold cc1__adjmm_kernel_skel
  exact wp_load4_store (S0 := S512x10240) (S1 := S10240x256) (S2 := S512x1) (S3 := S512x256)
    (n0 := h_S512x10240) (n1 := h_S10240x256) (n2 := h_S512x1) (n3 := h_S512x256) origin origin origin origin k1_pay1
    (before1_0 V c t) (before1_1 V c t) (before1_2 V c t) (before1_3 V c t) ((after1_4 V c t).trans (out1_4_eq _ _ _ _))

end Cert.Kernel.Hand
-- ==== Proof.K.Reg2.lean ====
import proofs.«430304_j36258113913429_2_alg».proof.Proof.Gen.Kernel.Launch
import proofs.«430304_j36258113913429_2_alg».proof.Proof.Gen.Kernel.Skeleton
import proofs.«430304_j36258113913429_2_alg».proof.Proof.Gen.Kernel.Points
import proofs.«430304_j36258113913429_2_alg».proof.Proof.LibBody

noncomputable section

namespace Cert.Kernel.Hand

open Cert.Kernel Cert.Kernel.Gen Cert.LibBody
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x10240 := Rect.unit (s := S512x10240) ![0, 0] S512x10240.size inb_S512x10240_S512x10240_0_0
abbrev r2_1 : Rect S10240x64 := Rect.unit (s := S10240x64) ![0, 0] S10240x64.size inb_S10240x64_S10240x64_0_0
abbrev r2_2 : Rect S512x1 := Rect.unit (s := S512x1) ![0, 0] S512x1.size inb_S512x1_S512x1_0_0
abbrev r2_3 : Rect S512x64 := Rect.unit (s := S512x64) ![0, 0] S512x64.size inb_S512x64_S512x64_0_0

def out2_4 (x0 : Vec F S512x10240 .bf16) (x1 : Vec F S10240x64 .bf16) (x2 : Vec F S512x1 .f32) (x3 : Vec F S512x64 .f32) : Vec F S512x64 .f32 :=
  View.canon [⟨r2_3, k2_pay1 (View.ld x0 r2_0) (View.ld x1 r2_1) (View.ld x2 r2_2) (View.ld x3 r2_3)⟩]

theorem out2_4_eq (x0 : Vec F S512x10240 .bf16) (x1 : Vec F S10240x64 .bf16) (x2 : Vec F S512x1 .f32) (x3 : Vec F S512x64 .f32) :
    out2_4 x0 x1 x2 x3 = k2_pay1 x0 x1 x2 x3 :=
  canon_pay origin origin origin origin _ _ _ _ k2_pay1 x0 x1 x2 x3

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = out2_4 (iblk2 V c 0 t) (iblk2 V c 1 t) (iblk2 V c 2 t) (iblk2 V c 3 t) := by dsimp only [dat2]

-- An input is left as found, so by induction on the point it reads as its block there.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

-- The kernel's triple at the inputs' blocks, framed by the invariant and the debts.
theorem body_obligation2 (c : Dev nD) : BodyObligation (dat2 (F := F) V c) (defs₀ (F := F)) Variants.none () Set.univ := fun t => by
  rw [bigSep_W2, bigSep_W2]
  change _ ⊢ wp frame _ _ (bodyAt2 t) _
  unfold bodyAt2
  simp only [cc2__adjmm_kernel_eq_skeleton]; unfold cc2__adjmm_kernel_skel
  exact wp_load4_store (S0 := S512x10240) (S1 := S10240x64) (S2 := S512x1) (S3 := S512x64)
    (n0 := h_S512x10240) (n1 := h_S10240x64) (n2 := h_S512x1) (n3 := h_S512x64) origin origin origin origin k2_pay1
    (before2_0 V c t) (before2_1 V c t) (before2_2 V c t) (before2_3 V c t) ((after2_4 V c t).trans (out2_4_eq _ _ _ _))

end Cert.Kernel.Hand
-- ==== Proof.K.Reg3.lean ====
import proofs.«430304_j36258113913429_2_alg».proof.Proof.Gen.Kernel.Launch
import proofs.«430304_j36258113913429_2_alg».proof.Proof.Gen.Kernel.Skeleton
import proofs.«430304_j36258113913429_2_alg».proof.Proof.Gen.Kernel.Points
import proofs.«430304_j36258113913429_2_alg».proof.Proof.LibBody

noncomputable section

namespace Cert.Kernel.Hand

open Cert.Kernel Cert.Kernel.Gen Cert.LibBody
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S512x10240 := Rect.unit (s := S512x10240) ![0, 0] S512x10240.size inb_S512x10240_S512x10240_0_0
abbrev r3_1 : Rect S10240x64 := Rect.unit (s := S10240x64) ![0, 0] S10240x64.size inb_S10240x64_S10240x64_0_0
abbrev r3_2 : Rect S512x1 := Rect.unit (s := S512x1) ![0, 0] S512x1.size inb_S512x1_S512x1_0_0
abbrev r3_3 : Rect S512x64 := Rect.unit (s := S512x64) ![0, 0] S512x64.size inb_S512x64_S512x64_0_0

def out3_4 (x0 : Vec F S512x10240 .bf16) (x1 : Vec F S10240x64 .bf16) (x2 : Vec F S512x1 .f32) (x3 : Vec F S512x64 .f32) : Vec F S512x64 .f32 :=
  View.canon [⟨r3_3, k3_pay1 (View.ld x0 r3_0) (View.ld x1 r3_1) (View.ld x2 r3_2) (View.ld x3 r3_3)⟩]

theorem out3_4_eq (x0 : Vec F S512x10240 .bf16) (x1 : Vec F S10240x64 .bf16) (x2 : Vec F S512x1 .f32) (x3 : Vec F S512x64 .f32) :
    out3_4 x0 x1 x2 x3 = k3_pay1 x0 x1 x2 x3 :=
  canon_pay origin origin origin origin _ _ _ _ k3_pay1 x0 x1 x2 x3

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) :
    (dat3 V c).after 4 t = out3_4 (iblk3 V c 0 t) (iblk3 V c 1 t) (iblk3 V c 2 t) (iblk3 V c 3 t) := by dsimp only [dat3]

-- An input is left as found, so by induction on the point it reads as its block there.
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

-- The kernel's triple at the inputs' blocks, framed by the invariant and the debts.
theorem body_obligation3 (c : Dev nD) : BodyObligation (dat3 (F := F) V c) (defs₀ (F := F)) Variants.none () Set.univ := fun t => by
  rw [bigSep_W3, bigSep_W3]
  change _ ⊢ wp frame _ _ (bodyAt3 t) _
  unfold bodyAt3
  simp only [cc3__adjmm_kernel_eq_skeleton]; unfold cc3__adjmm_kernel_skel
  exact wp_load4_store (S0 := S512x10240) (S1 := S10240x64) (S2 := S512x1) (S3 := S512x64)
    (n0 := h_S512x10240) (n1 := h_S10240x64) (n2 := h_S512x1) (n3 := h_S512x64) origin origin origin origin k3_pay1
    (before3_0 V c t) (before3_1 V c t) (before3_2 V c t) (before3_3 V c t) ((after3_4 V c t).trans (out3_4_eq _ _ _ _))

end Cert.Kernel.Hand
-- ==== Proof.K.Reg4.lean ====
import proofs.«430304_j36258113913429_2_alg».proof.Proof.Gen.Kernel.Launch
import proofs.«430304_j36258113913429_2_alg».proof.Proof.Gen.Kernel.Skeleton
import proofs.«430304_j36258113913429_2_alg».proof.Proof.Gen.Kernel.Points
import proofs.«430304_j36258113913429_2_alg».proof.Proof.LibBody

noncomputable section

namespace Cert.Kernel.Hand

open Cert.Kernel Cert.Kernel.Gen Cert.LibBody
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S512x10240 := Rect.unit (s := S512x10240) ![0, 0] S512x10240.size inb_S512x10240_S512x10240_0_0
abbrev r4_1 : Rect S10240x128 := Rect.unit (s := S10240x128) ![0, 0] S10240x128.size inb_S10240x128_S10240x128_0_0
abbrev r4_2 : Rect S512x1 := Rect.unit (s := S512x1) ![0, 0] S512x1.size inb_S512x1_S512x1_0_0
abbrev r4_3 : Rect S512x128 := Rect.unit (s := S512x128) ![0, 0] S512x128.size inb_S512x128_S512x128_0_0

def out4_4 (x0 : Vec F S512x10240 .bf16) (x1 : Vec F S10240x128 .bf16) (x2 : Vec F S512x1 .f32) (x3 : Vec F S512x128 .f32) : Vec F S512x128 .f32 :=
  View.canon [⟨r4_3, k4_pay1 (View.ld x0 r4_0) (View.ld x1 r4_1) (View.ld x2 r4_2) (View.ld x3 r4_3)⟩]

theorem out4_4_eq (x0 : Vec F S512x10240 .bf16) (x1 : Vec F S10240x128 .bf16) (x2 : Vec F S512x1 .f32) (x3 : Vec F S512x128 .f32) :
    out4_4 x0 x1 x2 x3 = k4_pay1 x0 x1 x2 x3 :=
  canon_pay origin origin origin origin _ _ _ _ k4_pay1 x0 x1 x2 x3

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) :
    (dat4 V c).after 4 t = out4_4 (iblk4 V c 0 t) (iblk4 V c 1 t) (iblk4 V c 2 t) (iblk4 V c 3 t) := by dsimp only [dat4]

-- An input is left as found, so by induction on the point it reads as its block there.
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

-- The kernel's triple at the inputs' blocks, framed by the invariant and the debts.
theorem body_obligation4 (c : Dev nD) : BodyObligation (dat4 (F := F) V c) (defs₀ (F := F)) Variants.none () Set.univ := fun t => by
  rw [bigSep_W4, bigSep_W4]
  change _ ⊢ wp frame _ _ (bodyAt4 t) _
  unfold bodyAt4
  simp only [cc4__adjmm_kernel_eq_skeleton]; unfold cc4__adjmm_kernel_skel
  exact wp_load4_store (S0 := S512x10240) (S1 := S10240x128) (S2 := S512x1) (S3 := S512x128)
    (n0 := h_S512x10240) (n1 := h_S10240x128) (n2 := h_S512x1) (n3 := h_S512x128) origin origin origin origin k4_pay1
    (before4_0 V c t) (before4_1 V c t) (before4_2 V c t) (before4_3 V c t) ((after4_4 V c t).trans (out4_4_eq _ _ _ _))

end Cert.Kernel.Hand
-- ==== Proof.K.Reg5.lean ====
import proofs.«430304_j36258113913429_2_alg».proof.Proof.Gen.Kernel.Launch
import proofs.«430304_j36258113913429_2_alg».proof.Proof.Gen.Kernel.Skeleton
import proofs.«430304_j36258113913429_2_alg».proof.Proof.Gen.Kernel.Points
import proofs.«430304_j36258113913429_2_alg».proof.Proof.LibBody

noncomputable section

namespace Cert.Kernel.Hand

open Cert.Kernel Cert.Kernel.Gen Cert.LibBody
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S512x10240 := Rect.unit (s := S512x10240) ![0, 0] S512x10240.size inb_S512x10240_S512x10240_0_0
abbrev r5_1 : Rect S10240x256 := Rect.unit (s := S10240x256) ![0, 0] S10240x256.size inb_S10240x256_S10240x256_0_0
abbrev r5_2 : Rect S512x1 := Rect.unit (s := S512x1) ![0, 0] S512x1.size inb_S512x1_S512x1_0_0
abbrev r5_3 : Rect S512x256 := Rect.unit (s := S512x256) ![0, 0] S512x256.size inb_S512x256_S512x256_0_0

def out5_4 (x0 : Vec F S512x10240 .bf16) (x1 : Vec F S10240x256 .bf16) (x2 : Vec F S512x1 .f32) (x3 : Vec F S512x256 .f32) : Vec F S512x256 .f32 :=
  View.canon [⟨r5_3, k5_pay1 (View.ld x0 r5_0) (View.ld x1 r5_1) (View.ld x2 r5_2) (View.ld x3 r5_3)⟩]

theorem out5_4_eq (x0 : Vec F S512x10240 .bf16) (x1 : Vec F S10240x256 .bf16) (x2 : Vec F S512x1 .f32) (x3 : Vec F S512x256 .f32) :
    out5_4 x0 x1 x2 x3 = k5_pay1 x0 x1 x2 x3 :=
  canon_pay origin origin origin origin _ _ _ _ k5_pay1 x0 x1 x2 x3

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_4 (c : Dev nD) (t : Fin cfg5.N) :
    (dat5 V c).after 4 t = out5_4 (iblk5 V c 0 t) (iblk5 V c 1 t) (iblk5 V c 2 t) (iblk5 V c 3 t) := by dsimp only [dat5]

-- An input is left as found, so by induction on the point it reads as its block there.
theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

-- The kernel's triple at the inputs' blocks, framed by the invariant and the debts.
theorem body_obligation5 (c : Dev nD) : BodyObligation (dat5 (F := F) V c) (defs₀ (F := F)) Variants.none () Set.univ := fun t => by
  rw [bigSep_W5, bigSep_W5]
  change _ ⊢ wp frame _ _ (bodyAt5 t) _
  unfold bodyAt5
  simp only [cc5__adjmm_kernel_eq_skeleton]; unfold cc5__adjmm_kernel_skel
  exact wp_load4_store (S0 := S512x10240) (S1 := S10240x256) (S2 := S512x1) (S3 := S512x256)
    (n0 := h_S512x10240) (n1 := h_S10240x256) (n2 := h_S512x1) (n3 := h_S512x256) origin origin origin origin k5_pay1
    (before5_0 V c t) (before5_1 V c t) (before5_2 V c t) (before5_3 V c t) ((after5_4 V c t).trans (out5_4_eq _ _ _ _))

end Cert.Kernel.Hand
-- ==== Proof.K.Reg6.lean ====
import proofs.«430304_j36258113913429_2_alg».proof.Proof.Gen.Kernel.Launch
import proofs.«430304_j36258113913429_2_alg».proof.Proof.Gen.Kernel.Skeleton
import proofs.«430304_j36258113913429_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S200x64 := Rect.unit (s := S200x64) ![0, 0] S200x64.size inb_S200x64_S200x64_0_0
abbrev r6_1 : Rect S10000x64 := Rect.unit (s := S10000x64) ![0, 0] S10000x64.size inb_S10000x64_S10000x64_0_0
abbrev r6_2 : Rect S200x10000 := Rect.unit (s := S200x10000) ![0, 0] S200x10000.size inb_S200x10000_S200x10000_0_0

theorem off6_zero : (![0, 0] : Fin 2 → Nat) = fun _ => 0 := by
  funext a; fin_cases a <;> rfl

def out6_2 (x0 : Vec F S200x64 .bf16) (x1 : Vec F S10000x64 .bf16) : Vec F S200x10000 .f32 :=
  View.canon [⟨r6_2, k6_pay1 (View.ld x0 r6_0) (View.ld x1 r6_1)⟩]

theorem out6_2_eq (x0 : Vec F S200x64 .bf16) (x1 : Vec F S10000x64 .bf16) : out6_2 x0 x1 = k6_pay1 x0 x1 := by
  unfold out6_2
  rw [View.canon_unit_zero off6_zero, View.ld_unit_zero off6_zero, View.ld_unit_zero off6_zero]

theorem cover6_2 (p0 : Vec F S200x10000 .f32) (y : S200x10000.Idx) :
    ∃ pc ∈ ([⟨r6_2, p0⟩] : List (View.Piece (Elt F) S200x10000 .f32)), y ∈ pc.1.set :=
  ⟨_, List.mem_singleton_self _, View.mem_set_unit_zero off6_zero inb_S200x10000_S200x10000_0_0 y⟩

theorem sound_kernel6 (c : Dev nD) (E : Set ℕ) (i : grid6.Coords)
    (arg1 : Memref sig .tc .vmem S200x64 .bf16) (harg1 : arg1.IsWhole)
    (arg2 : Memref sig .tc .vmem S10000x64 .bf16) (harg2 : arg2.IsWhole)
    (arg3 : Memref sig .tc .vmem S200x10000 .f32) (harg3 : arg3.IsWhole)
    (x0 : Vec F S200x64 .bf16) (x1 : Vec F S10000x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__hs_outer_kernel i arg1 harg1 arg2 harg2 arg3 harg3) K := by
  simp only [cc6__hs_outer_kernel_eq_skeleton]; unfold cc6__hs_outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q w := match w with
    | ⟨0, _⟩ => fullShare.left
    | ⟨1, _⟩ => fullShare.right
    | ⟨2, _⟩ => fullShare
  owed _ := 0

theorem A_eq6 (c : Dev nD) (w : Fin cfg6.W) : (dat6 V c).A w = V c (Pipeline.arrRef spec6 w) := rfl

theorem after6_0 (c : Dev nD) (t : Fin cfg6.N) : (dat6 V c).after 0 t = iblk6 V c 0 t := rfl
theorem after6_1 (c : Dev nD) (t : Fin cfg6.N) : (dat6 V c).after 1 t = iblk6 V c 1 t := rfl
theorem after6_2 (c : Dev nD) (t : Fin cfg6.N) : (dat6 V c).after 2 t = out6_2 (iblk6 V c 0 t) (iblk6 V c 1 t) := by dsimp only [dat6]

theorem share6_0 (c : Dev nD) : (dat6 V c).share 0 = fullShare.left := rfl
theorem share6_1 (c : Dev nD) : (dat6 V c).share 1 = fullShare.right := rfl
theorem share6_2 (c : Dev nD) : (dat6 V c).share 2 = fullShare := rfl

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  iframe

theorem body_obligation6 (c : Dev nD) : BodyObligation (dat6 (F := F) V c) (defs₀ (F := F)) Variants.none () Set.univ := fun t => by
  rw [bigSep_W6, bigSep_W6]
  exact sound_body6 V c t

theorem arrRef6_ne : Pipeline.arrRef spec6 0 ≠ Pipeline.arrRef spec6 2 := by decide
theorem arrRefs6 : Finset.univ.image (Pipeline.arrRef spec6) = {Pipeline.arrRef spec6 0, Pipeline.arrRef spec6 2} := by
  ext b
  simp only [Finset.mem_image, Finset.mem_univ, true_and, Finset.mem_insert, Finset.mem_singleton]
  constructor
  · rintro ⟨w, rfl⟩
    fin_cases w
    exacts [Or.inl rfl, Or.inl rfl, Or.inr rfl]
  · rintro (rfl | rfl)
    exacts [⟨0, rfl⟩, ⟨2, rfl⟩]

theorem arrays6_eq (c : Dev nD) (G : (w : Fin cfg6.W) → Buf (Elt F) ((cfg6.win w).arr.view.loc (c : Thread nD τ))) :
    (dat6 V c).arrays G
      = iprop((((c : Thread nD τ).loc (Pipeline.arrRef spec6 0)) ↦{fullShare.left} G 0)
          ∗ (((c : Thread nD τ).loc (Pipeline.arrRef spec6 1)) ↦{fullShare.right} G 1)
          ∗ (((c : Thread nD τ).loc (Pipeline.arrRef spec6 2)) ↦{fullShare} G 2) : sProp 𝕄) := by
  unfold Dat.arrays
  rw [bigSep_W6, share6_0, share6_1, share6_2, (arr_whole6 0).set_eq_univ, (arr_whole6 2).set_eq_univ]

-- A core's unscoped buffers: the two buffers behind region 6's windows, each whole, and the rest.
theorem unscopedBufs6_eq (c : Dev nD) (V₁ : (b : Ref sig .tc) → Buf (Elt F) ((c : Thread nD τ).loc b)) :
    (unscopedBufs (Ix := Unit) (Name := ℕ) (U := UR sig nD τ) (Lvl := ℕ) c V₁ : sProp 𝕄)
      = iprop(((((c : Thread nD τ).loc (Pipeline.arrRef spec6 0)) ↦{fullShare} V₁ (Pipeline.arrRef spec6 0))
          ∗ (((c : Thread nD τ).loc (Pipeline.arrRef spec6 2)) ↦{fullShare} V₁ (Pipeline.arrRef spec6 2)))
          ∗ Pipeline.unscopedRest spec6 c V₁) := by
  rw [Pipeline.unscopedBufs_split₀ (fun _ : Unit => cfg6) () winFacts₀6.arr_unscoped c V₁]
  unfold Pipeline.arrBufs
  rw [arrRefs6, bigSep_insert (by rw [Finset.mem_singleton]; exact arrRef6_ne), bigSep_singleton]
  rfl

theorem arrays_of_unscopedBufs6 (c : Dev nD) :
    (unscopedBufs (Ix := Unit) (Name := ℕ) (U := UR sig nD τ) (Lvl := ℕ) c (V c) : sProp 𝕄)
      ⊢ iprop((dat6 V c).arrays ((dat6 V c).arrAt · 0) ∗ Pipeline.unscopedRest spec6 c (V c)) := by
  have hA : ∀ w, (dat6 V c).arrAt w 0 = V c (Pipeline.arrRef spec6 w) := fun w => rfl
  rw [unscopedBufs6_eq, arrays6_eq, hA 0, hA 1, hA 2]
  iintro ⟨⟨Hr, Hw⟩, Hrest⟩
  ihave Hr := (pointsTo_share (PosShare.mem_left_op_right fullShare)).1 $$ Hr
  icases Hr with ⟨Hl, Hr⟩
  iframe

theorem unscopedBufs_of_arrays6 (c : Dev nD) (V' : (b : Ref sig .tc) → Buf (Elt F) ((c : Thread nD τ).loc b))
    (hout : (dat6 V c).arrAt 2 cfg6.N = V' (Pipeline.arrRef spec6 2))
    (hrest : ∀ b, b ≠ Pipeline.arrRef spec6 2 → V' b = V c b) :
    iprop((dat6 V c).arrays ((dat6 V c).arrAt · cfg6.N) ∗ Pipeline.unscopedRest spec6 c (V c))
      ⊢ (unscopedBufs (Ix := Unit) (Name := ℕ) (U := UR sig nD τ) (Lvl := ℕ) c V' : sProp 𝕄) := by
  have hR : (Pipeline.unscopedRest spec6 c V' : sProp 𝕄) = Pipeline.unscopedRest spec6 c (V c) := by
    unfold Pipeline.unscopedRest
    exact bigSep_congr fun b hb => by
      rw [hrest b fun e => (Finset.mem_sdiff.mp hb).2 (e ▸ Finset.mem_image.mpr ⟨2, Finset.mem_univ _, rfl⟩)]
  have h0 : (dat6 V c).arrAt 0 cfg6.N = V' (Pipeline.arrRef spec6 0) :=
    ((dat6 V c).arrAt_in 0 rfl _).trans ((A_eq6 V c 0).trans (hrest _ arrRef6_ne).symm)
  have h1 : (dat6 V c).arrAt 1 cfg6.N = V' (Pipeline.arrRef spec6 0) :=
    ((dat6 V c).arrAt_in 1 rfl _).trans ((A_eq6 V c 1).trans (hrest _ arrRef6_ne).symm)
  rw [unscopedBufs6_eq, arrays6_eq, hR, h0, h1, hout]
  iintro ⟨⟨Hl, Hr, Hw⟩, Hrest⟩
  iframe Hw Hrest
  iapply (pointsTo_share (PosShare.mem_left_op_right fullShare)).2
  iframe

end Region6

end Cert.Kernel.Hand

end
-- ==== Proof.K.RunDefs.lean ====
import proofs.«430304_j36258113913429_2_alg».proof.Proof.Gen.Kernel.Regions
import proofs.«430304_j36258113913429_2_alg».proof.Proof.K.Reg0
import proofs.«430304_j36258113913429_2_alg».proof.Proof.K.Reg1
import proofs.«430304_j36258113913429_2_alg».proof.Proof.K.Reg2
import proofs.«430304_j36258113913429_2_alg».proof.Proof.K.Reg3
import proofs.«430304_j36258113913429_2_alg».proof.Proof.K.Reg4
import proofs.«430304_j36258113913429_2_alg».proof.Proof.K.Reg5
import proofs.«430304_j36258113913429_2_alg».proof.Proof.K.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev V4 : (c : Dev nD) → (b : Ref sig .tc) → Buf (Elt F) ((c : Thread nD τ).loc b) := fun c b => W4 m ρ c b
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N :=
  Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) :=
  Pipeline.withArrays_of_ne spec1 c _ _ b hb
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N :=
  Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) :=
  Pipeline.withArrays_of_ne spec2 c _ _ b hb
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N :=
  Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) :=
  Pipeline.withArrays_of_ne spec3 c _ _ b hb
abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N :=
  Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) :=
  Pipeline.withArrays_of_ne spec4 c _ _ b hb
abbrev W12 : Dev nD → Valuation τ sig (Elt F) := fun c => StableHlo.after hostOps5 (W11 m ρ c)
abbrev W13 : Dev nD → Valuation τ sig (Elt F) := fun c => StableHlo.after hostOps5_1 (W12 m ρ c)
abbrev W14 : Dev nD → Valuation τ sig (Elt F) := fun c => StableHlo.after hostOps5_2 (W13 m ρ c)
abbrev V14 : (c : Dev nD) → (b : Ref sig .tc) → Buf (Elt F) ((c : Thread nD τ).loc b) := fun c b => W14 m ρ c b
def W15 (c : Dev nD) : Valuation τ sig (Elt F) :=
  Pipeline.withArrays spec5 c (W14 m ρ c) fun w => (dat5 (V14 m ρ) c).arrAt w cfg5.N
theorem W15_arr (c : Dev nD) (w : Fin cfg5.W) :
    W15 m ρ c (Proc.devRef .tc (Pipeline.arrRef spec5 w)) = (dat5 (V14 m ρ) c).arrAt w cfg5.N :=
  Pipeline.withArrays_arr spec5 launch5.win.arr_inj c _ _ w
theorem W15_of_ne (c : Dev nD) (b : Ref sig .tc) (hb : ∀ w, Pipeline.arrRef spec5 w ≠ b) :
    W15 m ρ c (Proc.devRef .tc b) = W14 m ρ c (Proc.devRef .tc b) :=
  Pipeline.withArrays_of_ne spec5 c _ _ b hb
abbrev W16 : Dev nD → Valuation τ sig (Elt F) := fun c => StableHlo.after hostOps6 (W15 m ρ c)
abbrev V16 : (c : Dev nD) → (b : Ref sig .tc) → Buf (Elt F) ((c : Thread nD τ).loc b) := fun c b => W16 m ρ c b
def W17 (c : Dev nD) : Valuation τ sig (Elt F) :=
  Pipeline.withArrays spec6 c (W16 m ρ c) fun w => (dat6 (V16 m ρ) c).arrAt w cfg6.N

-- Read at a window's array, `withArrays` gives that window's contents as soon as the windows sharing the array agree.
theorem withArrays_arr_of {gr W : Nat} (win : Fin W → Pipeline.WinSpec sig gr) (c : Dev nD) (V : Valuation τ sig (Elt F))
    (A : (w : Fin W) → Buf (Elt F) ((win w).arr.view.loc (c.tc : Thread nD τ))) (w : Fin W)
    (hA : ∀ w', Pipeline.arrRef win w' = Pipeline.arrRef win w → HEq (A w') (A w)) :
    Pipeline.withArrays win c V A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  exact eq_of_heq ((cast_heq _ _).trans (hA _ (Proc.devRef_injective _ h.choose_spec)))

theorem spec6_shared : ∀ w w' : Fin 3, Pipeline.arrRef spec6 w' = Pipeline.arrRef spec6 w →
    w' = w ∨ ((cfg6.win w').isOut = false ∧ (cfg6.win w).isOut = false) := by decide

-- Two windows of region 6 share an array only if both read it, and an array that is only read keeps its entry contents.
theorem W17_arr (c : Dev nD) (w : Fin cfg6.W) :
    W17 m ρ c (Proc.devRef .tc (Pipeline.arrRef spec6 w)) = (dat6 (V16 m ρ) c).arrAt w cfg6.N := by
  refine withArrays_arr_of spec6 c _ _ w fun w' e => ?_
  rcases spec6_shared w w' e with rfl | ⟨h', h⟩
  · exact HEq.rfl
  · rw [(dat6 (V16 m ρ) c).arrAt_in w' h' _, (dat6 (V16 m ρ) c).arrAt_in w h _, A_eq6, A_eq6]
    exact congr_arg_heq (fun r => V16 m ρ c r) e
theorem W17_out (c : Dev nD) :
    W17 m ρ c (Proc.devRef .tc main_v119) = (dat6 (V16 m ρ) c).arrAt 2 cfg6.N := W17_arr m ρ c 2
theorem W17_of_ne (c : Dev nD) (b : Ref sig .tc) (hb : ∀ w, Pipeline.arrRef spec6 w ≠ b) :
    W17 m ρ c (Proc.devRef .tc b) = W16 m ρ c (Proc.devRef .tc b) :=
  Pipeline.withArrays_of_ne spec6 c _ _ b hb
theorem spec6_in_of_ne : ∀ w : Fin 3, Pipeline.arrRef spec6 w ≠ Pipeline.arrRef spec6 2 → (cfg6.win w).isOut = false := by decide
-- Region 6 changes only its output array: its other arrays are read, never written.
theorem hrest6 (c : Dev nD) (b : Ref sig .tc) (hb : b ≠ Pipeline.arrRef spec6 2) :
    W17 m ρ c (Proc.devRef .tc b) = W16 m ρ c (Proc.devRef .tc b) := by
  by_cases h : ∃ w, Pipeline.arrRef spec6 w = b
  · obtain ⟨w, rfl⟩ := h
    exact (W17_arr m ρ c w).trans (((dat6 (V16 m ρ) c).arrAt_in w (spec6_in_of_ne w hb) _).trans (A_eq6 (V16 m ρ) c w))
  · exact W17_of_ne m ρ c b fun w e => h ⟨w, e⟩

theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W6_of (c : Dev nD) (r : Ref sig .tc) (h : r ∉ hostOps2_W) : W6 m ρ c r = W5 m ρ c r :=
  StableHlo.after_of_writes_sub hostOps2 _ hostOps2_writes h
theorem W8_of (c : Dev nD) (r : Ref sig .tc) (h : r ∉ hostOps3_W) : W8 m ρ c r = W7 m ρ c r :=
  StableHlo.after_of_writes_sub hostOps3 _ hostOps3_writes h
theorem W10_of (c : Dev nD) (r : Ref sig .tc) (h : r ∉ hostOps4_W) : W10 m ρ c r = W9 m ρ c r :=
  StableHlo.after_of_writes_sub hostOps4 _ hostOps4_writes h
theorem W12_of (c : Dev nD) (r : Ref sig .tc) (h : r ∉ hostOps5_W) : W12 m ρ c r = W11 m ρ c r :=
  StableHlo.after_of_writes_sub hostOps5 _ hostOps5_writes h
theorem W13_of (c : Dev nD) (r : Ref sig .tc) (h : r ∉ hostOps5_1_W) : W13 m ρ c r = W12 m ρ c r :=
  StableHlo.after_of_writes_sub hostOps5_1 _ hostOps5_1_writes h
theorem W14_of (c : Dev nD) (r : Ref sig .tc) (h : r ∉ hostOps5_2_W) : W14 m ρ c r = W13 m ρ c r :=
  StableHlo.after_of_writes_sub hostOps5_2 _ hostOps5_2_writes h
theorem W16_of (c : Dev nD) (r : Ref sig .tc) (h : r ∉ hostOps6_W) : W16 m ρ c r = W15 m ρ c r :=
  StableHlo.after_of_writes_sub hostOps6 _ hostOps6_writes h

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V6 m ρ) c
  | ⟨3, _⟩ => fun c => dat3 (V8 m ρ) c
  | ⟨4, _⟩ => fun c => dat4 (V10 m ρ) c
  | ⟨5, _⟩ => fun c => dat5 (V14 m ρ) c
  | ⟨6, _⟩ => fun c => dat6 (V16 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

end Cert.Kernel.Hand

end
-- ==== Proof.K.RunRegs.lean ====
import proofs.«430304_j36258113913429_2_alg».proof.Proof.K.RunDefs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

local notation "𝕔" => Pipeline.pin (pcfgs (F := F)) adm

abbrev RSeg (p : Fin 7) := Pipeline.RegionSeg (pcfgs (F := F)) adm (pdats m ρ) () defs₀ 𝒱₀ L lv p

-- Every region's proof data keep the same invariant, owe nothing, and put no bound on what is recorded.
theorem pdats_facts : ∀ (p : Fin 7) (c : Dev nD) t, (pdats m ρ p c).Φ t = Pipeline.ΦA (𝕔 p).spec c
    ∧ (pdats m ρ p c).owed t = 0 ∧ (pdats m ρ p c).recorded t = Set.univ := by
  intro p; fin_cases p <;> exact fun _ _ => ⟨rfl, rfl, rfl⟩

-- A kernel region as a segment between two boundaries: its arrays are split out of the unscoped buffers at entry and joined back at exit.
def regSeg (p : Fin 7) (hw : Pipeline.WinFacts₀ (𝕔 p).spec)
    (hbp : ∀ w : Fin (𝕔 p).W, 0 < ((𝕔 p).spec w).block.numel)
    (hsw : ∀ (w : Fin (𝕔 p).W) (s : Fin ((𝕔 p).spec w).nbuf), (((𝕔 p).spec w).stage s).IsWhole)
    (Win Wout : Dev nD → Valuation τ sig (Elt F))
    (hbody : ∀ c, Pipeline.BodyObligationLoose (pdats m ρ p c) (defs₀ (F := F)) 𝒱₀ () Set.univ)
    (hsplit : ∀ c, (unscopedBufs (Ix := Unit) (Name := ℕ) (U := UR sig nD τ) (Lvl := ℕ) c (fun b => Win c b) : sProp 𝕄)
      ⊢ iprop((pdats m ρ p c).arrays ((pdats m ρ p c).arrAt · 0) ∗ Pipeline.unscopedRest (𝕔 p).spec c (fun b => Win c b)))
    (hjoin : ∀ c, iprop((pdats m ρ p c).arrays ((pdats m ρ p c).arrAt · (𝕔 p).N) ∗ Pipeline.unscopedRest (𝕔 p).spec c (fun b => Win c b))
      ⊢ (unscopedBufs (Ix := Unit) (Name := ℕ) (U := UR sig nD τ) (Lvl := ℕ) c (fun b => Wout c b) : sProp 𝕄)) :
    RSeg m ρ p where
  win := hw
  block_pos := hbp
  stage_whole := hsw
  K := PEmpty
  osem k := k.elim
  ho := Pipeline.OwnSemFacts.none _
  hbody := hbody
  hwaits := Pipeline.hwaits_of_owed_zero _ _ _ _ L lv p fun c t => (pdats_facts m ρ p c t).2.1
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (𝕔 p).spec c (fun b => Win c b)
  hentry c := by
    rw [Pipeline.ownSems0_none]
    have h := hsplit c
    rw [Pipeline.unscopedBufs_held] at h
    iintro ⟨⟨Hub, Hp, HO⟩, -, -⟩
    ihave H := h $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      rw [(pdats_facts m ρ p c 0).2.1]
      icases HO with ⟨%W, HO⟩; iexists W; isplitr
      · ipureintro; intro x _; unfold Pipeline.Dat.bound; rw [(pdats_facts m ρ p c 0).2.2]; exact Or.inl trivial
      iexact HO
    iframe
  hin c := by
    rw [(pdats_facts m ρ p c 0).1]; unfold Pipeline.ΦA
    iintro ⟨Hp, -, Hr⟩
    iframe
  hout c := by
    rw [Pipeline.ownSems0_none, (pdats_facts m ρ p c (Fin.last _)).1]; unfold Pipeline.ΦA
    iintro ⟨Hr, Hp⟩
    iframe
    iempintro
  hexit c := by
    have h := hjoin c
    rw [Pipeline.unscopedBufs_held] at h
    iintro ⟨Ha, HO, HY, Hrest⟩
    imodintro
    isplitl [Ha Hrest]
    · iapply h; iframe
    isplitl [HY]; · iexact HY
    unfold Pipeline.Dat.owesAt Pipeline.owesWithin
    rw [(pdats_facts m ρ p c (Fin.last _)).2.1]
    icases HO with ⟨%W, -, HO⟩; iexists W; iexact HO

-- A region whose windows sit on distinct arrays, each held whole: the split and the join are the library's.
def regOf (p : Fin 7) (kit : Pipeline.LaunchFacts (nD := nD) (τ := τ) cfgs p)
    (Win Wout : Dev nD → Valuation τ sig (Elt F))
    (hbody : ∀ c, Pipeline.BodyObligationLoose (pdats m ρ p c) (defs₀ (F := F)) 𝒱₀ () Set.univ)
    (hA : ∀ c w, (pdats m ρ p c).A w = Win c (Pipeline.arrRef (𝕔 p).spec w))
    (hF : ∀ c w, Wout c (Proc.devRef .tc (Pipeline.arrRef (𝕔 p).spec w)) = (pdats m ρ p c).arrAt w (𝕔 p).N)
    (hne : ∀ c (b : Ref sig .tc), (∀ w, Pipeline.arrRef (𝕔 p).spec w ≠ b) → Wout c (Proc.devRef .tc b) = Win c (Proc.devRef .tc b))
    (hq : ∀ c w, (pdats m ρ p c).q w = fullShare := by exact fun _ _ => rfl) : RSeg m ρ p :=
  regSeg m ρ p kit.win.to₀ kit.block_pos kit.stage_whole Win Wout hbody
    (fun c => Pipeline.arrays_of_unscopedBufs (p := p) (pcfgs (F := F)) adm (pdats m ρ) kit.win kit.arr_whole c
      ((pdats m ρ p c).share_full (hq c)) (fun b => Win c b) (hA c))
    fun c => Pipeline.unscopedBufs_of_arrays (p := p) (pcfgs (F := F)) adm (Ix := Unit) (Name := ℕ) (U := UR sig nD τ) (Lvl := ℕ)
      kit.win kit.arr_whole c (pdats m ρ) ((pdats m ρ p c).share_full (hq c))
      (fun b => Win c b) (fun b => Wout c b) ((pdats m ρ p c).arrAt · (𝕔 p).N) (fun w => (hF c w).symm)
      fun b hb => hne c b fun w e => hb (Finset.mem_image.mpr ⟨w, Finset.mem_univ _, e⟩)

def reg0 : RSeg m ρ 0 :=
  regOf m ρ 0 launch0 (W3 m ρ) (W4 m ρ)
    (fun c => (body_obligation0 (V3 m ρ) c).loose) (A_eq0 (V3 m ρ)) (W4_arr m ρ) (W4_of_ne m ρ)
def reg1 : RSeg m ρ 1 :=
  regOf m ρ 1 launch1 (W4 m ρ) (W5 m ρ)
    (fun c => (body_obligation1 (V4 m ρ) c).loose) (A_eq1 (V4 m ρ)) (W5_arr m ρ) (W5_of_ne m ρ)
def reg2 : RSeg m ρ 2 :=
  regOf m ρ 2 launch2 (W6 m ρ) (W7 m ρ)
    (fun c => (body_obligation2 (V6 m ρ) c).loose) (A_eq2 (V6 m ρ)) (W7_arr m ρ) (W7_of_ne m ρ)
def reg3 : RSeg m ρ 3 :=
  regOf m ρ 3 launch3 (W8 m ρ) (W9 m ρ)
    (fun c => (body_obligation3 (V8 m ρ) c).loose) (A_eq3 (V8 m ρ)) (W9_arr m ρ) (W9_of_ne m ρ)
def reg4 : RSeg m ρ 4 :=
  regOf m ρ 4 launch4 (W10 m ρ) (W11 m ρ)
    (fun c => (body_obligation4 (V10 m ρ) c).loose) (A_eq4 (V10 m ρ)) (W11_arr m ρ) (W11_of_ne m ρ)
def reg5 : RSeg m ρ 5 :=
  regOf m ρ 5 launch5 (W14 m ρ) (W15 m ρ)
    (fun c => (body_obligation5 (V14 m ρ) c).loose) (A_eq5 (V14 m ρ)) (W15_arr m ρ) (W15_of_ne m ρ)

end Cert.Kernel.Hand

end
-- ==== Proof.K.Run6.lean ====
import proofs.«430304_j36258113913429_2_alg».proof.Proof.K.RunRegs

noncomputable section

namespace Cert.Kernel.Hand

open Cert.Kernel Cert.Kernel.Gen
open Idealize.ShloMosaic Idealize.ShloMosaic.TcCoe Idealize.ShloMosaic.Tactic
open Idealize.SL Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg6 : RSeg m ρ 6 :=
  regSeg m ρ 6 winFacts₀6 block_pos6 stage_whole6 (W16 m ρ) (W17 m ρ) (fun c => (body_obligation6 (V16 m ρ) c).loose)
    (arrays_of_unscopedBufs6 (V16 m ρ))
    fun c => unscopedBufs_of_arrays6 (V16 m ρ) c (fun b => W17 m ρ c b) (W17_out m ρ c).symm (hrest6 m ρ c)

end Cert.Kernel.Hand

end
-- ==== Proof.K.RunMain.lean ====
import proofs.«430304_j36258113913429_2_alg».proof.Proof.K.Run6

noncomputable section

namespace Cert.Kernel.Hand

open Cert.Kernel Cert.Kernel.Gen
open Idealize.ShloMosaic Idealize.ShloMosaic.TcCoe Idealize.ShloMosaic.Tactic
open Idealize.SL Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .region (reg2 m ρ),
    .host (hseg hostOps3 hostOps3_sub hostOps3_fresh (W7 m ρ)),
    .region (reg3 m ρ),
    .host (hseg hostOps4 hostOps4_sub hostOps4_fresh (W9 m ρ)),
    .region (reg4 m ρ),
    .host (hseg hostOps5 hostOps5_sub hostOps5_fresh (W11 m ρ)),
    .host (hseg hostOps5_1 hostOps5_1_sub hostOps5_1_fresh (W12 m ρ)),
    .host (hseg hostOps5_2 hostOps5_2_sub hostOps5_2_fresh (W13 m ρ)),
    .region (reg5 m ρ),
    .host (hseg hostOps6 hostOps6_sub hostOps6_fresh (W15 m ρ)),
    .region (reg6 m ρ) ]

theorem main_run (c : Dev nD) : main (F := F) c = Pipeline.Seg.run (segs m ρ) := (main_chain c).trans (by chain_rfl)

-- Every fair run of @main ends, and ends with each unscoped buffer at the last boundary's contents.
theorem run_all : θ_run defs (onTc (τ := τ) (main (F := F))) ⟨m, fun _ => 0, ρ⟩ (fun r => ∀ c : Dev nD,
      ∀ b ∈ Pipeline.ucRefs τ sig, r.2.mem ((c : Thread nD τ).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by repeat' first | exact fun _ => .rfl | exact fun _ => Laws.sep_assoc.2 | refine ⟨?_, ?_⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

-- A buffer that no host stretch writes and no region has among its arrays ends as launched.
theorem W17_of_untouched (c : Dev nD) (r : Ref sig .tc)
    (hh : r ∉ hostOps0_W ∧ r ∉ hostOps0_1_W ∧ r ∉ hostOps0_2_W ∧ r ∉ hostOps2_W ∧ r ∉ hostOps3_W ∧ r ∉ hostOps4_W
      ∧ r ∉ hostOps5_W ∧ r ∉ hostOps5_1_W ∧ r ∉ hostOps5_2_W ∧ r ∉ hostOps6_W)
    (hr : (∀ w, Pipeline.arrRef spec0 w ≠ r) ∧ (∀ w, Pipeline.arrRef spec1 w ≠ r) ∧ (∀ w, Pipeline.arrRef spec2 w ≠ r)
      ∧ (∀ w, Pipeline.arrRef spec3 w ≠ r) ∧ (∀ w, Pipeline.arrRef spec4 w ≠ r) ∧ (∀ w, Pipeline.arrRef spec5 w ≠ r)
      ∧ (∀ w, Pipeline.arrRef spec6 w ≠ r)) :
    W17 m ρ c (Proc.devRef .tc r) = m ((c : Thread nD τ).loc r) := by
  obtain ⟨a0, a1, a2, a5, a7, a9, a11, a12, a13, a15⟩ := hh
  obtain ⟨r0, r1, r2, r3, r4, r5, r6⟩ := hr
  rw [W17_of_ne m ρ c r r6, W16_of m ρ c r a15, W15_of_ne m ρ c r r5, W14_of m ρ c r a13, W13_of m ρ c r a12,
    W12_of m ρ c r a11, W11_of_ne m ρ c r r4, W10_of m ρ c r a9, W9_of_ne m ρ c r r3, W8_of m ρ c r a7,
    W7_of_ne m ρ c r r2, W6_of m ρ c r a5, W5_of_ne m ρ c r r1, W4_of_ne m ρ c r r0, W3_of m ρ c r a2,
    W2_of m ρ c r a1, W1_of m ρ c r a0]

theorem W17_main_arg0 (c : Dev nD) : W17 m ρ c (Proc.devRef .tc main_arg0) = m ((c : Thread nD τ).loc main_arg0) :=
  W17_of_untouched m ρ c main_arg0 (by decide) (by decide)
theorem W17_main_arg1 (c : Dev nD) : W17 m ρ c (Proc.devRef .tc main_arg1) = m ((c : Thread nD τ).loc main_arg1) :=
  W17_of_untouched m ρ c main_arg1 (by decide) (by decide)
theorem W17_main_arg2 (c : Dev nD) : W17 m ρ c (Proc.devRef .tc main_arg2) = m ((c : Thread nD τ).loc main_arg2) :=
  W17_of_untouched m ρ c main_arg2 (by decide) (by decide)
theorem W17_main_arg3 (c : Dev nD) : W17 m ρ c (Proc.devRef .tc main_arg3) = m ((c : Thread nD τ).loc main_arg3) :=
  W17_of_untouched m ρ c main_arg3 (by decide) (by decide)
theorem W17_main_arg4 (c : Dev nD) : W17 m ρ c (Proc.devRef .tc main_arg4) = m ((c : Thread nD τ).loc main_arg4) :=
  W17_of_untouched m ρ c main_arg4 (by decide) (by decide)
theorem W17_main_arg5 (c : Dev nD) : W17 m ρ c (Proc.devRef .tc main_arg5) = m ((c : Thread nD τ).loc main_arg5) :=
  W17_of_untouched m ρ c main_arg5 (by decide) (by decide)
theorem W17_main_arg6 (c : Dev nD) : W17 m ρ c (Proc.devRef .tc main_arg6) = m ((c : Thread nD τ).loc main_arg6) :=
  W17_of_untouched m ρ c main_arg6 (by decide) (by decide)
theorem W17_main_arg7 (c : Dev nD) : W17 m ρ c (Proc.devRef .tc main_arg7) = m ((c : Thread nD τ).loc main_arg7) :=
  W17_of_untouched m ρ c main_arg7 (by decide) (by decide)
theorem W17_main_arg8 (c : Dev nD) : W17 m ρ c (Proc.devRef .tc main_arg8) = m ((c : Thread nD τ).loc main_arg8) :=
  W17_of_untouched m ρ c main_arg8 (by decide) (by decide)
theorem W17_main_arg9 (c : Dev nD) : W17 m ρ c (Proc.devRef .tc main_arg9) = m ((c : Thread nD τ).loc main_arg9) :=
  W17_of_untouched m ρ c main_arg9 (by decide) (by decide)
theorem W17_main_arg10 (c : Dev nD) : W17 m ρ c (Proc.devRef .tc main_arg10) = m ((c : Thread nD τ).loc main_arg10) :=
  W17_of_untouched m ρ c main_arg10 (by decide) (by decide)
theorem W17_main_arg11 (c : Dev nD) : W17 m ρ c (Proc.devRef .tc main_arg11) = m ((c : Thread nD τ).loc main_arg11) :=
  W17_of_untouched m ρ c main_arg11 (by decide) (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    refine ⟨?_, ?_, ?_, ?_, ?_, ?_, ?_, ?_, ?_, ?_, ?_, ?_⟩ <;>
      exact (h c _ (mem_uc _ (by decide))).trans (W17_of_untouched m ρ c _ (by decide) (by decide))) (run_all m ρ)

end Cert.Kernel.Hand

end
-- ==== Proof.KI.Reg0.lean ====
import proofs.«430304_j36258113913429_2_alg».proof.Proof.Gen.KernelIdeal.Launch
import proofs.«430304_j36258113913429_2_alg».proof.Proof.Gen.KernelIdeal.Skeleton
import proofs.«430304_j36258113913429_2_alg».proof.Proof.Gen.KernelIdeal.Points
import proofs.«430304_j36258113913429_2_alg».proof.Proof.LibBody

noncomputable section

namespace Cert.KernelIdeal.Hand

open Cert.KernelIdeal Cert.KernelIdeal.Gen Cert.LibBody
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x10240 := Rect.unit (s := S512x10240) ![0, 0] S512x10240.size inb_S512x10240_S512x10240_0_0
abbrev r0_1 : Rect S10240x256 := Rect.unit (s := S10240x256) ![0, 0] S10240x256.size inb_S10240x256_S10240x256_0_0
abbrev r0_2 : Rect S512x1 := Rect.unit (s := S512x1) ![0, 0] S512x1.size inb_S512x1_S512x1_0_0
abbrev r0_3 : Rect S512x256 := Rect.unit (s := S512x256) ![0, 0] S512x256.size inb_S512x256_S512x256_0_0

def out0_4 (x0 : Vec F S512x10240 .bf16) (x1 : Vec F S10240x256 .bf16) (x2 : Vec F S512x1 .f32) (x3 : Vec F S512x256 .f32) : Vec F S512x256 .f32 :=
  View.canon [⟨r0_3, k0_pay1 (View.ld x0 r0_0) (View.ld x1 r0_1) (View.ld x2 r0_2) (View.ld x3 r0_3)⟩]

theorem out0_4_eq (x0 : Vec F S512x10240 .bf16) (x1 : Vec F S10240x256 .bf16) (x2 : Vec F S512x1 .f32) (x3 : Vec F S512x256 .f32) :
    out0_4 x0 x1 x2 x3 = k0_pay1 x0 x1 x2 x3 :=
  canon_pay origin origin origin origin _ _ _ _ k0_pay1 x0 x1 x2 x3

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

-- An input is left as found, so by induction on the point it reads as its block there.
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

-- The kernel's triple at the inputs' blocks, framed by the invariant and the debts.
theorem body_obligation0 (c : Dev nD) : BodyObligation (dat0 (F := F) V c) (defs₀ (F := F)) Variants.none () Set.univ := fun t => by
  rw [bigSep_W0, bigSep_W0]
  change _ ⊢ wp frame _ _ (bodyAt0 t) _
  unfold bodyAt0
  simp only [cc0__adjmm_kernel_eq_skeleton]; unfold cc0__adjmm_kernel_skel
  exact wp_load4_store (S0 := S512x10240) (S1 := S10240x256) (S2 := S512x1) (S3 := S512x256)
    (n0 := h_S512x10240) (n1 := h_S10240x256) (n2 := h_S512x1) (n3 := h_S512x256) origin origin origin origin k0_pay1
    (before0_0 V c t) (before0_1 V c t) (before0_2 V c t) (before0_3 V c t) ((after0_4 V c t).trans (out0_4_eq _ _ _ _))

end Cert.KernelIdeal.Hand
-- ==== Proof.KI.Reg1.lean ====
import proofs.«430304_j36258113913429_2_alg».proof.Proof.Gen.KernelIdeal.Launch
import proofs.«430304_j36258113913429_2_alg».proof.Proof.Gen.KernelIdeal.Skeleton
import proofs.«430304_j36258113913429_2_alg».proof.Proof.Gen.KernelIdeal.Points
import proofs.«430304_j36258113913429_2_alg».proof.Proof.LibBody

noncomputable section

namespace Cert.KernelIdeal.Hand

open Cert.KernelIdeal Cert.KernelIdeal.Gen Cert.LibBody
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S512x10240 := Rect.unit (s := S512x10240) ![0, 0] S512x10240.size inb_S512x10240_S512x10240_0_0
abbrev r1_1 : Rect S10240x256 := Rect.unit (s := S10240x256) ![0, 0] S10240x256.size inb_S10240x256_S10240x256_0_0
abbrev r1_2 : Rect S512x1 := Rect.unit (s := S512x1) ![0, 0] S512x1.size inb_S512x1_S512x1_0_0
abbrev r1_3 : Rect S512x256 := Rect.unit (s := S512x256) ![0, 0] S512x256.size inb_S512x256_S512x256_0_0

def out1_4 (x0 : Vec F S512x10240 .bf16) (x1 : Vec F S10240x256 .bf16) (x2 : Vec F S512x1 .f32) (x3 : Vec F S512x256 .f32) : Vec F S512x256 .f32 :=
  View.canon [⟨r1_3, k1_pay1 (View.ld x0 r1_0) (View.ld x1 r1_1) (View.ld x2 r1_2) (View.ld x3 r1_3)⟩]

theorem out1_4_eq (x0 : Vec F S512x10240 .bf16) (x1 : Vec F S10240x256 .bf16) (x2 : Vec F S512x1 .f32) (x3 : Vec F S512x256 .f32) :
    out1_4 x0 x1 x2 x3 = k1_pay1 x0 x1 x2 x3 :=
  canon_pay origin origin origin origin _ _ _ _ k1_pay1 x0 x1 x2 x3

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = out1_4 (iblk1 V c 0 t) (iblk1 V c 1 t) (iblk1 V c 2 t) (iblk1 V c 3 t) := by dsimp only [dat1]

-- An input is left as found, so by induction on the point it reads as its block there.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

-- The kernel's triple at the inputs' blocks, framed by the invariant and the debts.
theorem body_obligation1 (c : Dev nD) : BodyObligation (dat1 (F := F) V c) (defs₀ (F := F)) Variants.none () Set.univ := fun t => by
  rw [bigSep_W1, bigSep_W1]
  change _ ⊢ wp frame _ _ (bodyAt1 t) _
  unfold bodyAt1
  simp only [cc1__adjmm_kernel_eq_skeleton]; unfold cc1__adjmm_kernel_skel
  exact wp_load4_store (S0 := S512x10240) (S1 := S10240x256) (S2 := S512x1) (S3 := S512x256)
    (n0 := h_S512x10240) (n1 := h_S10240x256) (n2 := h_S512x1) (n3 := h_S512x256) origin origin origin origin k1_pay1
    (before1_0 V c t) (before1_1 V c t) (before1_2 V c t) (before1_3 V c t) ((after1_4 V c t).trans (out1_4_eq _ _ _ _))

end Cert.KernelIdeal.Hand
-- ==== Proof.KI.Reg2.lean ====
import proofs.«430304_j36258113913429_2_alg».proof.Proof.Gen.KernelIdeal.Launch
import proofs.«430304_j36258113913429_2_alg».proof.Proof.Gen.KernelIdeal.Skeleton
import proofs.«430304_j36258113913429_2_alg».proof.Proof.Gen.KernelIdeal.Points
import proofs.«430304_j36258113913429_2_alg».proof.Proof.LibBody

noncomputable section

namespace Cert.KernelIdeal.Hand

open Cert.KernelIdeal Cert.KernelIdeal.Gen Cert.LibBody
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x10240 := Rect.unit (s := S512x10240) ![0, 0] S512x10240.size inb_S512x10240_S512x10240_0_0
abbrev r2_1 : Rect S10240x64 := Rect.unit (s := S10240x64) ![0, 0] S10240x64.size inb_S10240x64_S10240x64_0_0
abbrev r2_2 : Rect S512x1 := Rect.unit (s := S512x1) ![0, 0] S512x1.size inb_S512x1_S512x1_0_0
abbrev r2_3 : Rect S512x64 := Rect.unit (s := S512x64) ![0, 0] S512x64.size inb_S512x64_S512x64_0_0

def out2_4 (x0 : Vec F S512x10240 .bf16) (x1 : Vec F S10240x64 .bf16) (x2 : Vec F S512x1 .f32) (x3 : Vec F S512x64 .f32) : Vec F S512x64 .f32 :=
  View.canon [⟨r2_3, k2_pay1 (View.ld x0 r2_0) (View.ld x1 r2_1) (View.ld x2 r2_2) (View.ld x3 r2_3)⟩]

theorem out2_4_eq (x0 : Vec F S512x10240 .bf16) (x1 : Vec F S10240x64 .bf16) (x2 : Vec F S512x1 .f32) (x3 : Vec F S512x64 .f32) :
    out2_4 x0 x1 x2 x3 = k2_pay1 x0 x1 x2 x3 :=
  canon_pay origin origin origin origin _ _ _ _ k2_pay1 x0 x1 x2 x3

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = out2_4 (iblk2 V c 0 t) (iblk2 V c 1 t) (iblk2 V c 2 t) (iblk2 V c 3 t) := by dsimp only [dat2]

-- An input is left as found, so by induction on the point it reads as its block there.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

-- The kernel's triple at the inputs' blocks, framed by the invariant and the debts.
theorem body_obligation2 (c : Dev nD) : BodyObligation (dat2 (F := F) V c) (defs₀ (F := F)) Variants.none () Set.univ := fun t => by
  rw [bigSep_W2, bigSep_W2]
  change _ ⊢ wp frame _ _ (bodyAt2 t) _
  unfold bodyAt2
  simp only [cc2__adjmm_kernel_eq_skeleton]; unfold cc2__adjmm_kernel_skel
  exact wp_load4_store (S0 := S512x10240) (S1 := S10240x64) (S2 := S512x1) (S3 := S512x64)
    (n0 := h_S512x10240) (n1 := h_S10240x64) (n2 := h_S512x1) (n3 := h_S512x64) origin origin origin origin k2_pay1
    (before2_0 V c t) (before2_1 V c t) (before2_2 V c t) (before2_3 V c t) ((after2_4 V c t).trans (out2_4_eq _ _ _ _))

end Cert.KernelIdeal.Hand
-- ==== Proof.KI.Reg3.lean ====
import proofs.«430304_j36258113913429_2_alg».proof.Proof.Gen.KernelIdeal.Launch
import proofs.«430304_j36258113913429_2_alg».proof.Proof.Gen.KernelIdeal.Skeleton
import proofs.«430304_j36258113913429_2_alg».proof.Proof.Gen.KernelIdeal.Points
import proofs.«430304_j36258113913429_2_alg».proof.Proof.LibBody

noncomputable section

namespace Cert.KernelIdeal.Hand

open Cert.KernelIdeal Cert.KernelIdeal.Gen Cert.LibBody
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S512x10240 := Rect.unit (s := S512x10240) ![0, 0] S512x10240.size inb_S512x10240_S512x10240_0_0
abbrev r3_1 : Rect S10240x64 := Rect.unit (s := S10240x64) ![0, 0] S10240x64.size inb_S10240x64_S10240x64_0_0
abbrev r3_2 : Rect S512x1 := Rect.unit (s := S512x1) ![0, 0] S512x1.size inb_S512x1_S512x1_0_0
abbrev r3_3 : Rect S512x64 := Rect.unit (s := S512x64) ![0, 0] S512x64.size inb_S512x64_S512x64_0_0

def out3_4 (x0 : Vec F S512x10240 .bf16) (x1 : Vec F S10240x64 .bf16) (x2 : Vec F S512x1 .f32) (x3 : Vec F S512x64 .f32) : Vec F S512x64 .f32 :=
  View.canon [⟨r3_3, k3_pay1 (View.ld x0 r3_0) (View.ld x1 r3_1) (View.ld x2 r3_2) (View.ld x3 r3_3)⟩]

theorem out3_4_eq (x0 : Vec F S512x10240 .bf16) (x1 : Vec F S10240x64 .bf16) (x2 : Vec F S512x1 .f32) (x3 : Vec F S512x64 .f32) :
    out3_4 x0 x1 x2 x3 = k3_pay1 x0 x1 x2 x3 :=
  canon_pay origin origin origin origin _ _ _ _ k3_pay1 x0 x1 x2 x3

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) :
    (dat3 V c).after 4 t = out3_4 (iblk3 V c 0 t) (iblk3 V c 1 t) (iblk3 V c 2 t) (iblk3 V c 3 t) := by dsimp only [dat3]

-- An input is left as found, so by induction on the point it reads as its block there.
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

-- The kernel's triple at the inputs' blocks, framed by the invariant and the debts.
theorem body_obligation3 (c : Dev nD) : BodyObligation (dat3 (F := F) V c) (defs₀ (F := F)) Variants.none () Set.univ := fun t => by
  rw [bigSep_W3, bigSep_W3]
  change _ ⊢ wp frame _ _ (bodyAt3 t) _
  unfold bodyAt3
  simp only [cc3__adjmm_kernel_eq_skeleton]; unfold cc3__adjmm_kernel_skel
  exact wp_load4_store (S0 := S512x10240) (S1 := S10240x64) (S2 := S512x1) (S3 := S512x64)
    (n0 := h_S512x10240) (n1 := h_S10240x64) (n2 := h_S512x1) (n3 := h_S512x64) origin origin origin origin k3_pay1
    (before3_0 V c t) (before3_1 V c t) (before3_2 V c t) (before3_3 V c t) ((after3_4 V c t).trans (out3_4_eq _ _ _ _))

end Cert.KernelIdeal.Hand
-- ==== Proof.KI.Reg4.lean ====
import proofs.«430304_j36258113913429_2_alg».proof.Proof.Gen.KernelIdeal.Launch
import proofs.«430304_j36258113913429_2_alg».proof.Proof.Gen.KernelIdeal.Skeleton
import proofs.«430304_j36258113913429_2_alg».proof.Proof.Gen.KernelIdeal.Points
import proofs.«430304_j36258113913429_2_alg».proof.Proof.LibBody

noncomputable section

namespace Cert.KernelIdeal.Hand

open Cert.KernelIdeal Cert.KernelIdeal.Gen Cert.LibBody
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S512x10240 := Rect.unit (s := S512x10240) ![0, 0] S512x10240.size inb_S512x10240_S512x10240_0_0
abbrev r4_1 : Rect S10240x128 := Rect.unit (s := S10240x128) ![0, 0] S10240x128.size inb_S10240x128_S10240x128_0_0
abbrev r4_2 : Rect S512x1 := Rect.unit (s := S512x1) ![0, 0] S512x1.size inb_S512x1_S512x1_0_0
abbrev r4_3 : Rect S512x128 := Rect.unit (s := S512x128) ![0, 0] S512x128.size inb_S512x128_S512x128_0_0

def out4_4 (x0 : Vec F S512x10240 .bf16) (x1 : Vec F S10240x128 .bf16) (x2 : Vec F S512x1 .f32) (x3 : Vec F S512x128 .f32) : Vec F S512x128 .f32 :=
  View.canon [⟨r4_3, k4_pay1 (View.ld x0 r4_0) (View.ld x1 r4_1) (View.ld x2 r4_2) (View.ld x3 r4_3)⟩]

theorem out4_4_eq (x0 : Vec F S512x10240 .bf16) (x1 : Vec F S10240x128 .bf16) (x2 : Vec F S512x1 .f32) (x3 : Vec F S512x128 .f32) :
    out4_4 x0 x1 x2 x3 = k4_pay1 x0 x1 x2 x3 :=
  canon_pay origin origin origin origin _ _ _ _ k4_pay1 x0 x1 x2 x3

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) :
    (dat4 V c).after 4 t = out4_4 (iblk4 V c 0 t) (iblk4 V c 1 t) (iblk4 V c 2 t) (iblk4 V c 3 t) := by dsimp only [dat4]

-- An input is left as found, so by induction on the point it reads as its block there.
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

-- The kernel's triple at the inputs' blocks, framed by the invariant and the debts.
theorem body_obligation4 (c : Dev nD) : BodyObligation (dat4 (F := F) V c) (defs₀ (F := F)) Variants.none () Set.univ := fun t => by
  rw [bigSep_W4, bigSep_W4]
  change _ ⊢ wp frame _ _ (bodyAt4 t) _
  unfold bodyAt4
  simp only [cc4__adjmm_kernel_eq_skeleton]; unfold cc4__adjmm_kernel_skel
  exact wp_load4_store (S0 := S512x10240) (S1 := S10240x128) (S2 := S512x1) (S3 := S512x128)
    (n0 := h_S512x10240) (n1 := h_S10240x128) (n2 := h_S512x1) (n3 := h_S512x128) origin origin origin origin k4_pay1
    (before4_0 V c t) (before4_1 V c t) (before4_2 V c t) (before4_3 V c t) ((after4_4 V c t).trans (out4_4_eq _ _ _ _))

end Cert.KernelIdeal.Hand
-- ==== Proof.KI.Reg5.lean ====
import proofs.«430304_j36258113913429_2_alg».proof.Proof.Gen.KernelIdeal.Launch
import proofs.«430304_j36258113913429_2_alg».proof.Proof.Gen.KernelIdeal.Skeleton
import proofs.«430304_j36258113913429_2_alg».proof.Proof.Gen.KernelIdeal.Points
import proofs.«430304_j36258113913429_2_alg».proof.Proof.LibBody

noncomputable section

namespace Cert.KernelIdeal.Hand

open Cert.KernelIdeal Cert.KernelIdeal.Gen Cert.LibBody
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S512x10240 := Rect.unit (s := S512x10240) ![0, 0] S512x10240.size inb_S512x10240_S512x10240_0_0
abbrev r5_1 : Rect S10240x256 := Rect.unit (s := S10240x256) ![0, 0] S10240x256.size inb_S10240x256_S10240x256_0_0
abbrev r5_2 : Rect S512x1 := Rect.unit (s := S512x1) ![0, 0] S512x1.size inb_S512x1_S512x1_0_0
abbrev r5_3 : Rect S512x256 := Rect.unit (s := S512x256) ![0, 0] S512x256.size inb_S512x256_S512x256_0_0

def out5_4 (x0 : Vec F S512x10240 .bf16) (x1 : Vec F S10240x256 .bf16) (x2 : Vec F S512x1 .f32) (x3 : Vec F S512x256 .f32) : Vec F S512x256 .f32 :=
  View.canon [⟨r5_3, k5_pay1 (View.ld x0 r5_0) (View.ld x1 r5_1) (View.ld x2 r5_2) (View.ld x3 r5_3)⟩]

theorem out5_4_eq (x0 : Vec F S512x10240 .bf16) (x1 : Vec F S10240x256 .bf16) (x2 : Vec F S512x1 .f32) (x3 : Vec F S512x256 .f32) :
    out5_4 x0 x1 x2 x3 = k5_pay1 x0 x1 x2 x3 :=
  canon_pay origin origin origin origin _ _ _ _ k5_pay1 x0 x1 x2 x3

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_4 (c : Dev nD) (t : Fin cfg5.N) :
    (dat5 V c).after 4 t = out5_4 (iblk5 V c 0 t) (iblk5 V c 1 t) (iblk5 V c 2 t) (iblk5 V c 3 t) := by dsimp only [dat5]

-- An input is left as found, so by induction on the point it reads as its block there.
theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

-- The kernel's triple at the inputs' blocks, framed by the invariant and the debts.
theorem body_obligation5 (c : Dev nD) : BodyObligation (dat5 (F := F) V c) (defs₀ (F := F)) Variants.none () Set.univ := fun t => by
  rw [bigSep_W5, bigSep_W5]
  change _ ⊢ wp frame _ _ (bodyAt5 t) _
  unfold bodyAt5
  simp only [cc5__adjmm_kernel_eq_skeleton]; unfold cc5__adjmm_kernel_skel
  exact wp_load4_store (S0 := S512x10240) (S1 := S10240x256) (S2 := S512x1) (S3 := S512x256)
    (n0 := h_S512x10240) (n1 := h_S10240x256) (n2 := h_S512x1) (n3 := h_S512x256) origin origin origin origin k5_pay1
    (before5_0 V c t) (before5_1 V c t) (before5_2 V c t) (before5_3 V c t) ((after5_4 V c t).trans (out5_4_eq _ _ _ _))

end Cert.KernelIdeal.Hand
-- ==== Proof.KI.Reg6.lean ====
import proofs.«430304_j36258113913429_2_alg».proof.Proof.Gen.KernelIdeal.Launch
import proofs.«430304_j36258113913429_2_alg».proof.Proof.Gen.KernelIdeal.Skeleton
import proofs.«430304_j36258113913429_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S200x64 := Rect.unit (s := S200x64) ![0, 0] S200x64.size inb_S200x64_S200x64_0_0
abbrev r6_1 : Rect S10000x64 := Rect.unit (s := S10000x64) ![0, 0] S10000x64.size inb_S10000x64_S10000x64_0_0
abbrev r6_2 : Rect S200x10000 := Rect.unit (s := S200x10000) ![0, 0] S200x10000.size inb_S200x10000_S200x10000_0_0

theorem off6_zero : (![0, 0] : Fin 2 → Nat) = fun _ => 0 := by
  funext a; fin_cases a <;> rfl

def out6_2 (x0 : Vec F S200x64 .bf16) (x1 : Vec F S10000x64 .bf16) : Vec F S200x10000 .f32 :=
  View.canon [⟨r6_2, k6_pay1 (View.ld x0 r6_0) (View.ld x1 r6_1)⟩]

theorem out6_2_eq (x0 : Vec F S200x64 .bf16) (x1 : Vec F S10000x64 .bf16) : out6_2 x0 x1 = k6_pay1 x0 x1 := by
  unfold out6_2
  rw [View.canon_unit_zero off6_zero, View.ld_unit_zero off6_zero, View.ld_unit_zero off6_zero]

theorem cover6_2 (p0 : Vec F S200x10000 .f32) (y : S200x10000.Idx) :
    ∃ pc ∈ ([⟨r6_2, p0⟩] : List (View.Piece (Elt F) S200x10000 .f32)), y ∈ pc.1.set :=
  ⟨_, List.mem_singleton_self _, View.mem_set_unit_zero off6_zero inb_S200x10000_S200x10000_0_0 y⟩

theorem sound_kernel6 (c : Dev nD) (E : Set ℕ) (i : grid6.Coords)
    (arg1 : Memref sig .tc .vmem S200x64 .bf16) (harg1 : arg1.IsWhole)
    (arg2 : Memref sig .tc .vmem S10000x64 .bf16) (harg2 : arg2.IsWhole)
    (arg3 : Memref sig .tc .vmem S200x10000 .f32) (harg3 : arg3.IsWhole)
    (x0 : Vec F S200x64 .bf16) (x1 : Vec F S10000x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__hs_outer_kernel i arg1 harg1 arg2 harg2 arg3 harg3) K := by
  simp only [cc6__hs_outer_kernel_eq_skeleton]; unfold cc6__hs_outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q w := match w with
    | ⟨0, _⟩ => fullShare.left
    | ⟨1, _⟩ => fullShare.right
    | ⟨2, _⟩ => fullShare
  owed _ := 0

theorem A_eq6 (c : Dev nD) (w : Fin cfg6.W) : (dat6 V c).A w = V c (Pipeline.arrRef spec6 w) := rfl

theorem after6_0 (c : Dev nD) (t : Fin cfg6.N) : (dat6 V c).after 0 t = iblk6 V c 0 t := rfl
theorem after6_1 (c : Dev nD) (t : Fin cfg6.N) : (dat6 V c).after 1 t = iblk6 V c 1 t := rfl
theorem after6_2 (c : Dev nD) (t : Fin cfg6.N) : (dat6 V c).after 2 t = out6_2 (iblk6 V c 0 t) (iblk6 V c 1 t) := by dsimp only [dat6]

theorem share6_0 (c : Dev nD) : (dat6 V c).share 0 = fullShare.left := rfl
theorem share6_1 (c : Dev nD) : (dat6 V c).share 1 = fullShare.right := rfl
theorem share6_2 (c : Dev nD) : (dat6 V c).share 2 = fullShare := rfl

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  iframe

theorem body_obligation6 (c : Dev nD) : BodyObligation (dat6 (F := F) V c) (defs₀ (F := F)) Variants.none () Set.univ := fun t => by
  rw [bigSep_W6, bigSep_W6]
  exact sound_body6 V c t

theorem arrRef6_ne : Pipeline.arrRef spec6 0 ≠ Pipeline.arrRef spec6 2 := by decide
theorem arrRefs6 : Finset.univ.image (Pipeline.arrRef spec6) = {Pipeline.arrRef spec6 0, Pipeline.arrRef spec6 2} := by
  ext b
  simp only [Finset.mem_image, Finset.mem_univ, true_and, Finset.mem_insert, Finset.mem_singleton]
  constructor
  · rintro ⟨w, rfl⟩
    fin_cases w
    exacts [Or.inl rfl, Or.inl rfl, Or.inr rfl]
  · rintro (rfl | rfl)
    exacts [⟨0, rfl⟩, ⟨2, rfl⟩]

theorem arrays6_eq (c : Dev nD) (G : (w : Fin cfg6.W) → Buf (Elt F) ((cfg6.win w).arr.view.loc (c : Thread nD τ))) :
    (dat6 V c).arrays G
      = iprop((((c : Thread nD τ).loc (Pipeline.arrRef spec6 0)) ↦{fullShare.left} G 0)
          ∗ (((c : Thread nD τ).loc (Pipeline.arrRef spec6 1)) ↦{fullShare.right} G 1)
          ∗ (((c : Thread nD τ).loc (Pipeline.arrRef spec6 2)) ↦{fullShare} G 2) : sProp 𝕄) := by
  unfold Dat.arrays
  rw [bigSep_W6, share6_0, share6_1, share6_2, (arr_whole6 0).set_eq_univ, (arr_whole6 2).set_eq_univ]

-- A core's unscoped buffers: the two buffers behind region 6's windows, each whole, and the rest.
theorem unscopedBufs6_eq (c : Dev nD) (V₁ : (b : Ref sig .tc) → Buf (Elt F) ((c : Thread nD τ).loc b)) :
    (unscopedBufs (Ix := Unit) (Name := ℕ) (U := UR sig nD τ) (Lvl := ℕ) c V₁ : sProp 𝕄)
      = iprop(((((c : Thread nD τ).loc (Pipeline.arrRef spec6 0)) ↦{fullShare} V₁ (Pipeline.arrRef spec6 0))
          ∗ (((c : Thread nD τ).loc (Pipeline.arrRef spec6 2)) ↦{fullShare} V₁ (Pipeline.arrRef spec6 2)))
          ∗ Pipeline.unscopedRest spec6 c V₁) := by
  rw [Pipeline.unscopedBufs_split₀ (fun _ : Unit => cfg6) () winFacts₀6.arr_unscoped c V₁]
  unfold Pipeline.arrBufs
  rw [arrRefs6, bigSep_insert (by rw [Finset.mem_singleton]; exact arrRef6_ne), bigSep_singleton]
  rfl

theorem arrays_of_unscopedBufs6 (c : Dev nD) :
    (unscopedBufs (Ix := Unit) (Name := ℕ) (U := UR sig nD τ) (Lvl := ℕ) c (V c) : sProp 𝕄)
      ⊢ iprop((dat6 V c).arrays ((dat6 V c).arrAt · 0) ∗ Pipeline.unscopedRest spec6 c (V c)) := by
  have hA : ∀ w, (dat6 V c).arrAt w 0 = V c (Pipeline.arrRef spec6 w) := fun w => rfl
  rw [unscopedBufs6_eq, arrays6_eq, hA 0, hA 1, hA 2]
  iintro ⟨⟨Hr, Hw⟩, Hrest⟩
  ihave Hr := (pointsTo_share (PosShare.mem_left_op_right fullShare)).1 $$ Hr
  icases Hr with ⟨Hl, Hr⟩
  iframe

theorem unscopedBufs_of_arrays6 (c : Dev nD) (V' : (b : Ref sig .tc) → Buf (Elt F) ((c : Thread nD τ).loc b))
    (hout : (dat6 V c).arrAt 2 cfg6.N = V' (Pipeline.arrRef spec6 2))
    (hrest : ∀ b, b ≠ Pipeline.arrRef spec6 2 → V' b = V c b) :
    iprop((dat6 V c).arrays ((dat6 V c).arrAt · cfg6.N) ∗ Pipeline.unscopedRest spec6 c (V c))
      ⊢ (unscopedBufs (Ix := Unit) (Name := ℕ) (U := UR sig nD τ) (Lvl := ℕ) c V' : sProp 𝕄) := by
  have hR : (Pipeline.unscopedRest spec6 c V' : sProp 𝕄) = Pipeline.unscopedRest spec6 c (V c) := by
    unfold Pipeline.unscopedRest
    exact bigSep_congr fun b hb => by
      rw [hrest b fun e => (Finset.mem_sdiff.mp hb).2 (e ▸ Finset.mem_image.mpr ⟨2, Finset.mem_univ _, rfl⟩)]
  have h0 : (dat6 V c).arrAt 0 cfg6.N = V' (Pipeline.arrRef spec6 0) :=
    ((dat6 V c).arrAt_in 0 rfl _).trans ((A_eq6 V c 0).trans (hrest _ arrRef6_ne).symm)
  have h1 : (dat6 V c).arrAt 1 cfg6.N = V' (Pipeline.arrRef spec6 0) :=
    ((dat6 V c).arrAt_in 1 rfl _).trans ((A_eq6 V c 1).trans (hrest _ arrRef6_ne).symm)
  rw [unscopedBufs6_eq, arrays6_eq, hR, h0, h1, hout]
  iintro ⟨⟨Hl, Hr, Hw⟩, Hrest⟩
  iframe Hw Hrest
  iapply (pointsTo_share (PosShare.mem_left_op_right fullShare)).2
  iframe

end Region6

end Cert.KernelIdeal.Hand

end
-- ==== Proof.KI.RunDefs.lean ====
import proofs.«430304_j36258113913429_2_alg».proof.Proof.Gen.KernelIdeal.Regions
import proofs.«430304_j36258113913429_2_alg».proof.Proof.KI.Reg0
import proofs.«430304_j36258113913429_2_alg».proof.Proof.KI.Reg1
import proofs.«430304_j36258113913429_2_alg».proof.Proof.KI.Reg2
import proofs.«430304_j36258113913429_2_alg».proof.Proof.KI.Reg3
import proofs.«430304_j36258113913429_2_alg».proof.Proof.KI.Reg4
import proofs.«430304_j36258113913429_2_alg».proof.Proof.KI.Reg5
import proofs.«430304_j36258113913429_2_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev V4 : (c : Dev nD) → (b : Ref sig .tc) → Buf (Elt F) ((c : Thread nD τ).loc b) := fun c b => W4 m ρ c b
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N :=
  Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) :=
  Pipeline.withArrays_of_ne spec1 c _ _ b hb
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N :=
  Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) :=
  Pipeline.withArrays_of_ne spec2 c _ _ b hb
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N :=
  Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) :=
  Pipeline.withArrays_of_ne spec3 c _ _ b hb
abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N :=
  Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) :=
  Pipeline.withArrays_of_ne spec4 c _ _ b hb
abbrev W12 : Dev nD → Valuation τ sig (Elt F) := fun c => StableHlo.after hostOps5 (W11 m ρ c)
abbrev W13 : Dev nD → Valuation τ sig (Elt F) := fun c => StableHlo.after hostOps5_1 (W12 m ρ c)
abbrev W14 : Dev nD → Valuation τ sig (Elt F) := fun c => StableHlo.after hostOps5_2 (W13 m ρ c)
abbrev V14 : (c : Dev nD) → (b : Ref sig .tc) → Buf (Elt F) ((c : Thread nD τ).loc b) := fun c b => W14 m ρ c b
def W15 (c : Dev nD) : Valuation τ sig (Elt F) :=
  Pipeline.withArrays spec5 c (W14 m ρ c) fun w => (dat5 (V14 m ρ) c).arrAt w cfg5.N
theorem W15_arr (c : Dev nD) (w : Fin cfg5.W) :
    W15 m ρ c (Proc.devRef .tc (Pipeline.arrRef spec5 w)) = (dat5 (V14 m ρ) c).arrAt w cfg5.N :=
  Pipeline.withArrays_arr spec5 launch5.win.arr_inj c _ _ w
theorem W15_of_ne (c : Dev nD) (b : Ref sig .tc) (hb : ∀ w, Pipeline.arrRef spec5 w ≠ b) :
    W15 m ρ c (Proc.devRef .tc b) = W14 m ρ c (Proc.devRef .tc b) :=
  Pipeline.withArrays_of_ne spec5 c _ _ b hb
abbrev W16 : Dev nD → Valuation τ sig (Elt F) := fun c => StableHlo.after hostOps6 (W15 m ρ c)
abbrev V16 : (c : Dev nD) → (b : Ref sig .tc) → Buf (Elt F) ((c : Thread nD τ).loc b) := fun c b => W16 m ρ c b
def W17 (c : Dev nD) : Valuation τ sig (Elt F) :=
  Pipeline.withArrays spec6 c (W16 m ρ c) fun w => (dat6 (V16 m ρ) c).arrAt w cfg6.N

-- Read at a window's array, `withArrays` gives that window's contents as soon as the windows sharing the array agree.
theorem withArrays_arr_of {gr W : Nat} (win : Fin W → Pipeline.WinSpec sig gr) (c : Dev nD) (V : Valuation τ sig (Elt F))
    (A : (w : Fin W) → Buf (Elt F) ((win w).arr.view.loc (c.tc : Thread nD τ))) (w : Fin W)
    (hA : ∀ w', Pipeline.arrRef win w' = Pipeline.arrRef win w → HEq (A w') (A w)) :
    Pipeline.withArrays win c V A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  exact eq_of_heq ((cast_heq _ _).trans (hA _ (Proc.devRef_injective _ h.choose_spec)))

theorem spec6_shared : ∀ w w' : Fin 3, Pipeline.arrRef spec6 w' = Pipeline.arrRef spec6 w →
    w' = w ∨ ((cfg6.win w').isOut = false ∧ (cfg6.win w).isOut = false) := by decide

-- Two windows of region 6 share an array only if both read it, and an array that is only read keeps its entry contents.
theorem W17_arr (c : Dev nD) (w : Fin cfg6.W) :
    W17 m ρ c (Proc.devRef .tc (Pipeline.arrRef spec6 w)) = (dat6 (V16 m ρ) c).arrAt w cfg6.N := by
  refine withArrays_arr_of spec6 c _ _ w fun w' e => ?_
  rcases spec6_shared w w' e with rfl | ⟨h', h⟩
  · exact HEq.rfl
  · rw [(dat6 (V16 m ρ) c).arrAt_in w' h' _, (dat6 (V16 m ρ) c).arrAt_in w h _, A_eq6, A_eq6]
    exact congr_arg_heq (fun r => V16 m ρ c r) e
theorem W17_out (c : Dev nD) :
    W17 m ρ c (Proc.devRef .tc main_v119) = (dat6 (V16 m ρ) c).arrAt 2 cfg6.N := W17_arr m ρ c 2
theorem W17_of_ne (c : Dev nD) (b : Ref sig .tc) (hb : ∀ w, Pipeline.arrRef spec6 w ≠ b) :
    W17 m ρ c (Proc.devRef .tc b) = W16 m ρ c (Proc.devRef .tc b) :=
  Pipeline.withArrays_of_ne spec6 c _ _ b hb
theorem spec6_in_of_ne : ∀ w : Fin 3, Pipeline.arrRef spec6 w ≠ Pipeline.arrRef spec6 2 → (cfg6.win w).isOut = false := by decide
-- Region 6 changes only its output array: its other arrays are read, never written.
theorem hrest6 (c : Dev nD) (b : Ref sig .tc) (hb : b ≠ Pipeline.arrRef spec6 2) :
    W17 m ρ c (Proc.devRef .tc b) = W16 m ρ c (Proc.devRef .tc b) := by
  by_cases h : ∃ w, Pipeline.arrRef spec6 w = b
  · obtain ⟨w, rfl⟩ := h
    exact (W17_arr m ρ c w).trans (((dat6 (V16 m ρ) c).arrAt_in w (spec6_in_of_ne w hb) _).trans (A_eq6 (V16 m ρ) c w))
  · exact W17_of_ne m ρ c b fun w e => h ⟨w, e⟩

theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W6_of (c : Dev nD) (r : Ref sig .tc) (h : r ∉ hostOps2_W) : W6 m ρ c r = W5 m ρ c r :=
  StableHlo.after_of_writes_sub hostOps2 _ hostOps2_writes h
theorem W8_of (c : Dev nD) (r : Ref sig .tc) (h : r ∉ hostOps3_W) : W8 m ρ c r = W7 m ρ c r :=
  StableHlo.after_of_writes_sub hostOps3 _ hostOps3_writes h
theorem W10_of (c : Dev nD) (r : Ref sig .tc) (h : r ∉ hostOps4_W) : W10 m ρ c r = W9 m ρ c r :=
  StableHlo.after_of_writes_sub hostOps4 _ hostOps4_writes h
theorem W12_of (c : Dev nD) (r : Ref sig .tc) (h : r ∉ hostOps5_W) : W12 m ρ c r = W11 m ρ c r :=
  StableHlo.after_of_writes_sub hostOps5 _ hostOps5_writes h
theorem W13_of (c : Dev nD) (r : Ref sig .tc) (h : r ∉ hostOps5_1_W) : W13 m ρ c r = W12 m ρ c r :=
  StableHlo.after_of_writes_sub hostOps5_1 _ hostOps5_1_writes h
theorem W14_of (c : Dev nD) (r : Ref sig .tc) (h : r ∉ hostOps5_2_W) : W14 m ρ c r = W13 m ρ c r :=
  StableHlo.after_of_writes_sub hostOps5_2 _ hostOps5_2_writes h
theorem W16_of (c : Dev nD) (r : Ref sig .tc) (h : r ∉ hostOps6_W) : W16 m ρ c r = W15 m ρ c r :=
  StableHlo.after_of_writes_sub hostOps6 _ hostOps6_writes h

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V6 m ρ) c
  | ⟨3, _⟩ => fun c => dat3 (V8 m ρ) c
  | ⟨4, _⟩ => fun c => dat4 (V10 m ρ) c
  | ⟨5, _⟩ => fun c => dat5 (V14 m ρ) c
  | ⟨6, _⟩ => fun c => dat6 (V16 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

end Cert.KernelIdeal.Hand

end
-- ==== Proof.KI.RunRegs.lean ====
import proofs.«430304_j36258113913429_2_alg».proof.Proof.KI.RunDefs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

local notation "𝕔" => Pipeline.pin (pcfgs (F := F)) adm

abbrev RSeg (p : Fin 7) := Pipeline.RegionSeg (pcfgs (F := F)) adm (pdats m ρ) () defs₀ 𝒱₀ L lv p

-- Every region's proof data keep the same invariant, owe nothing, and put no bound on what is recorded.
theorem pdats_facts : ∀ (p : Fin 7) (c : Dev nD) t, (pdats m ρ p c).Φ t = Pipeline.ΦA (𝕔 p).spec c
    ∧ (pdats m ρ p c).owed t = 0 ∧ (pdats m ρ p c).recorded t = Set.univ := by
  intro p; fin_cases p <;> exact fun _ _ => ⟨rfl, rfl, rfl⟩

-- A kernel region as a segment between two boundaries: its arrays are split out of the unscoped buffers at entry and joined back at exit.
def regSeg (p : Fin 7) (hw : Pipeline.WinFacts₀ (𝕔 p).spec)
    (hbp : ∀ w : Fin (𝕔 p).W, 0 < ((𝕔 p).spec w).block.numel)
    (hsw : ∀ (w : Fin (𝕔 p).W) (s : Fin ((𝕔 p).spec w).nbuf), (((𝕔 p).spec w).stage s).IsWhole)
    (Win Wout : Dev nD → Valuation τ sig (Elt F))
    (hbody : ∀ c, Pipeline.BodyObligationLoose (pdats m ρ p c) (defs₀ (F := F)) 𝒱₀ () Set.univ)
    (hsplit : ∀ c, (unscopedBufs (Ix := Unit) (Name := ℕ) (U := UR sig nD τ) (Lvl := ℕ) c (fun b => Win c b) : sProp 𝕄)
      ⊢ iprop((pdats m ρ p c).arrays ((pdats m ρ p c).arrAt · 0) ∗ Pipeline.unscopedRest (𝕔 p).spec c (fun b => Win c b)))
    (hjoin : ∀ c, iprop((pdats m ρ p c).arrays ((pdats m ρ p c).arrAt · (𝕔 p).N) ∗ Pipeline.unscopedRest (𝕔 p).spec c (fun b => Win c b))
      ⊢ (unscopedBufs (Ix := Unit) (Name := ℕ) (U := UR sig nD τ) (Lvl := ℕ) c (fun b => Wout c b) : sProp 𝕄)) :
    RSeg m ρ p where
  win := hw
  block_pos := hbp
  stage_whole := hsw
  K := PEmpty
  osem k := k.elim
  ho := Pipeline.OwnSemFacts.none _
  hbody := hbody
  hwaits := Pipeline.hwaits_of_owed_zero _ _ _ _ L lv p fun c t => (pdats_facts m ρ p c t).2.1
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (𝕔 p).spec c (fun b => Win c b)
  hentry c := by
    rw [Pipeline.ownSems0_none]
    have h := hsplit c
    rw [Pipeline.unscopedBufs_held] at h
    iintro ⟨⟨Hub, Hp, HO⟩, -, -⟩
    ihave H := h $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      rw [(pdats_facts m ρ p c 0).2.1]
      icases HO with ⟨%W, HO⟩; iexists W; isplitr
      · ipureintro; intro x _; unfold Pipeline.Dat.bound; rw [(pdats_facts m ρ p c 0).2.2]; exact Or.inl trivial
      iexact HO
    iframe
  hin c := by
    rw [(pdats_facts m ρ p c 0).1]; unfold Pipeline.ΦA
    iintro ⟨Hp, -, Hr⟩
    iframe
  hout c := by
    rw [Pipeline.ownSems0_none, (pdats_facts m ρ p c (Fin.last _)).1]; unfold Pipeline.ΦA
    iintro ⟨Hr, Hp⟩
    iframe
    iempintro
  hexit c := by
    have h := hjoin c
    rw [Pipeline.unscopedBufs_held] at h
    iintro ⟨Ha, HO, HY, Hrest⟩
    imodintro
    isplitl [Ha Hrest]
    · iapply h; iframe
    isplitl [HY]; · iexact HY
    unfold Pipeline.Dat.owesAt Pipeline.owesWithin
    rw [(pdats_facts m ρ p c (Fin.last _)).2.1]
    icases HO with ⟨%W, -, HO⟩; iexists W; iexact HO

-- A region whose windows sit on distinct arrays, each held whole: the split and the join are the library's.
def regOf (p : Fin 7) (kit : Pipeline.LaunchFacts (nD := nD) (τ := τ) cfgs p)
    (Win Wout : Dev nD → Valuation τ sig (Elt F))
    (hbody : ∀ c, Pipeline.BodyObligationLoose (pdats m ρ p c) (defs₀ (F := F)) 𝒱₀ () Set.univ)
    (hA : ∀ c w, (pdats m ρ p c).A w = Win c (Pipeline.arrRef (𝕔 p).spec w))
    (hF : ∀ c w, Wout c (Proc.devRef .tc (Pipeline.arrRef (𝕔 p).spec w)) = (pdats m ρ p c).arrAt w (𝕔 p).N)
    (hne : ∀ c (b : Ref sig .tc), (∀ w, Pipeline.arrRef (𝕔 p).spec w ≠ b) → Wout c (Proc.devRef .tc b) = Win c (Proc.devRef .tc b))
    (hq : ∀ c w, (pdats m ρ p c).q w = fullShare := by exact fun _ _ => rfl) : RSeg m ρ p :=
  regSeg m ρ p kit.win.to₀ kit.block_pos kit.stage_whole Win Wout hbody
    (fun c => Pipeline.arrays_of_unscopedBufs (p := p) (pcfgs (F := F)) adm (pdats m ρ) kit.win kit.arr_whole c
      ((pdats m ρ p c).share_full (hq c)) (fun b => Win c b) (hA c))
    fun c => Pipeline.unscopedBufs_of_arrays (p := p) (pcfgs (F := F)) adm (Ix := Unit) (Name := ℕ) (U := UR sig nD τ) (Lvl := ℕ)
      kit.win kit.arr_whole c (pdats m ρ) ((pdats m ρ p c).share_full (hq c))
      (fun b => Win c b) (fun b => Wout c b) ((pdats m ρ p c).arrAt · (𝕔 p).N) (fun w => (hF c w).symm)
      fun b hb => hne c b fun w e => hb (Finset.mem_image.mpr ⟨w, Finset.mem_univ _, e⟩)

def reg0 : RSeg m ρ 0 :=
  regOf m ρ 0 launch0 (W3 m ρ) (W4 m ρ)
    (fun c => (body_obligation0 (V3 m ρ) c).loose) (A_eq0 (V3 m ρ)) (W4_arr m ρ) (W4_of_ne m ρ)
def reg1 : RSeg m ρ 1 :=
  regOf m ρ 1 launch1 (W4 m ρ) (W5 m ρ)
    (fun c => (body_obligation1 (V4 m ρ) c).loose) (A_eq1 (V4 m ρ)) (W5_arr m ρ) (W5_of_ne m ρ)
def reg2 : RSeg m ρ 2 :=
  regOf m ρ 2 launch2 (W6 m ρ) (W7 m ρ)
    (fun c => (body_obligation2 (V6 m ρ) c).loose) (A_eq2 (V6 m ρ)) (W7_arr m ρ) (W7_of_ne m ρ)
def reg3 : RSeg m ρ 3 :=
  regOf m ρ 3 launch3 (W8 m ρ) (W9 m ρ)
    (fun c => (body_obligation3 (V8 m ρ) c).loose) (A_eq3 (V8 m ρ)) (W9_arr m ρ) (W9_of_ne m ρ)
def reg4 : RSeg m ρ 4 :=
  regOf m ρ 4 launch4 (W10 m ρ) (W11 m ρ)
    (fun c => (body_obligation4 (V10 m ρ) c).loose) (A_eq4 (V10 m ρ)) (W11_arr m ρ) (W11_of_ne m ρ)
def reg5 : RSeg m ρ 5 :=
  regOf m ρ 5 launch5 (W14 m ρ) (W15 m ρ)
    (fun c => (body_obligation5 (V14 m ρ) c).loose) (A_eq5 (V14 m ρ)) (W15_arr m ρ) (W15_of_ne m ρ)

end Cert.KernelIdeal.Hand

end
-- ==== Proof.KI.Run6.lean ====
import proofs.«430304_j36258113913429_2_alg».proof.Proof.KI.RunRegs

noncomputable section

namespace Cert.KernelIdeal.Hand

open Cert.KernelIdeal Cert.KernelIdeal.Gen
open Idealize.ShloMosaic Idealize.ShloMosaic.TcCoe Idealize.ShloMosaic.Tactic
open Idealize.SL Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg6 : RSeg m ρ 6 :=
  regSeg m ρ 6 winFacts₀6 block_pos6 stage_whole6 (W16 m ρ) (W17 m ρ) (fun c => (body_obligation6 (V16 m ρ) c).loose)
    (arrays_of_unscopedBufs6 (V16 m ρ))
    fun c => unscopedBufs_of_arrays6 (V16 m ρ) c (fun b => W17 m ρ c b) (W17_out m ρ c).symm (hrest6 m ρ c)

end Cert.KernelIdeal.Hand

end
-- ==== Proof.KI.RunMain.lean ====
import proofs.«430304_j36258113913429_2_alg».proof.Proof.KI.Run6

noncomputable section

namespace Cert.KernelIdeal.Hand

open Cert.KernelIdeal Cert.KernelIdeal.Gen
open Idealize.ShloMosaic Idealize.ShloMosaic.TcCoe Idealize.ShloMosaic.Tactic
open Idealize.SL Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .region (reg2 m ρ),
    .host (hseg hostOps3 hostOps3_sub hostOps3_fresh (W7 m ρ)),
    .region (reg3 m ρ),
    .host (hseg hostOps4 hostOps4_sub hostOps4_fresh (W9 m ρ)),
    .region (reg4 m ρ),
    .host (hseg hostOps5 hostOps5_sub hostOps5_fresh (W11 m ρ)),
    .host (hseg hostOps5_1 hostOps5_1_sub hostOps5_1_fresh (W12 m ρ)),
    .host (hseg hostOps5_2 hostOps5_2_sub hostOps5_2_fresh (W13 m ρ)),
    .region (reg5 m ρ),
    .host (hseg hostOps6 hostOps6_sub hostOps6_fresh (W15 m ρ)),
    .region (reg6 m ρ) ]

theorem main_run (c : Dev nD) : main (F := F) c = Pipeline.Seg.run (segs m ρ) := (main_chain c).trans (by chain_rfl)

-- Every fair run of @main ends, and ends with each unscoped buffer at the last boundary's contents.
theorem run_all : θ_run defs (onTc (τ := τ) (main (F := F))) ⟨m, fun _ => 0, ρ⟩ (fun r => ∀ c : Dev nD,
      ∀ b ∈ Pipeline.ucRefs τ sig, r.2.mem ((c : Thread nD τ).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by repeat' first | exact fun _ => .rfl | exact fun _ => Laws.sep_assoc.2 | refine ⟨?_, ?_⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

-- A buffer that no host stretch writes and no region has among its arrays ends as launched.
theorem W17_of_untouched (c : Dev nD) (r : Ref sig .tc)
    (hh : r ∉ hostOps0_W ∧ r ∉ hostOps0_1_W ∧ r ∉ hostOps0_2_W ∧ r ∉ hostOps2_W ∧ r ∉ hostOps3_W ∧ r ∉ hostOps4_W
      ∧ r ∉ hostOps5_W ∧ r ∉ hostOps5_1_W ∧ r ∉ hostOps5_2_W ∧ r ∉ hostOps6_W)
    (hr : (∀ w, Pipeline.arrRef spec0 w ≠ r) ∧ (∀ w, Pipeline.arrRef spec1 w ≠ r) ∧ (∀ w, Pipeline.arrRef spec2 w ≠ r)
      ∧ (∀ w, Pipeline.arrRef spec3 w ≠ r) ∧ (∀ w, Pipeline.arrRef spec4 w ≠ r) ∧ (∀ w, Pipeline.arrRef spec5 w ≠ r)
      ∧ (∀ w, Pipeline.arrRef spec6 w ≠ r)) :
    W17 m ρ c (Proc.devRef .tc r) = m ((c : Thread nD τ).loc r) := by
  obtain ⟨a0, a1, a2, a5, a7, a9, a11, a12, a13, a15⟩ := hh
  obtain ⟨r0, r1, r2, r3, r4, r5, r6⟩ := hr
  rw [W17_of_ne m ρ c r r6, W16_of m ρ c r a15, W15_of_ne m ρ c r r5, W14_of m ρ c r a13, W13_of m ρ c r a12,
    W12_of m ρ c r a11, W11_of_ne m ρ c r r4, W10_of m ρ c r a9, W9_of_ne m ρ c r r3, W8_of m ρ c r a7,
    W7_of_ne m ρ c r r2, W6_of m ρ c r a5, W5_of_ne m ρ c r r1, W4_of_ne m ρ c r r0, W3_of m ρ c r a2,
    W2_of m ρ c r a1, W1_of m ρ c r a0]

theorem W17_main_arg0 (c : Dev nD) : W17 m ρ c (Proc.devRef .tc main_arg0) = m ((c : Thread nD τ).loc main_arg0) :=
  W17_of_untouched m ρ c main_arg0 (by decide) (by decide)
theorem W17_main_arg1 (c : Dev nD) : W17 m ρ c (Proc.devRef .tc main_arg1) = m ((c : Thread nD τ).loc main_arg1) :=
  W17_of_untouched m ρ c main_arg1 (by decide) (by decide)
theorem W17_main_arg2 (c : Dev nD) : W17 m ρ c (Proc.devRef .tc main_arg2) = m ((c : Thread nD τ).loc main_arg2) :=
  W17_of_untouched m ρ c main_arg2 (by decide) (by decide)
theorem W17_main_arg3 (c : Dev nD) : W17 m ρ c (Proc.devRef .tc main_arg3) = m ((c : Thread nD τ).loc main_arg3) :=
  W17_of_untouched m ρ c main_arg3 (by decide) (by decide)
theorem W17_main_arg4 (c : Dev nD) : W17 m ρ c (Proc.devRef .tc main_arg4) = m ((c : Thread nD τ).loc main_arg4) :=
  W17_of_untouched m ρ c main_arg4 (by decide) (by decide)
theorem W17_main_arg5 (c : Dev nD) : W17 m ρ c (Proc.devRef .tc main_arg5) = m ((c : Thread nD τ).loc main_arg5) :=
  W17_of_untouched m ρ c main_arg5 (by decide) (by decide)
theorem W17_main_arg6 (c : Dev nD) : W17 m ρ c (Proc.devRef .tc main_arg6) = m ((c : Thread nD τ).loc main_arg6) :=
  W17_of_untouched m ρ c main_arg6 (by decide) (by decide)
theorem W17_main_arg7 (c : Dev nD) : W17 m ρ c (Proc.devRef .tc main_arg7) = m ((c : Thread nD τ).loc main_arg7) :=
  W17_of_untouched m ρ c main_arg7 (by decide) (by decide)
theorem W17_main_arg8 (c : Dev nD) : W17 m ρ c (Proc.devRef .tc main_arg8) = m ((c : Thread nD τ).loc main_arg8) :=
  W17_of_untouched m ρ c main_arg8 (by decide) (by decide)
theorem W17_main_arg9 (c : Dev nD) : W17 m ρ c (Proc.devRef .tc main_arg9) = m ((c : Thread nD τ).loc main_arg9) :=
  W17_of_untouched m ρ c main_arg9 (by decide) (by decide)
theorem W17_main_arg10 (c : Dev nD) : W17 m ρ c (Proc.devRef .tc main_arg10) = m ((c : Thread nD τ).loc main_arg10) :=
  W17_of_untouched m ρ c main_arg10 (by decide) (by decide)
theorem W17_main_arg11 (c : Dev nD) : W17 m ρ c (Proc.devRef .tc main_arg11) = m ((c : Thread nD τ).loc main_arg11) :=
  W17_of_untouched m ρ c main_arg11 (by decide) (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    refine ⟨?_, ?_, ?_, ?_, ?_, ?_, ?_, ?_, ?_, ?_, ?_, ?_⟩ <;>
      exact (h c _ (mem_uc _ (by decide))).trans (W17_of_untouched m ρ c _ (by decide) (by decide))) (run_all m ρ)

end Cert.KernelIdeal.Hand

end
-- ==== Proof.KV.RegValLib.lean ====
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.ValueIdx

section Payload
variable {M K N : Nat}

-- A plain product of an M x K block by a K x N block into zero, at an index: the sum over the contracted axis.
theorem matmul_plain_apply (D : DotDims ⟨2, ![M, K]⟩ ⟨2, ![K, N]⟩ ⟨2, ![M, N]⟩) {wf} (hD : D = ⟨[1], [0], [0], [1], [], [], wf⟩)
    {φ₁ φ₂ : FTy} (x0 : FVec Ideal ⟨2, ![M, K]⟩ φ₁) (x1 : FVec Ideal ⟨2, ![K, N]⟩ φ₂) (p : Fin M) (q : Fin N) :
    matmul (F := Ideal) D none x0 x1 (constant _ .f32 0x00000000#32) (ix2 p q) = ∑ k : Fin K, x0 (ix2 p k) * x1 (ix2 k q) := by
  subst hD
  simp only [matmul]
  rw [Ideal.matmul_constant_zero_apply, ← Equiv.sum_comp (contrEquiv1 _ K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  exact congrArg₂ (· * ·) (congrArg x0 (Shape.idx_ext₂ rfl hk)) (congrArg x1 (Shape.idx_ext₂ hk rfl))

-- A column spread over the columns reads the row's entry.
theorem bcast_col_apply {α : Type} (hb : (⟨2, ![M, 1]⟩ : Shape).Broadcasts ⟨2, ![M, N]⟩) (x : (⟨2, ![M, 1]⟩ : Shape).Idx → α) (p : Fin M) (q : Fin N) :
    broadcastTo _ x hb (ix2 p q) = x (ix2 p 0) :=
  broadcastTo_apply x hb (ix2 p q) (ix2 p 0) fun a => match a with
    | ⟨0, _⟩ => by show p.val = if M = 1 then 0 else p.val; have := p.isLt; split <;> omega
    | ⟨1, _⟩ => by show 0 = if (1 : Nat) = 1 then 0 else q.val; rw [if_pos rfl]

-- The product, scaled row by row and shifted, at an index.
theorem adjpay_apply (D : DotDims ⟨2, ![M, K]⟩ ⟨2, ![K, N]⟩ ⟨2, ![M, N]⟩) {wf} (hD : D = ⟨[1], [0], [0], [1], [], [], wf⟩)
    (hb : (⟨2, ![M, 1]⟩ : Shape).Broadcasts ⟨2, ![M, N]⟩) {φ₁ φ₂ : FTy} (x0 : FVec Ideal ⟨2, ![M, K]⟩ φ₁) (x1 : FVec Ideal ⟨2, ![K, N]⟩ φ₂)
    (x2 : FVec Ideal ⟨2, ![M, 1]⟩ .f32) (x3 : FVec Ideal ⟨2, ![M, N]⟩ .f32) (p : Fin M) (q : Fin N) :
    addf (mulf (matmul D none x0 x1 (constant _ .f32 0x00000000#32)) (broadcastTo _ x2 hb)) x3 (ix2 p q)
      = (∑ k : Fin K, x0 (ix2 p k) * x1 (ix2 k q)) * x2 (ix2 p 0) + x3 (ix2 p q) := by
  rw [addf_apply, mulf_apply, matmul_plain_apply D hD, bcast_col_apply]

end Payload

section Rows
variable {n0 n1 : Nat} {idx size xs : Fin 2 → Nat} {inb : ∀ a, idx a * size a + xs a ≤ (⟨2, ![n0, n1]⟩ : Shape).size a}

-- An element of the block at block index (t, 0) sits t blocks down its array, in its own column.
theorem emb_rows (x : (Rect.unit (s := ⟨2, ![n0, n1]⟩) (fun a => idx a * size a) xs inb).shape.Idx) (k : (⟨2, ![n0, n1]⟩ : Shape).Idx) {t : Nat}
    (e0 : idx 0 = t) (e1 : idx 1 = 0) (h0 : (k 0).val = t * size 0 + (x 0).val) (h1 : (k 1).val = (x 1).val) :
    (Rect.unit (s := ⟨2, ![n0, n1]⟩) (fun a => idx a * size a) xs inb).emb x = k :=
  Shape.idx_ext₂ (by show idx 0 * size 0 + 1 * (x 0).val = (k 0).val; rw [h0, e0]; omega)
    (by show idx 1 * size 1 + 1 * (x 1).val = (k 1).val; rw [h1, e1]; omega)

-- At block index (0, 0) it sits where it is.
theorem emb_origin (x : (Rect.unit (s := ⟨2, ![n0, n1]⟩) (fun a => idx a * size a) xs inb).shape.Idx) (k : (⟨2, ![n0, n1]⟩ : Shape).Idx)
    (e0 : idx 0 = 0) (e1 : idx 1 = 0) (h0 : (k 0).val = (x 0).val) (h1 : (k 1).val = (x 1).val) :
    (Rect.unit (s := ⟨2, ![n0, n1]⟩) (fun a => idx a * size a) xs inb).emb x = k :=
  emb_rows x k e0 e1 (by rw [h0]; omega) h1

-- Row r lies in the full-width block of B rows at block index (r / B, 0).
theorem mem_rows {B : Nat} (i : (⟨2, ![n0, n1]⟩ : Shape).Idx) (e0 : idx 0 = (i 0).val / B) (e1 : idx 1 = 0)
    (s0 : size 0 = B) (x0 : xs 0 = B) (x1 : xs 1 = n1) (hB : 0 < B) :
    i ∈ (Rect.unit (s := ⟨2, ![n0, n1]⟩) (fun a => idx a * size a) xs inb).set :=
  Rect.mem_set_unit.2 fun a => match a with
    | ⟨0, _⟩ => by
      show idx 0 * size 0 ≤ (i 0).val ∧ (i 0).val < idx 0 * size 0 + xs 0
      rw [e0, s0, x0]; exact ⟨Nat.div_mul_le_self _ _, Nat.lt_div_mul_add hB⟩
    | ⟨1, _⟩ => by
      show idx 1 * size 1 ≤ (i 1).val ∧ (i 1).val < idx 1 * size 1 + xs 1
      rw [e1, x1]; have := idx2_lt1 i; omega

end Rows

end Cert.KernelIdeal.Hand

end
-- ==== Proof.KV.Reg0Val.lean ====
import proofs.«430304_j36258113913429_2_alg».proof.Proof.KI.Reg0
import proofs.«430304_j36258113913429_2_alg».proof.Proof.KV.RegValLib

noncomputable section

namespace Cert.KernelIdeal.Hand

open Cert.KernelIdeal.Gen Idealize.ShloMosaic Idealize.ShloMosaic.TcCoe Idealize.ShloMosaic.ValueIdx

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

abbrev adjmm0 (A : S10240x10240.Idx → EReal) (X : S10240x256.Idx → EReal) (sc : S10240x1.Idx → EReal) (co : S10240x256.Idx → EReal) :
    S10240x256.Idx → EReal := fun j =>
  (∑ q : Fin 10240, A (ix2 (j 0) q) * X (ix2 q (j 1))) * sc (ix2 (j 0) 0) + co j

-- Each block is its array read t blocks down (the right factor's whole), so what point t writes back is its block of the closed form.
theorem flushed0_eq (c : Dev nD) (t : Fin cfg0.N) :
    (dat0 V c).flushed 4 t
      = ((cfg0.win 4).blk t).view.read (Elt Ideal) (adjmm0 (V c main_v53) (V c main_v57) (V c main_v22) (V c main_v58)) := by
  show (cfg0.win 4).cut (grid0.coords t) ((dat0 V c).after 4 t) = _
  rw [after0_4, out0_4_eq]
  obtain ⟨a0, a1, b0, b1, s0, s1, o0, o1, r0, r1⟩ := idx_facts0 t
  funext y
  have h0 := (win0_4.rect_emb_val t y 0).trans (congrArg (· * 512 + (y 0).val) r0)
  have h1 := win0_4.rect_emb_val_of_index_zero t 1 r1 y
  obtain ⟨p, q, rfl⟩ : ∃ (p : Fin 512) (q : Fin 256), y = ix2 p q := ⟨y 0, y 1, eq_ix2 y⟩
  unfold k0_pay1
  simp only [shapeCast_self]
  refine (adjpay_apply _ rfl _ _ _ _ _ p q).trans (congrArg₂ (· + ·) (congrArg₂ (· * ·) (Finset.sum_congr rfl fun k _ => congrArg₂ (· * ·) ?_ ?_) ?_) ?_)
  · exact congrArg (V c main_v53) (emb_rows _ _ a0 a1 h0 rfl)
  · exact congrArg (V c main_v57) (emb_origin _ _ b0 b1 rfl h1)
  · exact congrArg (V c main_v22) (emb_rows _ _ s0 s1 h0 rfl)
  · exact congrArg (V c main_v58) (emb_rows _ _ o0 o1 h0 h1)

-- Row r is in the block of point r / 512.
theorem cover0 (i : S10240x256.Idx) : ∃ t : Fin cfg0.N, (cfg0.win 4).flush t = true ∧ i ∈ ((cfg0.win 4).blk t).view.set := by
  have ht : (i 0).val / 512 < cfg0.N := by have := idx2_lt0 i; rw [show cfg0.N = 20 from N_0]; omega
  obtain ⟨-, -, -, -, -, -, -, -, e0, e1⟩ := idx_facts0 ⟨_, ht⟩
  exact ⟨⟨_, ht⟩, flush0_4 _, (Finset.ext_iff.1 (View.set_slice_whole main_v59 (win0_4.rect ⟨_, ht⟩)) i).2 (mem_rows i e0 e1 rfl rfl rfl (by decide))⟩

theorem arrAt0_out (c : Dev nD) : (dat0 (F := Ideal) V c).arrAt 4 cfg0.N
    = adjmm0 (V c main_v53) (V c main_v57) (V c main_v22) (V c main_v58) :=
  (dat0 V c).arrAt_eq_of_cover 4 _ (fun t _ => flushed0_eq V c t) cover0

end Cert.KernelIdeal.Hand

end
-- ==== Proof.KV.Reg1Val.lean ====
import proofs.«430304_j36258113913429_2_alg».proof.Proof.KI.Reg1
import proofs.«430304_j36258113913429_2_alg».proof.Proof.KV.RegValLib

noncomputable section

namespace Cert.KernelIdeal.Hand

open Cert.KernelIdeal.Gen Idealize.ShloMosaic Idealize.ShloMosaic.TcCoe Idealize.ShloMosaic.ValueIdx

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

abbrev adjmm1 (A : S10240x10240.Idx → EReal) (X : S10240x256.Idx → EReal) (sc : S10240x1.Idx → EReal) (co : S10240x256.Idx → EReal) :
    S10240x256.Idx → EReal := fun j =>
  (∑ q : Fin 10240, A (ix2 (j 0) q) * X (ix2 q (j 1))) * sc (ix2 (j 0) 0) + co j

-- Each block is its array read t blocks down (the right factor's whole), so what point t writes back is its block of the closed form.
theorem flushed1_eq (c : Dev nD) (t : Fin cfg1.N) :
    (dat1 V c).flushed 4 t
      = ((cfg1.win 4).blk t).view.read (Elt Ideal) (adjmm1 (V c main_v52) (V c main_v57) (V c main_v26) (V c main_v58)) := by
  show (cfg1.win 4).cut (grid1.coords t) ((dat1 V c).after 4 t) = _
  rw [after1_4, out1_4_eq]
  obtain ⟨a0, a1, b0, b1, s0, s1, o0, o1, r0, r1⟩ := idx_facts1 t
  funext y
  have h0 := (win1_4.rect_emb_val t y 0).trans (congrArg (· * 512 + (y 0).val) r0)
  have h1 := win1_4.rect_emb_val_of_index_zero t 1 r1 y
  obtain ⟨p, q, rfl⟩ : ∃ (p : Fin 512) (q : Fin 256), y = ix2 p q := ⟨y 0, y 1, eq_ix2 y⟩
  unfold k1_pay1
  simp only [shapeCast_self]
  refine (adjpay_apply _ rfl _ _ _ _ _ p q).trans (congrArg₂ (· + ·) (congrArg₂ (· * ·) (Finset.sum_congr rfl fun k _ => congrArg₂ (· * ·) ?_ ?_) ?_) ?_)
  · exact congrArg (V c main_v52) (emb_rows _ _ a0 a1 h0 rfl)
  · exact congrArg (V c main_v57) (emb_origin _ _ b0 b1 rfl h1)
  · exact congrArg (V c main_v26) (emb_rows _ _ s0 s1 h0 rfl)
  · exact congrArg (V c main_v58) (emb_rows _ _ o0 o1 h0 h1)

-- Row r is in the block of point r / 512.
theorem cover1 (i : S10240x256.Idx) : ∃ t : Fin cfg1.N, (cfg1.win 4).flush t = true ∧ i ∈ ((cfg1.win 4).blk t).view.set := by
  have ht : (i 0).val / 512 < cfg1.N := by have := idx2_lt0 i; rw [show cfg1.N = 20 from N_1]; omega
  obtain ⟨-, -, -, -, -, -, -, -, e0, e1⟩ := idx_facts1 ⟨_, ht⟩
  exact ⟨⟨_, ht⟩, flush1_4 _, (Finset.ext_iff.1 (View.set_slice_whole main_v60 (win1_4.rect ⟨_, ht⟩)) i).2 (mem_rows i e0 e1 rfl rfl rfl (by decide))⟩

theorem arrAt1_out (c : Dev nD) : (dat1 (F := Ideal) V c).arrAt 4 cfg1.N
    = adjmm1 (V c main_v52) (V c main_v57) (V c main_v26) (V c main_v58) :=
  (dat1 V c).arrAt_eq_of_cover 4 _ (fun t _ => flushed1_eq V c t) cover1

end Cert.KernelIdeal.Hand

end
-- ==== Proof.KV.Reg2Val.lean ====
import proofs.«430304_j36258113913429_2_alg».proof.Proof.KI.Reg2
import proofs.«430304_j36258113913429_2_alg».proof.Proof.KV.RegValLib

noncomputable section

namespace Cert.KernelIdeal.Hand

open Cert.KernelIdeal.Gen Idealize.ShloMosaic Idealize.ShloMosaic.TcCoe Idealize.ShloMosaic.ValueIdx

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

abbrev adjmm2 (A : S10240x10240.Idx → EReal) (X : S10240x64.Idx → EReal) (sc : S10240x1.Idx → EReal) (co : S10240x64.Idx → EReal) :
    S10240x64.Idx → EReal := fun j =>
  max ((∑ q : Fin 10240, A (ix2 (j 0) q) * X (ix2 q (j 1))) * sc (ix2 (j 0) 0) + co j) 0

-- Each block is its array read t blocks down (the right factor's whole), so what point t writes back is its block of the closed form.
theorem flushed2_eq (c : Dev nD) (t : Fin cfg2.N) :
    (dat2 V c).flushed 4 t
      = ((cfg2.win 4).blk t).view.read (Elt Ideal) (adjmm2 (V c main_v52) (V c main_v70) (V c main_v35) (V c main_v76)) := by
  show (cfg2.win 4).cut (grid2.coords t) ((dat2 V c).after 4 t) = _
  rw [after2_4, out2_4_eq]
  obtain ⟨a0, a1, b0, b1, s0, s1, o0, o1, r0, r1⟩ := idx_facts2 t
  funext y
  have h0 := (win2_4.rect_emb_val t y 0).trans (congrArg (· * 512 + (y 0).val) r0)
  have h1 := win2_4.rect_emb_val_of_index_zero t 1 r1 y
  obtain ⟨p, q, rfl⟩ : ∃ (p : Fin 512) (q : Fin 64), y = ix2 p q := ⟨y 0, y 1, eq_ix2 y⟩
  unfold k2_pay1
  simp only [shapeCast_self]
  refine (congrArg₂ max (adjpay_apply _ rfl _ _ _ _ _ p q) Ideal.ofBits_zero_f32).trans (congrArg (max · 0) (congrArg₂ (· + ·) (congrArg₂ (· * ·) (Finset.sum_congr rfl fun k _ => congrArg₂ (· * ·) ?_ ?_) ?_) ?_))
  · exact congrArg (V c main_v52) (emb_rows _ _ a0 a1 h0 rfl)
  · exact congrArg (V c main_v70) (emb_origin _ _ b0 b1 rfl h1)
  · exact congrArg (V c main_v35) (emb_rows _ _ s0 s1 h0 rfl)
  · exact congrArg (V c main_v76) (emb_rows _ _ o0 o1 h0 h1)

-- Row r is in the block of point r / 512.
theorem cover2 (i : S10240x64.Idx) : ∃ t : Fin cfg2.N, (cfg2.win 4).flush t = true ∧ i ∈ ((cfg2.win 4).blk t).view.set := by
  have ht : (i 0).val / 512 < cfg2.N := by have := idx2_lt0 i; rw [show cfg2.N = 20 from N_2]; omega
  obtain ⟨-, -, -, -, -, -, -, -, e0, e1⟩ := idx_facts2 ⟨_, ht⟩
  exact ⟨⟨_, ht⟩, flush2_4 _, (Finset.ext_iff.1 (View.set_slice_whole main_v77 (win2_4.rect ⟨_, ht⟩)) i).2 (mem_rows i e0 e1 rfl rfl rfl (by decide))⟩

theorem arrAt2_out (c : Dev nD) : (dat2 (F := Ideal) V c).arrAt 4 cfg2.N
    = adjmm2 (V c main_v52) (V c main_v70) (V c main_v35) (V c main_v76) :=
  (dat2 V c).arrAt_eq_of_cover 4 _ (fun t _ => flushed2_eq V c t) cover2

end Cert.KernelIdeal.Hand

end
-- ==== Proof.KV.Reg3Val.lean ====
import proofs.«430304_j36258113913429_2_alg».proof.Proof.KI.Reg3
import proofs.«430304_j36258113913429_2_alg».proof.Proof.KV.RegValLib

noncomputable section

namespace Cert.KernelIdeal.Hand

open Cert.KernelIdeal.Gen Idealize.ShloMosaic Idealize.ShloMosaic.TcCoe Idealize.ShloMosaic.ValueIdx

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

abbrev adjmm3 (A : S10240x10240.Idx → EReal) (X : S10240x64.Idx → EReal) (sc : S10240x1.Idx → EReal) (co : S10240x64.Idx → EReal) :
    S10240x64.Idx → EReal := fun j =>
  (∑ q : Fin 10240, A (ix2 (j 0) q) * X (ix2 q (j 1))) * sc (ix2 (j 0) 0) + co j

-- Each block is its array read t blocks down (the right factor's whole), so what point t writes back is its block of the closed form.
theorem flushed3_eq (c : Dev nD) (t : Fin cfg3.N) :
    (dat3 V c).flushed 4 t
      = ((cfg3.win 4).blk t).view.read (Elt Ideal) (adjmm3 (V c main_v52) (V c main_v81) (V c main_v35) (V c main_v87)) := by
  show (cfg3.win 4).cut (grid3.coords t) ((dat3 V c).after 4 t) = _
  rw [after3_4, out3_4_eq]
  obtain ⟨a0, a1, b0, b1, s0, s1, o0, o1, r0, r1⟩ := idx_facts3 t
  funext y
  have h0 := (win3_4.rect_emb_val t y 0).trans (congrArg (· * 512 + (y 0).val) r0)
  have h1 := win3_4.rect_emb_val_of_index_zero t 1 r1 y
  obtain ⟨p, q, rfl⟩ : ∃ (p : Fin 512) (q : Fin 64), y = ix2 p q := ⟨y 0, y 1, eq_ix2 y⟩
  unfold k3_pay1
  simp only [shapeCast_self]
  refine (adjpay_apply _ rfl _ _ _ _ _ p q).trans (congrArg₂ (· + ·) (congrArg₂ (· * ·) (Finset.sum_congr rfl fun k _ => congrArg₂ (· * ·) ?_ ?_) ?_) ?_)
  · exact congrArg (V c main_v52) (emb_rows _ _ a0 a1 h0 rfl)
  · exact congrArg (V c main_v81) (emb_origin _ _ b0 b1 rfl h1)
  · exact congrArg (V c main_v35) (emb_rows _ _ s0 s1 h0 rfl)
  · exact congrArg (V c main_v87) (emb_rows _ _ o0 o1 h0 h1)

-- Row r is in the block of point r / 512.
theorem cover3 (i : S10240x64.Idx) : ∃ t : Fin cfg3.N, (cfg3.win 4).flush t = true ∧ i ∈ ((cfg3.win 4).blk t).view.set := by
  have ht : (i 0).val / 512 < cfg3.N := by have := idx2_lt0 i; rw [show cfg3.N = 20 from N_3]; omega
  obtain ⟨-, -, -, -, -, -, -, -, e0, e1⟩ := idx_facts3 ⟨_, ht⟩
  exact ⟨⟨_, ht⟩, flush3_4 _, (Finset.ext_iff.1 (View.set_slice_whole main_v88 (win3_4.rect ⟨_, ht⟩)) i).2 (mem_rows i e0 e1 rfl rfl rfl (by decide))⟩

theorem arrAt3_out (c : Dev nD) : (dat3 (F := Ideal) V c).arrAt 4 cfg3.N
    = adjmm3 (V c main_v52) (V c main_v81) (V c main_v35) (V c main_v87) :=
  (dat3 V c).arrAt_eq_of_cover 4 _ (fun t _ => flushed3_eq V c t) cover3

end Cert.KernelIdeal.Hand

end
-- ==== Proof.KV.Reg4Val.lean ====
import proofs.«430304_j36258113913429_2_alg».proof.Proof.KI.Reg4
import proofs.«430304_j36258113913429_2_alg».proof.Proof.KV.RegValLib

noncomputable section

namespace Cert.KernelIdeal.Hand

open Cert.KernelIdeal.Gen Idealize.ShloMosaic Idealize.ShloMosaic.TcCoe Idealize.ShloMosaic.ValueIdx

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b))

abbrev adjmm4 (A : S10240x10240.Idx → EReal) (X : S10240x128.Idx → EReal) (sc : S10240x1.Idx → EReal) (co : S10240x128.Idx → EReal) :
    S10240x128.Idx → EReal := fun j =>
  (∑ q : Fin 10240, A (ix2 (j 0) q) * X (ix2 q (j 1))) * sc (ix2 (j 0) 0) + co j

-- Each block is its array read t blocks down (the right factor's whole), so what point t writes back is its block of the closed form.
theorem flushed4_eq (c : Dev nD) (t : Fin cfg4.N) :
    (dat4 V c).flushed 4 t
      = ((cfg4.win 4).blk t).view.read (Elt Ideal) (adjmm4 (V c main_v52) (V c main_v94) (V c main_v35) (V c main_v100)) := by
  show (cfg4.win 4).cut (grid4.coords t) ((dat4 V c).after 4 t) = _
  rw [after4_4, out4_4_eq]
  obtain ⟨a0, a1, b0, b1, s0, s1, o0, o1, r0, r1⟩ := idx_facts4 t
  funext y
  have h0 := (win4_4.rect_emb_val t y 0).trans (congrArg (· * 512 + (y 0).val) r0)
  have h1 := win4_4.rect_emb_val_of_index_zero t 1 r1 y
  obtain ⟨p, q, rfl⟩ : ∃ (p : Fin 512) (q : Fin 128), y = ix2 p q := ⟨y 0, y 1, eq_ix2 y⟩
  unfold k4_pay1
  simp only [shapeCast_self]
  refine (adjpay_apply _ rfl _ _ _ _ _ p q).trans (congrArg₂ (· + ·) (congrArg₂ (· * ·) (Finset.sum_congr rfl fun k _ => congrArg₂ (· * ·) ?_ ?_) ?_) ?_)
  · exact congrArg (V c main_v52) (emb_rows _ _ a0 a1 h0 rfl)
  · exact congrArg (V c main_v94) (emb_origin _ _ b0 b1 rfl h1)
  · exact congrArg (V c main_v35) (emb_rows _ _ s0 s1 h0 rfl)
  · exact congrArg (V c main_v100) (emb_rows _ _ o0 o1 h0 h1)

-- Row r is in the block of point r / 512.
theorem cover4 (i : S10240x128.Idx) : ∃ t : Fin cfg4.N, (cfg4.win 4).flush t = true ∧ i ∈ ((cfg4.win 4).blk t).view.set := by
  have ht : (i 0).val / 512 < cfg4.N := by have := idx2_lt0 i; rw [show cfg4.N = 20 from N_4]; omega
  obtain ⟨-, -, -, -, -, -, -, -, e0, e1⟩ := idx_facts4 ⟨_, ht⟩
  exact ⟨⟨_, ht⟩, flush4_4 _, (Finset.ext_iff.1 (View.set_slice_whole main_v101 (win4_4.rect ⟨_, ht⟩)) i).2 (mem_rows i e0 e1 rfl rfl rfl (by decide))⟩

theorem arrAt4_out (c : Dev nD) : (dat4 (F := Ideal) V c).arrAt 4 cfg4.N
    = adjmm4 (V c main_v52) (V c main_v94) (V c main_v35) (V c main_v100) :=
  (dat4 V c).arrAt_eq_of_cover 4 _ (fun t _ => flushed4_eq V c t) cover4

end Cert.KernelIdeal.Hand

end
-- ==== Proof.KV.Reg5Val.lean ====
import proofs.«430304_j36258113913429_2_alg».proof.Proof.KI.Reg5
import proofs.«430304_j36258113913429_2_alg».proof.Proof.KV.RegValLib

noncomputable section

namespace Cert.KernelIdeal.Hand

open Cert.KernelIdeal.Gen Idealize.ShloMosaic Idealize.ShloMosaic.TcCoe Idealize.ShloMosaic.ValueIdx

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

variable (V : (c : Dev nD) → (b : Ref sig .tc) → Buf (Elt Ideal) ((c : Thread nD τ).loc b))

abbrev adjmm5 (A : S10240x10240.Idx → EReal) (X : S10240x256.Idx → EReal) (sc : S10240x1.Idx → EReal) (co : S10240x256.Idx → EReal) :
    S10240x256.Idx → EReal := fun j =>
  (∑ q : Fin 10240, A (ix2 (j 0) q) * X (ix2 q (j 1))) * sc (ix2 (j 0) 0) + co j

-- Each block is its array read t blocks down (the right factor's whole), so what point t writes back is its block of the closed form.
theorem flushed5_eq (c : Dev nD) (t : Fin cfg5.N) :
    (dat5 V c).flushed 4 t
      = ((cfg5.win 4).blk t).view.read (Elt Ideal) (adjmm5 (V c main_v52) (V c main_v108) (V c main_v35) (V c main_v114)) := by
  show (cfg5.win 4).cut (grid5.coords t) ((dat5 V c).after 4 t) = _
  rw [after5_4, out5_4_eq]
  obtain ⟨a0, a1, b0, b1, s0, s1, o0, o1, r0, r1⟩ := idx_facts5 t
  funext y
  have h0 := (win5_4.rect_emb_val t y 0).trans (congrArg (· * 512 + (y 0).val) r0)
  have h1 := win5_4.rect_emb_val_of_index_zero t 1 r1 y
  obtain ⟨p, q, rfl⟩ : ∃ (p : Fin 512) (q : Fin 256), y = ix2 p q := ⟨y 0, y 1, eq_ix2 y⟩
  unfold k5_pay1
  simp only [shapeCast_self]
  refine (adjpay_apply _ rfl _ _ _ _ _ p q).trans (congrArg₂ (· + ·) (congrArg₂ (· * ·) (Finset.sum_congr rfl fun k _ => congrArg₂ (· * ·) ?_ ?_) ?_) ?_)
  · exact congrArg (V c main_v52) (emb_rows _ _ a0 a1 h0 rfl)
  · exact congrArg (V c main_v108) (emb_origin _ _ b0 b1 rfl h1)
  · exact congrArg (V c main_v35) (emb_rows _ _ s0 s1 h0 rfl)
  · exact congrArg (V c main_v114) (emb_rows _ _ o0 o1 h0 h1)

-- Row r is in the block of point r / 512.
theorem cover5 (i : S10240x256.Idx) : ∃ t : Fin cfg5.N, (cfg5.win 4).flush t = true ∧ i ∈ ((cfg5.win 4).blk t).view.set := by
  have ht : (i 0).val / 512 < cfg5.N := by have := idx2_lt0 i; rw [show cfg5.N = 20 from N_5]; omega
  obtain ⟨-, -, -, -, -, -, -, -, e0, e1⟩ := idx_facts5 ⟨_, ht⟩
  exact ⟨⟨_, ht⟩, flush5_4 _, (Finset.ext_iff.1 (View.set_slice_whole main_v115 (win5_4.rect ⟨_, ht⟩)) i).2 (mem_rows i e0 e1 rfl rfl rfl (by decide))⟩

theorem arrAt5_out (c : Dev nD) : (dat5 (F := Ideal) V c).arrAt 4 cfg5.N
    = adjmm5 (V c main_v52) (V c main_v108) (V c main_v35) (V c main_v114) :=
  (dat5 V c).arrAt_eq_of_cover 4 _ (fun t _ => flushed5_eq V c t) cover5

end Cert.KernelIdeal.Hand

end
-- ==== Proof.KV.Reg6Val.lean ====
import proofs.«430304_j36258113913429_2_alg».proof.Proof.KI.Reg6
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem lhs_k6_0 (i : S200x10000.Idx) (q : dot_S200x64_S10000x64_S200x10000_1_1_0_0_n_n.contr.Idx) :
    (dot_S200x64_S10000x64_S200x10000_1_1_0_0_n_n.lhsIdx i q 0).val = (i 0).val := by
  unfold DotDims.lhsIdx
  rw [dif_neg (show ¬(0 : Fin S200x64.rank) ∈ dot_S200x64_S10000x64_S200x10000_1_1_0_0_n_n.lhsBatch by decide), dif_pos (show (0 : Fin S200x64.rank) ∈ dot_S200x64_S10000x64_S200x10000_1_1_0_0_n_n.lhsNonContracting by decide)]
  rfl
theorem lhs_k6_1 (i : S200x10000.Idx) (q : dot_S200x64_S10000x64_S200x10000_1_1_0_0_n_n.contr.Idx) :
    (dot_S200x64_S10000x64_S200x10000_1_1_0_0_n_n.lhsIdx i q 1).val = (q ⟨0, by decide⟩).val :=
  dot_S200x64_S10000x64_S200x10000_1_1_0_0_n_n.lhsIdx_val_of_single rfl i q
theorem rhs_k6_0 (i : S200x10000.Idx) (q : dot_S200x64_S10000x64_S200x10000_1_1_0_0_n_n.contr.Idx) :
    (dot_S200x64_S10000x64_S200x10000_1_1_0_0_n_n.rhsIdx i q 0).val = (i 1).val := by
  unfold DotDims.rhsIdx
  rw [dif_neg (show ¬(0 : Fin S10000x64.rank) ∈ dot_S200x64_S10000x64_S200x10000_1_1_0_0_n_n.rhsBatch by decide), dif_pos (show (0 : Fin S10000x64.rank) ∈ dot_S200x64_S10000x64_S200x10000_1_1_0_0_n_n.rhsNonContracting by decide)]
  rfl
theorem rhs_k6_1 (i : S200x10000.Idx) (q : dot_S200x64_S10000x64_S200x10000_1_1_0_0_n_n.contr.Idx) :
    (dot_S200x64_S10000x64_S200x10000_1_1_0_0_n_n.rhsIdx i q 1).val = (q ⟨0, by decide⟩).val :=
  dot_S200x64_S10000x64_S200x10000_1_1_0_0_n_n.rhsIdx_val_of_single rfl i q

theorem pay6_apply (x0 : Vec Ideal S200x64 .bf16) (x1 : Vec Ideal S10000x64 .bf16) (p : Fin 200) (q : Fin 10000) :
    k6_pay1 x0 x1 (ix2 p q) = ∑ k : Fin 64, x0 (ix2 p k) * x1 (ix2 q k) := by
  unfold k6_pay1
  simp only [shapeCast_self, matmul]
  rw [Ideal.matmul_constant_zero_apply, ← Equiv.sum_comp (ValueIdx.contrEquiv1 dot_S200x64_S10000x64_S200x10000_1_1_0_0_n_n 64 rfl rfl).symm]
  refine Finset.sum_congr rfl fun k _ => ?_
  have hk := ValueIdx.contrEquiv1_symm_val dot_S200x64_S10000x64_S200x10000_1_1_0_0_n_n 64 rfl rfl k
  have el : dot_S200x64_S10000x64_S200x10000_1_1_0_0_n_n.lhsIdx (ix2 p q) ((ValueIdx.contrEquiv1 dot_S200x64_S10000x64_S200x10000_1_1_0_0_n_n 64 rfl rfl).symm k) = ix2 p k := funext fun a => Fin.ext (by
    match a with
    | ⟨0, _⟩ => exact lhs_k6_0 _ _
    | ⟨1, _⟩ => exact (lhs_k6_1 _ _).trans hk)
  have er : dot_S200x64_S10000x64_S200x10000_1_1_0_0_n_n.rhsIdx (ix2 p q) ((ValueIdx.contrEquiv1 dot_S200x64_S10000x64_S200x10000_1_1_0_0_n_n 64 rfl rfl).symm k) = ix2 q k := funext fun a => Fin.ext (by
    match a with
    | ⟨0, _⟩ => exact rhs_k6_0 _ _
    | ⟨1, _⟩ => exact (rhs_k6_1 _ _).trans hk)
  rw [el, er]

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

section Blocks
variable {F : FTy → Type} [FloatOps F]
variable (V : (c : Dev nD) → (b : Ref sig .tc) → Buf (Elt F) ((c : Thread nD τ).loc b))

theorem iblk6_0_apply (c : Dev nD) (t : Fin cfg6.N) (x : S200x64.Idx) (k : S10000x64.Idx)
    (hk0 : (k 0).val = 200 * t.val + (x 0).val) (hk1 : (k 1).val = (x 1).val) :
    (iblk6 V c 0 t : Vec F S200x64 .bf16) x = (V c main_v118 : S10000x64.Idx → Elt F .bf16) k := by
  obtain ⟨e0, e1, -⟩ := idx_facts6 t
  unfold iblk6
  rw [View.read_apply]
  show V c main_v118 _ = V c main_v118 _
  congr 1
  funext a
  apply Fin.ext
  match a with
  | ⟨0, _⟩ => show win6_0.index t 0 * 200 + 1 * (x 0).val = (k 0).val; rw [e0, hk0]; omega
  | ⟨1, _⟩ => show win6_0.index t 1 * 64 + 1 * (x 1).val = (k 1).val; rw [e1, hk1]; omega

theorem iblk6_1_apply (c : Dev nD) (t : Fin cfg6.N) (x : S10000x64.Idx) (k : S10000x64.Idx)
    (hk0 : (k 0).val = (x 0).val) (hk1 : (k 1).val = (x 1).val) :
    (iblk6 V c 1 t : Vec F S10000x64 .bf16) x = (V c main_v118 : S10000x64.Idx → Elt F .bf16) k := by
  obtain ⟨-, -, e0, e1, -⟩ := idx_facts6 t
  unfold iblk6
  rw [View.read_apply]
  show V c main_v118 _ = V c main_v118 _
  congr 1
  funext a
  apply Fin.ext
  match a with
  | ⟨0, _⟩ => show win6_1.index t 0 * 10000 + 1 * (x 0).val = (k 0).val; rw [e0, hk0]; omega
  | ⟨1, _⟩ => show win6_1.index t 1 * 64 + 1 * (x 1).val = (k 1).val; rw [e1, hk1]; omega

end Blocks

section Array
variable (V : (c : Dev nD) → (b : Ref sig .tc) → Buf (Elt Ideal) ((c : Thread nD τ).loc b))

abbrev outer6 (H : S10000x64.Idx → EReal) : S10000x10000.Idx → EReal := fun j =>
  ∑ k : Fin 64, H (ix2 (j 0) k) * H (ix2 (j 1) k)

abbrev G6 (c : Dev nD) : S10000x10000.Idx → EReal := outer6 (V c main_v118)

theorem blockval6 (c : Dev nD) (t : Fin cfg6.N) (y : S200x10000.Idx) (i : S10000x10000.Idx)
    (h0 : (i 0).val = 200 * t.val + (y 0).val) (h1 : (i 1).val = (y 1).val) :
    k6_pay1 (iblk6 V c 0 t) (iblk6 V c 1 t) y = G6 V c i := by
  obtain ⟨p, q, rfl⟩ : ∃ (p : Fin 200) (q : Fin 10000), y = ix2 p q := ⟨y 0, y 1, eq_ix2 y⟩
  refine (pay6_apply _ _ p q).trans ?_
  refine Finset.sum_congr rfl fun k _ => congrArg₂ (· * ·) ?_ ?_
  · exact iblk6_0_apply V c t _ _ h0 rfl
  · exact iblk6_1_apply V c t _ _ h1 rfl

theorem flushed6_eq (c : Dev nD) (t : Fin cfg6.N) :
    (dat6 V c).flushed 2 t = ((cfg6.win 2).blk t).view.read (Elt Ideal) (G6 V c) := by
  show (cfg6.win 2).cut (grid6.coords t) ((dat6 V c).after 2 t) = _
  rw [after6_2, out6_2_eq]
  obtain ⟨-, -, -, -, e0, e1⟩ := idx_facts6 t
  funext j
  rw [View.read_apply]
  refine blockval6 V c t _ _ ?_ ?_
  · show win6_2.index t (0 : Fin 2) * 200 + 1 * (j 0).val = 200 * t.val + (j 0).val
    rw [e0]; omega
  · show win6_2.index t (1 : Fin 2) * 10000 + 1 * (j 1).val = (j 1).val
    rw [e1]; omega

theorem mem_blk6 (t : Fin cfg6.N) (i : S10000x10000.Idx) :
    i ∈ ((cfg6.win 2).blk t).view.set ↔ ∀ a : Fin 2, win6_2.index t a * S200x10000.size a ≤ (i a).val ∧ (i a).val < win6_2.index t a * S200x10000.size a + S200x10000.size a := by
  show i ∈ ((View.whole main_v119).slice (win6_2.rect t)).set ↔ _
  rw [View.set_slice_whole, Rect.mem_set_unit]
  exact Iff.rfl

theorem cover6 (i : S10000x10000.Idx) : ∃ t : Fin cfg6.N, (cfg6.win 2).flush t = true ∧ i ∈ ((cfg6.win 2).blk t).view.set := by
  have hi0 : (i 0).val < 10000 := (i 0).isLt
  have hi1 : (i 1).val < 10000 := (i 1).isLt
  have hN : cfg6.N = 50 := N_6
  refine ⟨⟨(i 0).val / 200, by rw [hN]; omega⟩, flush6_2 _, ?_⟩
  rw [mem_blk6]
  obtain ⟨-, -, -, -, e0, e1⟩ := idx_facts6 ⟨(i 0).val / 200, by rw [hN]; omega⟩
  intro a
  match a with
  | ⟨0, _⟩ => show win6_2.index _ (0 : Fin 2) * 200 ≤ (i 0).val ∧ (i 0).val < win6_2.index _ (0 : Fin 2) * 200 + 200; rw [e0]; show (i 0).val / 200 * 200 ≤ (i 0).val ∧ (i 0).val < (i 0).val / 200 * 200 + 200; omega
  | ⟨1, _⟩ => show win6_2.index _ (1 : Fin 2) * 10000 ≤ (i 1).val ∧ (i 1).val < win6_2.index _ (1 : Fin 2) * 10000 + 10000; rw [e1]; omega

theorem arrAt6_out (c : Dev nD) : (dat6 (F := Ideal) V c).arrAt 2 cfg6.N = outer6 (V c main_v118) :=
  (dat6 V c).arrAt_eq_of_cover 2 (G6 V c) (fun t _ => flushed6_eq V c t) (cover6)

end Array

end Cert.KernelIdeal.Hand

end
-- ==== Proof.KV.LayerRead.lean ====
import proofs.«430304_j36258113913429_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen
open Idealize.ShloMosaic Idealize.ShloMosaic.TcCoe Idealize.ShloMosaic.ValueIdx

theorem lhs_h256x64_0 (i : S10240x64.Idx) (q : dot_S10240x256_S256x64_S10240x64_1_0_0_1_n_n.contr.Idx) :
    (dot_S10240x256_S256x64_S10240x64_1_0_0_1_n_n.lhsIdx i q 0).val = (i 0).val := by
  unfold DotDims.lhsIdx
  rw [dif_neg (show ¬(0 : Fin S10240x256.rank) ∈ dot_S10240x256_S256x64_S10240x64_1_0_0_1_n_n.lhsBatch by decide), dif_pos (show (0 : Fin S10240x256.rank) ∈ dot_S10240x256_S256x64_S10240x64_1_0_0_1_n_n.lhsNonContracting by decide)]
  rfl
theorem lhs_h256x64_1 (i : S10240x64.Idx) (q : dot_S10240x256_S256x64_S10240x64_1_0_0_1_n_n.contr.Idx) :
    (dot_S10240x256_S256x64_S10240x64_1_0_0_1_n_n.lhsIdx i q 1).val = (q ⟨0, by decide⟩).val :=
  dot_S10240x256_S256x64_S10240x64_1_0_0_1_n_n.lhsIdx_val_of_single rfl i q
theorem rhs_h256x64_0 (i : S10240x64.Idx) (q : dot_S10240x256_S256x64_S10240x64_1_0_0_1_n_n.contr.Idx) :
    (dot_S10240x256_S256x64_S10240x64_1_0_0_1_n_n.rhsIdx i q 0).val = (q ⟨0, by decide⟩).val :=
  dot_S10240x256_S256x64_S10240x64_1_0_0_1_n_n.rhsIdx_val_of_single rfl i q
theorem rhs_h256x64_1 (i : S10240x64.Idx) (q : dot_S10240x256_S256x64_S10240x64_1_0_0_1_n_n.contr.Idx) :
    (dot_S10240x256_S256x64_S10240x64_1_0_0_1_n_n.rhsIdx i q 1).val = (i 1).val := by
  unfold DotDims.rhsIdx
  rw [dif_neg (show ¬(1 : Fin S256x64.rank) ∈ dot_S10240x256_S256x64_S10240x64_1_0_0_1_n_n.rhsBatch by decide), dif_pos (show (1 : Fin S256x64.rank) ∈ dot_S10240x256_S256x64_S10240x64_1_0_0_1_n_n.rhsNonContracting by decide)]
  rfl

theorem hdot_256x64_apply (l : FVec Ideal S10240x256 .f32) (r : FVec Ideal S256x64 .f32) (p : Fin 10240) (f : Fin 64) :
    Host.dotGeneral (F := Ideal) dot_S10240x256_S256x64_S10240x64_1_0_0_1_n_n none l r (ix2 p f) = ∑ k : Fin 256, l (ix2 p k) * r (ix2 k f) := by
  simp only [Host.dotGeneral]
  rw [Ideal.dotGeneral_apply, ← Equiv.sum_comp (ValueIdx.contrEquiv1 dot_S10240x256_S256x64_S10240x64_1_0_0_1_n_n 256 rfl rfl).symm]
  refine Finset.sum_congr rfl fun k _ => ?_
  have hk := ValueIdx.contrEquiv1_symm_val dot_S10240x256_S256x64_S10240x64_1_0_0_1_n_n 256 rfl rfl k
  have el : dot_S10240x256_S256x64_S10240x64_1_0_0_1_n_n.lhsIdx (ix2 p f) ((ValueIdx.contrEquiv1 dot_S10240x256_S256x64_S10240x64_1_0_0_1_n_n 256 rfl rfl).symm k) = ix2 p k := funext fun a => Fin.ext (by
    match a with
    | ⟨0, _⟩ => exact lhs_h256x64_0 _ _
    | ⟨1, _⟩ => exact (lhs_h256x64_1 _ _).trans hk)
  have er : dot_S10240x256_S256x64_S10240x64_1_0_0_1_n_n.rhsIdx (ix2 p f) ((ValueIdx.contrEquiv1 dot_S10240x256_S256x64_S10240x64_1_0_0_1_n_n 256 rfl rfl).symm k) = ix2 k f := funext fun a => Fin.ext (by
    match a with
    | ⟨0, _⟩ => exact (rhs_h256x64_0 _ _).trans hk
    | ⟨1, _⟩ => exact rhs_h256x64_1 _ _)
  rw [el, er]

theorem lhs_h64x64_0 (i : S10240x64.Idx) (q : dot_S10240x64_S64x64_S10240x64_1_0_0_1_n_n.contr.Idx) :
    (dot_S10240x64_S64x64_S10240x64_1_0_0_1_n_n.lhsIdx i q 0).val = (i 0).val := by
  unfold DotDims.lhsIdx
  rw [dif_neg (show ¬(0 : Fin S10240x64.rank) ∈ dot_S10240x64_S64x64_S10240x64_1_0_0_1_n_n.lhsBatch by decide), dif_pos (show (0 : Fin S10240x64.rank) ∈ dot_S10240x64_S64x64_S10240x64_1_0_0_1_n_n.lhsNonContracting by decide)]
  rfl
theorem lhs_h64x64_1 (i : S10240x64.Idx) (q : dot_S10240x64_S64x64_S10240x64_1_0_0_1_n_n.contr.Idx) :
    (dot_S10240x64_S64x64_S10240x64_1_0_0_1_n_n.lhsIdx i q 1).val = (q ⟨0, by decide⟩).val :=
  dot_S10240x64_S64x64_S10240x64_1_0_0_1_n_n.lhsIdx_val_of_single rfl i q
theorem rhs_h64x64_0 (i : S10240x64.Idx) (q : dot_S10240x64_S64x64_S10240x64_1_0_0_1_n_n.contr.Idx) :
    (dot_S10240x64_S64x64_S10240x64_1_0_0_1_n_n.rhsIdx i q 0).val = (q ⟨0, by decide⟩).val :=
  dot_S10240x64_S64x64_S10240x64_1_0_0_1_n_n.rhsIdx_val_of_single rfl i q
theorem rhs_h64x64_1 (i : S10240x64.Idx) (q : dot_S10240x64_S64x64_S10240x64_1_0_0_1_n_n.contr.Idx) :
    (dot_S10240x64_S64x64_S10240x64_1_0_0_1_n_n.rhsIdx i q 1).val = (i 1).val := by
  unfold DotDims.rhsIdx
  rw [dif_neg (show ¬(1 : Fin S64x64.rank) ∈ dot_S10240x64_S64x64_S10240x64_1_0_0_1_n_n.rhsBatch by decide), dif_pos (show (1 : Fin S64x64.rank) ∈ dot_S10240x64_S64x64_S10240x64_1_0_0_1_n_n.rhsNonContracting by decide)]
  rfl

theorem hdot_64x64_apply (l : FVec Ideal S10240x64 .f32) (r : FVec Ideal S64x64 .f32) (p : Fin 10240) (f : Fin 64) :
    Host.dotGeneral (F := Ideal) dot_S10240x64_S64x64_S10240x64_1_0_0_1_n_n none l r (ix2 p f) = ∑ k : Fin 64, l (ix2 p k) * r (ix2 k f) := by
  simp only [Host.dotGeneral]
  rw [Ideal.dotGeneral_apply, ← Equiv.sum_comp (ValueIdx.contrEquiv1 dot_S10240x64_S64x64_S10240x64_1_0_0_1_n_n 64 rfl rfl).symm]
  refine Finset.sum_congr rfl fun k _ => ?_
  have hk := ValueIdx.contrEquiv1_symm_val dot_S10240x64_S64x64_S10240x64_1_0_0_1_n_n 64 rfl rfl k
  have el : dot_S10240x64_S64x64_S10240x64_1_0_0_1_n_n.lhsIdx (ix2 p f) ((ValueIdx.contrEquiv1 dot_S10240x64_S64x64_S10240x64_1_0_0_1_n_n 64 rfl rfl).symm k) = ix2 p k := funext fun a => Fin.ext (by
    match a with
    | ⟨0, _⟩ => exact lhs_h64x64_0 _ _
    | ⟨1, _⟩ => exact (lhs_h64x64_1 _ _).trans hk)
  have er : dot_S10240x64_S64x64_S10240x64_1_0_0_1_n_n.rhsIdx (ix2 p f) ((ValueIdx.contrEquiv1 dot_S10240x64_S64x64_S10240x64_1_0_0_1_n_n 64 rfl rfl).symm k) = ix2 k f := funext fun a => Fin.ext (by
    match a with
    | ⟨0, _⟩ => exact (rhs_h64x64_0 _ _).trans hk
    | ⟨1, _⟩ => exact rhs_h64x64_1 _ _)
  rw [el, er]

theorem lhs_h64x128_0 (i : S10240x128.Idx) (q : dot_S10240x64_S64x128_S10240x128_1_0_0_1_n_n.contr.Idx) :
    (dot_S10240x64_S64x128_S10240x128_1_0_0_1_n_n.lhsIdx i q 0).val = (i 0).val := by
  unfold DotDims.lhsIdx
  rw [dif_neg (show ¬(0 : Fin S10240x64.rank) ∈ dot_S10240x64_S64x128_S10240x128_1_0_0_1_n_n.lhsBatch by decide), dif_pos (show (0 : Fin S10240x64.rank) ∈ dot_S10240x64_S64x128_S10240x128_1_0_0_1_n_n.lhsNonContracting by decide)]
  rfl
theorem lhs_h64x128_1 (i : S10240x128.Idx) (q : dot_S10240x64_S64x128_S10240x128_1_0_0_1_n_n.contr.Idx) :
    (dot_S10240x64_S64x128_S10240x128_1_0_0_1_n_n.lhsIdx i q 1).val = (q ⟨0, by decide⟩).val :=
  dot_S10240x64_S64x128_S10240x128_1_0_0_1_n_n.lhsIdx_val_of_single rfl i q
theorem rhs_h64x128_0 (i : S10240x128.Idx) (q : dot_S10240x64_S64x128_S10240x128_1_0_0_1_n_n.contr.Idx) :
    (dot_S10240x64_S64x128_S10240x128_1_0_0_1_n_n.rhsIdx i q 0).val = (q ⟨0, by decide⟩).val :=
  dot_S10240x64_S64x128_S10240x128_1_0_0_1_n_n.rhsIdx_val_of_single rfl i q
theorem rhs_h64x128_1 (i : S10240x128.Idx) (q : dot_S10240x64_S64x128_S10240x128_1_0_0_1_n_n.contr.Idx) :
    (dot_S10240x64_S64x128_S10240x128_1_0_0_1_n_n.rhsIdx i q 1).val = (i 1).val := by
  unfold DotDims.rhsIdx
  rw [dif_neg (show ¬(1 : Fin S64x128.rank) ∈ dot_S10240x64_S64x128_S10240x128_1_0_0_1_n_n.rhsBatch by decide), dif_pos (show (1 : Fin S64x128.rank) ∈ dot_S10240x64_S64x128_S10240x128_1_0_0_1_n_n.rhsNonContracting by decide)]
  rfl

theorem hdot_64x128_apply (l : FVec Ideal S10240x64 .f32) (r : FVec Ideal S64x128 .f32) (p : Fin 10240) (f : Fin 128) :
    Host.dotGeneral (F := Ideal) dot_S10240x64_S64x128_S10240x128_1_0_0_1_n_n none l r (ix2 p f) = ∑ k : Fin 64, l (ix2 p k) * r (ix2 k f) := by
  simp only [Host.dotGeneral]
  rw [Ideal.dotGeneral_apply, ← Equiv.sum_comp (ValueIdx.contrEquiv1 dot_S10240x64_S64x128_S10240x128_1_0_0_1_n_n 64 rfl rfl).symm]
  refine Finset.sum_congr rfl fun k _ => ?_
  have hk := ValueIdx.contrEquiv1_symm_val dot_S10240x64_S64x128_S10240x128_1_0_0_1_n_n 64 rfl rfl k
  have el : dot_S10240x64_S64x128_S10240x128_1_0_0_1_n_n.lhsIdx (ix2 p f) ((ValueIdx.contrEquiv1 dot_S10240x64_S64x128_S10240x128_1_0_0_1_n_n 64 rfl rfl).symm k) = ix2 p k := funext fun a => Fin.ext (by
    match a with
    | ⟨0, _⟩ => exact lhs_h64x128_0 _ _
    | ⟨1, _⟩ => exact (lhs_h64x128_1 _ _).trans hk)
  have er : dot_S10240x64_S64x128_S10240x128_1_0_0_1_n_n.rhsIdx (ix2 p f) ((ValueIdx.contrEquiv1 dot_S10240x64_S64x128_S10240x128_1_0_0_1_n_n 64 rfl rfl).symm k) = ix2 k f := funext fun a => Fin.ext (by
    match a with
    | ⟨0, _⟩ => exact (rhs_h64x128_0 _ _).trans hk
    | ⟨1, _⟩ => exact rhs_h64x128_1 _ _)
  rw [el, er]

theorem lhs_h64x256_0 (i : S10240x256.Idx) (q : dot_S10240x64_S64x256_S10240x256_1_0_0_1_n_n.contr.Idx) :
    (dot_S10240x64_S64x256_S10240x256_1_0_0_1_n_n.lhsIdx i q 0).val = (i 0).val := by
  unfold DotDims.lhsIdx
  rw [dif_neg (show ¬(0 : Fin S10240x64.rank) ∈ dot_S10240x64_S64x256_S10240x256_1_0_0_1_n_n.lhsBatch by decide), dif_pos (show (0 : Fin S10240x64.rank) ∈ dot_S10240x64_S64x256_S10240x256_1_0_0_1_n_n.lhsNonContracting by decide)]
  rfl
theorem lhs_h64x256_1 (i : S10240x256.Idx) (q : dot_S10240x64_S64x256_S10240x256_1_0_0_1_n_n.contr.Idx) :
    (dot_S10240x64_S64x256_S10240x256_1_0_0_1_n_n.lhsIdx i q 1).val = (q ⟨0, by decide⟩).val :=
  dot_S10240x64_S64x256_S10240x256_1_0_0_1_n_n.lhsIdx_val_of_single rfl i q
theorem rhs_h64x256_0 (i : S10240x256.Idx) (q : dot_S10240x64_S64x256_S10240x256_1_0_0_1_n_n.contr.Idx) :
    (dot_S10240x64_S64x256_S10240x256_1_0_0_1_n_n.rhsIdx i q 0).val = (q ⟨0, by decide⟩).val :=
  dot_S10240x64_S64x256_S10240x256_1_0_0_1_n_n.rhsIdx_val_of_single rfl i q
theorem rhs_h64x256_1 (i : S10240x256.Idx) (q : dot_S10240x64_S64x256_S10240x256_1_0_0_1_n_n.contr.Idx) :
    (dot_S10240x64_S64x256_S10240x256_1_0_0_1_n_n.rhsIdx i q 1).val = (i 1).val := by
  unfold DotDims.rhsIdx
  rw [dif_neg (show ¬(1 : Fin S64x256.rank) ∈ dot_S10240x64_S64x256_S10240x256_1_0_0_1_n_n.rhsBatch by decide), dif_pos (show (1 : Fin S64x256.rank) ∈ dot_S10240x64_S64x256_S10240x256_1_0_0_1_n_n.rhsNonContracting by decide)]
  rfl

theorem hdot_64x256_apply (l : FVec Ideal S10240x64 .f32) (r : FVec Ideal S64x256 .f32) (p : Fin 10240) (f : Fin 256) :
    Host.dotGeneral (F := Ideal) dot_S10240x64_S64x256_S10240x256_1_0_0_1_n_n none l r (ix2 p f) = ∑ k : Fin 64, l (ix2 p k) * r (ix2 k f) := by
  simp only [Host.dotGeneral]
  rw [Ideal.dotGeneral_apply, ← Equiv.sum_comp (ValueIdx.contrEquiv1 dot_S10240x64_S64x256_S10240x256_1_0_0_1_n_n 64 rfl rfl).symm]
  refine Finset.sum_congr rfl fun k _ => ?_
  have hk := ValueIdx.contrEquiv1_symm_val dot_S10240x64_S64x256_S10240x256_1_0_0_1_n_n 64 rfl rfl k
  have el : dot_S10240x64_S64x256_S10240x256_1_0_0_1_n_n.lhsIdx (ix2 p f) ((ValueIdx.contrEquiv1 dot_S10240x64_S64x256_S10240x256_1_0_0_1_n_n 64 rfl rfl).symm k) = ix2 p k := funext fun a => Fin.ext (by
    match a with
    | ⟨0, _⟩ => exact lhs_h64x256_0 _ _
    | ⟨1, _⟩ => exact (lhs_h64x256_1 _ _).trans hk)
  have er : dot_S10240x64_S64x256_S10240x256_1_0_0_1_n_n.rhsIdx (ix2 p f) ((ValueIdx.contrEquiv1 dot_S10240x64_S64x256_S10240x256_1_0_0_1_n_n 64 rfl rfl).symm k) = ix2 k f := funext fun a => Fin.ext (by
    match a with
    | ⟨0, _⟩ => exact (rhs_h64x256_0 _ _).trans hk
    | ⟨1, _⟩ => exact rhs_h64x256_1 _ _)
  rw [el, er]

theorem bcol_64_apply {α : Type} (d : S10240x1.Idx → α) (p : Fin 10240) (f : Fin 64) :
    broadcastInDim S10240x64 ![0, 1] bcast_S10240x1_S10240x64_0_1 d (ix2 p f) = d (ix2 p 0) :=
  broadcastInDim_apply _ bcast_S10240x1_S10240x64_0_1 d (ix2 p f) (ix2 p 0) (fun a => match a with
    | ⟨0, _⟩ => by show p.val = if (10240 : Nat) = 1 then 0 else p.val; rw [if_neg (by decide)]
    | ⟨1, _⟩ => by show 0 = if (1 : Nat) = 1 then 0 else f.val; rw [if_pos rfl])

theorem brow_64_apply {α : Type} (bs : S64.Idx → α) (p : Fin 10240) (f : Fin 64) :
    broadcastInDim S10240x64 ![0, 1] bcast_S1x64_S10240x64_0_1 (broadcastInDim S1x64 ![1] bcast_S64_S1x64_1 bs) (ix2 p f) = bs (ix1 f) := by
  rw [broadcastInDim_apply _ bcast_S1x64_S10240x64_0_1 _ (ix2 p f) (ix2 (0 : Fin 1) f) (fun a => match a with
    | ⟨0, _⟩ => by show 0 = if (1 : Nat) = 1 then 0 else p.val; rw [if_pos rfl]
    | ⟨1, _⟩ => by show f.val = if (64 : Nat) = 1 then 0 else f.val; rw [if_neg (by decide)])]
  exact broadcastInDim_apply _ bcast_S64_S1x64_1 bs (ix2 (0 : Fin 1) f) (ix1 f) (fun a => match a with
    | ⟨0, _⟩ => by show f.val = if (64 : Nat) = 1 then 0 else f.val; rw [if_neg (by decide)])

theorem bcol_128_apply {α : Type} (d : S10240x1.Idx → α) (p : Fin 10240) (f : Fin 128) :
    broadcastInDim S10240x128 ![0, 1] bcast_S10240x1_S10240x128_0_1 d (ix2 p f) = d (ix2 p 0) :=
  broadcastInDim_apply _ bcast_S10240x1_S10240x128_0_1 d (ix2 p f) (ix2 p 0) (fun a => match a with
    | ⟨0, _⟩ => by show p.val = if (10240 : Nat) = 1 then 0 else p.val; rw [if_neg (by decide)]
    | ⟨1, _⟩ => by show 0 = if (1 : Nat) = 1 then 0 else f.val; rw [if_pos rfl])

theorem brow_128_apply {α : Type} (bs : S128.Idx → α) (p : Fin 10240) (f : Fin 128) :
    broadcastInDim S10240x128 ![0, 1] bcast_S1x128_S10240x128_0_1 (broadcastInDim S1x128 ![1] bcast_S128_S1x128_1 bs) (ix2 p f) = bs (ix1 f) := by
  rw [broadcastInDim_apply _ bcast_S1x128_S10240x128_0_1 _ (ix2 p f) (ix2 (0 : Fin 1) f) (fun a => match a with
    | ⟨0, _⟩ => by show 0 = if (1 : Nat) = 1 then 0 else p.val; rw [if_pos rfl]
    | ⟨1, _⟩ => by show f.val = if (128 : Nat) = 1 then 0 else f.val; rw [if_neg (by decide)])]
  exact broadcastInDim_apply _ bcast_S128_S1x128_1 bs (ix2 (0 : Fin 1) f) (ix1 f) (fun a => match a with
    | ⟨0, _⟩ => by show f.val = if (128 : Nat) = 1 then 0 else f.val; rw [if_neg (by decide)])

theorem bcol_256_apply {α : Type} (d : S10240x1.Idx → α) (p : Fin 10240) (f : Fin 256) :
    broadcastInDim S10240x256 ![0, 1] bcast_S10240x1_S10240x256_0_1 d (ix2 p f) = d (ix2 p 0) :=
  broadcastInDim_apply _ bcast_S10240x1_S10240x256_0_1 d (ix2 p f) (ix2 p 0) (fun a => match a with
    | ⟨0, _⟩ => by show p.val = if (10240 : Nat) = 1 then 0 else p.val; rw [if_neg (by decide)]
    | ⟨1, _⟩ => by show 0 = if (1 : Nat) = 1 then 0 else f.val; rw [if_pos rfl])

theorem brow_256_apply {α : Type} (bs : S256.Idx → α) (p : Fin 10240) (f : Fin 256) :
    broadcastInDim S10240x256 ![0, 1] bcast_S1x256_S10240x256_0_1 (broadcastInDim S1x256 ![1] bcast_S256_S1x256_1 bs) (ix2 p f) = bs (ix1 f) := by
  rw [broadcastInDim_apply _ bcast_S1x256_S10240x256_0_1 _ (ix2 p f) (ix2 (0 : Fin 1) f) (fun a => match a with
    | ⟨0, _⟩ => by show 0 = if (1 : Nat) = 1 then 0 else p.val; rw [if_pos rfl]
    | ⟨1, _⟩ => by show f.val = if (256 : Nat) = 1 then 0 else f.val; rw [if_neg (by decide)])]
  exact broadcastInDim_apply _ bcast_S256_S1x256_1 bs (ix2 (0 : Fin 1) f) (ix1 f) (fun a => match a with
    | ⟨0, _⟩ => by show f.val = if (256 : Nat) = 1 then 0 else f.val; rw [if_neg (by decide)])

theorem wcat_apply {α : Type} (x₁ x₂ : S64x64.Idx → α) (k : Fin 64) (f : Fin 128) :
    concatenate S64x128 1 [⟨S64x64, x₁⟩, ⟨S64x64, x₂⟩] concatenates_S64x64_S64x64_S64x128_d1 (ix2 k f)
      = if h : f.val < 64 then x₁ (ix2 k ⟨f.val, h⟩) else x₂ (ix2 k ⟨f.val - 64, by omega⟩) := by
  by_cases h : f.val < 64
  · rw [dif_pos h]
    exact concatenate_pair_apply_left (1 : Fin S64x128.rank) x₁ x₂ concatenates_S64x64_S64x64_S64x128_d1 (ix2 k f) rfl (ix2 k ⟨f.val, h⟩)
      (fun b => match b with
        | ⟨0, _⟩ => rfl
        | ⟨1, _⟩ => rfl)
  · rw [dif_neg h]
    exact concatenate_pair_apply_right (1 : Fin S64x128.rank) x₁ x₂ concatenates_S64x64_S64x64_S64x128_d1 (ix2 k f) rfl rfl (ix2 k ⟨f.val - 64, by omega⟩)
      (fun b hb => match b, hb with
        | ⟨0, _⟩, _ => rfl
        | ⟨1, _⟩, hb => absurd rfl hb)
      (by show f.val - 64 + 64 = f.val; omega)

theorem bcat_apply {α : Type} (x₁ x₂ : S64.Idx → α) (f : Fin 128) :
    concatenate S128 0 [⟨S64, x₁⟩, ⟨S64, x₂⟩] concatenates_S64_S64_S128_d0 (ix1 f)
      = if h : f.val < 64 then x₁ (ix1 ⟨f.val, h⟩) else x₂ (ix1 ⟨f.val - 64, by omega⟩) := by
  by_cases h : f.val < 64
  · rw [dif_pos h]
    exact concatenate_pair_apply_left (0 : Fin S128.rank) x₁ x₂ concatenates_S64_S64_S128_d0 (ix1 f) rfl (ix1 ⟨f.val, h⟩)
      (fun b => match b with
        | ⟨0, _⟩ => rfl)
  · rw [dif_neg h]
    exact concatenate_pair_apply_right (0 : Fin S128.rank) x₁ x₂ concatenates_S64_S64_S128_d0 (ix1 f) rfl rfl (ix1 ⟨f.val - 64, by omega⟩)
      (fun b hb => match b, hb with
        | ⟨0, _⟩, hb => absurd rfl hb)
      (by show f.val - 64 + 64 = f.val; omega)

theorem slice_lo_apply {α : Type} (x : S10240x128.Idx → α) (p : Fin 10240) (f : Fin 64) :
    extractStridedSlice S10240x64 ![0, 0] x slices_S10240x128_S10240x64_0_0 (ix2 p f) = x (ix2 p ⟨f.val, by omega⟩) :=
  extractStridedSlice_apply ![0, 0] x slices_S10240x128_S10240x64_0_0 (ix2 p f) (ix2 p ⟨f.val, by omega⟩) (fun a => match a with
    | ⟨0, _⟩ => by show p.val = 0 + p.val; omega
    | ⟨1, _⟩ => by show f.val = 0 + f.val; omega)

theorem slice_hi_apply {α : Type} (x : S10240x128.Idx → α) (p : Fin 10240) (f : Fin 64) :
    extractStridedSlice S10240x64 ![0, 64] x slices_S10240x128_S10240x64_0_64 (ix2 p f) = x (ix2 p ⟨f.val + 64, by omega⟩) :=
  extractStridedSlice_apply ![0, 64] x slices_S10240x128_S10240x64_0_64 (ix2 p f) (ix2 p ⟨f.val + 64, by omega⟩) (fun a => match a with
    | ⟨0, _⟩ => by show p.val = 0 + p.val; omega
    | ⟨1, _⟩ => by show f.val + 64 = 64 + f.val; omega)

theorem slice_rows256_apply {α : Type} (x : S10240x256.Idx → α) (i : Fin 10000) (f : Fin 256) :
    extractStridedSlice S10000x256 ![0, 0] x slices_S10240x256_S10000x256_0_0 (ix2 i f) = x (ix2 ⟨i.val, by omega⟩ f) :=
  extractStridedSlice_apply ![0, 0] x slices_S10240x256_S10000x256_0_0 (ix2 i f) (ix2 ⟨i.val, by omega⟩ f) (fun a => match a with
    | ⟨0, _⟩ => by show i.val = 0 + i.val; omega
    | ⟨1, _⟩ => by show f.val = 0 + f.val; omega)

theorem slice_rows64_apply {α : Type} (x : S10240x64.Idx → α) (i : Fin 10000) (f : Fin 64) :
    extractStridedSlice S10000x64 ![0, 0] x slices_S10240x64_S10000x64_0_0 (ix2 i f) = x (ix2 ⟨i.val, by omega⟩ f) :=
  extractStridedSlice_apply ![0, 0] x slices_S10240x64_S10000x64_0_0 (ix2 i f) (ix2 ⟨i.val, by omega⟩ f) (fun a => match a with
    | ⟨0, _⟩ => by show i.val = 0 + i.val; omega
    | ⟨1, _⟩ => by show f.val = 0 + f.val; omega)

end Cert.KernelIdeal.HandValue

end
-- ==== Proof.Spec.lean ====
import Mathlib.Data.Real.Basic
import Mathlib.Algebra.BigOperators.Group.Finset.Basic
import Mathlib.Algebra.Order.BigOperators.Group.Finset
import Mathlib.Data.Fintype.BigOperators
import Mathlib.Data.Fin.Basic

noncomputable section

open Finset

namespace Cert.Spec

structure Data where
  x   : Fin 10000 → Fin 256 → ℝ
  src : Fin 320000 → Fin 10000
  dst : Fin 320000 → Fin 10000
  W1  : Fin 256 → Fin 64 → ℝ
  b1  : Fin 64 → ℝ
  W2  : Fin 64 → Fin 64 → ℝ
  b2  : Fin 64 → ℝ
  Wa1 : Fin 64 → Fin 64 → ℝ
  ba1 : Fin 64 → ℝ
  Wa2 : Fin 64 → Fin 256 → ℝ
  ba2 : Fin 256 → ℝ
  Ws  : Fin 64 → Fin 64 → ℝ
  bs  : Fin 64 → ℝ

  c8 : ℝ
  c1 : ℝ
  ε  : ℝ
  rs : ℝ → ℝ

variable (D : Data)

def cnt (i j : Fin 10000) : ℝ := ((univ.filter fun e : Fin 320000 => D.src e = i ∧ D.dst e = j).card : ℝ)

def odeg (i : Fin 10000) : ℝ := max (∑ j, cnt D i j) D.ε
def ideg (i : Fin 10000) : ℝ := max (∑ j, cnt D j i) D.ε

def outnb (i : Fin 10000) (f : Fin 256) : ℝ := ∑ j, (cnt D i j / odeg D i) * D.x j f
def innb (i : Fin 10000) (f : Fin 256) : ℝ := ∑ j, (cnt D j i * (1 / ideg D i)) * D.x j f

def xaug (i : Fin 10000) (f : Fin 256) : ℝ := D.c8 * D.x i f + D.c1 * (outnb D i f + innb D i f)

def deg (i : Fin 10000) : ℝ := ((univ.filter fun e : Fin 320000 => D.dst e = i).card : ℝ) + 1
def dinv (i : Fin 10000) : ℝ := if 0 < deg D i then D.rs (deg D i) else 0

def gcn {a b : ℕ} (h : Fin 10000 → Fin a → ℝ) (W : Fin a → Fin b → ℝ) (bias : Fin b → ℝ) (i : Fin 10000) (f : Fin b) : ℝ :=
  (∑ e ∈ univ.filter (fun e : Fin 320000 => D.dst e = i), (∑ k, h (D.src e) k * W k f) * (dinv D (D.src e) * dinv D i))
    + (∑ k, h i k * W k f) * (dinv D i * dinv D i) + bias f

def h1 (i : Fin 10000) (f : Fin 64) : ℝ := max (gcn D (xaug D) D.W1 D.b1 i f) 0
def emb (i : Fin 10000) (f : Fin 64) : ℝ := gcn D (h1 D) D.W2 D.b2 i f
def h2 (i : Fin 10000) (f : Fin 64) : ℝ := max (gcn D (emb D) D.Wa1 D.ba1 i f) 0

def Rx (i : Fin 10000) (f : Fin 256) : ℝ := gcn D (h2 D) D.Wa2 D.ba2 i f
def hs (i : Fin 10000) (f : Fin 64) : ℝ := gcn D (emb D) D.Ws D.bs i f

def Rs (i j : Fin 10000) : ℝ := ∑ k, hs D i k * hs D j k

def up (i : Fin 10000) : Fin 10240 := ⟨i.val, by omega⟩

def T (a b : Fin 10240) : ℝ := ((univ.filter fun e : Fin 320000 => (D.dst e).val = a.val ∧ (D.src e).val = b.val).card : ℝ)

def mask (a : Fin 10240) : ℝ := if a.val < 10000 then 1 else 0

def xpad (a : Fin 10240) (f : Fin 256) : ℝ := if h : a.val < 10000 then D.x ⟨a.val, h⟩ f else 0

def odegK (a : Fin 10240) : ℝ := max ((univ.filter fun e : Fin 320000 => (D.src e).val = a.val).card : ℝ) D.ε
def idegK (a : Fin 10240) : ℝ := max ((univ.filter fun e : Fin 320000 => (D.dst e).val = a.val).card : ℝ) D.ε
def invout (a : Fin 10240) : ℝ := (1 / odegK D a) * mask a
def invin (a : Fin 10240) : ℝ := (1 / idegK D a) * mask a

def adjmm {b : ℕ} (A : Fin 10240 → Fin 10240 → ℝ) (X : Fin 10240 → Fin b → ℝ) (rowscale : Fin 10240 → ℝ)
    (corr : Fin 10240 → Fin b → ℝ) (a : Fin 10240) (f : Fin b) : ℝ :=
  (∑ q, A a q * X q f) * rowscale a + corr a f

def outnbK (a : Fin 10240) (f : Fin 256) : ℝ := adjmm (fun a q => T D q a) (xpad D) (invout D) (fun _ _ => 0) a f
def innbK (a : Fin 10240) (f : Fin 256) : ℝ := adjmm (T D) (xpad D) (invin D) (fun _ _ => 0) a f
def xaugK (a : Fin 10240) (f : Fin 256) : ℝ := D.c8 * xpad D a f + D.c1 * (outnbK D a f + innbK D a f)

def degK (a : Fin 10240) : ℝ := ((univ.filter fun e : Fin 320000 => (D.dst e).val = a.val).card : ℝ) + mask a
def dinvK (a : Fin 10240) : ℝ := if 0 < degK D a then D.rs (degK D a) else 0

def gcnK {a b : ℕ} (h : Fin 10240 → Fin a → ℝ) (W : Fin a → Fin b → ℝ) (bias : Fin b → ℝ) (p : Fin 10240) (f : Fin b) : ℝ :=
  adjmm (T D) (fun q f => dinvK D q * (∑ k, h q k * W k f)) (dinvK D)
    (fun p f => (dinvK D p * dinvK D p) * (∑ k, h p k * W k f) + bias f) p f

def h1K (p : Fin 10240) (f : Fin 64) : ℝ := max (gcnK D (xaugK D) D.W1 D.b1 p f) 0
def embK (p : Fin 10240) (f : Fin 64) : ℝ := gcnK D (h1K D) D.W2 D.b2 p f

def Wcat (k : Fin 64) (f : Fin 128) : ℝ := if h : f.val < 64 then D.Wa1 k ⟨f.val, h⟩ else D.Ws k ⟨f.val - 64, by omega⟩
def bcat (f : Fin 128) : ℝ := if h : f.val < 64 then D.ba1 ⟨f.val, h⟩ else D.bs ⟨f.val - 64, by omega⟩
def catK (p : Fin 10240) (f : Fin 128) : ℝ := gcnK D (embK D) (Wcat D) (bcat D) p f
def h2K (p : Fin 10240) (f : Fin 64) : ℝ := max (catK D p ⟨f.val, by omega⟩) 0
def hsK (p : Fin 10240) (f : Fin 64) : ℝ := catK D p ⟨f.val + 64, by omega⟩

def Kx (i : Fin 10000) (f : Fin 256) : ℝ := gcnK D (h2K D) D.Wa2 D.ba2 (up i) f

def Ks (i j : Fin 10000) : ℝ := ∑ k, hsK D (up i) k * hsK D (up j) k

end Cert.Spec

end
-- ==== Proof.LibCoe.lean ====
import Idealize.ShloMosaic.PureOps.Ideal

noncomputable section

namespace Cert.LibCoe

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe {ι : Type} (s : Finset ι) (f : ι → ℝ) : ∑ i ∈ s, (f i : EReal) = ((∑ i ∈ s, f i : ℝ) : EReal) :=
  (coe_sum s f).symm

theorem div_coe {a b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem rsqrt_coe_pos {d : ℝ} (hd : 0 < d) : Ideal.rsqrt (d : EReal) = (((Real.sqrt d)⁻¹ : ℝ) : EReal) := by
  show (if d < 0 then (⊥ : EReal) else if d = 0 then ⊤ else (((Real.sqrt d)⁻¹ : ℝ) : EReal)) = _
  rw [if_neg (not_lt.2 hd.le), if_neg hd.ne']

theorem rsqrt_coe_toReal {d : ℝ} (hd : 0 < d) :
    Ideal.rsqrt (d : EReal) = ((EReal.toReal (Ideal.rsqrt (d : EReal)) : ℝ) : EReal) := by
  rw [rsqrt_coe_pos hd, EReal.toReal_coe]

theorem max_coe (a b : ℝ) : max (a : EReal) (b : EReal) = ((max a b : ℝ) : EReal) := by
  rcases le_total a b with h | h
  · rw [max_eq_right h, max_eq_right (by exact_mod_cast h)]
  · rw [max_eq_left h, max_eq_left (by exact_mod_cast h)]

theorem cmp_ogt_coe (a b : ℝ) : Ideal.cmp .ogt (a : EReal) (b : EReal) = BitVec.ofBool (decide (b < a)) := by
  simp only [Ideal.cmp, EReal.coe_lt_coe_iff]
theorem cmp_olt_coe (a b : ℝ) : Ideal.cmp .olt (a : EReal) (b : EReal) = BitVec.ofBool (decide (a < b)) := by
  simp only [Ideal.cmp, EReal.coe_lt_coe_iff]

theorem eq_coe_toReal {x : EReal} (h : ∃ r : ℝ, x = (r : EReal)) : x = ((EReal.toReal x : ℝ) : EReal) := by
  obtain ⟨r, rfl⟩ := h
  rw [EReal.toReal_coe]

end Cert.LibCoe

end
-- ==== Proof.KV.LayerMath.lean ====
import proofs.«430304_j36258113913429_2_alg».proof.Proof.Spec
import proofs.«430304_j36258113913429_2_alg».proof.Proof.LibCoe
import Idealize.ShloMosaic.Lib.ValueIdx

noncomputable section

namespace Cert.LayerMath

open Cert.Spec Cert.LibCoe Idealize.ShloMosaic Idealize.ShloMosaic.ValueIdx

theorem gcnK_coe (D : Data) {a b : ℕ} (h : Fin 10240 → Fin a → ℝ) (W : Fin a → Fin b → ℝ) (bias : Fin b → ℝ)
    (p : Fin 10240) (f : Fin b) :
    (∑ q : Fin 10240, ((T D p q : ℝ) : EReal)
        * (((dinvK D q : ℝ) : EReal) * ∑ k : Fin a, ((h q k : ℝ) : EReal) * ((W k f : ℝ) : EReal))) * ((dinvK D p : ℝ) : EReal)
      + ((((dinvK D p : ℝ) : EReal) * ((dinvK D p : ℝ) : EReal)) * (∑ k : Fin a, ((h p k : ℝ) : EReal) * ((W k f : ℝ) : EReal))
          + ((bias f : ℝ) : EReal))
    = ((gcnK D h W bias p f : ℝ) : EReal) := by
  unfold gcnK adjmm
  simp only [EReal.coe_add, EReal.coe_mul, coe_sum]

theorem max_zero_coe (x : ℝ) : max ((x : ℝ) : EReal) 0 = ((max x 0 : ℝ) : EReal) := by
  rw [← EReal.coe_zero, max_coe]

theorem sum_mul_coe {n : ℕ} (u v : Fin n → ℝ) :
    ∑ k : Fin n, ((u k : ℝ) : EReal) * ((v k : ℝ) : EReal) = ((∑ k : Fin n, u k * v k : ℝ) : EReal) := by
  simp only [EReal.coe_mul, coe_sum]

abbrev adjmmE {b : ℕ} (A : (⟨2, ![10240, 10240]⟩ : Shape).Idx → EReal) (X : (⟨2, ![10240, b]⟩ : Shape).Idx → EReal)
    (sc : (⟨2, ![10240, 1]⟩ : Shape).Idx → EReal) (co : (⟨2, ![10240, b]⟩ : Shape).Idx → EReal) :
    (⟨2, ![10240, b]⟩ : Shape).Idx → EReal := fun j =>
  (∑ q : Fin 10240, A (ix2 (j 0) q) * X (ix2 q (j 1))) * sc (ix2 (j 0) 0) + co j

theorem layer_eq (D : Data) {a b : ℕ} (h : Fin 10240 → Fin a → ℝ) (W : Fin a → Fin b → ℝ) (bias : Fin b → ℝ)
    (A : (⟨2, ![10240, 10240]⟩ : Shape).Idx → EReal) (d : (⟨2, ![10240, 1]⟩ : Shape).Idx → EReal)
    (dotv X co : (⟨2, ![10240, b]⟩ : Shape).Idx → EReal)
    (hA : ∀ p q, A (ix2 p q) = ((T D p q : ℝ) : EReal)) (hd : ∀ p, d (ix2 p 0) = ((dinvK D p : ℝ) : EReal))
    (hdot : ∀ p f, dotv (ix2 p f) = ∑ k : Fin a, ((h p k : ℝ) : EReal) * ((W k f : ℝ) : EReal))
    (hX : ∀ q f, X (ix2 q f) = d (ix2 q 0) * dotv (ix2 q f))
    (hco : ∀ p f, co (ix2 p f) = (d (ix2 p 0) * d (ix2 p 0)) * dotv (ix2 p f) + ((bias f : ℝ) : EReal)) :
    adjmmE A X d co = fun j => ((gcnK D h W bias (j 0) (j 1) : ℝ) : EReal) := by
  funext j
  obtain ⟨p, f, rfl⟩ : ∃ (p : Fin 10240) (f : Fin b), j = ix2 p f := ⟨j 0, j 1, eq_ix2 j⟩
  show (∑ q : Fin 10240, A (ix2 p q) * X (ix2 q f)) * d (ix2 p 0) + co (ix2 p f) = ((gcnK D h W bias p f : ℝ) : EReal)
  rw [hco, hd]
  simp only [hA, hX, hd, hdot]
  exact gcnK_coe D h W bias p f

theorem layer_relu_eq (D : Data) {a b : ℕ} (h : Fin 10240 → Fin a → ℝ) (W : Fin a → Fin b → ℝ) (bias : Fin b → ℝ)
    (A : (⟨2, ![10240, 10240]⟩ : Shape).Idx → EReal) (d : (⟨2, ![10240, 1]⟩ : Shape).Idx → EReal)
    (dotv X co : (⟨2, ![10240, b]⟩ : Shape).Idx → EReal)
    (hA : ∀ p q, A (ix2 p q) = ((T D p q : ℝ) : EReal)) (hd : ∀ p, d (ix2 p 0) = ((dinvK D p : ℝ) : EReal))
    (hdot : ∀ p f, dotv (ix2 p f) = ∑ k : Fin a, ((h p k : ℝ) : EReal) * ((W k f : ℝ) : EReal))
    (hX : ∀ q f, X (ix2 q f) = d (ix2 q 0) * dotv (ix2 q f))
    (hco : ∀ p f, co (ix2 p f) = (d (ix2 p 0) * d (ix2 p 0)) * dotv (ix2 p f) + ((bias f : ℝ) : EReal)) :
    (fun j => max (adjmmE A X d co j) 0) = fun j => ((max (gcnK D h W bias (j 0) (j 1)) 0 : ℝ) : EReal) := by
  funext j
  rw [congrFun (layer_eq D h W bias A d dotv X co hA hd hdot hX hco) j]
  exact max_zero_coe _

end Cert.LayerMath

end
-- ==== Proof.KV.Glue.lean ====
import proofs.«430304_j36258113913429_2_alg».proof.Proof.Gen.KernelIdeal.Launch
import proofs.«430304_j36258113913429_2_alg».proof.Proof.KV.LayerRead
import proofs.«430304_j36258113913429_2_alg».proof.Proof.KV.LayerMath
import proofs.«430304_j36258113913429_2_alg».proof.Proof.Spec
import proofs.«430304_j36258113913429_2_alg».proof.Proof.LibCoe
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen
open Idealize.ShloMosaic Idealize.ShloMosaic.TcCoe Idealize.ShloMosaic.ValueIdx Idealize.ShloMosaic.StableHlo

section Pure
open Cert.Spec Cert.LibCoe Cert.LayerMath

theorem wcat_coe (D : Data) (x₁ x₂ : S64x64.Idx → EReal) (h₁ : x₁ = fun i => ((D.Wa1 (i 0) (i 1) : ℝ) : EReal))
    (h₂ : x₂ = fun i => ((D.Ws (i 0) (i 1) : ℝ) : EReal)) :
    concatenate S64x128 1 [⟨S64x64, x₁⟩, ⟨S64x64, x₂⟩] concatenates_S64x64_S64x64_S64x128_d1
      = fun i => ((Wcat D (i 0) (i 1) : ℝ) : EReal) := by
  funext i
  obtain ⟨k, f, rfl⟩ : ∃ (k : Fin 64) (f : Fin 128), i = ix2 k f := ⟨i 0, i 1, eq_ix2 i⟩
  rw [wcat_apply]
  show _ = ((Wcat D k f : ℝ) : EReal)
  unfold Wcat
  by_cases h : f.val < 64
  · rw [dif_pos h, dif_pos h, h₁]
  · rw [dif_neg h, dif_neg h, h₂]

theorem bcat_coe (D : Data) (x₁ x₂ : S64.Idx → EReal) (h₁ : x₁ = fun i => ((D.ba1 (i 0) : ℝ) : EReal))
    (h₂ : x₂ = fun i => ((D.bs (i 0) : ℝ) : EReal)) :
    concatenate S128 0 [⟨S64, x₁⟩, ⟨S64, x₂⟩] concatenates_S64_S64_S128_d0
      = fun i => ((bcat D (i 0) : ℝ) : EReal) := by
  funext i
  obtain ⟨f, rfl⟩ : ∃ (f : Fin 128), i = ix1 f := ⟨i 0, eq_ix1 i⟩
  rw [bcat_apply]
  show _ = ((bcat D f : ℝ) : EReal)
  unfold bcat
  by_cases h : f.val < 64
  · rw [dif_pos h, dif_pos h, h₁]
  · rw [dif_neg h, dif_neg h, h₂]

theorem relu_lo_coe (D : Data) (cat : S10240x128.Idx → EReal) (hc : cat = fun i => ((catK D (i 0) (i 1) : ℝ) : EReal)) :
    maximumf (F := Ideal) (φ := .f32) (extractStridedSlice S10240x64 ![0, 0] cat slices_S10240x128_S10240x64_0_0)
        (broadcastInDim S10240x64 ![] bcast_S_S10240x64 (constant (F := Ideal) S_ .f32 0x00000000#32))
      = fun i => ((h2K D (i 0) (i 1) : ℝ) : EReal) := by
  funext i
  obtain ⟨p, f, rfl⟩ : ∃ (p : Fin 10240) (f : Fin 64), i = ix2 p f := ⟨i 0, i 1, eq_ix2 i⟩
  rw [maximumf_apply, slice_lo_apply, hc]
  show max ((catK D p ⟨f.val, _⟩ : ℝ) : EReal) (Ideal.ofBits .f32 0x00000000#32) = ((h2K D p f : ℝ) : EReal)
  rw [Ideal.ofBits_zero_f32, max_zero_coe]
  rfl

theorem slice_hi_coe (D : Data) (cat : S10240x128.Idx → EReal) (hc : cat = fun i => ((catK D (i 0) (i 1) : ℝ) : EReal)) :
    extractStridedSlice S10240x64 ![0, 64] cat slices_S10240x128_S10240x64_0_64
      = fun i => ((hsK D (i 0) (i 1) : ℝ) : EReal) := by
  funext i
  obtain ⟨p, f, rfl⟩ : ∃ (p : Fin 10240) (f : Fin 64), i = ix2 p f := ⟨i 0, i 1, eq_ix2 i⟩
  rw [slice_hi_apply, hc]
  rfl

theorem rows_kx_coe (D : Data) (y : S10240x256.Idx → EReal)
    (hy : y = fun j => ((gcnK D (h2K D) D.Wa2 D.ba2 (j 0) (j 1) : ℝ) : EReal)) :
    extractStridedSlice S10000x256 ![0, 0] y slices_S10240x256_S10000x256_0_0
      = fun i => ((Kx D (i 0) (i 1) : ℝ) : EReal) := by
  funext i
  obtain ⟨p, f, rfl⟩ : ∃ (p : Fin 10000) (f : Fin 256), i = ix2 p f := ⟨i 0, i 1, eq_ix2 i⟩
  rw [slice_rows256_apply, hy]
  rfl

theorem rows_hs_coe (D : Data) (y : S10240x64.Idx → EReal) (hy : y = fun i => ((hsK D (i 0) (i 1) : ℝ) : EReal)) :
    (truncf (F := Ideal) .bf16 (extractStridedSlice S10000x64 ![0, 0] y slices_S10240x64_S10000x64_0_0 : FVec Ideal S10000x64 .f32) bitsLt_bf16_f32 : FVec Ideal S10000x64 .bf16)
      = fun i => ((hsK D (up (i 0)) (i 1) : ℝ) : EReal) := by
  funext i
  obtain ⟨p, f, rfl⟩ : ∃ (p : Fin 10000) (f : Fin 64), i = ix2 p f := ⟨i 0, i 1, eq_ix2 i⟩
  rw [truncf_apply, slice_rows64_apply, hy]
  rfl

theorem outer_ks_coe (D : Data) (H : S10000x64.Idx → EReal) (hH : H = fun i => ((hsK D (up (i 0)) (i 1) : ℝ) : EReal)) :
    (fun j : S10000x10000.Idx => ∑ k : Fin 64, H (ix2 (j 0) k) * H (ix2 (j 1) k))
      = fun j => ((Ks D (j 0) (j 1) : ℝ) : EReal) := by
  funext j
  rw [hH]
  show ∑ k : Fin 64, ((hsK D (up (j 0)) k : ℝ) : EReal) * ((hsK D (up (j 1)) k : ℝ) : EReal) = ((Ks D (j 0) (j 1) : ℝ) : EReal)
  rw [sum_mul_coe]
  rfl

end Pure

section Stretches
variable (V : Valuation τ sig (Elt Ideal))

theorem host5_v102 : StableHlo.after hostOps5 V (Proc.devRef .tc main_v102)
    = extractStridedSlice S10240x64 ![0, 0] (V (Proc.devRef .tc main_v101)) slices_S10240x128_S10240x64_0_0 := by
  after_results

theorem host5_1_v103 : StableHlo.after hostOps5_1 V (Proc.devRef .tc main_v103)
    = maximumf (F := Ideal) (φ := .f32) (V (Proc.devRef .tc main_v102))
        (broadcastInDim S10240x64 ![] bcast_S_S10240x64 (constant (F := Ideal) S_ .f32 0x00000000#32)) := by
  after_results
  rfl

theorem host5_2_v104 : StableHlo.after hostOps5_2 V (Proc.devRef .tc main_v104)
    = extractStridedSlice S10240x64 ![0, 64] (V (Proc.devRef .tc main_v101)) slices_S10240x128_S10240x64_0_64 := by
  after_results

theorem host6_v116 : StableHlo.after hostOps6 V (Proc.devRef .tc main_v116)
    = extractStridedSlice S10000x256 ![0, 0] (V (Proc.devRef .tc main_v115)) slices_S10240x256_S10000x256_0_0 := by
  after_results

theorem host6_v118 : StableHlo.after hostOps6 V (Proc.devRef .tc main_v118)
    = truncf (F := Ideal) .bf16 (extractStridedSlice S10000x64 ![0, 0] (V (Proc.devRef .tc main_v104)) slices_S10240x64_S10000x64_0_0 : FVec Ideal S10000x64 .f32) bitsLt_bf16_f32 := by
  after_results

theorem host4_v89 : StableHlo.after hostOps4 V (Proc.devRef .tc main_v89)
    = concatenate S64x128 1 [⟨S64x64, V (Proc.devRef .tc main_arg6)⟩, ⟨S64x64, V (Proc.devRef .tc main_arg10)⟩] concatenates_S64x64_S64x64_S64x128_d1 := by
  after_results
theorem host4_v90 : StableHlo.after hostOps4 V (Proc.devRef .tc main_v90)
    = concatenate S128 0 [⟨S64, V (Proc.devRef .tc main_arg7)⟩, ⟨S64, V (Proc.devRef .tc main_arg11)⟩] concatenates_S64_S64_S128_d0 := by
  after_results

end Stretches

end Cert.KernelIdeal.HandValue

end
-- ==== Proof.Consts.lean ====
import Idealize.ShloMosaic.PureOps.Ideal

noncomputable section

namespace Cert.Consts

open Idealize.ShloMosaic

set_option maxHeartbeats 400000 in
theorem eps_val : Ideal.ofBits .f32 0x2EDBE6FF#32 = (((14411519 : ℝ) * (2 : ℝ) ^ (-57 : ℤ) : ℝ) : EReal) := by
  simp only [Ideal.ofBits, Ideal.ieee]
  have h1 : (BitVec.extractLsb' (8 + 23) 1 (0x2EDBE6FF#32) == 1#1) = false := by decide
  have h2 : (BitVec.extractLsb' 23 8 (0x2EDBE6FF#32)).toNat = 93 := by decide
  have h3 : (BitVec.extractLsb' 0 23 (0x2EDBE6FF#32)).toNat = 6022911 := by decide
  rw [h1, h2, h3]
  norm_num

set_option maxHeartbeats 400000 in
theorem c8_val : Ideal.ofBits .f32 0x3F4CCCCD#32 = (((13421773 : ℝ) * (2 : ℝ) ^ (-24 : ℤ) : ℝ) : EReal) := by
  simp only [Ideal.ofBits, Ideal.ieee]
  have h1 : (BitVec.extractLsb' (8 + 23) 1 (0x3F4CCCCD#32) == 1#1) = false := by decide
  have h2 : (BitVec.extractLsb' 23 8 (0x3F4CCCCD#32)).toNat = 126 := by decide
  have h3 : (BitVec.extractLsb' 0 23 (0x3F4CCCCD#32)).toNat = 5033165 := by decide
  rw [h1, h2, h3]
  norm_num

set_option maxHeartbeats 400000 in
theorem c1_val : Ideal.ofBits .f32 0x3DCCCCCD#32 = (((13421773 : ℝ) * (2 : ℝ) ^ (-27 : ℤ) : ℝ) : EReal) := by
  simp only [Ideal.ofBits, Ideal.ieee]
  have h1 : (BitVec.extractLsb' (8 + 23) 1 (0x3DCCCCCD#32) == 1#1) = false := by decide
  have h2 : (BitVec.extractLsb' 23 8 (0x3DCCCCCD#32)).toNat = 123 := by decide
  have h3 : (BitVec.extractLsb' 0 23 (0x3DCCCCCD#32)).toNat = 5033165 := by decide
  rw [h1, h2, h3]
  norm_num

set_option maxHeartbeats 400000 in
theorem one_val : Ideal.ofBits .f32 0x3F800000#32 = ((1 : ℝ) : EReal) := by
  simp only [Ideal.ofBits, Ideal.ieee]
  have h1 : (BitVec.extractLsb' (8 + 23) 1 (0x3F800000#32) == 1#1) = false := by decide
  have h2 : (BitVec.extractLsb' 23 8 (0x3F800000#32)).toNat = 127 := by decide
  have h3 : (BitVec.extractLsb' 0 23 (0x3F800000#32)).toNat = 0 := by decide
  rw [h1, h2, h3]
  norm_num

theorem eps_coe : Ideal.ofBits .f32 0x2EDBE6FF#32 = ((EReal.toReal (Ideal.ofBits .f32 0x2EDBE6FF#32) : ℝ) : EReal) := by
  rw [eps_val, EReal.toReal_coe]
theorem c8_coe : Ideal.ofBits .f32 0x3F4CCCCD#32 = ((EReal.toReal (Ideal.ofBits .f32 0x3F4CCCCD#32) : ℝ) : EReal) := by
  rw [c8_val, EReal.toReal_coe]
theorem c1_coe : Ideal.ofBits .f32 0x3DCCCCCD#32 = ((EReal.toReal (Ideal.ofBits .f32 0x3DCCCCCD#32) : ℝ) : EReal) := by
  rw [c1_val, EReal.toReal_coe]

theorem eps_pos : 0 < EReal.toReal (Ideal.ofBits .f32 0x2EDBE6FF#32) := by
  rw [eps_val, EReal.toReal_coe]
  positivity

end Cert.Consts

end
-- ==== Proof.KV.FrontLib.lean ====
import Idealize.ShloMosaic.PureOps.Ideal.Laws
import Idealize.ShloMosaic.Lib.ValueIdxRank1
import Idealize.ShloMosaic.Lib.Pipeline.Value
import Idealize.ShloMosaic.Lib.Affine
import proofs.«430304_j36258113913429_2_alg».proof.Proof.LibCoe
import proofs.«430304_j36258113913429_2_alg».proof.Proof.Spec

noncomputable section

namespace Cert.FrontLib

open Idealize.ShloMosaic Idealize.ShloMosaic.ValueIdx Finset

-- An update lands at `i` exactly when start plus window coordinate is `i`'s coordinate on every axis.
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    refine ⟨fun e a => ?_, fun H => congrArg some (funext fun a => Fin.ext ?_)⟩
    · have e2 : (d.start j idx a + (d.window j a : Int)).toNat = (i a).val :=
        congrArg Fin.val (congrFun (Option.some.inj e) a)
      have := (h a).1
      omega
    · show (d.start j idx a + (d.window j a : Int)).toNat = (i a).val
      have := H a
      omega
  · rename_i h
    refine ⟨fun e => (nomatch e), fun H => (h fun a => ?_).elim⟩
    have := H a
    have := (i a).isLt
    omega

abbrev d1 {N M : Nat} (wf : ScatterDims.WF ⟨1, ![N]⟩ ⟨2, ![M, 1]⟩ ⟨1, ![M]⟩ [] [0] [0] 1) :
    ScatterDims ⟨1, ![N]⟩ ⟨2, ![M, 1]⟩ ⟨1, ![M]⟩ := ⟨[], [0], [0], 1, wf⟩

-- One index word per update into a vector: update `e` lands at the row its word names.
theorem d1_resultIdx {N M w : Nat} (wf : ScatterDims.WF ⟨1, ![N]⟩ ⟨2, ![M, 1]⟩ ⟨1, ![M]⟩ [] [0] [0] 1)
    (e : Fin M) (idx : IVec ⟨2, ![M, 1]⟩ w) (i : (⟨1, ![N]⟩ : Shape).Idx) :
    (d1 wf).resultIdx? (ix1 e) idx = some i ↔ (idx (ix2 e 0)).toInt = ((i 0).val : Int) := by
  have hs : (d1 wf).start (ix1 e) idx 0 = (idx (ix2 e 0)).toInt := by
    unfold ScatterDims.start
    rw [dif_pos (show (0 : Fin 1) ∈ [(0 : Fin 1)] from List.mem_cons_self)]
    congr 2; funext b; match b with | ⟨0, _⟩ => rfl | ⟨1, _⟩ => rfl
  have hw : (d1 wf).window (ix1 e) 0 = 0 := by
    unfold ScatterDims.window
    exact dif_neg (show (0 : Fin 1) ∉ ([] : List (Fin 1)) from List.not_mem_nil)
  rw [resultIdx?_eq_some_iff, Fin.forall_fin_one, hs, hw, Nat.cast_zero, add_zero]

abbrev d2 {N0 N1 M : Nat} (wf : ScatterDims.WF ⟨2, ![N0, N1]⟩ ⟨2, ![M, 2]⟩ ⟨1, ![M]⟩ [] [0, 1] [0, 1] 1) :
    ScatterDims ⟨2, ![N0, N1]⟩ ⟨2, ![M, 2]⟩ ⟨1, ![M]⟩ := ⟨[], [0, 1], [0, 1], 1, wf⟩

-- Two index words per update into a matrix: update `e` lands at the row and column its words name.
theorem d2_resultIdx {N0 N1 M w : Nat} (wf : ScatterDims.WF ⟨2, ![N0, N1]⟩ ⟨2, ![M, 2]⟩ ⟨1, ![M]⟩ [] [0, 1] [0, 1] 1)
    (e : Fin M) (idx : IVec ⟨2, ![M, 2]⟩ w) (i : (⟨2, ![N0, N1]⟩ : Shape).Idx) :
    (d2 wf).resultIdx? (ix1 e) idx = some i ↔
      (idx (ix2 e 0)).toInt = ((i 0).val : Int) ∧ (idx (ix2 e 1)).toInt = ((i 1).val : Int) := by
  have hs0 : (d2 wf).start (ix1 e) idx 0 = (idx (ix2 e 0)).toInt := by
    unfold ScatterDims.start
    rw [dif_pos (show (0 : Fin 2) ∈ [(0 : Fin 2), 1] from List.mem_cons_self)]
    congr 2; funext b; match b with | ⟨0, _⟩ => rfl | ⟨1, _⟩ => rfl
  have hs1 : (d2 wf).start (ix1 e) idx 1 = (idx (ix2 e 1)).toInt := by
    unfold ScatterDims.start
    rw [dif_pos (show (1 : Fin 2) ∈ [(0 : Fin 2), 1] from List.mem_cons_of_mem _ List.mem_cons_self)]
    congr 2; funext b; match b with | ⟨0, _⟩ => rfl | ⟨1, _⟩ => rfl
  have hw : ∀ a, (d2 wf).window (ix1 e) a = 0 := fun a => by
    unfold ScatterDims.window
    exact dif_neg (show a ∉ ([] : List (Fin 2)) from List.not_mem_nil)
  rw [resultIdx?_eq_some_iff, Fin.forall_fin_two, hs0, hs1, hw, hw, Nat.cast_zero, add_zero, add_zero]

abbrev d3 {N0 N1 R : Nat} (wf : ScatterDims.WF ⟨2, ![N0, N1]⟩ ⟨1, ![1]⟩ ⟨2, ![R, N1]⟩ [0, 1] [] [0] 0) :
    ScatterDims ⟨2, ![N0, N1]⟩ ⟨1, ![1]⟩ ⟨2, ![R, N1]⟩ := ⟨[0, 1], [], [0], 0, wf⟩

-- A block of whole rows whose one start word is zero: update `(r, c)` lands at `(r, c)`.
theorem d3_resultIdx {N0 N1 R w : Nat} (wf : ScatterDims.WF ⟨2, ![N0, N1]⟩ ⟨1, ![1]⟩ ⟨2, ![R, N1]⟩ [0, 1] [] [0] 0)
    (j : (⟨2, ![R, N1]⟩ : Shape).Idx) (idx : IVec ⟨1, ![1]⟩ w) (h0 : (idx (ix1 0)).toInt = 0)
    (i : (⟨2, ![N0, N1]⟩ : Shape).Idx) :
    (d3 wf).resultIdx? j idx = some i ↔ (j 0).val = (i 0).val ∧ (j 1).val = (i 1).val := by
  have hs0 : (d3 wf).start j idx 0 = 0 := by
    unfold ScatterDims.start
    rw [dif_pos (show (0 : Fin 2) ∈ [(0 : Fin 2)] from List.mem_cons_self)]
    refine Eq.trans ?_ h0
    congr 2; funext b; match b with | ⟨0, _⟩ => rfl
  have hs1 : (d3 wf).start j idx 1 = 0 := by
    unfold ScatterDims.start
    exact dif_neg (show (1 : Fin 2) ∉ [(0 : Fin 2)] by decide)
  have hw0 : (d3 wf).window j 0 = (j 0).val := by
    unfold ScatterDims.window
    exact (dif_pos (show (0 : Fin 2) ∈ [(0 : Fin 2), 1] from List.mem_cons_self)).trans rfl
  have hw1 : (d3 wf).window j 1 = (j 1).val := by
    unfold ScatterDims.window
    exact (dif_pos (show (1 : Fin 2) ∈ [(0 : Fin 2), 1] from List.mem_cons_of_mem _ List.mem_cons_self)).trans rfl
  rw [resultIdx?_eq_some_iff, Fin.forall_fin_two, hs0, hs1, hw0, hw1]
  omega

-- If exactly one step of a fold touches the value at `i`, the fold's value there is that step's.
theorem foldl_unique_hit {ι α β : Type} [DecidableEq ι] (step : (β → α) → ι → (β → α)) (i : β) (n0 : ι) (g : α → α)
    (hhit : ∀ r, step r n0 i = g (r i)) (hmiss : ∀ r n, n ≠ n0 → step r n i = r i) :
    ∀ (l : List ι) (r : β → α), l.Nodup → (l.foldl step r) i = if n0 ∈ l then g (r i) else r i := by
  intro l
  induction l with
  | nil => intro r _; simp
  | cons n l ih =>
    intro r hnd
    obtain ⟨hn, hl⟩ := List.nodup_cons.1 hnd
    rw [List.foldl_cons, ih (step r n) hl]
    by_cases e : n = n0
    · subst e
      rw [if_neg hn, if_pos List.mem_cons_self, hhit]
    · rw [hmiss r n e]
      by_cases hm : n0 ∈ l
      · rw [if_pos hm, if_pos (List.mem_cons_of_mem _ hm)]
      · rw [if_neg hm, if_neg fun h => (List.mem_cons.1 h).elim (fun h => e h.symm) hm]

-- If no step of a fold touches the value at `i`, it stays.
theorem foldl_no_hit {ι α β : Type} (step : (β → α) → ι → (β → α)) (i : β)
    (hmiss : ∀ r n, step r n i = r i) : ∀ (l : List ι) (r : β → α), (l.foldl step r) i = r i := by
  intro l
  induction l with
  | nil => intro r; rfl
  | cons n l ih => intro r; rw [List.foldl_cons, ih, hmiss]

theorem scatter_apply_unique {α : Type} {s si u : Shape} (d : ScatterDims s si u) {w : Nat} (f : α → α → α)
    (x : s.Idx → α) (idx : IVec si w) (upd : u.Idx → α) (i : s.Idx) (j0 : u.Idx)
    (h0 : d.resultIdx? j0 idx = some i) (huniq : ∀ j, d.resultIdx? j idx = some i → j = j0) :
    Host.scatter d f x idx upd i = f (x i) (upd j0) := by
  unfold Host.scatter
  refine (foldl_unique_hit _ i (u.rowMajor j0) (fun a => f a (upd j0)) ?_ ?_ _ x (List.nodup_finRange _)).trans
    (if_pos (List.mem_finRange _))
  · intro r
    try dsimp only
    rw [Equiv.symm_apply_apply, h0]
    try dsimp only
    rw [if_pos rfl]
  · intro r n hn
    try dsimp only
    cases h : d.resultIdx? (u.rowMajor.symm n) idx with
    | none => rfl
    | some i2 =>
      try dsimp only
      rw [if_neg]
      intro e
      apply hn
      rw [← huniq (u.rowMajor.symm n) (by rw [h, e]), Equiv.apply_symm_apply]

theorem scatter_apply_none {α : Type} {s si u : Shape} (d : ScatterDims s si u) {w : Nat} (f : α → α → α)
    (x : s.Idx → α) (idx : IVec si w) (upd : u.Idx → α) (i : s.Idx)
    (hnone : ∀ j, d.resultIdx? j idx ≠ some i) : Host.scatter d f x idx upd i = x i := by
  unfold Host.scatter
  refine foldl_no_hit _ i (fun r n => ?_) _ x
  try dsimp only
  cases h : d.resultIdx? (u.rowMajor.symm n) idx with
  | none => rfl
  | some i2 =>
    try dsimp only
    rw [if_neg]
    intro e
    exact hnone _ (by rw [h, e])

-- A block of whole rows written at row zero: the block on its rows, the operand below.
theorem scatter_rows_apply {α : Type} {N0 N1 R w : Nat} (hR : R ≤ N0)
    (wf : ScatterDims.WF ⟨2, ![N0, N1]⟩ ⟨1, ![1]⟩ ⟨2, ![R, N1]⟩ [0, 1] [] [0] 0)
    (x : (⟨2, ![N0, N1]⟩ : Shape).Idx → α) (idx : IVec ⟨1, ![1]⟩ w) (h0 : (idx (ix1 0)).toInt = 0)
    (upd : (⟨2, ![R, N1]⟩ : Shape).Idx → α) (i : (⟨2, ![N0, N1]⟩ : Shape).Idx) :
    Host.scatter (d3 wf) (fun _ b => b) x idx upd i
      = if h : (i 0).val < R then upd (ix2 ⟨(i 0).val, h⟩ (i 1)) else x i := by
  split
  · rename_i h
    refine scatter_apply_unique (d3 wf) _ x idx upd i (ix2 ⟨(i 0).val, h⟩ (i 1))
      ((d3_resultIdx wf _ idx h0 i).2 ⟨rfl, rfl⟩) fun j hj => ?_
    rw [d3_resultIdx wf _ idx h0 i] at hj
    rw [eq_ix2 j]
    congr 1
    · exact Fin.ext hj.1
    · exact Fin.ext hj.2
  · rename_i h
    refine scatter_apply_none (d3 wf) _ x idx upd i fun j hj => ?_
    rw [d3_resultIdx wf _ idx h0 i] at hj
    have e : (j 0).val < R := (j 0).isLt
    omega

theorem sum_one_card {ι : Type} (s : Finset ι) : ∑ _j ∈ s, (1 : EReal) = ((s.card : ℝ) : EReal) := by
  have h := Cert.LibCoe.coe_sum s (fun _ => (1 : ℝ))
  rw [Finset.sum_const, nsmul_eq_mul, mul_one] at h
  rw [h, EReal.coe_one]

-- Ones scattered into zeros count the updates landing on the index.
theorem scatterAdd_count {s si : Shape} {M w : Nat} (d : ScatterDims s si ⟨1, ![M]⟩) (idx : IVec si w) (i : s.Idx)
    (P : Fin M → Prop) [DecidablePred P] (h : ∀ e, d.resultIdx? (ix1 e) idx = some i ↔ P e) :
    Ideal.hostScatterAdd d (fun _ => (0 : EReal)) idx (fun _ => (1 : EReal)) i = (((univ.filter P).card : ℝ) : EReal) := by
  unfold Ideal.hostScatterAdd
  rw [zero_add, sum_one_card]
  congr 2
  refine (Finset.card_equiv idxEquiv1.symm fun e => ?_).symm
  simp only [Finset.mem_filter, Finset.mem_univ, true_and]
  exact (h e).symm

theorem toInt_of_lt (v : BitVec 32) (h : v.toNat < 10000) : v.toInt = (v.toNat : Int) := by
  rw [BitVec.toInt_eq_toNat_cond, if_pos (by omega)]

-- The negative-index wrap does nothing to a word that is not negative.
theorem wrap_eq (v k : BitVec 32) (h : v.toNat < 10000) :
    Scalar.select (IntOp.cmpi .slt v 0#32) (IntOp.addi v k) v = v :=
  if_neg fun e => by
    have := IntOp.cmpi_slt.1 e
    rw [toInt_of_lt v h] at this
    exact absurd this (by show ¬ ((v.toNat : Int) < 0); omega)

-- The word of `n < 10000` read as a number.
theorem mask_word (n : Nat) (hn : n < 10240) :
    (((IntOp.cmpi .slt (BitVec.ofNat 32 n) 10000#32).toNat : ℝ) : EReal) = ((if n < 10000 then (1 : ℝ) else 0 : ℝ) : EReal) := by
  have hv : (BitVec.ofNat 32 n).toNat = n := by
    rw [BitVec.toNat_ofNat]; exact Nat.mod_eq_of_lt (by omega)
  have hi : (BitVec.ofNat 32 n).toInt = (n : Int) := by
    rw [BitVec.toInt_eq_toNat_cond, hv, if_pos (by omega)]
  have hc : (10000#32 : BitVec 32).toInt = 10000 := by decide
  by_cases h : n < 10000
  · rw [IntOp.cmpi_slt.2 (by rw [hi, hc]; omega), if_pos h]
    norm_num
  · have e : IntOp.cmpi .slt (BitVec.ofNat 32 n) 10000#32 = 0#1 :=
      eq_zero_of_ne_one fun e1 => h (by have := IntOp.cmpi_slt.1 e1; rw [hi, hc] at this; omega)
    rw [e, if_neg h]
    norm_num

-- The adjacency product on coerced reals is the coercion of the real one.
theorem adjmm_coe {b : ℕ} (A : Fin 10240 → Fin 10240 → ℝ) (X : Fin 10240 → Fin b → ℝ) (rs : Fin 10240 → ℝ)
    (corr : Fin 10240 → Fin b → ℝ) (a : Fin 10240) (f : Fin b) :
    (∑ q : Fin 10240, ((A a q : ℝ) : EReal) * ((X q f : ℝ) : EReal)) * ((rs a : ℝ) : EReal) + ((corr a f : ℝ) : EReal)
      = ((Cert.Spec.adjmm A X rs corr a f : ℝ) : EReal) := by
  unfold Cert.Spec.adjmm
  rw [EReal.coe_add, EReal.coe_mul, Cert.LibCoe.coe_sum]
  congr 2

end Cert.FrontLib
-- ==== Proof.SpecData.lean ====
import proofs.«430304_j36258113913429_2_alg».proof.Proof.Spec
import Idealize.ShloMosaic.PureOps.Ideal
import Idealize.ShloMosaic.Lib.ValueIdx

noncomputable section

namespace Cert.SpecData

open Idealize.ShloMosaic Idealize.ShloMosaic.ValueIdx

def node (w : BitVec 32) : Fin 10000 := ⟨min w.toNat 9999, by omega⟩

theorem node_val {w : BitVec 32} (h : w.toNat < 10000) : (node w).val = w.toNat := by
  show min w.toNat 9999 = w.toNat
  omega

def data (x0 : FVec Ideal ⟨2, ![10000, 256]⟩ .f32) (x1 : IVec ⟨2, ![2, 320000]⟩ 32)
    (x2 : FVec Ideal ⟨2, ![256, 64]⟩ .f32) (x3 : FVec Ideal ⟨1, ![64]⟩ .f32)
    (x4 : FVec Ideal ⟨2, ![64, 64]⟩ .f32) (x5 : FVec Ideal ⟨1, ![64]⟩ .f32)
    (x6 : FVec Ideal ⟨2, ![64, 64]⟩ .f32) (x7 : FVec Ideal ⟨1, ![64]⟩ .f32)
    (x8 : FVec Ideal ⟨2, ![64, 256]⟩ .f32) (x9 : FVec Ideal ⟨1, ![256]⟩ .f32)
    (x10 : FVec Ideal ⟨2, ![64, 64]⟩ .f32) (x11 : FVec Ideal ⟨1, ![64]⟩ .f32) : Cert.Spec.Data where
  x i f := EReal.toReal (x0 (ix2 i f))
  src e := node (x1 (ix2 (0 : Fin 2) e))
  dst e := node (x1 (ix2 (1 : Fin 2) e))
  W1 k f := EReal.toReal (x2 (ix2 k f))
  b1 f := EReal.toReal (x3 (ix1 f))
  W2 k f := EReal.toReal (x4 (ix2 k f))
  b2 f := EReal.toReal (x5 (ix1 f))
  Wa1 k f := EReal.toReal (x6 (ix2 k f))
  ba1 f := EReal.toReal (x7 (ix1 f))
  Wa2 k f := EReal.toReal (x8 (ix2 k f))
  ba2 f := EReal.toReal (x9 (ix1 f))
  Ws k f := EReal.toReal (x10 (ix2 k f))
  bs f := EReal.toReal (x11 (ix1 f))
  c8 := EReal.toReal (Ideal.ofBits .f32 0x3F4CCCCD#32)
  c1 := EReal.toReal (Ideal.ofBits .f32 0x3DCCCCCD#32)
  ε := EReal.toReal (Ideal.ofBits .f32 0x2EDBE6FF#32)
  rs d := EReal.toReal (Ideal.rsqrt (d : EReal))

end Cert.SpecData

end
-- ==== Proof.KV.FrontDefs.lean ====
import proofs.«430304_j36258113913429_2_alg».proof.Proof.Gen.KernelIdeal.Launch
import proofs.«430304_j36258113913429_2_alg».proof.Proof.SpecData
import Idealize.ShloMosaic.Lib.StableHlo.Run
import Idealize.ShloMosaic.Lib.Pipeline.Value

noncomputable section

namespace Cert.KernelIdeal.HandValue

open Cert.KernelIdeal Cert.KernelIdeal.Gen
open Idealize.ShloMosaic Idealize.ShloMosaic.TcCoe Idealize.ShloMosaic.ValueIdx Idealize.ShloMosaic.StableHlo

abbrev dataOf (V : Valuation τ sig (Elt Ideal)) : Cert.Spec.Data :=
  Cert.SpecData.data (V (Proc.devRef .tc main_arg0)) (V (Proc.devRef .tc main_arg1)) (V (Proc.devRef .tc main_arg2))
    (V (Proc.devRef .tc main_arg3)) (V (Proc.devRef .tc main_arg4)) (V (Proc.devRef .tc main_arg5))
    (V (Proc.devRef .tc main_arg6)) (V (Proc.devRef .tc main_arg7)) (V (Proc.devRef .tc main_arg8))
    (V (Proc.devRef .tc main_arg9)) (V (Proc.devRef .tc main_arg10)) (V (Proc.devRef .tc main_arg11))

abbrev entry0 (V0 : Valuation τ sig (Elt Ideal)) : Valuation τ sig (Elt Ideal) :=
  StableHlo.after hostOps0_2 (StableHlo.after hostOps0_1 (StableHlo.after hostOps0 V0))

def srcW (x1 : IVec S2x320000 32) : IVec S320000 32 :=
  shapeCast S320000 (extractStridedSlice S1x320000 ![0, 0] x1 slices_S2x320000_S1x320000_0_0) shapeCasts_S1x320000_S320000
def dstW (x1 : IVec S2x320000 32) : IVec S320000 32 :=
  shapeCast S320000 (extractStridedSlice S1x320000 ![1, 0] x1 slices_S2x320000_S1x320000_1_0) shapeCasts_S1x320000_S320000

-- Row `r` of the edge list, flattened, reads the list at `(r, e)`.
theorem rowW_apply (r : Fin 2) (x1 : IVec S2x320000 32) (hs : S2x320000.Slices ![r.val, 0] S1x320000) (e : S320000.Idx) :
    shapeCast S320000 (extractStridedSlice S1x320000 ![r.val, 0] x1 hs) shapeCasts_S1x320000_S320000 e = x1 (ix2 r (e 0)) := by
  refine (shapeCast_apply _ shapeCasts_S1x320000_S320000 e (ix2 (0 : Fin 1) (e 0) : S1x320000.Idx) ?_).trans
    (extractStridedSlice_apply ![r.val, 0] x1 hs (ix2 (0 : Fin 1) (e 0) : S1x320000.Idx) (ix2 r (e 0) : S2x320000.Idx)
      fun a => match a with
      | ⟨0, _⟩ => by show r.val = r.val + 0; omega
      | ⟨1, _⟩ => by show (e 0).val = 0 + (e 0).val; omega)
  rewrite [Shape.rowMajor_val_two, Shape.rowMajor_val_one]
  show 0 * 320000 + (e 0).val = (e 0).val
  omega

theorem srcW_apply (x1 : IVec S2x320000 32) (e : S320000.Idx) : srcW x1 e = x1 (ix2 (0 : Fin 2) (e 0)) :=
  rowW_apply 0 x1 _ e
theorem dstW_apply (x1 : IVec S2x320000 32) (e : S320000.Idx) : dstW x1 e = x1 (ix2 (1 : Fin 2) (e 0)) :=
  rowW_apply 1 x1 _ e

-- A scalar spread over a shape reads the scalar everywhere.
theorem splat_apply {α : Type} {s : Shape} {dims : Fin S_.rank → Fin s.rank} (h : S_.BroadcastsInDim s dims)
    (x : S_.Idx → α) (i : s.Idx) : broadcastInDim s dims h x i = x ix0 :=
  broadcastInDim_apply dims h x i ix0 fun a => a.elim0

-- A vector made a column reads the vector at the row.
theorem bcastW_apply {α : Type} (v : S320000.Idx → α) (e : Fin 320000) :
    broadcastInDim S320000x1 ![0] bcast_S320000_S320000x1_0 v (ix2 e (0 : Fin 1)) = v (ix1 e) :=
  broadcastInDim_apply _ bcast_S320000_S320000x1_0 v (ix2 e (0 : Fin 1)) (ix1 e) fun a => match a with
    | ⟨0, _⟩ => by show e.val = if (320000 : Nat) = 1 then 0 else e.val; rw [if_neg (by decide)]

-- Under the range hypothesis the words of the two rows of the edge list are the nodes of the data.
theorem src_val {V0 : Valuation τ sig (Elt Ideal)} (hrange : ∀ i, (V0 (Proc.devRef .tc main_arg1) i).toNat < 10000)
    (e : Fin 320000) : (srcW (V0 (Proc.devRef .tc main_arg1)) (ix1 e)).toNat = ((dataOf V0).src e).val := by
  rw [srcW_apply]; exact (Cert.SpecData.node_val (hrange _)).symm
theorem dst_val {V0 : Valuation τ sig (Elt Ideal)} (hrange : ∀ i, (V0 (Proc.devRef .tc main_arg1) i).toNat < 10000)
    (e : Fin 320000) : (dstW (V0 (Proc.devRef .tc main_arg1)) (ix1 e)).toNat = ((dataOf V0).dst e).val := by
  rw [dstW_apply]; exact (Cert.SpecData.node_val (hrange _)).symm

end Cert.KernelIdeal.HandValue

end
-- ==== Proof.KV.Front.lean ====
import proofs.«430304_j36258113913429_2_alg».proof.Proof.Consts
import proofs.«430304_j36258113913429_2_alg».proof.Proof.KV.FrontLib
import proofs.«430304_j36258113913429_2_alg».proof.Proof.KV.FrontDefs

noncomputable section

namespace Cert.KernelIdeal.HandValue

open Cert.KernelIdeal Cert.KernelIdeal.Gen
open Idealize.ShloMosaic Idealize.ShloMosaic.TcCoe Idealize.ShloMosaic.ValueIdx Idealize.ShloMosaic.StableHlo

def wrapW (v : IVec S320000 32) : IVec S320000 32 :=
  select (cmpi .slt v (broadcastInDim S320000 ![] bcast_S_S320000 (constantI S_ 32 0#32)))
    (addi v (broadcastInDim S320000 ![] bcast_S_S320000 (constantI S_ 32 10240#32))) v

def idx2 (d s : IVec S320000 32) : IVec S320000x2 32 :=
  concatenate S320000x2 1 [⟨S320000x1, broadcastInDim S320000x1 ![0] bcast_S320000_S320000x1_0 (wrapW d)⟩,
    ⟨S320000x1, broadcastInDim S320000x1 ![0] bcast_S320000_S320000x1_0 (wrapW s)⟩] concatenates_S320000x1_S320000x1_S320000x2_d1

def adjF (d s : IVec S320000 32) : FVec Ideal S10240x10240 .f32 :=
  Host.scatterAdd scatter_S10240x10240_S320000x2_S320000_n_01_01_1
    (broadcastInDim S10240x10240 ![] bcast_S_S10240x10240 (constant S_ .f32 0x00000000#32)) (idx2 d s)
    (broadcastInDim S320000 ![] bcast_S_S320000 (constant S_ .f32 0x3F800000#32))

def padF (a0 : FVec Ideal S10000x256 .f32) : FVec Ideal S10240x256 .f32 :=
  Host.scatter scatter_S10240x256_S1_S10000x256_01_n_0_0 (fun _ b => b)
    (broadcastInDim S10240x256 ![] bcast_S_S10240x256 (constant S_ .f32 0x00000000#32))
    (broadcastInDim S1 ![] bcast_S_S1 (constantI S_ 32 0#32)) a0

section Ent
variable (V0 : Valuation τ sig (Elt Ideal))

set_option maxHeartbeats 4000000 in
theorem ent_v52 : entry0 V0 (Proc.devRef .tc main_v52)
    = truncf .bf16 (adjF (dstW (V0 (Proc.devRef .tc main_arg1))) (srcW (V0 (Proc.devRef .tc main_arg1)))) bitsLt_bf16_f32 := by
  unfold entry0
  after_results_simp <;> rfl
set_option maxHeartbeats 4000000 in
theorem ent_v53 : entry0 V0 (Proc.devRef .tc main_v53)
    = transpose S10240x10240 [1, 0] (truncf .bf16 (adjF (dstW (V0 (Proc.devRef .tc main_arg1))) (srcW (V0 (Proc.devRef .tc main_arg1)))) bitsLt_bf16_f32)
        transposes_S10240x10240_S10240x10240_1_0 := by
  unfold entry0
  after_results_simp <;> rfl
set_option maxHeartbeats 4000000 in
theorem ent_v56 : entry0 V0 (Proc.devRef .tc main_v56) = padF (V0 (Proc.devRef .tc main_arg0)) := by
  unfold entry0
  after_results_simp <;> rfl
set_option maxHeartbeats 4000000 in
theorem ent_v57 : entry0 V0 (Proc.devRef .tc main_v57)
    = truncf .bf16 (padF (V0 (Proc.devRef .tc main_arg0))) bitsLt_bf16_f32 := by
  unfold entry0
  after_results_simp <;> rfl
set_option maxHeartbeats 4000000 in
theorem ent_v58 : entry0 V0 (Proc.devRef .tc main_v58)
    = (broadcastInDim S10240x256 ![] bcast_S_S10240x256 (constant S_ .f32 0x00000000#32) : FVec Ideal S10240x256 .f32) := by
  unfold entry0
  after_results_simp

end Ent

-- A zero spread over a shape is zero everywhere.
theorem zero_splat {s : Shape} {dims : Fin S_.rank → Fin s.rank} (h : S_.BroadcastsInDim s dims) :
    broadcastInDim s dims h (constant (F := Ideal) S_ .f32 0x00000000#32) = fun _ => (0 : EReal) :=
  funext fun j => (splat_apply h _ j).trans Ideal.ofBits_zero_f32

-- The wrap does nothing to a word in the node range.
theorem wrapW_apply (v : IVec S320000 32) (e : S320000.Idx) (hv : (v e).toNat < 10000) : wrapW v e = v e := by
  have h0 : broadcastInDim S320000 ![] bcast_S_S320000 (constantI S_ 32 0#32) e = 0#32 := splat_apply _ _ e
  show Scalar.select (IntOp.cmpi .slt (v e) (broadcastInDim S320000 ![] bcast_S_S320000 (constantI S_ 32 0#32) e))
      (IntOp.addi (v e) (broadcastInDim S320000 ![] bcast_S_S320000 (constantI S_ 32 10240#32) e)) (v e) = v e
  rw [h0]
  exact Cert.FrontLib.wrap_eq _ _ hv

theorem idx2_apply0 (d s : IVec S320000 32) (e : Fin 320000) : idx2 d s (ix2 e (0 : Fin 2)) = wrapW d (ix1 e) := by
  unfold idx2
  refine (concatenate_pair_apply_left (t := S320000x2) (s₁ := S320000x1) (s₂ := S320000x1) 1 _ _
    concatenates_S320000x1_S320000x1_S320000x2_d1 (ix2 e (0 : Fin 2)) rfl (ix2 e (0 : Fin 1)) (fun b => match b with
      | ⟨0, _⟩ => rfl
      | ⟨1, _⟩ => rfl)).trans (bcastW_apply _ e)

theorem idx2_apply1 (d s : IVec S320000 32) (e : Fin 320000) : idx2 d s (ix2 e (1 : Fin 2)) = wrapW s (ix1 e) := by
  unfold idx2
  refine (concatenate_pair_apply_right (t := S320000x2) (s₁ := S320000x1) (s₂ := S320000x1) 1 _ _
    concatenates_S320000x1_S320000x1_S320000x2_d1 (ix2 e (1 : Fin 2)) rfl rfl (ix2 e (0 : Fin 1)) (fun b => match b with
      | ⟨0, _⟩ => fun _ => rfl
      | ⟨1, _⟩ => fun h => absurd (Fin.ext rfl) h) (by show 0 + 1 = 1; rfl)).trans (bcastW_apply _ e)

-- Ones added at (head, tail) words that name nodes count the edges with that head and that tail.
theorem adjF_apply (d s : IVec S320000 32) (nd ns : Fin 320000 → Fin 10000) (hd : ∀ e, (d (ix1 e)).toNat = (nd e).val)
    (hs : ∀ e, (s (ix1 e)).toNat = (ns e).val) (i : S10240x10240.Idx) :
    adjF d s i = (((Finset.univ.filter fun e : Fin 320000 =>
        (nd e).val = (i 0).val ∧ (ns e).val = (i 1).val).card : ℝ) : EReal) := by
  have ho : (broadcastInDim S320000 ![] bcast_S_S320000 (constant (F := Ideal) S_ .f32 0x3F800000#32))
      = fun _ => (1 : EReal) :=
    funext fun j => (splat_apply _ _ j).trans (Cert.Consts.one_val.trans EReal.coe_one)
  unfold adjF
  rw [zero_splat, ho]
  show Ideal.hostScatterAdd (Cert.FrontLib.d2 scatter_S10240x10240_S320000x2_S320000_n_01_01_1_wf)
    (fun _ => (0 : EReal)) (idx2 d s) (fun _ => (1 : EReal)) i = _
  refine (Cert.FrontLib.scatterAdd_count _ _ _ _ fun e => Cert.FrontLib.d2_resultIdx _ e _ _).trans ?_
  refine congrArg (fun n : ℕ => ((n : ℝ) : EReal)) (congrArg Finset.card (Finset.filter_congr fun e _ => ?_))
  have hd' := lt_of_eq_of_lt (hd e) (nd e).isLt
  have hs' := lt_of_eq_of_lt (hs e) (ns e).isLt
  rw [idx2_apply0, idx2_apply1, wrapW_apply d _ hd', wrapW_apply s _ hs', Cert.FrontLib.toInt_of_lt _ hd',
    Cert.FrontLib.toInt_of_lt _ hs', hd, hs]
  exact and_congr Nat.cast_inj Nat.cast_inj

-- The padded features: the features on the real rows, zero below.
theorem padF_apply (a0 : FVec Ideal S10000x256 .f32) (i : S10240x256.Idx) :
    padF a0 i = if h : (i 0).val < 10000 then a0 (ix2 ⟨(i 0).val, h⟩ (i 1)) else 0 := by
  have h0 : ((broadcastInDim S1 ![] bcast_S_S1 (constantI S_ 32 0#32)) (ix1 0)).toInt = 0 :=
    congrArg BitVec.toInt (splat_apply _ _ (ix1 0) : _ = 0#32)
  unfold padF
  show Host.scatter (Cert.FrontLib.d3 scatter_S10240x256_S1_S10000x256_01_n_0_0_wf) (fun _ b => b)
    (broadcastInDim S10240x256 ![] bcast_S_S10240x256 (constant (F := Ideal) S_ .f32 0x00000000#32))
    (broadcastInDim S1 ![] bcast_S_S1 (constantI S_ 32 0#32)) a0 i = _
  rw [Cert.FrontLib.scatter_rows_apply (by decide) _ _ _ h0, zero_splat]

section Entry
variable (V0 : Valuation τ sig (Elt Ideal))

-- The dense adjacency is `T`.
theorem adj_eq (hrange : ∀ i, (V0 (Proc.devRef .tc main_arg1) i).toNat < 10000) (i : S10240x10240.Idx) :
    adjF (dstW (V0 (Proc.devRef .tc main_arg1))) (srcW (V0 (Proc.devRef .tc main_arg1))) i
      = ((Cert.Spec.T (dataOf V0) (i 0) (i 1) : ℝ) : EReal) :=
  adjF_apply _ _ _ _ (dst_val hrange) (src_val hrange) i

theorem entry0_v52 (hrange : ∀ i, (V0 (Proc.devRef .tc main_arg1) i).toNat < 10000) :
    entry0 V0 (Proc.devRef .tc main_v52) = fun i => ((Cert.Spec.T (dataOf V0) (i 0) (i 1) : ℝ) : EReal) := by
  rw [ent_v52]
  funext i
  exact adj_eq V0 hrange i

theorem entry0_v53 (hrange : ∀ i, (V0 (Proc.devRef .tc main_arg1) i).toNat < 10000) :
    entry0 V0 (Proc.devRef .tc main_v53) = fun i => ((Cert.Spec.T (dataOf V0) (i 1) (i 0) : ℝ) : EReal) := by
  rw [ent_v53]
  funext i
  exact (transpose_apply [1, 0] _ transposes_S10240x10240_S10240x10240_1_0 i (ix2 (i 1) (i 0)) (fun b => match b with
    | ⟨0, _⟩ => rfl
    | ⟨1, _⟩ => rfl)).trans (adj_eq V0 hrange (ix2 (i 1) (i 0)))

-- The padded features are `xpad`.
theorem pad_eq (h0 : ∀ i, ∃ r : ℝ, V0 (Proc.devRef .tc main_arg0) i = (r : EReal)) (i : S10240x256.Idx) :
    padF (V0 (Proc.devRef .tc main_arg0)) i = ((Cert.Spec.xpad (dataOf V0) (i 0) (i 1) : ℝ) : EReal) := by
  rw [padF_apply]
  unfold Cert.Spec.xpad
  split
  · exact Cert.LibCoe.eq_coe_toReal (h0 _)
  · exact EReal.coe_zero.symm

theorem entry0_v56 (h0 : ∀ i, ∃ r : ℝ, V0 (Proc.devRef .tc main_arg0) i = (r : EReal)) :
    entry0 V0 (Proc.devRef .tc main_v56) = fun i => ((Cert.Spec.xpad (dataOf V0) (i 0) (i 1) : ℝ) : EReal) := by
  rw [ent_v56]
  exact funext (pad_eq V0 h0)

theorem entry0_v57 (h0 : ∀ i, ∃ r : ℝ, V0 (Proc.devRef .tc main_arg0) i = (r : EReal)) :
    entry0 V0 (Proc.devRef .tc main_v57) = fun i => ((Cert.Spec.xpad (dataOf V0) (i 0) (i 1) : ℝ) : EReal) := by
  rw [ent_v57]
  funext i
  exact (truncf_apply (padF (V0 (Proc.devRef .tc main_arg0))) bitsLt_bf16_f32 i).trans (pad_eq V0 h0 i)

theorem entry0_v58 : entry0 V0 (Proc.devRef .tc main_v58) = fun _ => (0 : EReal) := by
  rw [ent_v58]
  exact zero_splat _

end Entry

-- The out-neighbour closed form over the four arrays is `outnbK`.
theorem outnb_of (D : Cert.Spec.Data) (A : S10240x10240.Idx → EReal) (X : S10240x256.Idx → EReal)
    (rs : S10240x1.Idx → EReal) (corr : S10240x256.Idx → EReal)
    (hA : A = fun i => ((Cert.Spec.T D (i 1) (i 0) : ℝ) : EReal))
    (hX : X = fun i => ((Cert.Spec.xpad D (i 0) (i 1) : ℝ) : EReal))
    (hrs : rs = fun i => ((Cert.Spec.invout D (i 0) : ℝ) : EReal)) (hc : corr = fun _ => (0 : EReal)) :
    (fun j : S10240x256.Idx => (∑ q : Fin 10240, A (ix2 (j 0) q) * X (ix2 q (j 1))) * rs (ix2 (j 0) 0) + corr j)
      = fun j => ((Cert.Spec.outnbK D (j 0) (j 1) : ℝ) : EReal) := by
  subst hA hX hrs hc
  exact funext fun j => Cert.FrontLib.adjmm_coe (fun a q => Cert.Spec.T D q a) (Cert.Spec.xpad D) (Cert.Spec.invout D)
    (fun _ _ => 0) (j 0) (j 1)

-- The in-neighbour one likewise is `innbK`.
theorem innb_of (D : Cert.Spec.Data) (A : S10240x10240.Idx → EReal) (X : S10240x256.Idx → EReal)
    (rs : S10240x1.Idx → EReal) (corr : S10240x256.Idx → EReal)
    (hA : A = fun i => ((Cert.Spec.T D (i 0) (i 1) : ℝ) : EReal))
    (hX : X = fun i => ((Cert.Spec.xpad D (i 0) (i 1) : ℝ) : EReal))
    (hrs : rs = fun i => ((Cert.Spec.invin D (i 0) : ℝ) : EReal)) (hc : corr = fun _ => (0 : EReal)) :
    (fun j : S10240x256.Idx => (∑ q : Fin 10240, A (ix2 (j 0) q) * X (ix2 q (j 1))) * rs (ix2 (j 0) 0) + corr j)
      = fun j => ((Cert.Spec.innbK D (j 0) (j 1) : ℝ) : EReal) := by
  subst hA hX hrs hc
  exact funext fun j => Cert.FrontLib.adjmm_coe (Cert.Spec.T D) (Cert.Spec.xpad D) (Cert.Spec.invin D) (fun _ _ => 0) (j 0) (j 1)

set_option maxHeartbeats 4000000 in
theorem run5_v66 (V : Valuation τ sig (Elt Ideal)) : StableHlo.after hostOps2 V (Proc.devRef .tc main_v66)
    = (addf (mulf (broadcastInDim S10240x256 ![] bcast_S_S10240x256 (constant S_ .f32 0x3F4CCCCD#32))
          (V (Proc.devRef .tc main_v56) : FVec Ideal S10240x256 .f32))
        (mulf (broadcastInDim S10240x256 ![] bcast_S_S10240x256 (constant S_ .f32 0x3DCCCCCD#32))
          (addf (V (Proc.devRef .tc main_v59) : FVec Ideal S10240x256 .f32) (V (Proc.devRef .tc main_v60))))
        : FVec Ideal S10240x256 .f32) := by
  after_results_simp

-- The interpolated features are `xaugK`.
theorem xaug_of (V V0 : Valuation τ sig (Elt Ideal))
    (h56 : V (Proc.devRef .tc main_v56) = fun i => ((Cert.Spec.xpad (dataOf V0) (i 0) (i 1) : ℝ) : EReal))
    (h59 : V (Proc.devRef .tc main_v59) = fun i => ((Cert.Spec.outnbK (dataOf V0) (i 0) (i 1) : ℝ) : EReal))
    (h60 : V (Proc.devRef .tc main_v60) = fun i => ((Cert.Spec.innbK (dataOf V0) (i 0) (i 1) : ℝ) : EReal)) :
    StableHlo.after hostOps2 V (Proc.devRef .tc main_v66)
      = fun i => ((Cert.Spec.xaugK (dataOf V0) (i 0) (i 1) : ℝ) : EReal) := by
  rw [run5_v66, h56, h59, h60]
  funext i
  rw [addf_apply, mulf_apply, mulf_apply, addf_apply, splat_apply, splat_apply, constant_apply, constant_apply,
    Cert.Consts.c8_coe, Cert.Consts.c1_coe]
  unfold Cert.Spec.xaugK
  rw [EReal.coe_add, EReal.coe_mul, EReal.coe_mul, EReal.coe_add]
  rfl

end Cert.KernelIdeal.HandValue

end
-- ==== Proof.KV.FrontDeg.lean ====
import proofs.«430304_j36258113913429_2_alg».proof.Proof.Consts
import proofs.«430304_j36258113913429_2_alg».proof.Proof.KV.FrontLib
import proofs.«430304_j36258113913429_2_alg».proof.Proof.KV.FrontDefs

noncomputable section

namespace Cert.KernelIdeal.HandValue.Deg

open Cert.KernelIdeal Cert.KernelIdeal.Gen
open Idealize.ShloMosaic Idealize.ShloMosaic.TcCoe Idealize.ShloMosaic.ValueIdx Idealize.ShloMosaic.StableHlo

def onesE : FVec Ideal S320000 .f32 := broadcastInDim S320000 ![] bcast_S_S320000 (constant S_ .f32 0x3F800000#32)
def zerosN : FVec Ideal S10240 .f32 := broadcastInDim S10240 ![] bcast_S_S10240 (constant S_ .f32 0x00000000#32)
def onesN : FVec Ideal S10240 .f32 := broadcastInDim S10240 ![] bcast_S_S10240 (constant S_ .f32 0x3F800000#32)
def epsN : FVec Ideal S10240 .f32 := broadcastInDim S10240 ![] bcast_S_S10240 (constant S_ .f32 0x2EDBE6FF#32)
def maskV : FVec Ideal S10240 .f32 :=
  uitofp .f32 (cmpi .slt (iotaInDim S10240 32 0) (broadcastInDim S10240 ![] bcast_S_S10240 (constantI S_ 32 10000#32)))

def cntOf (wds : IVec S320000 32) : FVec Ideal S10240 .f32 :=
  Host.scatterAdd scatter_S10240_S320000x1_S320000_n_0_0_1 zerosN
    (broadcastInDim S320000x1 ![0] bcast_S320000_S320000x1_0 wds) onesE

def invOf (wds : IVec S320000 32) : FVec Ideal S10240 .f32 :=
  mulf (Host.divf onesN (maximumf (cntOf wds) epsN)) maskV

def degV (x1 : IVec S2x320000 32) : FVec Ideal S10240 .f32 := addf (cntOf (dstW x1)) maskV

def dinvV (x1 : IVec S2x320000 32) : FVec Ideal S10240 .f32 :=
  select (cmpf .ogt (degV x1) zerosN) (Host.rsqrt (degV x1)) zerosN

section Ent
variable (V0 : Valuation τ sig (Elt Ideal))

set_option maxHeartbeats 4000000 in
theorem ent_v22 : entry0 V0 (Proc.devRef .tc main_v22)
    = shapeCast S10240x1 (invOf (srcW (V0 (Proc.devRef .tc main_arg1)))) shapeCasts_S10240_S10240x1 := by
  unfold entry0
  after_results_simp <;> rfl
set_option maxHeartbeats 4000000 in
theorem ent_v26 : entry0 V0 (Proc.devRef .tc main_v26)
    = shapeCast S10240x1 (invOf (dstW (V0 (Proc.devRef .tc main_arg1)))) shapeCasts_S10240_S10240x1 := by
  unfold entry0
  after_results_simp <;> rfl
set_option maxHeartbeats 4000000 in
theorem ent_v35 : entry0 V0 (Proc.devRef .tc main_v35)
    = shapeCast S10240x1 (dinvV (V0 (Proc.devRef .tc main_arg1))) shapeCasts_S10240_S10240x1 := by
  unfold entry0
  after_results_simp <;> (try simp only [TRef.ofBuf, TRef.toBuf, cast_eq]) <;> rfl

end Ent

abbrev epsR : ℝ := EReal.toReal (Ideal.ofBits .f32 0x2EDBE6FF#32)

theorem zerosN_apply (i : S10240.Idx) : zerosN i = ((0 : ℝ) : EReal) :=
  (splat_apply _ _ i).trans (Ideal.ofBits_zero_f32.trans EReal.coe_zero.symm)
theorem onesN_apply (i : S10240.Idx) : onesN i = ((1 : ℝ) : EReal) := (splat_apply _ _ i).trans Cert.Consts.one_val
theorem epsN_apply (i : S10240.Idx) : epsN i = ((epsR : ℝ) : EReal) := (splat_apply _ _ i).trans Cert.Consts.eps_coe
theorem onesE_apply (e : S320000.Idx) : onesE e = 1 :=
  (splat_apply _ _ e).trans (Cert.Consts.one_val.trans EReal.coe_one)

theorem maskV_apply (i : S10240.Idx) : maskV i = ((Cert.Spec.mask (i 0) : ℝ) : EReal) := by
  have hb : broadcastInDim S10240 ![] bcast_S_S10240 (constantI S_ 32 10000#32) i = 10000#32 := splat_apply _ _ i
  show (((IntOp.cmpi .slt (BitVec.ofNat 32 (i 0).val)
    (broadcastInDim S10240 ![] bcast_S_S10240 (constantI S_ 32 10000#32) i)).toNat : ℝ) : EReal) = _
  rw [hb, Cert.FrontLib.mask_word _ (i 0).isLt]
  rfl

-- Ones added at words that name nodes count the edges whose node is the row.
theorem cntOf_apply (wds : IVec S320000 32) (nd : Fin 320000 → Fin 10000) (hw : ∀ e, (wds (ix1 e)).toNat = (nd e).val)
    (i : S10240.Idx) :
    cntOf wds i = (((Finset.univ.filter fun e : Fin 320000 => (nd e).val = (i 0).val).card : ℝ) : EReal) := by
  have hz : zerosN = fun _ => (0 : EReal) := funext fun j => (zerosN_apply j).trans EReal.coe_zero
  have ho : onesE = fun _ => (1 : EReal) := funext onesE_apply
  unfold cntOf
  rw [hz, ho]
  show Ideal.hostScatterAdd (Cert.FrontLib.d1 scatter_S10240_S320000x1_S320000_n_0_0_1_wf) (fun _ => (0 : EReal))
    (broadcastInDim S320000x1 ![0] bcast_S320000_S320000x1_0 wds) (fun _ => (1 : EReal)) i = _
  refine (Cert.FrontLib.scatterAdd_count _ _ _ _ fun e => Cert.FrontLib.d1_resultIdx _ e _ _).trans ?_
  refine congrArg (fun n : ℕ => ((n : ℝ) : EReal)) (congrArg Finset.card (Finset.filter_congr fun e _ => ?_))
  rw [bcastW_apply, Cert.FrontLib.toInt_of_lt _ (lt_of_eq_of_lt (hw e) (nd e).isLt), hw]
  exact Nat.cast_inj

-- The masked reciprocal of the guarded count, at a row.
theorem invOf_apply (wds : IVec S320000 32) (nd : Fin 320000 → Fin 10000) (hw : ∀ e, (wds (ix1 e)).toNat = (nd e).val)
    (i : S10240.Idx) :
    invOf wds i = (((1 / max ((Finset.univ.filter fun e : Fin 320000 => (nd e).val = (i 0).val).card : ℝ) epsR)
      * Cert.Spec.mask (i 0) : ℝ) : EReal) := by
  show FloatOps.mulf (FloatOps.hostDivf (onesN i) (FloatOps.maximumf (cntOf wds i) (epsN i))) (maskV i) = _
  rw [onesN_apply, cntOf_apply wds nd hw, epsN_apply, maskV_apply, Ideal.maximumf_def, Cert.LibCoe.max_coe, Ideal.hostDivf_def,
    Cert.LibCoe.div_coe (ne_of_gt (lt_of_lt_of_le Cert.Consts.eps_pos (le_max_right _ _))), Ideal.mulf_def, ← EReal.coe_mul]

-- A vector reshaped to a column reads the vector at the row.
theorem col_apply {α : Type} (v : S10240.Idx → α) (j : S10240x1.Idx) :
    shapeCast S10240x1 v shapeCasts_S10240_S10240x1 j = v (ix1 (j 0)) := by
  refine shapeCast_apply v shapeCasts_S10240_S10240x1 j (ix1 (j 0) : S10240.Idx) ?_
  rewrite [Shape.rowMajor_val_two, Shape.rowMajor_val_one]
  have h1 : (j 1).val < 1 := (j 1).isLt
  show (j 0).val = (j 0).val * 1 + (j 1).val
  omega

section Spec
variable {V0 : Valuation τ sig (Elt Ideal)}

theorem deg_apply (hrange : ∀ i, (V0 (Proc.devRef .tc main_arg1) i).toNat < 10000) (a : Fin 10240) :
    degV (V0 (Proc.devRef .tc main_arg1)) (ix1 a) = ((Cert.Spec.degK (dataOf V0) a : ℝ) : EReal) := by
  show FloatOps.addf (cntOf (dstW _) (ix1 a)) (maskV (ix1 a)) = _
  rw [cntOf_apply _ _ (dst_val hrange), maskV_apply, Ideal.addf_def, ← EReal.coe_add]
  rfl

theorem dinv_apply (hrange : ∀ i, (V0 (Proc.devRef .tc main_arg1) i).toNat < 10000) (a : Fin 10240) :
    dinvV (V0 (Proc.devRef .tc main_arg1)) (ix1 a) = ((Cert.Spec.dinvK (dataOf V0) a : ℝ) : EReal) := by
  simp only [dinvV, select, cmpf, Host.rsqrt]
  rw [deg_apply hrange a, zerosN_apply, Ideal.cmpf_def, Cert.LibCoe.cmp_ogt_coe, Ideal.hostUnary_rsqrt_def]
  unfold Cert.Spec.dinvK
  by_cases h : 0 < Cert.Spec.degK (dataOf V0) a
  · rw [decide_eq_true h, if_pos h]
    exact (select_one _ _).trans (Cert.LibCoe.rsqrt_coe_toReal h)
  · rw [decide_eq_false h, if_neg h]
    exact select_zero _ _

end Spec

end Cert.KernelIdeal.HandValue.Deg

namespace Cert.KernelIdeal.HandValue

open Cert.KernelIdeal Cert.KernelIdeal.Gen
open Idealize.ShloMosaic Idealize.ShloMosaic.TcCoe Idealize.ShloMosaic.ValueIdx Idealize.ShloMosaic.StableHlo

section Entry
variable (V0 : Valuation τ sig (Elt Ideal))

theorem entry0_v22 (hrange : ∀ i, (V0 (Proc.devRef .tc main_arg1) i).toNat < 10000) : entry0 V0 (Proc.devRef .tc main_v22)
    = fun i : S10240x1.Idx => ((Cert.Spec.invout (dataOf V0) (i 0) : ℝ) : EReal) := by
  rw [Deg.ent_v22]
  funext j
  rw [Deg.col_apply]
  exact Deg.invOf_apply _ _ (src_val hrange) _

theorem entry0_v26 (hrange : ∀ i, (V0 (Proc.devRef .tc main_arg1) i).toNat < 10000) : entry0 V0 (Proc.devRef .tc main_v26)
    = fun i : S10240x1.Idx => ((Cert.Spec.invin (dataOf V0) (i 0) : ℝ) : EReal) := by
  rw [Deg.ent_v26]
  funext j
  rw [Deg.col_apply]
  exact Deg.invOf_apply _ _ (dst_val hrange) _

theorem entry0_v35 (hrange : ∀ i, (V0 (Proc.devRef .tc main_arg1) i).toNat < 10000) : entry0 V0 (Proc.devRef .tc main_v35)
    = fun i : S10240x1.Idx => ((Cert.Spec.dinvK (dataOf V0) (i 0) : ℝ) : EReal) := by
  rw [Deg.ent_v35]
  funext j
  rw [Deg.col_apply]
  exact Deg.dinv_apply hrange (j 0)

end Entry

end Cert.KernelIdeal.HandValue

end
-- ==== Proof.KV.LayerLib.lean ====
import proofs.«430304_j36258113913429_2_alg».proof.Proof.KV.LayerMath

noncomputable section

namespace Cert.LayerMath

open Cert.Spec Idealize.ShloMosaic Idealize.ShloMosaic.ValueIdx

-- A launch on a right factor and a correction built from real arrays by the layer's host expressions is the dense layer, with or without a maximum with zero.
theorem layer_core (D : Data) {a b : ℕ} (h : Fin 10240 → Fin a → ℝ) (W : Fin a → Fin b → ℝ) (bias : Fin b → ℝ)
    {A : FVec Ideal ⟨2, ![10240, 10240]⟩ .bf16} {d : FVec Ideal ⟨2, ![10240, 1]⟩ .f32}
    {inp : FVec Ideal ⟨2, ![10240, a]⟩ .f32} {w : FVec Ideal ⟨2, ![a, b]⟩ .f32} {bs : FVec Ideal ⟨1, ![b]⟩ .f32}
    {X : FVec Ideal ⟨2, ![10240, b]⟩ .bf16} {co : FVec Ideal ⟨2, ![10240, b]⟩ .f32}
    {dot : FVec Ideal ⟨2, ![10240, a]⟩ .f32 → FVec Ideal ⟨2, ![a, b]⟩ .f32 → FVec Ideal ⟨2, ![10240, b]⟩ .f32}
    {bc : FVec Ideal ⟨2, ![10240, 1]⟩ .f32 → FVec Ideal ⟨2, ![10240, b]⟩ .f32}
    {br : FVec Ideal ⟨1, ![b]⟩ .f32 → FVec Ideal ⟨2, ![10240, b]⟩ .f32}
    (hin : (inp : _ → EReal) = fun j => ((h (j 0) (j 1) : ℝ) : EReal))
    (hd : (d : _ → EReal) = fun j => ((dinvK D (j 0) : ℝ) : EReal))
    (hW : (w : _ → EReal) = fun j => ((W (j 0) (j 1) : ℝ) : EReal))
    (hb : (bs : _ → EReal) = fun j => ((bias (j 0) : ℝ) : EReal))
    (hT : (A : _ → EReal) = fun j => ((T D (j 0) (j 1) : ℝ) : EReal))
    (hdot : ∀ l r p f, dot l r (ix2 p f) = ∑ k : Fin a, l (ix2 p k) * r (ix2 k f))
    (hbc : ∀ c p f, bc c (ix2 p f) = c (ix2 p 0)) (hbr : ∀ v p f, br v (ix2 p f) = v (ix1 f))
    (hlt : FTy.bf16.bits < FTy.f32.bits) (hX : X = truncf .bf16 (mulf (bc d) (dot inp w)) hlt)
    (hco : co = addf (mulf (bc (mulf d d)) (dot inp w)) (br bs)) :
    adjmmE (b := b) A X d co = (fun j => ((gcnK D h W bias (j 0) (j 1) : ℝ) : EReal))
      ∧ (fun j => max (adjmmE (b := b) A X d co j) 0) = fun j => ((max (gcnK D h W bias (j 0) (j 1)) 0 : ℝ) : EReal) := by
  have e := layer_eq D h W bias A d (dot inp w) X co (fun p q => congrFun hT (ix2 p q)) (fun p => congrFun hd (ix2 p 0))
    (fun p f => (hdot inp w p f).trans (Finset.sum_congr rfl fun k _ =>
      congrArg₂ (· * ·) (congrFun hin (ix2 p k)) (congrFun hW (ix2 k f))))
    (fun q f => by rw [hX, truncf_apply, mulf_apply, hbc])
    (fun p f => by
      have eb : bs (ix1 f) = ((bias f : ℝ) : EReal) := congrFun hb (ix1 f)
      rw [hco, addf_apply, mulf_apply, hbc, mulf_apply, hbr, eb])
  exact ⟨e, funext fun j => by rw [congrFun e j]; exact max_zero_coe _⟩

end Cert.LayerMath

end
-- ==== Proof.KV.Layer1.lean ====
import proofs.«430304_j36258113913429_2_alg».proof.Proof.Gen.KernelIdeal.Launch
import proofs.«430304_j36258113913429_2_alg».proof.Proof.KV.LayerLib
import proofs.«430304_j36258113913429_2_alg».proof.Proof.KV.LayerRead
import Idealize.ShloMosaic.Lib.StableHlo.Run

noncomputable section

namespace Cert.KernelIdeal.HandValue

open Cert.KernelIdeal Cert.KernelIdeal.Gen Cert.Spec Cert.LayerMath Idealize.ShloMosaic

variable (V : Valuation τ sig (Elt Ideal)) (D : Data) (h : Fin 10240 → Fin 256 → ℝ) (W : Fin 256 → Fin 64 → ℝ) (bias : Fin 64 → ℝ)

-- After the stretch the right factor and the correction are the layer's host expressions of the arrays read after it.
theorem layer1_exit_relu
    (hin : (StableHlo.after (hostOps2 (F := Ideal)) V (Proc.devRef .tc main_v66) : S10240x256.Idx → EReal) = fun j => ((h (j 0) (j 1) : ℝ) : EReal))
    (hd : (StableHlo.after (hostOps2 (F := Ideal)) V (Proc.devRef .tc main_v35) : S10240x1.Idx → EReal) = fun j => ((dinvK D (j 0) : ℝ) : EReal))
    (hW : (StableHlo.after (hostOps2 (F := Ideal)) V (Proc.devRef .tc main_arg2) : S256x64.Idx → EReal) = fun j => ((W (j 0) (j 1) : ℝ) : EReal))
    (hb : (StableHlo.after (hostOps2 (F := Ideal)) V (Proc.devRef .tc main_arg3) : S64.Idx → EReal) = fun j => ((bias (j 0) : ℝ) : EReal))
    (hT : (StableHlo.after (hostOps2 (F := Ideal)) V (Proc.devRef .tc main_v52) : S10240x10240.Idx → EReal) = fun j => ((T D (j 0) (j 1) : ℝ) : EReal)) :
    (fun j => max (adjmmE (b := 64) (StableHlo.after (hostOps2 (F := Ideal)) V (Proc.devRef .tc main_v52)) (StableHlo.after (hostOps2 (F := Ideal)) V (Proc.devRef .tc main_v70))
        (StableHlo.after (hostOps2 (F := Ideal)) V (Proc.devRef .tc main_v35)) (StableHlo.after (hostOps2 (F := Ideal)) V (Proc.devRef .tc main_v76)) j) 0)
      = fun j => ((max (gcnK D h W bias (j 0) (j 1)) 0 : ℝ) : EReal) :=
  (layer_core D h W bias hin hd hW hb hT hdot_256x64_apply bcol_64_apply brow_64_apply bitsLt_bf16_f32 (by after_results_simp) (by after_results_simp)).2

end Cert.KernelIdeal.HandValue

end
-- ==== Proof.KV.Layer2.lean ====
import proofs.«430304_j36258113913429_2_alg».proof.Proof.Gen.KernelIdeal.Launch
import proofs.«430304_j36258113913429_2_alg».proof.Proof.KV.LayerLib
import proofs.«430304_j36258113913429_2_alg».proof.Proof.KV.LayerRead
import Idealize.ShloMosaic.Lib.StableHlo.Run

noncomputable section

namespace Cert.KernelIdeal.HandValue

open Cert.KernelIdeal Cert.KernelIdeal.Gen Cert.Spec Cert.LayerMath Idealize.ShloMosaic

variable (V : Valuation τ sig (Elt Ideal)) (D : Data) (h : Fin 10240 → Fin 64 → ℝ) (W : Fin 64 → Fin 64 → ℝ) (bias : Fin 64 → ℝ)

-- After the stretch the right factor and the correction are the layer's host expressions of the arrays read after it.
theorem layer2_exit
    (hin : (StableHlo.after (hostOps3 (F := Ideal)) V (Proc.devRef .tc main_v77) : S10240x64.Idx → EReal) = fun j => ((h (j 0) (j 1) : ℝ) : EReal))
    (hd : (StableHlo.after (hostOps3 (F := Ideal)) V (Proc.devRef .tc main_v35) : S10240x1.Idx → EReal) = fun j => ((dinvK D (j 0) : ℝ) : EReal))
    (hW : (StableHlo.after (hostOps3 (F := Ideal)) V (Proc.devRef .tc main_arg4) : S64x64.Idx → EReal) = fun j => ((W (j 0) (j 1) : ℝ) : EReal))
    (hb : (StableHlo.after (hostOps3 (F := Ideal)) V (Proc.devRef .tc main_arg5) : S64.Idx → EReal) = fun j => ((bias (j 0) : ℝ) : EReal))
    (hT : (StableHlo.after (hostOps3 (F := Ideal)) V (Proc.devRef .tc main_v52) : S10240x10240.Idx → EReal) = fun j => ((T D (j 0) (j 1) : ℝ) : EReal)) :
    adjmmE (b := 64) (StableHlo.after (hostOps3 (F := Ideal)) V (Proc.devRef .tc main_v52)) (StableHlo.after (hostOps3 (F := Ideal)) V (Proc.devRef .tc main_v81))
        (StableHlo.after (hostOps3 (F := Ideal)) V (Proc.devRef .tc main_v35)) (StableHlo.after (hostOps3 (F := Ideal)) V (Proc.devRef .tc main_v87))
      = fun j => ((gcnK D h W bias (j 0) (j 1) : ℝ) : EReal) :=
  (layer_core D h W bias hin hd hW hb hT hdot_64x64_apply bcol_64_apply brow_64_apply bitsLt_bf16_f32 (by after_results_simp) (by after_results_simp)).1

end Cert.KernelIdeal.HandValue

end
-- ==== Proof.KV.Layer3.lean ====
import proofs.«430304_j36258113913429_2_alg».proof.Proof.Gen.KernelIdeal.Launch
import proofs.«430304_j36258113913429_2_alg».proof.Proof.KV.LayerLib
import proofs.«430304_j36258113913429_2_alg».proof.Proof.KV.LayerRead
import Idealize.ShloMosaic.Lib.StableHlo.Run

noncomputable section

namespace Cert.KernelIdeal.HandValue

open Cert.KernelIdeal Cert.KernelIdeal.Gen Cert.Spec Cert.LayerMath Idealize.ShloMosaic

variable (V : Valuation τ sig (Elt Ideal)) (D : Data) (h : Fin 10240 → Fin 64 → ℝ) (W : Fin 64 → Fin 128 → ℝ) (bias : Fin 128 → ℝ)

-- After the stretch the right factor and the correction are the layer's host expressions of the arrays read after it.
theorem layer3_exit
    (hin : (StableHlo.after (hostOps4 (F := Ideal)) V (Proc.devRef .tc main_v88) : S10240x64.Idx → EReal) = fun j => ((h (j 0) (j 1) : ℝ) : EReal))
    (hd : (StableHlo.after (hostOps4 (F := Ideal)) V (Proc.devRef .tc main_v35) : S10240x1.Idx → EReal) = fun j => ((dinvK D (j 0) : ℝ) : EReal))
    (hW : (StableHlo.after (hostOps4 (F := Ideal)) V (Proc.devRef .tc main_v89) : S64x128.Idx → EReal) = fun j => ((W (j 0) (j 1) : ℝ) : EReal))
    (hb : (StableHlo.after (hostOps4 (F := Ideal)) V (Proc.devRef .tc main_v90) : S128.Idx → EReal) = fun j => ((bias (j 0) : ℝ) : EReal))
    (hT : (StableHlo.after (hostOps4 (F := Ideal)) V (Proc.devRef .tc main_v52) : S10240x10240.Idx → EReal) = fun j => ((T D (j 0) (j 1) : ℝ) : EReal)) :
    adjmmE (b := 128) (StableHlo.after (hostOps4 (F := Ideal)) V (Proc.devRef .tc main_v52)) (StableHlo.after (hostOps4 (F := Ideal)) V (Proc.devRef .tc main_v94))
        (StableHlo.after (hostOps4 (F := Ideal)) V (Proc.devRef .tc main_v35)) (StableHlo.after (hostOps4 (F := Ideal)) V (Proc.devRef .tc main_v100))
      = fun j => ((gcnK D h W bias (j 0) (j 1) : ℝ) : EReal) :=
  (layer_core D h W bias hin hd hW hb hT hdot_64x128_apply bcol_128_apply brow_128_apply bitsLt_bf16_f32 (by after_results_simp) (by after_results_simp)).1

end Cert.KernelIdeal.HandValue

end
-- ==== Proof.KV.Layer4.lean ====
import proofs.«430304_j36258113913429_2_alg».proof.Proof.Gen.KernelIdeal.Launch
import proofs.«430304_j36258113913429_2_alg».proof.Proof.KV.LayerLib
import proofs.«430304_j36258113913429_2_alg».proof.Proof.KV.LayerRead
import Idealize.ShloMosaic.Lib.StableHlo.Run

noncomputable section

namespace Cert.KernelIdeal.HandValue

open Cert.KernelIdeal Cert.KernelIdeal.Gen Cert.Spec Cert.LayerMath Idealize.ShloMosaic

variable (V : Valuation τ sig (Elt Ideal)) (D : Data) (h : Fin 10240 → Fin 64 → ℝ) (W : Fin 64 → Fin 256 → ℝ) (bias : Fin 256 → ℝ)

-- After the stretch the right factor and the correction are the layer's host expressions of the arrays read after it.
theorem layer4_exit
    (hin : (StableHlo.after (hostOps5_2 (F := Ideal)) V (Proc.devRef .tc main_v103) : S10240x64.Idx → EReal) = fun j => ((h (j 0) (j 1) : ℝ) : EReal))
    (hd : (StableHlo.after (hostOps5_2 (F := Ideal)) V (Proc.devRef .tc main_v35) : S10240x1.Idx → EReal) = fun j => ((dinvK D (j 0) : ℝ) : EReal))
    (hW : (StableHlo.after (hostOps5_2 (F := Ideal)) V (Proc.devRef .tc main_arg8) : S64x256.Idx → EReal) = fun j => ((W (j 0) (j 1) : ℝ) : EReal))
    (hb : (StableHlo.after (hostOps5_2 (F := Ideal)) V (Proc.devRef .tc main_arg9) : S256.Idx → EReal) = fun j => ((bias (j 0) : ℝ) : EReal))
    (hT : (StableHlo.after (hostOps5_2 (F := Ideal)) V (Proc.devRef .tc main_v52) : S10240x10240.Idx → EReal) = fun j => ((T D (j 0) (j 1) : ℝ) : EReal)) :
    adjmmE (b := 256) (StableHlo.after (hostOps5_2 (F := Ideal)) V (Proc.devRef .tc main_v52)) (StableHlo.after (hostOps5_2 (F := Ideal)) V (Proc.devRef .tc main_v108))
        (StableHlo.after (hostOps5_2 (F := Ideal)) V (Proc.devRef .tc main_v35)) (StableHlo.after (hostOps5_2 (F := Ideal)) V (Proc.devRef .tc main_v114))
      = fun j => ((gcnK D h W bias (j 0) (j 1) : ℝ) : EReal) :=
  (layer_core D h W bias hin hd hW hb hT hdot_64x256_apply bcol_256_apply brow_256_apply bitsLt_bf16_f32 (by after_results_simp) (by after_results_simp)).1

end Cert.KernelIdeal.HandValue

end
-- ==== Proof.KV.Final.lean ====
import proofs.«430304_j36258113913429_2_alg».proof.Proof.KI.RunDefs
import proofs.«430304_j36258113913429_2_alg».proof.Proof.KV.Reg0Val
import proofs.«430304_j36258113913429_2_alg».proof.Proof.KV.Reg1Val
import proofs.«430304_j36258113913429_2_alg».proof.Proof.KV.Reg2Val
import proofs.«430304_j36258113913429_2_alg».proof.Proof.KV.Reg3Val
import proofs.«430304_j36258113913429_2_alg».proof.Proof.KV.Reg4Val
import proofs.«430304_j36258113913429_2_alg».proof.Proof.KV.Reg5Val
import proofs.«430304_j36258113913429_2_alg».proof.Proof.KV.Reg6Val
import proofs.«430304_j36258113913429_2_alg».proof.Proof.KV.Glue
import proofs.«430304_j36258113913429_2_alg».proof.Proof.KV.Front
import proofs.«430304_j36258113913429_2_alg».proof.Proof.KV.FrontDeg
import proofs.«430304_j36258113913429_2_alg».proof.Proof.KV.Layer1
import proofs.«430304_j36258113913429_2_alg».proof.Proof.KV.Layer2
import proofs.«430304_j36258113913429_2_alg».proof.Proof.KV.Layer3
import proofs.«430304_j36258113913429_2_alg».proof.Proof.KV.Layer4
import proofs.«430304_j36258113913429_2_alg».proof.Proof.SpecData
import proofs.«430304_j36258113913429_2_alg».proof.Proof.LibCoe

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem
open Cert.Spec Cert.LibCoe Cert.LayerMath

structure ArgsReal (V0 : Valuation τ sig (Elt Ideal)) : Prop where
  a0 : ∀ i : S10000x256.Idx, ∃ r : ℝ, V0 (Proc.devRef .tc main_arg0) i = (r : EReal)
  a2 : ∀ i : S256x64.Idx, ∃ r : ℝ, V0 (Proc.devRef .tc main_arg2) i = (r : EReal)
  a3 : ∀ i : S64.Idx, ∃ r : ℝ, V0 (Proc.devRef .tc main_arg3) i = (r : EReal)
  a4 : ∀ i : S64x64.Idx, ∃ r : ℝ, V0 (Proc.devRef .tc main_arg4) i = (r : EReal)
  a5 : ∀ i : S64.Idx, ∃ r : ℝ, V0 (Proc.devRef .tc main_arg5) i = (r : EReal)
  a6 : ∀ i : S64x64.Idx, ∃ r : ℝ, V0 (Proc.devRef .tc main_arg6) i = (r : EReal)
  a7 : ∀ i : S64.Idx, ∃ r : ℝ, V0 (Proc.devRef .tc main_arg7) i = (r : EReal)
  a8 : ∀ i : S64x256.Idx, ∃ r : ℝ, V0 (Proc.devRef .tc main_arg8) i = (r : EReal)
  a9 : ∀ i : S256.Idx, ∃ r : ℝ, V0 (Proc.devRef .tc main_arg9) i = (r : EReal)
  a10 : ∀ i : S64x64.Idx, ∃ r : ℝ, V0 (Proc.devRef .tc main_arg10) i = (r : EReal)
  a11 : ∀ i : S64.Idx, ∃ r : ℝ, V0 (Proc.devRef .tc main_arg11) i = (r : EReal)

theorem coe2_of_real {n0 n1 : ℕ} (x : (⟨2, ![n0, n1]⟩ : Shape).Idx → EReal) (h : ∀ i, ∃ r : ℝ, x i = (r : EReal)) :
    x = fun i => ((EReal.toReal (x (ix2 (i 0) (i 1))) : ℝ) : EReal) := by
  funext i
  obtain ⟨a, b, rfl⟩ : ∃ (a : Fin n0) (b : Fin n1), i = ix2 a b := ⟨i 0, i 1, eq_ix2 i⟩
  exact eq_coe_toReal (h _)
theorem coe1_of_real {n0 : ℕ} (x : (⟨1, ![n0]⟩ : Shape).Idx → EReal) (h : ∀ i, ∃ r : ℝ, x i = (r : EReal)) :
    x = fun i => ((EReal.toReal (x (ix1 (i 0))) : ℝ) : EReal) := by
  funext i
  obtain ⟨a, rfl⟩ : ∃ (a : Fin n0), i = ix1 a := ⟨i 0, eq_ix1 i⟩
  exact eq_coe_toReal (h _)

section Walk
variable (m : (ℓ : Loc nD τ sig) → Buf (Elt Ideal) ℓ) (ρ : Dev nD → PrngReg) (c : Dev nD)

abbrev DD : Cert.Spec.Data := dataOf (W0 m ρ c)

section Keep
variable (r : Ref sig .tc)

theorem keep3 (h0 : r ∉ hostOps0_W) (h1 : r ∉ hostOps0_1_W) (h2 : r ∉ hostOps0_2_W) :
    W3 m ρ c (Proc.devRef .tc r) = W0 m ρ c (Proc.devRef .tc r) :=
  (W3_of m ρ c r h2).trans ((W2_of m ρ c r h1).trans (W1_of m ρ c r h0))
theorem keep5 (n0 : ∀ w, Pipeline.arrRef spec0 w ≠ r) (n1 : ∀ w, Pipeline.arrRef spec1 w ≠ r) :
    W5 m ρ c (Proc.devRef .tc r) = W3 m ρ c (Proc.devRef .tc r) :=
  (W5_of_ne m ρ c r n1).trans (W4_of_ne m ρ c r n0)
theorem keep7 (h : r ∉ hostOps2_W) (n : ∀ w, Pipeline.arrRef spec2 w ≠ r) : W7 m ρ c (Proc.devRef .tc r) = W5 m ρ c (Proc.devRef .tc r) :=
  (W7_of_ne m ρ c r n).trans (W6_of m ρ c r h)
theorem keep9 (h : r ∉ hostOps3_W) (n : ∀ w, Pipeline.arrRef spec3 w ≠ r) : W9 m ρ c (Proc.devRef .tc r) = W7 m ρ c (Proc.devRef .tc r) :=
  (W9_of_ne m ρ c r n).trans (W8_of m ρ c r h)
theorem keep11 (h : r ∉ hostOps4_W) (n : ∀ w, Pipeline.arrRef spec4 w ≠ r) : W11 m ρ c (Proc.devRef .tc r) = W9 m ρ c (Proc.devRef .tc r) :=
  (W11_of_ne m ρ c r n).trans (W10_of m ρ c r h)
theorem keep13 (h : r ∉ hostOps5_W) (h' : r ∉ hostOps5_1_W) : W13 m ρ c (Proc.devRef .tc r) = W11 m ρ c (Proc.devRef .tc r) :=
  (W13_of m ρ c r h').trans (W12_of m ρ c r h)

theorem from0_9 (h0 : r ∉ hostOps0_W) (h1 : r ∉ hostOps0_1_W) (h2 : r ∉ hostOps0_2_W) (n0 : ∀ w, Pipeline.arrRef spec0 w ≠ r)
    (n1 : ∀ w, Pipeline.arrRef spec1 w ≠ r) (g2 : r ∉ hostOps2_W) (n2 : ∀ w, Pipeline.arrRef spec2 w ≠ r) (g3 : r ∉ hostOps3_W)
    (n3 : ∀ w, Pipeline.arrRef spec3 w ≠ r) : W9 m ρ c (Proc.devRef .tc r) = W0 m ρ c (Proc.devRef .tc r) :=
  (keep9 m ρ c r g3 n3).trans ((keep7 m ρ c r g2 n2).trans ((keep5 m ρ c r n0 n1).trans (keep3 m ρ c r h0 h1 h2)))

theorem from0_13 (h0 : r ∉ hostOps0_W) (h1 : r ∉ hostOps0_1_W) (h2 : r ∉ hostOps0_2_W) (n0 : ∀ w, Pipeline.arrRef spec0 w ≠ r)
    (n1 : ∀ w, Pipeline.arrRef spec1 w ≠ r) (g2 : r ∉ hostOps2_W) (n2 : ∀ w, Pipeline.arrRef spec2 w ≠ r) (g3 : r ∉ hostOps3_W)
    (n3 : ∀ w, Pipeline.arrRef spec3 w ≠ r) (g4 : r ∉ hostOps4_W) (n4 : ∀ w, Pipeline.arrRef spec4 w ≠ r) (g5 : r ∉ hostOps5_W) (g51 : r ∉ hostOps5_1_W) :
    W13 m ρ c (Proc.devRef .tc r) = W0 m ρ c (Proc.devRef .tc r) :=
  (keep13 m ρ c r g5 g51).trans ((keep11 m ρ c r g4 n4).trans (from0_9 m ρ c r h0 h1 h2 n0 n1 g2 n2 g3 n3))

end Keep

theorem W4_in (w : Fin cfg0.W) (h : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w h _).trans (A_eq0 (V3 m ρ) c w))
theorem W5_in (w : Fin cfg1.W) (h : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w h _).trans (A_eq1 (V4 m ρ) c w))
theorem W7_in (w : Fin cfg2.W) (h : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w h _).trans (A_eq2 (V6 m ρ) c w))
theorem W9_in (w : Fin cfg3.W) (h : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w h _).trans (A_eq3 (V8 m ρ) c w))
theorem W11_in (w : Fin cfg4.W) (h : (cfg4.win w).isOut = false) :
    W11 m ρ c (Proc.devRef .tc (Pipeline.arrRef spec4 w)) = W10 m ρ c (Proc.devRef .tc (Pipeline.arrRef spec4 w)) :=
  (W11_arr m ρ c w).trans (((dat4 (V10 m ρ) c).arrAt_in w h _).trans (A_eq4 (V10 m ρ) c w))

theorem v52_6 : W6 m ρ c (Proc.devRef .tc main_v52) = W3 m ρ c (Proc.devRef .tc main_v52) :=
  (W6_of m ρ c main_v52 (by decide)).trans ((W5_in m ρ c 0 rfl).trans (W4_of_ne m ρ c main_v52 (by decide)))
theorem v35_6 : W6 m ρ c (Proc.devRef .tc main_v35) = W3 m ρ c (Proc.devRef .tc main_v35) :=
  (W6_of m ρ c main_v35 (by decide)).trans (keep5 m ρ c main_v35 (by decide) (by decide))
theorem v52_8 : W8 m ρ c (Proc.devRef .tc main_v52) = W3 m ρ c (Proc.devRef .tc main_v52) :=
  (W8_of m ρ c main_v52 (by decide)).trans ((W7_in m ρ c 0 rfl).trans (v52_6 m ρ c))
theorem v35_8 : W8 m ρ c (Proc.devRef .tc main_v35) = W3 m ρ c (Proc.devRef .tc main_v35) :=
  (W8_of m ρ c main_v35 (by decide)).trans ((W7_in m ρ c 2 rfl).trans (v35_6 m ρ c))
theorem v52_10 : W10 m ρ c (Proc.devRef .tc main_v52) = W3 m ρ c (Proc.devRef .tc main_v52) :=
  (W10_of m ρ c main_v52 (by decide)).trans ((W9_in m ρ c 0 rfl).trans (v52_8 m ρ c))
theorem v35_10 : W10 m ρ c (Proc.devRef .tc main_v35) = W3 m ρ c (Proc.devRef .tc main_v35) :=
  (W10_of m ρ c main_v35 (by decide)).trans ((W9_in m ρ c 2 rfl).trans (v35_8 m ρ c))
theorem v52_14 : W14 m ρ c (Proc.devRef .tc main_v52) = W3 m ρ c (Proc.devRef .tc main_v52) :=
  (W14_of m ρ c main_v52 (by decide)).trans ((keep13 m ρ c main_v52 (by decide) (by decide)).trans ((W11_in m ρ c 0 rfl).trans (v52_10 m ρ c)))
theorem v35_14 : W14 m ρ c (Proc.devRef .tc main_v35) = W3 m ρ c (Proc.devRef .tc main_v35) :=
  (W14_of m ρ c main_v35 (by decide)).trans ((keep13 m ρ c main_v35 (by decide) (by decide)).trans ((W11_in m ρ c 2 rfl).trans (v35_10 m ρ c)))

section Under
variable (hfin : ArgsReal (W0 m ρ c)) (hrange : ∀ i, (W0 m ρ c (Proc.devRef .tc main_arg1) i).toNat < 10000)
include hfin hrange

theorem s3_v52 : W3 m ρ c (Proc.devRef .tc main_v52) = fun i => ((T (DD m ρ c) (i 0) (i 1) : ℝ) : EReal) := entry0_v52 (W0 m ρ c) hrange
theorem s3_v35 : W3 m ρ c (Proc.devRef .tc main_v35) = fun i => ((dinvK (DD m ρ c) (i 0) : ℝ) : EReal) := entry0_v35 (W0 m ρ c) hrange

theorem s4_v59 : W4 m ρ c (Proc.devRef .tc main_v59) = fun j => ((outnbK (DD m ρ c) (j 0) (j 1) : ℝ) : EReal) :=
  (W4_arr m ρ c 4).trans ((arrAt0_out (V3 m ρ) c).trans (outnb_of (DD m ρ c) _ _ _ _
    (entry0_v53 (W0 m ρ c) hrange) (entry0_v57 (W0 m ρ c) hfin.a0) (entry0_v22 (W0 m ρ c) hrange) (entry0_v58 (W0 m ρ c))))

theorem s5_v60 : W5 m ρ c (Proc.devRef .tc main_v60) = fun j => ((innbK (DD m ρ c) (j 0) (j 1) : ℝ) : EReal) :=
  (W5_arr m ρ c 4).trans ((arrAt1_out (V4 m ρ) c).trans (innb_of (DD m ρ c) _ _ _ _
    ((W4_of_ne m ρ c main_v52 (by decide)).trans (entry0_v52 (W0 m ρ c) hrange))
    ((W4_in m ρ c 1 rfl).trans (entry0_v57 (W0 m ρ c) hfin.a0))
    ((W4_of_ne m ρ c main_v26 (by decide)).trans (entry0_v26 (W0 m ρ c) hrange))
    ((W4_in m ρ c 3 rfl).trans (entry0_v58 (W0 m ρ c)))))

theorem s6_v66 : W6 m ρ c (Proc.devRef .tc main_v66) = fun i => ((xaugK (DD m ρ c) (i 0) (i 1) : ℝ) : EReal) :=
  xaug_of (W5 m ρ c) (W0 m ρ c)
    ((keep5 m ρ c main_v56 (by decide) (by decide)).trans (entry0_v56 (W0 m ρ c) hfin.a0))
    ((W5_of_ne m ρ c main_v59 (by decide)).trans (s4_v59 m ρ c hfin hrange))
    (s5_v60 m ρ c hfin hrange)

theorem s7_v77 : W7 m ρ c (Proc.devRef .tc main_v77) = fun j => ((h1K (DD m ρ c) (j 0) (j 1) : ℝ) : EReal) :=
  (W7_arr m ρ c 4).trans ((arrAt2_out (V6 m ρ) c).trans
    (layer1_exit_relu (W5 m ρ c) (DD m ρ c) (xaugK (DD m ρ c)) (DD m ρ c).W1 (DD m ρ c).b1
      (s6_v66 m ρ c hfin hrange)
      ((v35_6 m ρ c).trans (s3_v35 m ρ c hfin hrange))
      ((W6_of m ρ c main_arg2 (by decide)).trans (((keep5 m ρ c main_arg2 (by decide) (by decide)).trans (keep3 m ρ c main_arg2 (by decide) (by decide) (by decide))).trans (coe2_of_real (n0 := 256) (n1 := 64) _ hfin.a2)))
      ((W6_of m ρ c main_arg3 (by decide)).trans (((keep5 m ρ c main_arg3 (by decide) (by decide)).trans (keep3 m ρ c main_arg3 (by decide) (by decide) (by decide))).trans (coe1_of_real (n0 := 64) _ hfin.a3)))
      ((v52_6 m ρ c).trans (s3_v52 m ρ c hfin hrange))))

theorem s9_v88 : W9 m ρ c (Proc.devRef .tc main_v88) = fun j => ((embK (DD m ρ c) (j 0) (j 1) : ℝ) : EReal) :=
  (W9_arr m ρ c 4).trans ((arrAt3_out (V8 m ρ) c).trans
    (layer2_exit (W7 m ρ c) (DD m ρ c) (h1K (DD m ρ c)) (DD m ρ c).W2 (DD m ρ c).b2
      ((W8_of m ρ c main_v77 (by decide)).trans (s7_v77 m ρ c hfin hrange))
      ((v35_8 m ρ c).trans (s3_v35 m ρ c hfin hrange))
      ((W8_of m ρ c main_arg4 (by decide)).trans (((keep7 m ρ c main_arg4 (by decide) (by decide)).trans ((keep5 m ρ c main_arg4 (by decide) (by decide)).trans (keep3 m ρ c main_arg4 (by decide) (by decide) (by decide)))).trans (coe2_of_real (n0 := 64) (n1 := 64) _ hfin.a4)))
      ((W8_of m ρ c main_arg5 (by decide)).trans (((keep7 m ρ c main_arg5 (by decide) (by decide)).trans ((keep5 m ρ c main_arg5 (by decide) (by decide)).trans (keep3 m ρ c main_arg5 (by decide) (by decide) (by decide)))).trans (coe1_of_real (n0 := 64) _ hfin.a5)))
      ((v52_8 m ρ c).trans (s3_v52 m ρ c hfin hrange))))

theorem s11_v101 : W11 m ρ c (Proc.devRef .tc main_v101) = fun j => ((catK (DD m ρ c) (j 0) (j 1) : ℝ) : EReal) :=
  (W11_arr m ρ c 4).trans ((arrAt4_out (V10 m ρ) c).trans
    (layer3_exit (W9 m ρ c) (DD m ρ c) (embK (DD m ρ c)) (Wcat (DD m ρ c)) (bcat (DD m ρ c))
      ((W10_of m ρ c main_v88 (by decide)).trans (s9_v88 m ρ c hfin hrange))
      ((v35_10 m ρ c).trans (s3_v35 m ρ c hfin hrange))
      ((host4_v89 (W9 m ρ c)).trans (wcat_coe (DD m ρ c) _ _
        ((from0_9 m ρ c main_arg6 (by decide) (by decide) (by decide) (by decide) (by decide) (by decide) (by decide) (by decide) (by decide)).trans (coe2_of_real (n0 := 64) (n1 := 64) _ hfin.a6))
        ((from0_9 m ρ c main_arg10 (by decide) (by decide) (by decide) (by decide) (by decide) (by decide) (by decide) (by decide) (by decide)).trans (coe2_of_real (n0 := 64) (n1 := 64) _ hfin.a10))))
      ((host4_v90 (W9 m ρ c)).trans (bcat_coe (DD m ρ c) _ _
        ((from0_9 m ρ c main_arg7 (by decide) (by decide) (by decide) (by decide) (by decide) (by decide) (by decide) (by decide) (by decide)).trans (coe1_of_real (n0 := 64) _ hfin.a7))
        ((from0_9 m ρ c main_arg11 (by decide) (by decide) (by decide) (by decide) (by decide) (by decide) (by decide) (by decide) (by decide)).trans (coe1_of_real (n0 := 64) _ hfin.a11))))
      ((v52_10 m ρ c).trans (s3_v52 m ρ c hfin hrange))))

theorem s13_v103 : W13 m ρ c (Proc.devRef .tc main_v103) = fun i => ((h2K (DD m ρ c) (i 0) (i 1) : ℝ) : EReal) := by
  refine (host5_1_v103 (W12 m ρ c)).trans ?_
  rw [show W12 m ρ c (Proc.devRef .tc main_v102) = _ from host5_v102 (W11 m ρ c)]
  exact relu_lo_coe (DD m ρ c) _ (s11_v101 m ρ c hfin hrange)

theorem s14_v104 : W14 m ρ c (Proc.devRef .tc main_v104) = fun i => ((hsK (DD m ρ c) (i 0) (i 1) : ℝ) : EReal) :=
  (host5_2_v104 (W13 m ρ c)).trans (slice_hi_coe (DD m ρ c) _
    ((keep13 m ρ c main_v101 (by decide) (by decide)).trans (s11_v101 m ρ c hfin hrange)))

theorem s15_v115 : W15 m ρ c (Proc.devRef .tc main_v115)
    = fun j => ((gcnK (DD m ρ c) (h2K (DD m ρ c)) (DD m ρ c).Wa2 (DD m ρ c).ba2 (j 0) (j 1) : ℝ) : EReal) :=
  (W15_arr m ρ c 4).trans ((arrAt5_out (V14 m ρ) c).trans
    (layer4_exit (W13 m ρ c) (DD m ρ c) (h2K (DD m ρ c)) (DD m ρ c).Wa2 (DD m ρ c).ba2
      ((W14_of m ρ c main_v103 (by decide)).trans (s13_v103 m ρ c hfin hrange))
      ((v35_14 m ρ c).trans (s3_v35 m ρ c hfin hrange))
      ((W14_of m ρ c main_arg8 (by decide)).trans ((from0_13 m ρ c main_arg8 (by decide) (by decide) (by decide) (by decide) (by decide) (by decide) (by decide) (by decide) (by decide) (by decide) (by decide) (by decide) (by decide)).trans (coe2_of_real (n0 := 64) (n1 := 256) _ hfin.a8)))
      ((W14_of m ρ c main_arg9 (by decide)).trans ((from0_13 m ρ c main_arg9 (by decide) (by decide) (by decide) (by decide) (by decide) (by decide) (by decide) (by decide) (by decide) (by decide) (by decide) (by decide) (by decide)).trans (coe1_of_real (n0 := 256) _ hfin.a9)))
      ((v52_14 m ρ c).trans (s3_v52 m ρ c hfin hrange))))

theorem ker_x : W17 m ρ c (Proc.devRef .tc main_v116) = fun i => ((Kx (DD m ρ c) (i 0) (i 1) : ℝ) : EReal) :=
  (W17_of_ne m ρ c main_v116 (by decide)).trans
    ((host6_v116 (W15 m ρ c)).trans (rows_kx_coe (DD m ρ c) _ (s15_v115 m ρ c hfin hrange)))

theorem ker_s : W17 m ρ c (Proc.devRef .tc main_v119) = fun i => ((Ks (DD m ρ c) (i 0) (i 1) : ℝ) : EReal) :=
  (W17_out m ρ c).trans ((arrAt6_out (V16 m ρ) c).trans (outer_ks_coe (DD m ρ c) _
    ((host6_v118 (W15 m ρ c)).trans (rows_hs_coe (DD m ρ c) _
      ((W15_of_ne m ρ c main_v104 (by decide)).trans (s14_v104 m ρ c hfin hrange))))))

end Under

end Walk

end Cert.KernelIdeal.HandValue

end
-- ==== Proof.PreFacts.lean ====
import proofs.«430304_j36258113913429_2_alg».proof.Defs
import proofs.«430304_j36258113913429_2_alg».proof.Proof.Gen.Pre_finite_inputs
import Idealize.ShloMosaic.Lib.ReduceAll
import Idealize.ShloMosaic.Lib.StableHlo.Predicate
import Idealize.ShloMosaic.Lib.ValueIdx

noncomputable section

namespace Cert.PreFacts

open Idealize.ShloMosaic Idealize.SL.Sem Cert.Pre_finite_inputs

instance : Subsingleton S_.Idx := ⟨fun a b => funext fun d => d.elim0⟩

theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

theorem ofBits_inf : Ideal.ofBits .f32 0x7F800000#32 = (⊤ : EReal) := by
  simp [Ideal.ofBits, Ideal.ieee]

theorem toNat_of_toInt_range {w : BitVec 32} (h0 : 0 ≤ w.toInt) (h1 : w.toInt < 10000) :
    w.toNat < 10000 ∧ w.toInt = (w.toNat : ℤ) := by
  have hc := BitVec.toInt_eq_toNat_cond w
  have hl := w.isLt
  by_cases hw : 2 * w.toNat < 2 ^ 32
  · rw [if_pos hw] at hc; omega
  · rw [if_neg hw] at hc; omega

abbrev AllFinite {F : FTy → Type} [FloatOps F] {s : Shape} {axes : List (Fin s.rank)} (a : FVec F s .f32)
    (hb : S_.BroadcastsInDim s (![] : Fin 0 → Fin s.rank)) (hr : s.ReducesTo axes S_) (h0 : 0 < S_.numel) : Prop :=
  Host.reduce IntOp.andi (cmpf .olt (Host.absf a) (broadcastInDim s ![] hb (constant (F := F) S_ .f32 0x7F800000#32)))
    (constantI S_ 1 1#1) hr h0 ValueIdx.ix0 = 1#1

abbrev AllGe {s : Shape} {axes : List (Fin s.rank)} (e : IVec s 32)
    (hb : S_.BroadcastsInDim s (![] : Fin 0 → Fin s.rank)) (hr : s.ReducesTo axes S_) (h0 : 0 < S_.numel) : Prop :=
  Host.reduce IntOp.andi (cmpi .sge e (broadcastInDim s ![] hb (constantI S_ 32 0#32))) (constantI S_ 1 1#1) hr h0 ValueIdx.ix0 = 1#1

abbrev AllLt {s : Shape} {axes : List (Fin s.rank)} (e : IVec s 32)
    (hb : S_.BroadcastsInDim s (![] : Fin 0 → Fin s.rank)) (hr : s.ReducesTo axes S_) (h0 : 0 < S_.numel) : Prop :=
  Host.reduce IntOp.andi (cmpi .slt e (broadcastInDim s ![] hb (constantI S_ 32 10000#32))) (constantI S_ 1 1#1) hr h0 ValueIdx.ix0 = 1#1

theorem all_real {s : Shape} {axes : List (Fin s.rank)} (a : FVec Ideal s .f32)
    (hb : S_.BroadcastsInDim s (![] : Fin 0 → Fin s.rank)) (hr : s.ReducesTo axes S_) (h0 : 0 < S_.numel)
    (h : AllFinite a hb hr h0) (i : s.Idx) : ∃ r : ℝ, a i = (r : EReal) := by
  have e := Host.reduce_andi_all _ _ hr h0 _ h i
  have e2 : BitVec.ofBool (decide (max (a i) (-(a i)) < (⊤ : EReal))) = 1#1 := by rw [← ofBits_inf]; exact e
  exact real_of_abs_lt_top _ (of_decide_eq_true ((StableHlo.Predicate.ofBool_eq_one_iff _).1 e2))

theorem all_nonneg {s : Shape} {axes : List (Fin s.rank)} (e : IVec s 32)
    (hb : S_.BroadcastsInDim s (![] : Fin 0 → Fin s.rank)) (hr : s.ReducesTo axes S_) (h0 : 0 < S_.numel)
    (h : AllGe e hb hr h0) (i : s.Idx) : 0 ≤ (e i).toInt := by
  have e1 := Host.reduce_andi_all _ _ hr h0 _ h i
  have e2 : IntOp.cmpi .sge (e i) 0#32 = 1#1 := e1
  have e3 := IntOp.cmpi_sge.1 e2
  have hz : (0#32 : BitVec 32).toInt = 0 := by decide
  rw [hz] at e3; exact e3

theorem all_lt {s : Shape} {axes : List (Fin s.rank)} (e : IVec s 32)
    (hb : S_.BroadcastsInDim s (![] : Fin 0 → Fin s.rank)) (hr : s.ReducesTo axes S_) (h0 : 0 < S_.numel)
    (h : AllLt e hb hr h0) (i : s.Idx) : (e i).toInt < 10000 := by
  have e1 := Host.reduce_andi_all _ _ hr h0 _ h i
  have e2 : IntOp.cmpi .slt (e i) 10000#32 = 1#1 := e1
  have e3 := IntOp.cmpi_slt.1 e2
  have hz : (10000#32 : BitVec 32).toInt = 10000 := by decide
  rw [hz] at e3; exact e3

section Any
variable [Facts]
open Facts

abbrev Holds {F : FTy → Type} [FloatOps F] (a0 : FVec F S10000x256 .f32) (a1 : IVec S2x320000 32) (a2 : FVec F S256x64 .f32) (a3 : FVec F S64 .f32)
    (a4 : FVec F S64x64 .f32) (a5 : FVec F S64 .f32) (a6 : FVec F S64x64 .f32) (a7 : FVec F S64 .f32)
    (a8 : FVec F S64x256 .f32) (a9 : FVec F S256 .f32) (a10 : FVec F S64x64 .f32) (a11 : FVec F S64 .f32) : Prop :=
  fn (F := F) a0 a1 a2 a3 a4 a5 a6 a7 a8 a9 a10 a11 = (fun _ => 1#1)

theorem split {F : FTy → Type} [FloatOps F] {a0 : FVec F S10000x256 .f32} {a1 : IVec S2x320000 32} {a2 : FVec F S256x64 .f32} {a3 : FVec F S64 .f32}
    {a4 : FVec F S64x64 .f32} {a5 : FVec F S64 .f32} {a6 : FVec F S64x64 .f32} {a7 : FVec F S64 .f32}
    {a8 : FVec F S64x256 .f32} {a9 : FVec F S256 .f32} {a10 : FVec F S64x64 .f32} {a11 : FVec F S64 .f32}
    (h : Holds a0 a1 a2 a3 a4 a5 a6 a7 a8 a9 a10 a11) :
    AllFinite a0 bcast_S_S10000x256 reducesTo_S10000x256_S_d0_1 h_S_ ∧
    AllFinite a2 bcast_S_S256x64 reducesTo_S256x64_S_d0_1 h_S_ ∧
    AllFinite a3 bcast_S_S64 reducesTo_S64_S_d0 h_S_ ∧
    AllFinite a4 bcast_S_S64x64 reducesTo_S64x64_S_d0_1 h_S_ ∧
    AllFinite a5 bcast_S_S64 reducesTo_S64_S_d0 h_S_ ∧
    AllFinite a6 bcast_S_S64x64 reducesTo_S64x64_S_d0_1 h_S_ ∧
    AllFinite a7 bcast_S_S64 reducesTo_S64_S_d0 h_S_ ∧
    AllFinite a8 bcast_S_S64x256 reducesTo_S64x256_S_d0_1 h_S_ ∧
    AllFinite a9 bcast_S_S256 reducesTo_S256_S_d0 h_S_ ∧
    AllFinite a10 bcast_S_S64x64 reducesTo_S64x64_S_d0_1 h_S_ ∧
    AllFinite a11 bcast_S_S64 reducesTo_S64_S_d0 h_S_ ∧
    AllGe a1 bcast_S_S2x320000 reducesTo_S2x320000_S_d0_1 h_S_ ∧
    AllLt a1 bcast_S_S2x320000 reducesTo_S2x320000_S_d0_1 h_S_ := by
  have h0 := congrFun h ValueIdx.ix0
  dsimp only [fn, fn_part1, fn_part2, fn_part3, andi] at h0
  simp only [IntOp.andi_eq_one] at h0
  obtain ⟨⟨⟨⟨⟨⟨⟨⟨⟨⟨⟨⟨c0, c2⟩, c3⟩, c4⟩, c5⟩, c6⟩, c7⟩, c8⟩, c9⟩, c10⟩, c11⟩, cge⟩, clt⟩ := h0
  exact ⟨c0, c2, c3, c4, c5, c6, c7, c8, c9, c10, c11, cge, clt⟩

variable {a0 : FVec Ideal S10000x256 .f32} {a1 : IVec S2x320000 32} {a2 : FVec Ideal S256x64 .f32} {a3 : FVec Ideal S64 .f32}
  {a4 : FVec Ideal S64x64 .f32} {a5 : FVec Ideal S64 .f32} {a6 : FVec Ideal S64x64 .f32} {a7 : FVec Ideal S64 .f32}
  {a8 : FVec Ideal S64x256 .f32} {a9 : FVec Ideal S256 .f32} {a10 : FVec Ideal S64x64 .f32} {a11 : FVec Ideal S64 .f32}

theorem real0 (h : Holds a0 a1 a2 a3 a4 a5 a6 a7 a8 a9 a10 a11) (i : S10000x256.Idx) : ∃ r : ℝ, a0 i = (r : EReal) :=
  all_real a0 _ _ _ (split h).1 i

theorem real2 (h : Holds a0 a1 a2 a3 a4 a5 a6 a7 a8 a9 a10 a11) (i : S256x64.Idx) : ∃ r : ℝ, a2 i = (r : EReal) :=
  all_real a2 _ _ _ (split h).2.1 i

theorem real3 (h : Holds a0 a1 a2 a3 a4 a5 a6 a7 a8 a9 a10 a11) (i : S64.Idx) : ∃ r : ℝ, a3 i = (r : EReal) :=
  all_real a3 _ _ _ (split h).2.2.1 i

theorem real4 (h : Holds a0 a1 a2 a3 a4 a5 a6 a7 a8 a9 a10 a11) (i : S64x64.Idx) : ∃ r : ℝ, a4 i = (r : EReal) :=
  all_real a4 _ _ _ (split h).2.2.2.1 i

theorem real5 (h : Holds a0 a1 a2 a3 a4 a5 a6 a7 a8 a9 a10 a11) (i : S64.Idx) : ∃ r : ℝ, a5 i = (r : EReal) :=
  all_real a5 _ _ _ (split h).2.2.2.2.1 i

theorem real6 (h : Holds a0 a1 a2 a3 a4 a5 a6 a7 a8 a9 a10 a11) (i : S64x64.Idx) : ∃ r : ℝ, a6 i = (r : EReal) :=
  all_real a6 _ _ _ (split h).2.2.2.2.2.1 i

theorem real7 (h : Holds a0 a1 a2 a3 a4 a5 a6 a7 a8 a9 a10 a11) (i : S64.Idx) : ∃ r : ℝ, a7 i = (r : EReal) :=
  all_real a7 _ _ _ (split h).2.2.2.2.2.2.1 i

theorem real8 (h : Holds a0 a1 a2 a3 a4 a5 a6 a7 a8 a9 a10 a11) (i : S64x256.Idx) : ∃ r : ℝ, a8 i = (r : EReal) :=
  all_real a8 _ _ _ (split h).2.2.2.2.2.2.2.1 i

theorem real9 (h : Holds a0 a1 a2 a3 a4 a5 a6 a7 a8 a9 a10 a11) (i : S256.Idx) : ∃ r : ℝ, a9 i = (r : EReal) :=
  all_real a9 _ _ _ (split h).2.2.2.2.2.2.2.2.1 i

theorem real10 (h : Holds a0 a1 a2 a3 a4 a5 a6 a7 a8 a9 a10 a11) (i : S64x64.Idx) : ∃ r : ℝ, a10 i = (r : EReal) :=
  all_real a10 _ _ _ (split h).2.2.2.2.2.2.2.2.2.1 i

theorem real11 (h : Holds a0 a1 a2 a3 a4 a5 a6 a7 a8 a9 a10 a11) (i : S64.Idx) : ∃ r : ℝ, a11 i = (r : EReal) :=
  all_real a11 _ _ _ (split h).2.2.2.2.2.2.2.2.2.2.1 i

theorem range1 {F : FTy → Type} [FloatOps F] {a0 : FVec F S10000x256 .f32} {a1 : IVec S2x320000 32} {a2 : FVec F S256x64 .f32} {a3 : FVec F S64 .f32}
    {a4 : FVec F S64x64 .f32} {a5 : FVec F S64 .f32} {a6 : FVec F S64x64 .f32} {a7 : FVec F S64 .f32}
    {a8 : FVec F S64x256 .f32} {a9 : FVec F S256 .f32} {a10 : FVec F S64x64 .f32} {a11 : FVec F S64 .f32}
    (h : Holds a0 a1 a2 a3 a4 a5 a6 a7 a8 a9 a10 a11) (i : S2x320000.Idx) : 0 ≤ (a1 i).toInt ∧ (a1 i).toInt < 10000 :=
  ⟨all_nonneg a1 _ _ _ (split h).2.2.2.2.2.2.2.2.2.2.2.1 i, all_lt a1 _ _ _ (split h).2.2.2.2.2.2.2.2.2.2.2.2 i⟩

theorem range1_nat {F : FTy → Type} [FloatOps F] {a0 : FVec F S10000x256 .f32} {a1 : IVec S2x320000 32} {a2 : FVec F S256x64 .f32} {a3 : FVec F S64 .f32}
    {a4 : FVec F S64x64 .f32} {a5 : FVec F S64 .f32} {a6 : FVec F S64x64 .f32} {a7 : FVec F S64 .f32}
    {a8 : FVec F S64x256 .f32} {a9 : FVec F S256 .f32} {a10 : FVec F S64x64 .f32} {a11 : FVec F S64 .f32}
    (h : Holds a0 a1 a2 a3 a4 a5 a6 a7 a8 a9 a10 a11) (i : S2x320000.Idx) : (a1 i).toNat < 10000 ∧ (a1 i).toInt = ((a1 i).toNat : ℤ) :=
  toNat_of_toInt_range (range1 h i).1 (range1 h i).2

end Any

section Mem
variable [Facts]
variable {m : (ℓ : Loc Cert.KernelIdeal.nD Cert.KernelIdeal.τ Cert.KernelIdeal.sig) → Buf (Elt Ideal) ℓ}

theorem finite_arg0 (h : Cert.Pre_KernelIdeal m) (c : Dev Cert.KernelIdeal.nD) :
    ∀ i : S10000x256.Idx, ∃ r : ℝ, (m ((c.tc : Thread Cert.KernelIdeal.nD Cert.KernelIdeal.τ).loc Cert.KernelIdeal.main_arg0)) i = (r : EReal) :=
  fun i => real0 (h c) i

theorem finite_arg2 (h : Cert.Pre_KernelIdeal m) (c : Dev Cert.KernelIdeal.nD) :
    ∀ i : S256x64.Idx, ∃ r : ℝ, (m ((c.tc : Thread Cert.KernelIdeal.nD Cert.KernelIdeal.τ).loc Cert.KernelIdeal.main_arg2)) i = (r : EReal) :=
  fun i => real2 (h c) i

theorem finite_arg3 (h : Cert.Pre_KernelIdeal m) (c : Dev Cert.KernelIdeal.nD) :
    ∀ i : S64.Idx, ∃ r : ℝ, (m ((c.tc : Thread Cert.KernelIdeal.nD Cert.KernelIdeal.τ).loc Cert.KernelIdeal.main_arg3)) i = (r : EReal) :=
  fun i => real3 (h c) i

theorem finite_arg4 (h : Cert.Pre_KernelIdeal m) (c : Dev Cert.KernelIdeal.nD) :
    ∀ i : S64x64.Idx, ∃ r : ℝ, (m ((c.tc : Thread Cert.KernelIdeal.nD Cert.KernelIdeal.τ).loc Cert.KernelIdeal.main_arg4)) i = (r : EReal) :=
  fun i => real4 (h c) i

theorem finite_arg5 (h : Cert.Pre_KernelIdeal m) (c : Dev Cert.KernelIdeal.nD) :
    ∀ i : S64.Idx, ∃ r : ℝ, (m ((c.tc : Thread Cert.KernelIdeal.nD Cert.KernelIdeal.τ).loc Cert.KernelIdeal.main_arg5)) i = (r : EReal) :=
  fun i => real5 (h c) i

theorem finite_arg6 (h : Cert.Pre_KernelIdeal m) (c : Dev Cert.KernelIdeal.nD) :
    ∀ i : S64x64.Idx, ∃ r : ℝ, (m ((c.tc : Thread Cert.KernelIdeal.nD Cert.KernelIdeal.τ).loc Cert.KernelIdeal.main_arg6)) i = (r : EReal) :=
  fun i => real6 (h c) i

theorem finite_arg7 (h : Cert.Pre_KernelIdeal m) (c : Dev Cert.KernelIdeal.nD) :
    ∀ i : S64.Idx, ∃ r : ℝ, (m ((c.tc : Thread Cert.KernelIdeal.nD Cert.KernelIdeal.τ).loc Cert.KernelIdeal.main_arg7)) i = (r : EReal) :=
  fun i => real7 (h c) i

theorem finite_arg8 (h : Cert.Pre_KernelIdeal m) (c : Dev Cert.KernelIdeal.nD) :
    ∀ i : S64x256.Idx, ∃ r : ℝ, (m ((c.tc : Thread Cert.KernelIdeal.nD Cert.KernelIdeal.τ).loc Cert.KernelIdeal.main_arg8)) i = (r : EReal) :=
  fun i => real8 (h c) i

theorem finite_arg9 (h : Cert.Pre_KernelIdeal m) (c : Dev Cert.KernelIdeal.nD) :
    ∀ i : S256.Idx, ∃ r : ℝ, (m ((c.tc : Thread Cert.KernelIdeal.nD Cert.KernelIdeal.τ).loc Cert.KernelIdeal.main_arg9)) i = (r : EReal) :=
  fun i => real9 (h c) i

theorem finite_arg10 (h : Cert.Pre_KernelIdeal m) (c : Dev Cert.KernelIdeal.nD) :
    ∀ i : S64x64.Idx, ∃ r : ℝ, (m ((c.tc : Thread Cert.KernelIdeal.nD Cert.KernelIdeal.τ).loc Cert.KernelIdeal.main_arg10)) i = (r : EReal) :=
  fun i => real10 (h c) i

theorem finite_arg11 (h : Cert.Pre_KernelIdeal m) (c : Dev Cert.KernelIdeal.nD) :
    ∀ i : S64.Idx, ∃ r : ℝ, (m ((c.tc : Thread Cert.KernelIdeal.nD Cert.KernelIdeal.τ).loc Cert.KernelIdeal.main_arg11)) i = (r : EReal) :=
  fun i => real11 (h c) i

theorem edge_range_nat (h : Cert.Pre_KernelIdeal m) (c : Dev Cert.KernelIdeal.nD) :
    ∀ i : S2x320000.Idx, ((m ((c.tc : Thread Cert.KernelIdeal.nD Cert.KernelIdeal.τ).loc Cert.KernelIdeal.main_arg1)) i).toNat < 10000 ∧ ((m ((c.tc : Thread Cert.KernelIdeal.nD Cert.KernelIdeal.τ).loc Cert.KernelIdeal.main_arg1)) i).toInt = (((m ((c.tc : Thread Cert.KernelIdeal.nD Cert.KernelIdeal.τ).loc Cert.KernelIdeal.main_arg1)) i).toNat : ℤ) :=
  fun i => range1_nat (h c) i

end Mem

end Cert.PreFacts

end
-- ==== Proof.KV.FinalPre.lean ====
import proofs.«430304_j36258113913429_2_alg».proof.Proof.KV.Final
import proofs.«430304_j36258113913429_2_alg».proof.Proof.PreFacts

noncomputable section

namespace Cert.KernelIdeal.HandValue

open Cert.KernelIdeal Cert.KernelIdeal.Gen Cert.KernelIdeal.Hand
open Idealize.ShloMosaic Idealize.ShloMosaic.TcCoe Idealize.ShloMosaic.StableHlo
open Idealize.SL.Sem
open Cert.Spec

theorem argsReal_of_pre (m : (ℓ : Loc nD τ sig) → Buf (Elt Ideal) ℓ) (ρ : Dev nD → PrngReg) (c : Dev nD) (h : Cert.Pre_KernelIdeal m) :
    ArgsReal (W0 m ρ c) where
  a0 := Cert.PreFacts.finite_arg0 h c
  a2 := Cert.PreFacts.finite_arg2 h c
  a3 := Cert.PreFacts.finite_arg3 h c
  a4 := Cert.PreFacts.finite_arg4 h c
  a5 := Cert.PreFacts.finite_arg5 h c
  a6 := Cert.PreFacts.finite_arg6 h c
  a7 := Cert.PreFacts.finite_arg7 h c
  a8 := Cert.PreFacts.finite_arg8 h c
  a9 := Cert.PreFacts.finite_arg9 h c
  a10 := Cert.PreFacts.finite_arg10 h c
  a11 := Cert.PreFacts.finite_arg11 h c

theorem range_of_pre (m : (ℓ : Loc nD τ sig) → Buf (Elt Ideal) ℓ) (ρ : Dev nD → PrngReg) (c : Dev nD) (h : Cert.Pre_KernelIdeal m) :
    ∀ i, (W0 m ρ c (Proc.devRef .tc main_arg1) i).toNat < 10000 := fun i => (Cert.PreFacts.edge_range_nat h c i).1

theorem ker_x_pre (m : (ℓ : Loc nD τ sig) → Buf (Elt Ideal) ℓ) (ρ : Dev nD → PrngReg) (c : Dev nD) (h : Cert.Pre_KernelIdeal m) :
    W17 m ρ c (Proc.devRef .tc main_v116) = fun i => ((Kx (DD m ρ c) (i 0) (i 1) : ℝ) : EReal) :=
  ker_x m ρ c (argsReal_of_pre m ρ c h) (range_of_pre m ρ c h)

theorem ker_s_pre (m : (ℓ : Loc nD τ sig) → Buf (Elt Ideal) ℓ) (ρ : Dev nD → PrngReg) (c : Dev nD) (h : Cert.Pre_KernelIdeal m) :
    W17 m ρ c (Proc.devRef .tc main_v119) = fun i => ((Ks (DD m ρ c) (i 0) (i 1) : ℝ) : EReal) :=
  ker_s m ρ c (argsReal_of_pre m ρ c h) (range_of_pre m ρ c h)

end Cert.KernelIdeal.HandValue

end
-- ==== Proof.LibHostStretch.lean ====
import Idealize.ShloMosaic.Lib.StableHlo.Run

noncomputable section

namespace Cert.GraphConv

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem after_take_add (l : List (HloOp τ sig Val)) (n k : Nat) (V : Valuation τ sig Val) :
    after (List.take (n + k) l) V = after (List.take k (List.drop n l)) (after (List.take n l) V) := by
  rw [List.take_add, after_append]

theorem after_take_drop (l : List (HloOp τ sig Val)) (n : Nat) (V : Valuation τ sig Val) :
    after l V = after (List.drop n l) (after (List.take n l) V) := by
  conv_lhs => rw [← List.take_append_drop n l]
  exact after_append _ _ _

theorem prefix_keeps {b : DevRef τ sig} (l : List (HloOp τ sig Val)) (h : ∀ op ∈ l, b ∉ op.writes) (n : Nat)
    (V : Valuation τ sig Val) : after (List.take n l) V b = V b :=
  after_of_forall_not_mem _ _ fun op ho => h op (List.mem_of_mem_take ho)

theorem ofBuf_toBuf {T : BufTy} (x : TRef sig T) (v : T.Contents Val) : x.ofBuf (x.toBuf v) = v := by
  obtain ⟨r, rfl, h2, h3⟩ := x
  rfl

end Cert.GraphConv

end
-- ==== Proof.Ref.Inv.lean ====
import proofs.«430304_j36258113913429_2_alg».proof.Proof.RefRead
import proofs.«430304_j36258113913429_2_alg».proof.Proof.LibHostStretch

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

/-- What `V` holds in the buffer of `r`. -/
abbrev arg (V : Valuation τ sig (Elt F)) (r : Ref sig .tc) := V (Proc.devRef .tc r)

/-- `W` holds in each argument buffer what `V` holds there. -/
structure InvS (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg3 : W (Proc.devRef .tc main_arg3) = V (Proc.devRef .tc main_arg3)
  arg4 : W (Proc.devRef .tc main_arg4) = V (Proc.devRef .tc main_arg4)
  arg5 : W (Proc.devRef .tc main_arg5) = V (Proc.devRef .tc main_arg5)
  arg6 : W (Proc.devRef .tc main_arg6) = V (Proc.devRef .tc main_arg6)
  arg7 : W (Proc.devRef .tc main_arg7) = V (Proc.devRef .tc main_arg7)
  arg8 : W (Proc.devRef .tc main_arg8) = V (Proc.devRef .tc main_arg8)
  arg9 : W (Proc.devRef .tc main_arg9) = V (Proc.devRef .tc main_arg9)
  arg10 : W (Proc.devRef .tc main_arg10) = V (Proc.devRef .tc main_arg10)
  arg11 : W (Proc.devRef .tc main_arg11) = V (Proc.devRef .tc main_arg11)

theorem InvS.trans {V W X : Valuation τ sig (Elt F)} (h : InvS V W) (k : InvS W X) : InvS V X :=
  ⟨k.arg0.trans h.arg0, k.arg1.trans h.arg1, k.arg2.trans h.arg2, k.arg3.trans h.arg3, k.arg4.trans h.arg4, k.arg5.trans h.arg5, k.arg6.trans h.arg6, k.arg7.trans h.arg7, k.arg8.trans h.arg8, k.arg9.trans h.arg9, k.arg10.trans h.arg10, k.arg11.trans h.arg11⟩

structure Inv0 (V W : Valuation τ sig (Elt F)) : Prop extends InvS V W where
  v1 : W (Proc.devRef .tc main_v1) = ReadP.val_main_v1 (F := F) (arg V main_arg1)
  v3 : W (Proc.devRef .tc main_v3) = ReadP.val_main_v3 (F := F) (arg V main_arg1)
  v4 : W (Proc.devRef .tc main_v4) = ReadP.val_main_v4 (F := F)
  v15 : W (Proc.devRef .tc main_v15) = ReadP.val_main_v15 (F := F) (arg V main_arg1)
  v16 : W (Proc.devRef .tc main_v16) = ReadP.val_main_v16 (F := F) (arg V main_arg1)

structure Inv1 (V W : Valuation τ sig (Elt F)) : Prop extends InvS V W where
  v1 : W (Proc.devRef .tc main_v1) = ReadP.val_main_v1 (F := F) (arg V main_arg1)
  v3 : W (Proc.devRef .tc main_v3) = ReadP.val_main_v3 (F := F) (arg V main_arg1)
  v43 : W (Proc.devRef .tc main_v43) = ReadP.val_main_v43 (F := F) (arg V main_arg0) (arg V main_arg1) (arg V main_arg2)
  v44 : W (Proc.devRef .tc main_v44) = ReadP.val_main_v44 (F := F)

structure Inv2 (V W : Valuation τ sig (Elt F)) : Prop extends InvS V W where
  v1 : W (Proc.devRef .tc main_v1) = ReadP.val_main_v1 (F := F) (arg V main_arg1)
  v3 : W (Proc.devRef .tc main_v3) = ReadP.val_main_v3 (F := F) (arg V main_arg1)
  v43 : W (Proc.devRef .tc main_v43) = ReadP.val_main_v43 (F := F) (arg V main_arg0) (arg V main_arg1) (arg V main_arg2)
  v45 : W (Proc.devRef .tc main_v45) = ReadP.val_main_v45 (F := F) (arg V main_arg1)
  v46 : W (Proc.devRef .tc main_v46) = ReadP.val_main_v46 (F := F) (arg V main_arg1)

structure Inv3 (V W : Valuation τ sig (Elt F)) : Prop extends InvS V W where
  v1 : W (Proc.devRef .tc main_v1) = ReadP.val_main_v1 (F := F) (arg V main_arg1)
  v3 : W (Proc.devRef .tc main_v3) = ReadP.val_main_v3 (F := F) (arg V main_arg1)
  v87 : W (Proc.devRef .tc main_v87) = ReadP.val_main_v87 (F := F) (arg V main_arg0) (arg V main_arg1) (arg V main_arg2) (arg V main_arg3) (arg V main_arg4)
  v88 : W (Proc.devRef .tc main_v88) = ReadP.val_main_v88 (F := F)

structure Inv4 (V W : Valuation τ sig (Elt F)) : Prop extends InvS V W where
  v1 : W (Proc.devRef .tc main_v1) = ReadP.val_main_v1 (F := F) (arg V main_arg1)
  v3 : W (Proc.devRef .tc main_v3) = ReadP.val_main_v3 (F := F) (arg V main_arg1)
  v87 : W (Proc.devRef .tc main_v87) = ReadP.val_main_v87 (F := F) (arg V main_arg0) (arg V main_arg1) (arg V main_arg2) (arg V main_arg3) (arg V main_arg4)
  v89 : W (Proc.devRef .tc main_v89) = ReadP.val_main_v89 (F := F) (arg V main_arg1)
  v90 : W (Proc.devRef .tc main_v90) = ReadP.val_main_v90 (F := F) (arg V main_arg1)
  v91 : W (Proc.devRef .tc main_v91) = ReadP.val_main_v91 (F := F)
  v92 : W (Proc.devRef .tc main_v92) = ReadP.val_main_v92 (F := F)
  v93 : W (Proc.devRef .tc main_v93) = ReadP.val_main_v93 (F := F) (arg V main_arg1)

structure Inv5 (V W : Valuation τ sig (Elt F)) : Prop extends InvS V W where
  v1 : W (Proc.devRef .tc main_v1) = ReadP.val_main_v1 (F := F) (arg V main_arg1)
  v3 : W (Proc.devRef .tc main_v3) = ReadP.val_main_v3 (F := F) (arg V main_arg1)
  v129 : W (Proc.devRef .tc main_v129) = ReadP.val_main_v129 (F := F) (arg V main_arg0) (arg V main_arg1) (arg V main_arg2) (arg V main_arg3) (arg V main_arg4) (arg V main_arg5)
  v130 : W (Proc.devRef .tc main_v130) = ReadP.val_main_v130 (F := F) (arg V main_arg0) (arg V main_arg1) (arg V main_arg2) (arg V main_arg3) (arg V main_arg4) (arg V main_arg5) (arg V main_arg6)
  v131 : W (Proc.devRef .tc main_v131) = ReadP.val_main_v131 (F := F)

structure Inv6 (V W : Valuation τ sig (Elt F)) : Prop extends InvS V W where
  v1 : W (Proc.devRef .tc main_v1) = ReadP.val_main_v1 (F := F) (arg V main_arg1)
  v3 : W (Proc.devRef .tc main_v3) = ReadP.val_main_v3 (F := F) (arg V main_arg1)
  v129 : W (Proc.devRef .tc main_v129) = ReadP.val_main_v129 (F := F) (arg V main_arg0) (arg V main_arg1) (arg V main_arg2) (arg V main_arg3) (arg V main_arg4) (arg V main_arg5)
  v130 : W (Proc.devRef .tc main_v130) = ReadP.val_main_v130 (F := F) (arg V main_arg0) (arg V main_arg1) (arg V main_arg2) (arg V main_arg3) (arg V main_arg4) (arg V main_arg5) (arg V main_arg6)
  v132 : W (Proc.devRef .tc main_v132) = ReadP.val_main_v132 (F := F) (arg V main_arg1)
  v133 : W (Proc.devRef .tc main_v133) = ReadP.val_main_v133 (F := F) (arg V main_arg1)
  v139 : W (Proc.devRef .tc main_v139) = ReadP.val_main_v139 (F := F) (arg V main_arg1)
  v140 : W (Proc.devRef .tc main_v140) = ReadP.val_main_v140 (F := F) (arg V main_arg1)
  cst_36 : W (Proc.devRef .tc main_cst_36) = ReadP.val_main_cst_36 (F := F)

structure Inv7 (V W : Valuation τ sig (Elt F)) : Prop extends InvS V W where
  v1 : W (Proc.devRef .tc main_v1) = ReadP.val_main_v1 (F := F) (arg V main_arg1)
  v3 : W (Proc.devRef .tc main_v3) = ReadP.val_main_v3 (F := F) (arg V main_arg1)
  v129 : W (Proc.devRef .tc main_v129) = ReadP.val_main_v129 (F := F) (arg V main_arg0) (arg V main_arg1) (arg V main_arg2) (arg V main_arg3) (arg V main_arg4) (arg V main_arg5)
  v174 : W (Proc.devRef .tc main_v174) = ReadP.val_main_v174 (F := F) (arg V main_arg0) (arg V main_arg1) (arg V main_arg2) (arg V main_arg3) (arg V main_arg4) (arg V main_arg5) (arg V main_arg6) (arg V main_arg7) (arg V main_arg8)
  v175 : W (Proc.devRef .tc main_v175) = ReadP.val_main_v175 (F := F)

structure Inv8 (V W : Valuation τ sig (Elt F)) : Prop extends InvS V W where
  v1 : W (Proc.devRef .tc main_v1) = ReadP.val_main_v1 (F := F) (arg V main_arg1)
  v3 : W (Proc.devRef .tc main_v3) = ReadP.val_main_v3 (F := F) (arg V main_arg1)
  v129 : W (Proc.devRef .tc main_v129) = ReadP.val_main_v129 (F := F) (arg V main_arg0) (arg V main_arg1) (arg V main_arg2) (arg V main_arg3) (arg V main_arg4) (arg V main_arg5)
  v174 : W (Proc.devRef .tc main_v174) = ReadP.val_main_v174 (F := F) (arg V main_arg0) (arg V main_arg1) (arg V main_arg2) (arg V main_arg3) (arg V main_arg4) (arg V main_arg5) (arg V main_arg6) (arg V main_arg7) (arg V main_arg8)
  v176 : W (Proc.devRef .tc main_v176) = ReadP.val_main_v176 (F := F) (arg V main_arg1)
  v177 : W (Proc.devRef .tc main_v177) = ReadP.val_main_v177 (F := F) (arg V main_arg1)
  v185 : W (Proc.devRef .tc main_v185) = ReadP.val_main_v185 (F := F) (arg V main_arg1)
  v187 : W (Proc.devRef .tc main_v187) = ReadP.val_main_v187 (F := F) (arg V main_arg1)
  c_49 : W (Proc.devRef .tc main_c_49) = ReadP.val_main_c_49 (F := F)

structure Inv9 (V W : Valuation τ sig (Elt F)) : Prop extends InvS V W where
  v1 : W (Proc.devRef .tc main_v1) = ReadP.val_main_v1 (F := F) (arg V main_arg1)
  v3 : W (Proc.devRef .tc main_v3) = ReadP.val_main_v3 (F := F) (arg V main_arg1)
  v216 : W (Proc.devRef .tc main_v216) = ReadP.val_main_v216 (F := F) (arg V main_arg0) (arg V main_arg1) (arg V main_arg2) (arg V main_arg3) (arg V main_arg4) (arg V main_arg5) (arg V main_arg6) (arg V main_arg7) (arg V main_arg8) (arg V main_arg9)
  v217 : W (Proc.devRef .tc main_v217) = ReadP.val_main_v217 (F := F) (arg V main_arg0) (arg V main_arg1) (arg V main_arg2) (arg V main_arg3) (arg V main_arg4) (arg V main_arg5) (arg V main_arg10)
  v218 : W (Proc.devRef .tc main_v218) = ReadP.val_main_v218 (F := F)

structure Inv10 (V W : Valuation τ sig (Elt F)) : Prop extends InvS V W where
  v216 : W (Proc.devRef .tc main_v216) = ReadP.val_main_v216 (F := F) (arg V main_arg0) (arg V main_arg1) (arg V main_arg2) (arg V main_arg3) (arg V main_arg4) (arg V main_arg5) (arg V main_arg6) (arg V main_arg7) (arg V main_arg8) (arg V main_arg9)
  v217 : W (Proc.devRef .tc main_v217) = ReadP.val_main_v217 (F := F) (arg V main_arg0) (arg V main_arg1) (arg V main_arg2) (arg V main_arg3) (arg V main_arg4) (arg V main_arg5) (arg V main_arg10)
  v219 : W (Proc.devRef .tc main_v219) = ReadP.val_main_v219 (F := F) (arg V main_arg1)
  v220 : W (Proc.devRef .tc main_v220) = ReadP.val_main_v220 (F := F) (arg V main_arg1)
  v228 : W (Proc.devRef .tc main_v228) = ReadP.val_main_v228 (F := F) (arg V main_arg1)
  v235 : W (Proc.devRef .tc main_v235) = ReadP.val_main_v235 (F := F) (arg V main_arg1)
  c_61 : W (Proc.devRef .tc main_c_61) = ReadP.val_main_c_61 (F := F)

structure Inv11 (V W : Valuation τ sig (Elt F)) : Prop extends InvS V W where
  v216 : W (Proc.devRef .tc main_v216) = ReadP.val_main_v216 (F := F) (arg V main_arg0) (arg V main_arg1) (arg V main_arg2) (arg V main_arg3) (arg V main_arg4) (arg V main_arg5) (arg V main_arg6) (arg V main_arg7) (arg V main_arg8) (arg V main_arg9)
  v261 : W (Proc.devRef .tc main_v261) = ReadP.val_main_v261 (F := F) (arg V main_arg0) (arg V main_arg1) (arg V main_arg2) (arg V main_arg3) (arg V main_arg4) (arg V main_arg5) (arg V main_arg10) (arg V main_arg11)

end Cert.ReferenceIdeal.Hand

end
-- ==== Proof.Ref.Piece0.lean ====
import proofs.«430304_j36258113913429_2_alg».proof.Proof.Ref.Inv

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops0 : List (HloOp τ sig (Elt F)) :=
  [ unary main_arg1 main_v0 (extractStridedSlice S1x320000 ![0, 0] · slices_S2x320000_S1x320000_0_0),
    reshape main_v0 main_v1 rfl shapeCasts_S1x320000_S320000,
    unary main_arg1 main_v2 (extractStridedSlice S1x320000 ![1, 0] · slices_S2x320000_S1x320000_1_0),
    reshape main_v2 main_v3 rfl shapeCasts_S1x320000_S320000,
    nullary main_cst (constant S_ .f32 0x00000000#32),
    unary main_cst main_v4 (broadcastInDim S10000x10000 ![] bcast_S_S10000x10000),
    nullary main_c (constantI S_ 32 0#32),
    unary main_c main_v5 (broadcastInDim S320000 ![] bcast_S_S320000),
    binary main_v1 main_v5 main_v6 (cmpi .slt),
    nullary main_c_0 (constantI S_ 32 10000#32),
    unary main_c_0 main_v7 (broadcastInDim S320000 ![] bcast_S_S320000),
    binary main_v1 main_v7 main_v8 addi,
    ternary main_v6 main_v8 main_v1 main_v9 select,
    nullary main_c_1 (constantI S_ 32 0#32),
    unary main_c_1 main_v10 (broadcastInDim S320000 ![] bcast_S_S320000),
    binary main_v3 main_v10 main_v11 (cmpi .slt),
    nullary main_c_2 (constantI S_ 32 10000#32),
    unary main_c_2 main_v12 (broadcastInDim S320000 ![] bcast_S_S320000),
    binary main_v3 main_v12 main_v13 addi,
    ternary main_v11 main_v13 main_v3 main_v14 select,
    unary main_v9 main_v15 (broadcastInDim S320000x1 ![0] bcast_S320000_S320000x1_0),
    unary main_v14 main_v16 (broadcastInDim S320000x1 ![0] bcast_S320000_S320000x1_0) ]

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem step0 {V W : Valuation τ sig (Elt F)} (h : InvS V W) : Inv0 V (after ops0 W) where
  toInvS := h.trans (by constructor <;> after_results_simp)
  v1 := by
    after_results_simp
    rw [h.arg1]
    rfl
  v3 := by
    after_results_simp
    rw [h.arg1]
    rfl
  v4 := by
    after_results_simp
    rfl
  v15 := by
    after_results_simp
    rw [h.arg1]
    rfl
  v16 := by
    after_results_simp
    rw [h.arg1]
    rfl

end Cert.ReferenceIdeal.Hand

end
-- ==== Proof.Ref.Piece1.lean ====
import proofs.«430304_j36258113913429_2_alg».proof.Proof.Ref.Inv

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops1 : List (HloOp τ sig (Elt F)) :=
  [ binary main_v15 main_v16 main_v17 (fun a b => concatenate S320000x2 1 [⟨S320000x1, a⟩, ⟨S320000x1, b⟩] concatenates_S320000x1_S320000x1_S320000x2_d1),
    nullary main_cst_3 (constant S_ .f32 0x3F800000#32),
    unary main_cst_3 main_v18 (broadcastInDim S320000 ![] bcast_S_S320000),
    ternary main_v4 main_v17 main_v18 main_v19 (fun x i u => Host.scatterAdd scatter_S10000x10000_S320000x2_S320000_n_01_01_1 x i u),
    nullary main_cst_4 (constant S_ .f32 0x00000000#32),
    binary main_v19 main_cst_4 main_v20 (fun x v => Host.reduceAdd x v reducesTo_S10000x10000_S10000_d1 h_S_),
    nullary main_cst_5 (constant S_ .f32 0x2EDBE6FF#32),
    unary main_cst_5 main_v21 (broadcastInDim S10000 ![] bcast_S_S10000),
    binary main_v20 main_v21 main_v22 maximumf,
    unary main_v22 main_v23 (broadcastInDim S10000x1 ![0] bcast_S10000_S10000x1_0),
    unary main_v23 main_v24 (broadcastInDim S10000x10000 ![0, 1] bcast_S10000x1_S10000x10000_0_1),
    binary main_v19 main_v24 main_v25 Host.divf,
    binary main_v25 main_arg0 main_v26 (fun l r => Host.dotGeneral dot_S10000x10000_S10000x256_S10000x256_1_0_0_1_n_n none l r),
    nullary main_cst_6 (constant S_ .f32 0x00000000#32),
    binary main_v19 main_cst_6 main_v27 (fun x v => Host.reduceAdd x v reducesTo_S10000x10000_S10000_d0 h_S_),
    nullary main_cst_7 (constant S_ .f32 0x2EDBE6FF#32),
    unary main_cst_7 main_v28 (broadcastInDim S10000 ![] bcast_S_S10000),
    binary main_v27 main_v28 main_v29 maximumf,
    nullary main_cst_8 (constant S_ .f32 0x3F800000#32),
    unary main_cst_8 main_v30 (broadcastInDim S10000 ![] bcast_S_S10000),
    binary main_v30 main_v29 main_v31 Host.divf,
    unary main_v31 main_v32 (broadcastInDim S1x10000 ![1] bcast_S10000_S1x10000_1),
    unary main_v32 main_v33 (broadcastInDim S10000x10000 ![0, 1] bcast_S1x10000_S10000x10000_0_1),
    binary main_v19 main_v33 main_v34 mulf,
    unary main_v34 main_v35 (transpose S10000x10000 [1, 0] · transposes_S10000x10000_S10000x10000_1_0),
    binary main_v35 main_arg0 main_v36 (fun l r => Host.dotGeneral dot_S10000x10000_S10000x256_S10000x256_1_0_0_1_n_n none l r),
    nullary main_cst_9 (constant S_ .f32 0x3F4CCCCD#32),
    unary main_cst_9 main_v37 (broadcastInDim S10000x256 ![] bcast_S_S10000x256),
    binary main_v37 main_arg0 main_v38 mulf,
    binary main_v26 main_v36 main_v39 addf,
    nullary main_cst_10 (constant S_ .f32 0x3DCCCCCD#32),
    unary main_cst_10 main_v40 (broadcastInDim S10000x256 ![] bcast_S_S10000x256),
    binary main_v40 main_v39 main_v41 mulf,
    binary main_v38 main_v41 main_v42 addf,
    binary main_v42 main_arg2 main_v43 (fun l r => Host.dotGeneral dot_S10000x256_S256x64_S10000x64_1_0_0_1_n_n none l r),
    nullary main_v44 (iotaInDim S10000 32 0) ]

theorem ops1_sub : (ops1 : List (HloOp τ sig (Elt F))).Forall fun op => op.bufs ⊆ tcRefs τ sig :=
  ⟨binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
theorem step1 {V W : Valuation τ sig (Elt F)} (h : Inv0 V W) : Inv1 V (after ops1 W) where
  toInvS := h.toInvS.trans (by constructor <;> after_results_simp)
  v1 := .trans (by after_results_simp) h.v1
  v3 := .trans (by after_results_simp) h.v3
  v43 := by
    after_results_simp
    rw [h.arg0, h.v4, h.v15, h.v16, h.arg2]
    rfl
  v44 := by
    after_results_simp
    rfl

end Cert.ReferenceIdeal.Hand

end
-- ==== Proof.Ref.Piece2.lean ====
import proofs.«430304_j36258113913429_2_alg».proof.Proof.Ref.Inv

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops2 : List (HloOp τ sig (Elt F)) :=
  [ binary main_v1 main_v44 main_v45 (fun a b => concatenate S330000 0 [⟨S320000, a⟩, ⟨S10000, b⟩] concatenates_S320000_S10000_S330000_d0),
    binary main_v3 main_v44 main_v46 (fun a b => concatenate S330000 0 [⟨S320000, a⟩, ⟨S10000, b⟩] concatenates_S320000_S10000_S330000_d0) ]

theorem ops2_sub : (ops2 : List (HloOp τ sig (Elt F))).Forall fun op => op.bufs ⊆ tcRefs τ sig :=
  ⟨binary_bufs_sub .., binary_bufs_sub ..⟩

theorem ops2_fresh : (ops2 : List (HloOp τ sig (Elt F))).Forall fun op => op.fresh = ∅ :=
  ⟨rfl, rfl⟩

theorem step2 {V W : Valuation τ sig (Elt F)} (h : Inv1 V W) : Inv2 V (after ops2 W) where
  toInvS := h.toInvS.trans (by constructor <;> after_results_simp)
  v1 := .trans (by after_results_simp) h.v1
  v3 := .trans (by after_results_simp) h.v3
  v43 := .trans (by after_results_simp) h.v43
  v45 := by
    after_results_simp
    rw [h.v1, h.v44]
    rfl
  v46 := by
    after_results_simp
    repeat (rw [binary_result_ne]; rotate_left; decide)
    rw [h.v3, h.v44]
    rfl

end Cert.ReferenceIdeal.Hand

end
-- ==== Proof.Ref.Piece3.lean ====
import proofs.«430304_j36258113913429_2_alg».proof.Proof.Ref.Inv

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops3 : List (HloOp τ sig (Elt F)) :=
  [ nullary main_cst_11 (constant S_ .f32 0x3F800000#32),
    unary main_cst_11 main_v47 (broadcastInDim S330000 ![] bcast_S_S330000),
    nullary main_cst_12 (constant S_ .f32 0x00000000#32),
    unary main_cst_12 main_v48 (broadcastInDim S10000 ![] bcast_S_S10000),
    unary main_v46 main_v49 (broadcastInDim S330000x1 ![0] bcast_S330000_S330000x1_0),
    ternary main_v48 main_v49 main_v47 main_v50 (fun x i u => Host.scatterAdd scatter_S10000_S330000x1_S330000_n_0_0_1 x i u),
    nullary main_cst_13 (constant S_ .f32 0x00000000#32),
    unary main_cst_13 main_v51 (broadcastInDim S10000 ![] bcast_S_S10000),
    binary main_v50 main_v51 main_v52 (cmpf .ogt),
    unary main_v50 main_v53 Host.rsqrt,
    nullary main_cst_14 (constant S_ .f32 0x00000000#32),
    TRef.unary (TRef.of (T := ⟨S_, .f32⟩) main_cst_14) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v52) (TRef.of (T := ⟨S10000, .f32⟩) main_v53) (TRef.of (T := ⟨S10000, .f32⟩) main_call0_v1) (TRef.of (T := ⟨S10000, .f32⟩) main_v54) select,
    nullary main_c_15 (constantI S_ 32 0#32),
    unary main_c_15 main_v55 (broadcastInDim S330000 ![] bcast_S_S330000),
    binary main_v45 main_v55 main_v56 (cmpi .slt),
    nullary main_c_16 (constantI S_ 32 10000#32),
    unary main_c_16 main_v57 (broadcastInDim S330000 ![] bcast_S_S330000),
    binary main_v45 main_v57 main_v58 addi,
    ternary main_v56 main_v58 main_v45 main_v59 select,
    unary main_v59 main_v60 (broadcastInDim S330000x1 ![0] bcast_S330000_S330000x1_0),
    binary main_v54 main_v60 main_v61 (fun x i => Host.gather gather_S10000_S330000x1_S330000_n_0_n_n_0_1_1 x i),
    nullary main_c_17 (constantI S_ 32 0#32),
    unary main_c_17 main_v62 (broadcastInDim S330000 ![] bcast_S_S330000),
    binary main_v46 main_v62 main_v63 (cmpi .slt),
    nullary main_c_18 (constantI S_ 32 10000#32),
    unary main_c_18 main_v64 (broadcastInDim S330000 ![] bcast_S_S330000),
    binary main_v46 main_v64 main_v65 addi,
    ternary main_v63 main_v65 main_v46 main_v66 select,
    unary main_v66 main_v67 (broadcastInDim S330000x1 ![0] bcast_S330000_S330000x1_0),
    binary main_v54 main_v67 main_v68 (fun x i => Host.gather gather_S10000_S330000x1_S330000_n_0_n_n_0_1_1 x i),
    binary main_v61 main_v68 main_v69 mulf,
    nullary main_c_19 (constantI S_ 32 0#32),
    unary main_c_19 main_v70 (broadcastInDim S330000 ![] bcast_S_S330000),
    binary main_v45 main_v70 main_v71 (cmpi .slt),
    nullary main_c_20 (constantI S_ 32 10000#32),
    unary main_c_20 main_v72 (broadcastInDim S330000 ![] bcast_S_S330000),
    binary main_v45 main_v72 main_v73 addi,
    ternary main_v71 main_v73 main_v45 main_v74 select,
    unary main_v74 main_v75 (broadcastInDim S330000x1 ![0] bcast_S330000_S330000x1_0),
    binary main_v43 main_v75 main_v76 (fun x i => Host.gather gather_S10000x64_S330000x1_S330000x64_1_0_n_n_0_1_164 x i),
    unary main_v69 main_v77 (broadcastInDim S330000x1 ![0] bcast_S330000_S330000x1_0),
    unary main_v77 main_v78 (broadcastInDim S330000x64 ![0, 1] bcast_S330000x1_S330000x64_0_1),
    binary main_v76 main_v78 main_v79 mulf,
    nullary main_cst_21 (constant S_ .f32 0x00000000#32),
    unary main_cst_21 main_v80 (broadcastInDim S10000x64 ![] bcast_S_S10000x64),
    unary main_v46 main_v81 (broadcastInDim S330000x1 ![0] bcast_S330000_S330000x1_0),
    ternary main_v80 main_v81 main_v79 main_v82 (fun x i u => Host.scatterAdd scatter_S10000x64_S330000x1_S330000x64_1_0_0_1 x i u),
    unary main_arg3 main_v83 (broadcastInDim S1x64 ![1] bcast_S64_S1x64_1),
    unary main_v83 main_v84 (broadcastInDim S10000x64 ![0, 1] bcast_S1x64_S10000x64_0_1),
    binary main_v82 main_v84 main_v85 addf,
    TRef.nullary (TRef.of (T := ⟨S_, .f32⟩) main_call1_cst) (constant S_ .f32 0x00000000#32),
    TRef.unary (TRef.of (T := ⟨S_, .f32⟩) main_call1_cst) (TRef.of (T := ⟨S10000x64, .f32⟩) main_call1_v0) (broadcastInDim S10000x64 ![] bcast_S_S10000x64),
    TRef.binary (TRef.of (T := ⟨S10000x64, .f32⟩) main_v85) (TRef.of (T := ⟨S10000x64, .f32⟩) main_call1_v0) (TRef.of (T := ⟨S10000x64, .f32⟩) main_v86) maximumf,
    binary main_v86 main_arg4 main_v87 (fun l r => Host.dotGeneral dot_S10000x64_S64x64_S10000x64_1_0_0_1_n_n none l r),
    nullary main_v88 (iotaInDim S10000 32 0) ]

theorem ops3_sub : (ops3 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
theorem step3 {V W : Valuation τ sig (Elt F)} (h : Inv2 V W) : Inv3 V (after ops3 W) where
  toInvS := h.toInvS.trans (by constructor <;> after_results_simp)
  v1 := .trans (by after_results_simp) h.v1
  v3 := .trans (by after_results_simp) h.v3
  v87 := by
    after_results_simp
    rw [h.v46, h.v43, h.v45, h.arg3, h.arg4]
    rfl
  v88 := by
    after_results_simp
    rfl

end Cert.ReferenceIdeal.Hand

end
-- ==== Proof.Ref.Piece4.lean ====
import proofs.«430304_j36258113913429_2_alg».proof.Proof.Ref.Inv

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops4 : List (HloOp τ sig (Elt F)) :=
  [ binary main_v1 main_v88 main_v89 (fun a b => concatenate S330000 0 [⟨S320000, a⟩, ⟨S10000, b⟩] concatenates_S320000_S10000_S330000_d0),
    binary main_v3 main_v88 main_v90 (fun a b => concatenate S330000 0 [⟨S320000, a⟩, ⟨S10000, b⟩] concatenates_S320000_S10000_S330000_d0),
    nullary main_cst_22 (constant S_ .f32 0x3F800000#32),
    unary main_cst_22 main_v91 (broadcastInDim S330000 ![] bcast_S_S330000),
    nullary main_cst_23 (constant S_ .f32 0x00000000#32),
    unary main_cst_23 main_v92 (broadcastInDim S10000 ![] bcast_S_S10000),
    unary main_v90 main_v93 (broadcastInDim S330000x1 ![0] bcast_S330000_S330000x1_0) ]

theorem ops4_sub : (ops4 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub ..⟩

theorem ops4_fresh : (ops4 : List (HloOp τ sig (Elt F))).Forall fun op => op.fresh = ∅ :=
  ⟨rfl, rfl, rfl, rfl, rfl, rfl, rfl⟩

theorem step4 {V W : Valuation τ sig (Elt F)} (h : Inv3 V W) : Inv4 V (after ops4 W) where
  toInvS := h.toInvS.trans (by constructor <;> after_results_simp)
  v1 := .trans (by after_results_simp) h.v1
  v3 := .trans (by after_results_simp) h.v3
  v87 := .trans (by after_results_simp) h.v87
  v89 := by
    after_results_simp
    rw [h.v1, h.v88]
    rfl
  v90 := by
    after_results_simp
    repeat (rw [binary_result_ne]; rotate_left; decide)
    rw [h.v3, h.v88]
    rfl
  v91 := by
    after_results_simp
    rfl
  v92 := by
    after_results_simp
    rfl
  v93 := by
    after_results_simp
    repeat (rw [binary_result_ne]; rotate_left; decide)
    rw [h.v3, h.v88]
    rfl

end Cert.ReferenceIdeal.Hand

end
-- ==== Proof.Ref.Piece5.lean ====
import proofs.«430304_j36258113913429_2_alg».proof.Proof.Ref.Inv

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops5 : List (HloOp τ sig (Elt F)) :=
  [ ternary main_v92 main_v93 main_v91 main_v94 (fun x i u => Host.scatterAdd scatter_S10000_S330000x1_S330000_n_0_0_1 x i u),
    nullary main_cst_24 (constant S_ .f32 0x00000000#32),
    unary main_cst_24 main_v95 (broadcastInDim S10000 ![] bcast_S_S10000),
    binary main_v94 main_v95 main_v96 (cmpf .ogt),
    unary main_v94 main_v97 Host.rsqrt,
    nullary main_cst_25 (constant S_ .f32 0x00000000#32),
    TRef.unary (TRef.of (T := ⟨S_, .f32⟩) main_cst_25) (TRef.of (T := ⟨S_, .f32⟩) main_call2_v0) id,
    TRef.unary (TRef.of (T := ⟨S_, .f32⟩) main_call2_v0) (TRef.of (T := ⟨S10000, .f32⟩) main_call2_v1) (broadcastInDim S10000 ![] bcast_S_S10000),
    TRef.ternary (TRef.of (T := ⟨S10000, .i1⟩) main_v96) (TRef.of (T := ⟨S10000, .f32⟩) main_v97) (TRef.of (T := ⟨S10000, .f32⟩) main_call2_v1) (TRef.of (T := ⟨S10000, .f32⟩) main_v98) select,
    nullary main_c_26 (constantI S_ 32 0#32),
    unary main_c_26 main_v99 (broadcastInDim S330000 ![] bcast_S_S330000),
    binary main_v89 main_v99 main_v100 (cmpi .slt),
    nullary main_c_27 (constantI S_ 32 10000#32),
    unary main_c_27 main_v101 (broadcastInDim S330000 ![] bcast_S_S330000),
    binary main_v89 main_v101 main_v102 addi,
    ternary main_v100 main_v102 main_v89 main_v103 select,
    unary main_v103 main_v104 (broadcastInDim S330000x1 ![0] bcast_S330000_S330000x1_0),
    binary main_v98 main_v104 main_v105 (fun x i => Host.gather gather_S10000_S330000x1_S330000_n_0_n_n_0_1_1 x i),
    nullary main_c_28 (constantI S_ 32 0#32),
    unary main_c_28 main_v106 (broadcastInDim S330000 ![] bcast_S_S330000),
    binary main_v90 main_v106 main_v107 (cmpi .slt),
    nullary main_c_29 (constantI S_ 32 10000#32),
    unary main_c_29 main_v108 (broadcastInDim S330000 ![] bcast_S_S330000),
    binary main_v90 main_v108 main_v109 addi,
    ternary main_v107 main_v109 main_v90 main_v110 select,
    unary main_v110 main_v111 (broadcastInDim S330000x1 ![0] bcast_S330000_S330000x1_0),
    binary main_v98 main_v111 main_v112 (fun x i => Host.gather gather_S10000_S330000x1_S330000_n_0_n_n_0_1_1 x i),
    binary main_v105 main_v112 main_v113 mulf,
    nullary main_c_30 (constantI S_ 32 0#32),
    unary main_c_30 main_v114 (broadcastInDim S330000 ![] bcast_S_S330000),
    binary main_v89 main_v114 main_v115 (cmpi .slt),
    nullary main_c_31 (constantI S_ 32 10000#32),
    unary main_c_31 main_v116 (broadcastInDim S330000 ![] bcast_S_S330000),
    binary main_v89 main_v116 main_v117 addi,
    ternary main_v115 main_v117 main_v89 main_v118 select,
    unary main_v118 main_v119 (broadcastInDim S330000x1 ![0] bcast_S330000_S330000x1_0),
    binary main_v87 main_v119 main_v120 (fun x i => Host.gather gather_S10000x64_S330000x1_S330000x64_1_0_n_n_0_1_164 x i),
    unary main_v113 main_v121 (broadcastInDim S330000x1 ![0] bcast_S330000_S330000x1_0),
    unary main_v121 main_v122 (broadcastInDim S330000x64 ![0, 1] bcast_S330000x1_S330000x64_0_1),
    binary main_v120 main_v122 main_v123 mulf,
    nullary main_cst_32 (constant S_ .f32 0x00000000#32),
    unary main_cst_32 main_v124 (broadcastInDim S10000x64 ![] bcast_S_S10000x64),
    unary main_v90 main_v125 (broadcastInDim S330000x1 ![0] bcast_S330000_S330000x1_0),
    ternary main_v124 main_v125 main_v123 main_v126 (fun x i u => Host.scatterAdd scatter_S10000x64_S330000x1_S330000x64_1_0_0_1 x i u),
    unary main_arg5 main_v127 (broadcastInDim S1x64 ![1] bcast_S64_S1x64_1),
    unary main_v127 main_v128 (broadcastInDim S10000x64 ![0, 1] bcast_S1x64_S10000x64_0_1),
    binary main_v126 main_v128 main_v129 addf,
    binary main_v129 main_arg6 main_v130 (fun l r => Host.dotGeneral dot_S10000x64_S64x64_S10000x64_1_0_0_1_n_n none l r),
    nullary main_v131 (iotaInDim S10000 32 0) ]

theorem ops5_sub : (ops5 : List (HloOp τ sig (Elt F))).Forall fun op => op.bufs ⊆ tcRefs τ sig :=
  ⟨ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
theorem step5 {V W : Valuation τ sig (Elt F)} (h : Inv4 V W) : Inv5 V (after ops5 W) where
  toInvS := h.toInvS.trans (by constructor <;> after_results_simp)
  v1 := .trans (by after_results_simp) h.v1
  v3 := .trans (by after_results_simp) h.v3
  v129 := by
    after_results_simp
    rw [h.v90, h.v87, h.v89, h.v92, h.v93, h.v91, h.arg5]
    rfl
  v130 := by
    after_results_simp
    rw [h.v90, h.v87, h.v89, h.v92, h.v93, h.v91, h.arg5, h.arg6]
    rfl
  v131 := by
    after_results_simp
    rfl

end Cert.ReferenceIdeal.Hand

end
-- ==== Proof.Ref.Piece6.lean ====
import proofs.«430304_j36258113913429_2_alg».proof.Proof.Ref.Inv

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops6 : List (HloOp τ sig (Elt F)) :=
  [ binary main_v1 main_v131 main_v132 (fun a b => concatenate S330000 0 [⟨S320000, a⟩, ⟨S10000, b⟩] concatenates_S320000_S10000_S330000_d0),
    binary main_v3 main_v131 main_v133 (fun a b => concatenate S330000 0 [⟨S320000, a⟩, ⟨S10000, b⟩] concatenates_S320000_S10000_S330000_d0),
    nullary main_cst_33 (constant S_ .f32 0x3F800000#32),
    unary main_cst_33 main_v134 (broadcastInDim S330000 ![] bcast_S_S330000),
    nullary main_cst_34 (constant S_ .f32 0x00000000#32),
    unary main_cst_34 main_v135 (broadcastInDim S10000 ![] bcast_S_S10000),
    unary main_v133 main_v136 (broadcastInDim S330000x1 ![0] bcast_S330000_S330000x1_0),
    ternary main_v135 main_v136 main_v134 main_v137 (fun x i u => Host.scatterAdd scatter_S10000_S330000x1_S330000_n_0_0_1 x i u),
    nullary main_cst_35 (constant S_ .f32 0x00000000#32),
    unary main_cst_35 main_v138 (broadcastInDim S10000 ![] bcast_S_S10000),
    binary main_v137 main_v138 main_v139 (cmpf .ogt),
    unary main_v137 main_v140 Host.rsqrt,
    nullary main_cst_36 (constant S_ .f32 0x00000000#32) ]

theorem ops6_sub : (ops6 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub ..⟩

theorem ops6_fresh : (ops6 : List (HloOp τ sig (Elt F))).Forall fun op => op.fresh = ∅ :=
  ⟨rfl, rfl, rfl, rfl, rfl, rfl, rfl, rfl, rfl, rfl, rfl, rfl, rfl⟩

theorem step6 {V W : Valuation τ sig (Elt F)} (h : Inv5 V W) : Inv6 V (after ops6 W) where
  toInvS := h.toInvS.trans (by constructor <;> after_results_simp)
  v1 := .trans (by after_results_simp) h.v1
  v3 := .trans (by after_results_simp) h.v3
  v129 := .trans (by after_results_simp) h.v129
  v130 := .trans (by after_results_simp) h.v130
  v132 := by
    after_results_simp
    rw [h.v1, h.v131]
    rfl
  v133 := by
    after_results_simp
    repeat (rw [binary_result_ne]; rotate_left; decide)
    rw [h.v3, h.v131]
    rfl
  v139 := by
    after_results_simp
    repeat (rw [binary_result_ne]; rotate_left; decide)
    rw [h.v3, h.v131]
    rfl
  v140 := by
    after_results_simp
    repeat (rw [binary_result_ne]; rotate_left; decide)
    rw [h.v3, h.v131]
    rfl
  cst_36 := by
    after_results_simp
    rfl

end Cert.ReferenceIdeal.Hand

end
-- ==== Proof.Ref.Piece7.lean ====
import proofs.«430304_j36258113913429_2_alg».proof.Proof.Ref.Inv

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops7 : List (HloOp τ sig (Elt F)) :=
  [ TRef.unary (TRef.of (T := ⟨S_, .f32⟩) main_cst_36) (TRef.of (T := ⟨S_, .f32⟩) main_call3_v0) id,
    TRef.unary (TRef.of (T := ⟨S_, .f32⟩) main_call3_v0) (TRef.of (T := ⟨S10000, .f32⟩) main_call3_v1) (broadcastInDim S10000 ![] bcast_S_S10000),
    TRef.ternary (TRef.of (T := ⟨S10000, .i1⟩) main_v139) (TRef.of (T := ⟨S10000, .f32⟩) main_v140) (TRef.of (T := ⟨S10000, .f32⟩) main_call3_v1) (TRef.of (T := ⟨S10000, .f32⟩) main_v141) select,
    nullary main_c_37 (constantI S_ 32 0#32),
    unary main_c_37 main_v142 (broadcastInDim S330000 ![] bcast_S_S330000),
    binary main_v132 main_v142 main_v143 (cmpi .slt),
    nullary main_c_38 (constantI S_ 32 10000#32),
    unary main_c_38 main_v144 (broadcastInDim S330000 ![] bcast_S_S330000),
    binary main_v132 main_v144 main_v145 addi,
    ternary main_v143 main_v145 main_v132 main_v146 select,
    unary main_v146 main_v147 (broadcastInDim S330000x1 ![0] bcast_S330000_S330000x1_0),
    binary main_v141 main_v147 main_v148 (fun x i => Host.gather gather_S10000_S330000x1_S330000_n_0_n_n_0_1_1 x i),
    nullary main_c_39 (constantI S_ 32 0#32),
    unary main_c_39 main_v149 (broadcastInDim S330000 ![] bcast_S_S330000),
    binary main_v133 main_v149 main_v150 (cmpi .slt),
    nullary main_c_40 (constantI S_ 32 10000#32),
    unary main_c_40 main_v151 (broadcastInDim S330000 ![] bcast_S_S330000),
    binary main_v133 main_v151 main_v152 addi,
    ternary main_v150 main_v152 main_v133 main_v153 select,
    unary main_v153 main_v154 (broadcastInDim S330000x1 ![0] bcast_S330000_S330000x1_0),
    binary main_v141 main_v154 main_v155 (fun x i => Host.gather gather_S10000_S330000x1_S330000_n_0_n_n_0_1_1 x i),
    binary main_v148 main_v155 main_v156 mulf,
    nullary main_c_41 (constantI S_ 32 0#32),
    unary main_c_41 main_v157 (broadcastInDim S330000 ![] bcast_S_S330000),
    binary main_v132 main_v157 main_v158 (cmpi .slt),
    nullary main_c_42 (constantI S_ 32 10000#32),
    unary main_c_42 main_v159 (broadcastInDim S330000 ![] bcast_S_S330000),
    binary main_v132 main_v159 main_v160 addi,
    ternary main_v158 main_v160 main_v132 main_v161 select,
    unary main_v161 main_v162 (broadcastInDim S330000x1 ![0] bcast_S330000_S330000x1_0),
    binary main_v130 main_v162 main_v163 (fun x i => Host.gather gather_S10000x64_S330000x1_S330000x64_1_0_n_n_0_1_164 x i),
    unary main_v156 main_v164 (broadcastInDim S330000x1 ![0] bcast_S330000_S330000x1_0),
    unary main_v164 main_v165 (broadcastInDim S330000x64 ![0, 1] bcast_S330000x1_S330000x64_0_1),
    binary main_v163 main_v165 main_v166 mulf,
    nullary main_cst_43 (constant S_ .f32 0x00000000#32),
    unary main_cst_43 main_v167 (broadcastInDim S10000x64 ![] bcast_S_S10000x64),
    unary main_v133 main_v168 (broadcastInDim S330000x1 ![0] bcast_S330000_S330000x1_0),
    ternary main_v167 main_v168 main_v166 main_v169 (fun x i u => Host.scatterAdd scatter_S10000x64_S330000x1_S330000x64_1_0_0_1 x i u),
    unary main_arg7 main_v170 (broadcastInDim S1x64 ![1] bcast_S64_S1x64_1),
    unary main_v170 main_v171 (broadcastInDim S10000x64 ![0, 1] bcast_S1x64_S10000x64_0_1),
    binary main_v169 main_v171 main_v172 addf,
    TRef.nullary (TRef.of (T := ⟨S_, .f32⟩) main_call4_cst) (constant S_ .f32 0x00000000#32),
    TRef.unary (TRef.of (T := ⟨S_, .f32⟩) main_call4_cst) (TRef.of (T := ⟨S10000x64, .f32⟩) main_call4_v0) (broadcastInDim S10000x64 ![] bcast_S_S10000x64),
    TRef.binary (TRef.of (T := ⟨S10000x64, .f32⟩) main_v172) (TRef.of (T := ⟨S10000x64, .f32⟩) main_call4_v0) (TRef.of (T := ⟨S10000x64, .f32⟩) main_v173) maximumf,
    binary main_v173 main_arg8 main_v174 (fun l r => Host.dotGeneral dot_S10000x64_S64x256_S10000x256_1_0_0_1_n_n none l r),
    nullary main_v175 (iotaInDim S10000 32 0) ]

theorem ops7_sub : (ops7 : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub ..⟩

theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
theorem step7 {V W : Valuation τ sig (Elt F)} (h : Inv6 V W) : Inv7 V (after ops7 W) where
  toInvS := h.toInvS.trans (by constructor <;> after_results_simp)
  v1 := .trans (by after_results_simp) h.v1
  v3 := .trans (by after_results_simp) h.v3
  v129 := .trans (by after_results_simp) h.v129
  v174 := by
    after_results_simp
    rw [h.v133, h.v130, h.v132, h.v139, h.v140, h.cst_36, h.arg7, h.arg8]
    rfl
  v175 := by
    after_results_simp
    rfl

end Cert.ReferenceIdeal.Hand

end
-- ==== Proof.Ref.Piece8.lean ====
import proofs.«430304_j36258113913429_2_alg».proof.Proof.Ref.Inv

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops8 : List (HloOp τ sig (Elt F)) :=
  [ binary main_v1 main_v175 main_v176 (fun a b => concatenate S330000 0 [⟨S320000, a⟩, ⟨S10000, b⟩] concatenates_S320000_S10000_S330000_d0),
    binary main_v3 main_v175 main_v177 (fun a b => concatenate S330000 0 [⟨S320000, a⟩, ⟨S10000, b⟩] concatenates_S320000_S10000_S330000_d0),
    nullary main_cst_44 (constant S_ .f32 0x3F800000#32),
    unary main_cst_44 main_v178 (broadcastInDim S330000 ![] bcast_S_S330000),
    nullary main_cst_45 (constant S_ .f32 0x00000000#32),
    unary main_cst_45 main_v179 (broadcastInDim S10000 ![] bcast_S_S10000),
    unary main_v177 main_v180 (broadcastInDim S330000x1 ![0] bcast_S330000_S330000x1_0),
    ternary main_v179 main_v180 main_v178 main_v181 (fun x i u => Host.scatterAdd scatter_S10000_S330000x1_S330000_n_0_0_1 x i u),
    nullary main_cst_46 (constant S_ .f32 0x00000000#32),
    unary main_cst_46 main_v182 (broadcastInDim S10000 ![] bcast_S_S10000),
    binary main_v181 main_v182 main_v183 (cmpf .ogt),
    unary main_v181 main_v184 Host.rsqrt,
    nullary main_cst_47 (constant S_ .f32 0x00000000#32),
    TRef.unary (TRef.of (T := ⟨S_, .f32⟩) main_cst_47) (TRef.of (T := ⟨S_, .f32⟩) main_call5_v0) id,
    TRef.unary (TRef.of (T := ⟨S_, .f32⟩) main_call5_v0) (TRef.of (T := ⟨S10000, .f32⟩) main_call5_v1) (broadcastInDim S10000 ![] bcast_S_S10000),
    TRef.ternary (TRef.of (T := ⟨S10000, .i1⟩) main_v183) (TRef.of (T := ⟨S10000, .f32⟩) main_v184) (TRef.of (T := ⟨S10000, .f32⟩) main_call5_v1) (TRef.of (T := ⟨S10000, .f32⟩) main_v185) select,
    nullary main_c_48 (constantI S_ 32 0#32),
    unary main_c_48 main_v186 (broadcastInDim S330000 ![] bcast_S_S330000),
    binary main_v176 main_v186 main_v187 (cmpi .slt),
    nullary main_c_49 (constantI S_ 32 10000#32) ]

theorem ops8_sub : (ops8 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub ..⟩

theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem step8 {V W : Valuation τ sig (Elt F)} (h : Inv7 V W) : Inv8 V (after ops8 W) where
  toInvS := h.toInvS.trans (by constructor <;> after_results_simp)
  v1 := .trans (by after_results_simp) h.v1
  v3 := .trans (by after_results_simp) h.v3
  v129 := .trans (by after_results_simp) h.v129
  v174 := .trans (by after_results_simp) h.v174
  v176 := by
    after_results_simp
    rw [h.v1, h.v175]
    rfl
  v177 := by
    after_results_simp
    repeat (rw [binary_result_ne]; rotate_left; decide)
    rw [h.v3, h.v175]
    rfl
  v185 := by
    after_results_simp
    repeat (rw [binary_result_ne]; rotate_left; decide)
    rw [h.v3, h.v175]
    rfl
  v187 := by
    after_results_simp
    rw [h.v1, h.v175]
    rfl
  c_49 := by
    after_results_simp
    rfl

end Cert.ReferenceIdeal.Hand

end
-- ==== Proof.Ref.Piece9.lean ====
import proofs.«430304_j36258113913429_2_alg».proof.Proof.Ref.Inv

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops9 : List (HloOp τ sig (Elt F)) :=
  [ unary main_c_49 main_v188 (broadcastInDim S330000 ![] bcast_S_S330000),
    binary main_v176 main_v188 main_v189 addi,
    ternary main_v187 main_v189 main_v176 main_v190 select,
    unary main_v190 main_v191 (broadcastInDim S330000x1 ![0] bcast_S330000_S330000x1_0),
    binary main_v185 main_v191 main_v192 (fun x i => Host.gather gather_S10000_S330000x1_S330000_n_0_n_n_0_1_1 x i),
    nullary main_c_50 (constantI S_ 32 0#32),
    unary main_c_50 main_v193 (broadcastInDim S330000 ![] bcast_S_S330000),
    binary main_v177 main_v193 main_v194 (cmpi .slt),
    nullary main_c_51 (constantI S_ 32 10000#32),
    unary main_c_51 main_v195 (broadcastInDim S330000 ![] bcast_S_S330000),
    binary main_v177 main_v195 main_v196 addi,
    ternary main_v194 main_v196 main_v177 main_v197 select,
    unary main_v197 main_v198 (broadcastInDim S330000x1 ![0] bcast_S330000_S330000x1_0),
    binary main_v185 main_v198 main_v199 (fun x i => Host.gather gather_S10000_S330000x1_S330000_n_0_n_n_0_1_1 x i),
    binary main_v192 main_v199 main_v200 mulf,
    nullary main_c_52 (constantI S_ 32 0#32),
    unary main_c_52 main_v201 (broadcastInDim S330000 ![] bcast_S_S330000),
    binary main_v176 main_v201 main_v202 (cmpi .slt),
    nullary main_c_53 (constantI S_ 32 10000#32),
    unary main_c_53 main_v203 (broadcastInDim S330000 ![] bcast_S_S330000),
    binary main_v176 main_v203 main_v204 addi,
    ternary main_v202 main_v204 main_v176 main_v205 select,
    unary main_v205 main_v206 (broadcastInDim S330000x1 ![0] bcast_S330000_S330000x1_0),
    binary main_v174 main_v206 main_v207 (fun x i => Host.gather gather_S10000x256_S330000x1_S330000x256_1_0_n_n_0_1_1256 x i),
    unary main_v200 main_v208 (broadcastInDim S330000x1 ![0] bcast_S330000_S330000x1_0),
    unary main_v208 main_v209 (broadcastInDim S330000x256 ![0, 1] bcast_S330000x1_S330000x256_0_1),
    binary main_v207 main_v209 main_v210 mulf,
    nullary main_cst_54 (constant S_ .f32 0x00000000#32),
    unary main_cst_54 main_v211 (broadcastInDim S10000x256 ![] bcast_S_S10000x256),
    unary main_v177 main_v212 (broadcastInDim S330000x1 ![0] bcast_S330000_S330000x1_0),
    ternary main_v211 main_v212 main_v210 main_v213 (fun x i u => Host.scatterAdd scatter_S10000x256_S330000x1_S330000x256_1_0_0_1 x i u),
    unary main_arg9 main_v214 (broadcastInDim S1x256 ![1] bcast_S256_S1x256_1),
    unary main_v214 main_v215 (broadcastInDim S10000x256 ![0, 1] bcast_S1x256_S10000x256_0_1),
    binary main_v213 main_v215 main_v216 addf,
    binary main_v129 main_arg10 main_v217 (fun l r => Host.dotGeneral dot_S10000x64_S64x64_S10000x64_1_0_0_1_n_n none l r),
    nullary main_v218 (iotaInDim S10000 32 0) ]

theorem ops9_sub : (ops9 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub ..⟩

theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
theorem step9 {V W : Valuation τ sig (Elt F)} (h : Inv8 V W) : Inv9 V (after ops9 W) where
  toInvS := h.toInvS.trans (by constructor <;> after_results_simp)
  v1 := .trans (by after_results_simp) h.v1
  v3 := .trans (by after_results_simp) h.v3
  v216 := by
    after_results_simp
    rw [h.v177, h.v174, h.v176, h.v185, h.v187, h.c_49, h.arg9]
    rfl
  v217 := by
    after_results_simp
    rw [h.v129, h.arg10]
    rfl
  v218 := by
    after_results_simp
    rfl

end Cert.ReferenceIdeal.Hand

end
-- ==== Proof.Ref.Piece10.lean ====
import proofs.«430304_j36258113913429_2_alg».proof.Proof.Ref.Inv

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops10 : List (HloOp τ sig (Elt F)) :=
  [ binary main_v1 main_v218 main_v219 (fun a b => concatenate S330000 0 [⟨S320000, a⟩, ⟨S10000, b⟩] concatenates_S320000_S10000_S330000_d0),
    binary main_v3 main_v218 main_v220 (fun a b => concatenate S330000 0 [⟨S320000, a⟩, ⟨S10000, b⟩] concatenates_S320000_S10000_S330000_d0),
    nullary main_cst_55 (constant S_ .f32 0x3F800000#32),
    unary main_cst_55 main_v221 (broadcastInDim S330000 ![] bcast_S_S330000),
    nullary main_cst_56 (constant S_ .f32 0x00000000#32),
    unary main_cst_56 main_v222 (broadcastInDim S10000 ![] bcast_S_S10000),
    unary main_v220 main_v223 (broadcastInDim S330000x1 ![0] bcast_S330000_S330000x1_0),
    ternary main_v222 main_v223 main_v221 main_v224 (fun x i u => Host.scatterAdd scatter_S10000_S330000x1_S330000_n_0_0_1 x i u),
    nullary main_cst_57 (constant S_ .f32 0x00000000#32),
    unary main_cst_57 main_v225 (broadcastInDim S10000 ![] bcast_S_S10000),
    binary main_v224 main_v225 main_v226 (cmpf .ogt),
    unary main_v224 main_v227 Host.rsqrt,
    nullary main_cst_58 (constant S_ .f32 0x00000000#32),
    TRef.unary (TRef.of (T := ⟨S_, .f32⟩) main_cst_58) (TRef.of (T := ⟨S_, .f32⟩) main_call6_v0) id,
    TRef.unary (TRef.of (T := ⟨S_, .f32⟩) main_call6_v0) (TRef.of (T := ⟨S10000, .f32⟩) main_call6_v1) (broadcastInDim S10000 ![] bcast_S_S10000),
    TRef.ternary (TRef.of (T := ⟨S10000, .i1⟩) main_v226) (TRef.of (T := ⟨S10000, .f32⟩) main_v227) (TRef.of (T := ⟨S10000, .f32⟩) main_call6_v1) (TRef.of (T := ⟨S10000, .f32⟩) main_v228) select,
    nullary main_c_59 (constantI S_ 32 0#32),
    unary main_c_59 main_v229 (broadcastInDim S330000 ![] bcast_S_S330000),
    binary main_v219 main_v229 main_v230 (cmpi .slt),
    nullary main_c_60 (constantI S_ 32 10000#32),
    unary main_c_60 main_v231 (broadcastInDim S330000 ![] bcast_S_S330000),
    binary main_v219 main_v231 main_v232 addi,
    ternary main_v230 main_v232 main_v219 main_v233 select,
    unary main_v233 main_v234 (broadcastInDim S330000x1 ![0] bcast_S330000_S330000x1_0),
    binary main_v228 main_v234 main_v235 (fun x i => Host.gather gather_S10000_S330000x1_S330000_n_0_n_n_0_1_1 x i),
    nullary main_c_61 (constantI S_ 32 0#32) ]

theorem ops10_sub : (ops10 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem step10 {V W : Valuation τ sig (Elt F)} (h : Inv9 V W) : Inv10 V (after ops10 W) where
  toInvS := h.toInvS.trans (by constructor <;> after_results_simp)
  v216 := .trans (by after_results_simp) h.v216
  v217 := .trans (by after_results_simp) h.v217
  v219 := by
    after_results_simp
    rw [h.v1, h.v218]
    rfl
  v220 := by
    after_results_simp
    repeat (rw [binary_result_ne]; rotate_left; decide)
    rw [h.v3, h.v218]
    rfl
  v228 := by
    after_results_simp
    repeat (rw [binary_result_ne]; rotate_left; decide)
    rw [h.v3, h.v218]
    rfl
  v235 := by
    after_results_simp
    repeat (rw [binary_result_ne]; rotate_left; decide)
    rw [h.v3, h.v218, h.v1]
    rfl
  c_61 := by
    after_results_simp
    rfl

end Cert.ReferenceIdeal.Hand

end
-- ==== Proof.Ref.Piece11.lean ====
import proofs.«430304_j36258113913429_2_alg».proof.Proof.Ref.Inv

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops11 : List (HloOp τ sig (Elt F)) :=
  [ unary main_c_61 main_v236 (broadcastInDim S330000 ![] bcast_S_S330000),
    binary main_v220 main_v236 main_v237 (cmpi .slt),
    nullary main_c_62 (constantI S_ 32 10000#32),
    unary main_c_62 main_v238 (broadcastInDim S330000 ![] bcast_S_S330000),
    binary main_v220 main_v238 main_v239 addi,
    ternary main_v237 main_v239 main_v220 main_v240 select,
    unary main_v240 main_v241 (broadcastInDim S330000x1 ![0] bcast_S330000_S330000x1_0),
    binary main_v228 main_v241 main_v242 (fun x i => Host.gather gather_S10000_S330000x1_S330000_n_0_n_n_0_1_1 x i),
    binary main_v235 main_v242 main_v243 mulf,
    nullary main_c_63 (constantI S_ 32 0#32),
    unary main_c_63 main_v244 (broadcastInDim S330000 ![] bcast_S_S330000),
    binary main_v219 main_v244 main_v245 (cmpi .slt),
    nullary main_c_64 (constantI S_ 32 10000#32),
    unary main_c_64 main_v246 (broadcastInDim S330000 ![] bcast_S_S330000),
    binary main_v219 main_v246 main_v247 addi,
    ternary main_v245 main_v247 main_v219 main_v248 select,
    unary main_v248 main_v249 (broadcastInDim S330000x1 ![0] bcast_S330000_S330000x1_0),
    binary main_v217 main_v249 main_v250 (fun x i => Host.gather gather_S10000x64_S330000x1_S330000x64_1_0_n_n_0_1_164 x i),
    unary main_v243 main_v251 (broadcastInDim S330000x1 ![0] bcast_S330000_S330000x1_0),
    unary main_v251 main_v252 (broadcastInDim S330000x64 ![0, 1] bcast_S330000x1_S330000x64_0_1),
    binary main_v250 main_v252 main_v253 mulf,
    nullary main_cst_65 (constant S_ .f32 0x00000000#32),
    unary main_cst_65 main_v254 (broadcastInDim S10000x64 ![] bcast_S_S10000x64),
    unary main_v220 main_v255 (broadcastInDim S330000x1 ![0] bcast_S330000_S330000x1_0),
    ternary main_v254 main_v255 main_v253 main_v256 (fun x i u => Host.scatterAdd scatter_S10000x64_S330000x1_S330000x64_1_0_0_1 x i u),
    unary main_arg11 main_v257 (broadcastInDim S1x64 ![1] bcast_S64_S1x64_1),
    unary main_v257 main_v258 (broadcastInDim S10000x64 ![0, 1] bcast_S1x64_S10000x64_0_1),
    binary main_v256 main_v258 main_v259 addf,
    unary main_v259 main_v260 (transpose S64x10000 [1, 0] · transposes_S10000x64_S64x10000_1_0),
    binary main_v259 main_v260 main_v261 (fun l r => Host.dotGeneral dot_S10000x64_S64x10000_S10000x10000_1_0_0_1_n_n none l r) ]

theorem ops11_sub : (ops11 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub ..⟩

theorem ops11_fresh : (ops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
theorem step11 {V W : Valuation τ sig (Elt F)} (h : Inv10 V W) : Inv11 V (after ops11 W) where
  toInvS := h.toInvS.trans (by constructor <;> after_results_simp)
  v216 := .trans (by after_results_simp) h.v216
  v261 := by
    after_results_simp
    rw [h.v220, h.v217, h.v219, h.v235, h.v228, h.c_61, h.arg11]
    rfl

end Cert.ReferenceIdeal.Hand

end
-- ==== Proof.Ref.Run.lean ====
import proofs.«430304_j36258113913429_2_alg».proof.Proof.Ref.Piece0
import proofs.«430304_j36258113913429_2_alg».proof.Proof.Ref.Piece1
import proofs.«430304_j36258113913429_2_alg».proof.Proof.Ref.Piece2
import proofs.«430304_j36258113913429_2_alg».proof.Proof.Ref.Piece3
import proofs.«430304_j36258113913429_2_alg».proof.Proof.Ref.Piece4
import proofs.«430304_j36258113913429_2_alg».proof.Proof.Ref.Piece5
import proofs.«430304_j36258113913429_2_alg».proof.Proof.Ref.Piece6
import proofs.«430304_j36258113913429_2_alg».proof.Proof.Ref.Piece7
import proofs.«430304_j36258113913429_2_alg».proof.Proof.Ref.Piece8
import proofs.«430304_j36258113913429_2_alg».proof.Proof.Ref.Piece9
import proofs.«430304_j36258113913429_2_alg».proof.Proof.Ref.Piece10
import proofs.«430304_j36258113913429_2_alg».proof.Proof.Ref.Piece11

noncomputable section

namespace Cert.ReferenceIdeal.Hand

open Cert.ReferenceIdeal Cert.ReferenceIdeal.Gen Idealize.ShloMosaic Idealize.ShloMosaic.TcCoe Idealize.SL.Sem Idealize.ShloMosaic.StableHlo Cert.GraphConv

variable {F : FTy → Type} [FloatOps F]

abbrev ops : List (HloOp τ sig (Elt F)) := (ops0 ++ (ops1 ++ ops2)) ++ ((ops3 ++ ops4) ++ ((ops5 ++ ops6) ++ ((ops7 ++ ops8) ++ ((ops9 ++ ops10) ++ ops11))))

theorem main_part0_eq (c : Dev nD) : main_part0 (F := F) c = seq (ops0 ++ (ops1 ++ ops2)) := rfl

theorem main_part1_eq (c : Dev nD) : main_part1 (F := F) c = seq (ops3 ++ ops4) := rfl

theorem main_part2_eq (c : Dev nD) : main_part2 (F := F) c = seq (ops5 ++ ops6) := rfl

theorem main_part3_eq (c : Dev nD) : main_part3 (F := F) c = seq (ops7 ++ ops8) := rfl

theorem main_part4_eq (c : Dev nD) : main_part4 (F := F) c = seq (ops9 ++ ops10) := rfl

theorem main_part5_eq (c : Dev nD) : main_part5 (F := F) c = seq ops11 := rfl

theorem main_eq (c : Dev nD) : main (F := F) c = seq ops := by
  show main (F := F) c = seq ((ops0 ++ (ops1 ++ ops2)) ++ ((ops3 ++ ops4) ++ ((ops5 ++ ops6) ++ ((ops7 ++ ops8) ++ ((ops9 ++ ops10) ++ ops11)))))
  rw [seq_append (ops0 ++ (ops1 ++ ops2)), seq_append (ops3 ++ ops4), seq_append (ops5 ++ ops6), seq_append (ops7 ++ ops8), seq_append (ops9 ++ ops10),
    ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨List.forall_append.2 ⟨ops0_sub, List.forall_append.2 ⟨ops1_sub, ops2_sub⟩⟩, List.forall_append.2 ⟨List.forall_append.2 ⟨ops3_sub, ops4_sub⟩, List.forall_append.2 ⟨List.forall_append.2 ⟨ops5_sub, ops6_sub⟩, List.forall_append.2 ⟨List.forall_append.2 ⟨ops7_sub, ops8_sub⟩, List.forall_append.2 ⟨List.forall_append.2 ⟨ops9_sub, ops10_sub⟩, ops11_sub⟩⟩⟩⟩⟩

theorem ops_fresh : ∀ op ∈ (ops : List (HloOp τ sig (Elt F))), op.fresh = ∅ :=
  List.forall_iff_forall_mem.1 (List.forall_append.2 ⟨List.forall_append.2 ⟨ops0_fresh, List.forall_append.2 ⟨ops1_fresh, ops2_fresh⟩⟩, List.forall_append.2 ⟨List.forall_append.2 ⟨ops3_fresh, ops4_fresh⟩, List.forall_append.2 ⟨List.forall_append.2 ⟨ops5_fresh, ops6_fresh⟩, List.forall_append.2 ⟨List.forall_append.2 ⟨ops7_fresh, ops8_fresh⟩, List.forall_append.2 ⟨List.forall_append.2 ⟨ops9_fresh, ops10_fresh⟩, ops11_fresh⟩⟩⟩⟩⟩)

/-- Each piece carries the description before it to the one after it, and the contents after a concatenation are the second part's after the first's. -/
theorem after_ops {V W : Valuation τ sig (Elt F)} (h : InvS V W) : Inv11 V (after ops W) := by
  show Inv11 V (after ((ops0 ++ (ops1 ++ ops2)) ++ ((ops3 ++ ops4) ++ ((ops5 ++ ops6) ++ ((ops7 ++ ops8) ++ ((ops9 ++ ops10) ++ ops11))))) W)
  repeat rw [StableHlo.after_append]
  exact step11 (step10 (step9 (step8 (step7 (step6 (step5 (step4 (step3 (step2 (step1 (step0 h)))))))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v216) = ReadP.val_main_v216 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v261) = ReadP.val_main_v261 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      have I := after_ops (F := F) (V := launchContents m c) (W := launchContents m c) ⟨rfl, rfl, rfl, rfl, rfl, rfl, rfl, rfl, rfl, rfl, rfl, rfl⟩
      ⟨(h c main_v216).trans I.v216, (h c main_v261).trans I.v261,
        (h c main_arg0).trans I.arg0, (h c main_arg1).trans I.arg1, (h c main_arg2).trans I.arg2, (h c main_arg3).trans I.arg3, (h c main_arg4).trans I.arg4, (h c main_arg5).trans I.arg5, (h c main_arg6).trans I.arg6, (h c main_arg7).trans I.arg7, (h c main_arg8).trans I.arg8, (h c main_arg9).trans I.arg9, (h c main_arg10).trans I.arg10, (h c main_arg11).trans I.arg11⟩)
    (run_seq scopedRefs_eq scopedSems_eq defs main (fun _ => ops) main_eq (fun _ => ops_sub) m ρ (fun _ => ops_fresh))

end Cert.ReferenceIdeal.Hand

end
-- ==== Proof.RefValue.Reads.lean ====
import Idealize.ShloMosaic.PureOps.Ideal
import Idealize.ShloMosaic.PureOps.Contract
import Idealize.ShloMosaic.Lib.ValueIdx
import Idealize.ShloMosaic.Lib.StableHlo.Predicate

noncomputable section

namespace Cert.ReferenceIdeal.HandValue

open Finset Idealize.ShloMosaic Idealize.ShloMosaic.ValueIdx

theorem toInt_of_lt {w : BitVec 32} (h : w.toNat < 10000) : w.toInt = (w.toNat : Int) :=
  StableHlo.Predicate.toInt_eq_toNat_of_lt (by omega)

-- A non-negative word is not below zero, so the wrap-around of negative indices leaves it alone.
theorem norm_word {w : BitVec 32} (h : w.toNat < 10000) :
    Scalar.select (IntOp.cmpi .slt w 0#32) (IntOp.addi w 10000#32) w = w := by
  have h0 : IntOp.cmpi .slt w 0#32 = 0#1 := by
    show BitVec.ofBool (w.slt 0#32) = 0#1
    rw [BitVec.slt, toInt_of_lt h, decide_eq_false (by simp)]; rfl
  rw [h0]; exact select_zero _ _

section Scatter
variable {s si u : Shape} {w : Nat} (d : ScatterDims s si u) (idx : IVec si w)

-- An update lands at j exactly when its start plus its window coordinate is j on every axis.
theorem resultIdx?_eq_some (k : u.Idx) (j : s.Idx) :
    d.resultIdx? k idx = some j ↔ ∀ a, d.start k idx a + (d.window k a : Int) = ((j a).val : Int) := by
  unfold ScatterDims.resultIdx?
  constructor
  · intro h a
    split at h
    · next hc =>
      have e : (d.start k idx a + (d.window k a : Int)).toNat = (j a).val :=
        congrArg (fun z : s.Idx => (z a).val) (Option.some.inj h)
      have := hc a
      omega
    · cases h
  · intro h
    rw [dif_pos fun a => by have := (j a).isLt; rw [h a]; omega]
    exact congrArg some (funext fun a => Fin.ext (by
      show (d.start k idx a + (d.window k a : Int)).toNat = (j a).val
      rw [h a]; omega))

-- The updates landing at j, listed without repeats by emb over the p with P p.
theorem scatterAdd_apply {ι : Type} [Fintype ι] (P : ι → Prop) [DecidablePred P] (emb : ι → u.Idx) (prj : u.Idx → ι)
    (hprj : ∀ p, prj (emb p) = p) (j : s.Idx)
    (hP : ∀ k, d.resultIdx? k idx = some j ↔ P (prj k) ∧ emb (prj k) = k) (x : s.Idx → EReal) (upd : u.Idx → EReal) :
    Ideal.hostScatterAdd d x idx upd j = x j + ∑ p ∈ univ.filter P, upd (emb p) := by
  unfold Ideal.hostScatterAdd
  refine congrArg (x j + ·) (Finset.sum_bij' (fun k _ => prj k) (fun p _ => emb p) ?_ ?_ ?_ ?_ ?_)
  · intro k hk
    exact mem_filter.2 ⟨mem_univ _, ((hP k).1 (mem_filter.1 hk).2).1⟩
  · intro p hp
    exact mem_filter.2 ⟨mem_univ _, (hP _).2 (by rw [hprj]; exact ⟨(mem_filter.1 hp).2, rfl⟩)⟩
  · intro k hk
    exact ((hP k).1 (mem_filter.1 hk).2).2
  · intro p _; exact hprj p
  · intro k hk
    exact congrArg upd ((hP k).1 (mem_filter.1 hk).2).2.symm

end Scatter

section Shapes
variable {α : Type} {N M C n w : Nat}

theorem rowScatter_apply (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (x : (⟨2, ![N, C]⟩ : Shape).Idx → EReal) (idx : IVec ⟨2, ![n, 1]⟩ w)
    (upd : (⟨2, ![n, C]⟩ : Shape).Idx → EReal) (i : Fin N) (g : Fin C) :
    Ideal.hostScatterAdd d x idx upd (ix2 i g)
      = x (ix2 i g) + ∑ p ∈ univ.filter (fun p : Fin n => (idx (ix2 p (0 : Fin 1))).toInt = (i.val : Int)), upd (ix2 p g) := by
  refine scatterAdd_apply d idx _ (fun p => ix2 p g) (fun k => k 0) (fun _ => rfl) _ (fun k => ?_) x upd
  obtain ⟨p, f, rfl⟩ : ∃ p f, k = ix2 p f := ⟨k 0, k 1, eq_ix2 k⟩
  obtain ⟨uw, iw, sd, iv, wf⟩ := d
  simp only at hu hi hs hv
  subst hu hi hs hv
  have hs0 : (ScatterDims.mk [1] [0] [0] 1 wf).start (ix2 p f) idx 0 = (idx (ix2 p (0 : Fin 1))).toInt := by
    unfold ScatterDims.start
    rw [dif_pos (by show (0 : Fin 2) ∈ ([0] : List (Fin 2)); decide)]
    exact congrArg (fun z => (idx z).toInt) (funext fun b => by match b with | ⟨0, _⟩ => rfl | ⟨1, _⟩ => rfl)
  have hs1 : (ScatterDims.mk [1] [0] [0] 1 wf).start (ix2 p f) idx 1 = 0 := by
    unfold ScatterDims.start; rw [dif_neg (by show (1 : Fin 2) ∉ ([0] : List (Fin 2)); decide)]
  have hw0 : (ScatterDims.mk [1] [0] [0] 1 wf).window (ix2 p f) 0 = 0 := by
    unfold ScatterDims.window; rw [dif_neg (by show (0 : Fin 2) ∉ ([1] : List (Fin 2)); decide)]
  have hw1 : (ScatterDims.mk [1] [0] [0] 1 wf).window (ix2 p f) 1 = f.val := by
    unfold ScatterDims.window; rw [dif_pos (by show (1 : Fin 2) ∈ ([1] : List (Fin 2)); decide)]; rfl
  rw [resultIdx?_eq_some]
  refine Fin.forall_fin_two.trans (and_congr ?_ ?_)
  · rw [hs0, hw0, Nat.cast_zero, add_zero]; exact Iff.rfl
  · rw [hs1, hw1]
    exact ⟨fun h => congrArg (ix2 p) (Fin.ext (by have : (0 : ℤ) + ((f.val : ℕ) : ℤ) = (g.val : ℤ) := h; omega)),
      fun h => by
        have : g.val = f.val := congrArg (fun z => (z 1).val) h
        show (0 : ℤ) + ((f.val : ℕ) : ℤ) = (g.val : ℤ)
        omega⟩

theorem vecScatter_apply (d : ScatterDims ⟨1, ![N]⟩ ⟨2, ![n, 1]⟩ ⟨1, ![n]⟩)
    (hu : d.updateWindowDims = []) (hi : d.insertedWindowDims = [0]) (hs : d.scatterDimsToOperandDims = [0])
    (hv : d.indexVectorDim = 1) (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ p ∈ univ.filter (fun p : Fin n => (idx (ix2 p (0 : Fin 1))).toInt = (i.val : Int)), upd (ix1 p) := by
  refine scatterAdd_apply d idx _ ix1 (fun k => k 0) (fun _ => rfl) _ (fun k => ?_) x upd
  obtain ⟨p, rfl⟩ : ∃ p, k = ix1 p := ⟨k 0, eq_ix1 k⟩
  obtain ⟨uw, iw, sd, iv, wf⟩ := d
  simp only at hu hi hs hv
  subst hu hi hs hv
  have hs0 : (ScatterDims.mk [] [0] [0] 1 wf).start (ix1 p) idx 0 = (idx (ix2 p (0 : Fin 1))).toInt := by
    unfold ScatterDims.start
    rw [dif_pos (by show (0 : Fin 1) ∈ ([0] : List (Fin 1)); decide)]
    exact congrArg (fun z => (idx z).toInt) (funext fun b => by match b with | ⟨0, _⟩ => rfl | ⟨1, _⟩ => rfl)
  have hw0 : (ScatterDims.mk [] [0] [0] 1 wf).window (ix1 p) 0 = 0 := by
    unfold ScatterDims.window; rw [dif_neg (by show (0 : Fin 1) ∉ ([] : List (Fin 1)); decide)]
  rw [resultIdx?_eq_some]
  refine (Fin.forall_fin_one.trans ?_).trans (and_iff_left rfl).symm
  rw [hs0, hw0, Nat.cast_zero, add_zero]; exact Iff.rfl

theorem pairScatter_apply (d : ScatterDims ⟨2, ![N, M]⟩ ⟨2, ![n, 2]⟩ ⟨1, ![n]⟩)
    (hu : d.updateWindowDims = []) (hi : d.insertedWindowDims = [0, 1]) (hs : d.scatterDimsToOperandDims = [0, 1])
    (hv : d.indexVectorDim = 1) (x : (⟨2, ![N, M]⟩ : Shape).Idx → EReal) (idx : IVec ⟨2, ![n, 2]⟩ w)
    (upd : (⟨1, ![n]⟩ : Shape).Idx → EReal) (p : Fin N) (q : Fin M) :
    Ideal.hostScatterAdd d x idx upd (ix2 p q)
      = x (ix2 p q) + ∑ e ∈ univ.filter (fun e : Fin n =>
          (idx (ix2 e (0 : Fin 2))).toInt = (p.val : Int) ∧ (idx (ix2 e (1 : Fin 2))).toInt = (q.val : Int)), upd (ix1 e) := by
  refine scatterAdd_apply d idx _ ix1 (fun k => k 0) (fun _ => rfl) _ (fun k => ?_) x upd
  obtain ⟨e, rfl⟩ : ∃ e, k = ix1 e := ⟨k 0, eq_ix1 k⟩
  obtain ⟨uw, iw, sd, iv, wf⟩ := d
  simp only at hu hi hs hv
  subst hu hi hs hv
  have hs' : ∀ c : Fin 2, (ScatterDims.mk [] [0, 1] [0, 1] 1 wf).start (ix1 e) idx c = (idx (ix2 e c)).toInt := by
    refine Fin.forall_fin_two.2 ⟨?_, ?_⟩ <;>
    · unfold ScatterDims.start
      rw [dif_pos (by show _ ∈ ([0, 1] : List (Fin 2)); decide)]
      exact congrArg (fun z => (idx z).toInt) (funext fun b => by match b with | ⟨0, _⟩ => rfl | ⟨1, _⟩ => rfl)
  have hw : ∀ a : Fin 2, (ScatterDims.mk [] [0, 1] [0, 1] 1 wf).window (ix1 e) a = 0 := fun a => by
    unfold ScatterDims.window; rw [dif_neg (by show a ∉ ([] : List (Fin 2)); exact List.not_mem_nil)]
  rw [resultIdx?_eq_some]
  refine (Fin.forall_fin_two.trans ?_).trans (and_iff_left rfl).symm
  rw [hs' 0, hs' 1, hw 0, hw 1, Nat.cast_zero, add_zero, add_zero]; exact Iff.rfl

theorem vecGather_apply (hN : 0 < N) (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) :
    Host.gather d x idx (ix1 p) = x (ix1 ⟨min (idx (ix2 p (0 : Fin 1))).toInt.toNat (N - 1), by omega⟩) := by
  have h := StableHlo.Predicate.gather_take d hcoll hob hsim hivd x idx p hN
  simp only [show StableHlo.Predicate.ixP p = ix2 p (0 : Fin 1) from eq_ix2 _] at h
  exact (congrArg (Host.gather d x idx) (Shape.Idx.eq_ofFin (ix1 p))).trans (h.trans (congrArg x (Shape.Idx.eq_ofFin (ix1 _)).symm))

theorem rowGather_apply (hN : 0 < N) (d : GatherDims ⟨2, ![N, C]⟩ ⟨2, ![n, 1]⟩ ⟨2, ![n, C]⟩)
    (ho : d.offsetDims = [1]) (hcoll : d.collapsedSliceDims = [0]) (hob : d.operandBatchingDims = [])
    (hsim : d.startIndexMap = [0]) (hivd : d.indexVectorDim = 1) (hsl : d.sliceSizes = ![1, C])
    (x : (⟨2, ![N, C]⟩ : Shape).Idx → α) (idx : IVec ⟨2, ![n, 1]⟩ w) (p : Fin n) (f : Fin C) :
    Host.gather d x idx (ix2 p f) = x (ix2 ⟨min (idx (ix2 p (0 : Fin 1))).toInt.toNat (N - 1), by omega⟩ f) := by
  obtain ⟨od, cs, ob, sb, sim, iv, ss, wf⟩ := d
  simp only at ho hcoll hob hsim hivd hsl
  subst ho hcoll hob hsim hivd hsl
  unfold Host.gather
  refine congrArg x (funext fun a => Fin.ext ?_)
  match a with
  | ⟨0, _⟩ =>
    show GatherDims.start _ (ix2 p f) idx 0 + GatherDims.batchCoord _ (ix2 p f) 0 + GatherDims.offCoord _ (ix2 p f) 0
        = min (idx (ix2 p (0 : Fin 1))).toInt.toNat (N - 1)
    rw [GatherDims.batchCoord_eq_zero _ _ _ (by show (0 : Fin 2) ∉ ([] : List (Fin 2)); decide),
      GatherDims.offCoord_eq_zero _ _ _ (by show (0 : Fin 2) ∉ ([1] : List (Fin 2)); decide)]
    unfold GatherDims.start
    rw [dif_pos (by show (0 : Fin 2) ∈ ([0] : List (Fin 2)); decide)]
    exact congrArg (fun z => min (idx z).toInt.toNat (N - 1)) (funext fun b => by match b with | ⟨0, _⟩ => rfl | ⟨1, _⟩ => rfl)
  | ⟨1, _⟩ =>
    show GatherDims.start _ (ix2 p f) idx 1 + GatherDims.batchCoord _ (ix2 p f) 1 + GatherDims.offCoord _ (ix2 p f) 1 = f.val
    rw [GatherDims.batchCoord_eq_zero _ _ _ (by show (1 : Fin 2) ∉ ([] : List (Fin 2)); decide)]
    unfold GatherDims.start GatherDims.offCoord
    rw [dif_neg (by show (1 : Fin 2) ∉ ([0] : List (Fin 2)); decide), dif_pos (by show (1 : Fin 2) ∈ ([1] : List (Fin 2)); decide)]
    exact Nat.zero_add _

end Shapes

end Cert.ReferenceIdeal.HandValue

end
-- ==== Proof.RefValue.Norm.lean ====
import proofs.«430304_j36258113913429_2_alg».proof.Proof.RefRead
import proofs.«430304_j36258113913429_2_alg».proof.Proof.SpecData
import proofs.«430304_j36258113913429_2_alg».proof.Proof.LibCoe
import proofs.«430304_j36258113913429_2_alg».proof.Proof.Consts
import Idealize.ShloMosaic.Lib.Pipeline.Value
import Idealize.ShloMosaic.PureOps.Contract
import proofs.«430304_j36258113913429_2_alg».proof.Proof.RefValue.Reads

noncomputable section

namespace Cert.ReferenceIdeal.HandValue

open Finset Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo Cert.SpecData

def edgeP (e : Fin 320000) : Fin 330000 := ⟨e.val, by omega⟩
def loopP (k : Fin 10000) : Fin 330000 := ⟨320000 + k.val, by omega⟩

theorem pos_cases (p : Fin 330000) : (∃ e, p = edgeP e) ∨ (∃ k, p = loopP k) := by
  by_cases h : p.val < 320000
  · exact Or.inl ⟨⟨p.val, h⟩, Fin.ext rfl⟩
  · exact Or.inr ⟨⟨p.val - 320000, by have := p.isLt; omega⟩,
      Fin.ext (by show p.val = 320000 + (p.val - 320000); omega)⟩

theorem sum_split {M : Type} [AddCommMonoid M] (g : Fin 330000 → M) :
    ∑ p, g p = ∑ e, g (edgeP e) + ∑ k, g (loopP k) :=
  Fin.sum_univ_add (a := 320000) (b := 10000) g

theorem ofNat_toNat (k : Fin 10000) : (BitVec.ofNat 32 k.val).toNat = k.val := by
  rw [BitVec.toNat_ofNat]; exact Nat.mod_eq_of_lt (by have := k.isLt; omega)

theorem toInt_ofNat (k : Fin 10000) : (BitVec.ofNat 32 k.val).toInt = (k.val : Int) := by
  rw [toInt_of_lt (by rw [ofNat_toNat]; exact k.isLt), ofNat_toNat]

theorem toInt_eq_iff_node {w : BitVec 32} (h : w.toNat < 10000) (i : Fin 10000) :
    w.toInt = (i.val : Int) ↔ node w = i := by
  rw [toInt_of_lt h, Fin.ext_iff, node_val h]; omega

-- The node a gather reads for a start-index word: the word read signed and clamped into the node range.
def clampNode (w : BitVec 32) : Fin 10000 := ⟨min w.toInt.toNat (10000 - 1), by omega⟩

theorem clampNode_of_lt {w : BitVec 32} (h : w.toNat < 10000) : clampNode w = node w := by
  apply Fin.ext
  show min w.toInt.toNat (10000 - 1) = min w.toNat 9999
  rw [toInt_of_lt h, Int.toNat_natCast]

theorem clampNode_ofNat (k : Fin 10000) : clampNode (BitVec.ofNat 32 k.val) = k := by
  apply Fin.ext
  show min (BitVec.ofNat 32 k.val).toInt.toNat (10000 - 1) = k.val
  rw [toInt_ofNat, Int.toNat_natCast]
  exact Nat.min_eq_left (by have := k.isLt; omega)

-- The edges' words followed by the nodes' own numbers, read at an edge's and at a self loop's position.
theorem cat_edge {α : Type} (a : S320000.Idx → α) (b : S10000.Idx → α) (e : Fin 320000) :
    concatenate S330000 0 [⟨S320000, a⟩, ⟨S10000, b⟩] concatenates_S320000_S10000_S330000_d0 (ix1 (edgeP e)) = a (ix1 e) :=
  concatenate_pair_apply_left 0 _ _ concatenates_S320000_S10000_S330000_d0 (ix1 (edgeP e)) rfl (ix1 e)
    (fun b => by match b with | ⟨0, _⟩ => rfl)

theorem cat_loop {α : Type} (a : S320000.Idx → α) (b : S10000.Idx → α) (k : Fin 10000) :
    concatenate S330000 0 [⟨S320000, a⟩, ⟨S10000, b⟩] concatenates_S320000_S10000_S330000_d0 (ix1 (loopP k)) = b (ix1 k) :=
  concatenate_pair_apply_right 0 _ _ concatenates_S320000_S10000_S330000_d0 (ix1 (loopP k)) rfl rfl (ix1 k)
    (fun b hb => by match b with | ⟨0, _⟩ => exact absurd rfl hb)
    (by show k.val + 320000 = 320000 + k.val; omega)

section
variable (x1 : (⟨S2x320000, .i32⟩ : BufTy).Contents (Elt Ideal))

theorem src_word (e : Fin 320000) : val_main_v1 (F := Ideal) x1 (ix1 e) = x1 (ix2 (0 : Fin 2) e) := by
  rw [val_main_v1_apply, val_main_v0_apply]
  exact congrArg x1 (Shape.idx_ext₂ rfl (Nat.mod_eq_of_lt e.isLt))

theorem dst_word (e : Fin 320000) : val_main_v3 (F := Ideal) x1 (ix1 e) = x1 (ix2 (1 : Fin 2) e) := by
  rw [val_main_v3_apply, val_main_v2_apply]
  exact congrArg x1 (Shape.idx_ext₂ rfl (Nat.mod_eq_of_lt e.isLt))

theorem s2_edge (e : Fin 320000) : val_main_v45 (F := Ideal) x1 (ix1 (edgeP e)) = x1 (ix2 (0 : Fin 2) e) :=
  (cat_edge _ _ e).trans (src_word x1 e)

theorem s2_loop (k : Fin 10000) : val_main_v45 (F := Ideal) x1 (ix1 (loopP k)) = BitVec.ofNat 32 k.val :=
  cat_loop _ _ k

theorem d2_edge (e : Fin 320000) : val_main_v46 (F := Ideal) x1 (ix1 (edgeP e)) = x1 (ix2 (1 : Fin 2) e) :=
  (cat_edge _ _ e).trans (dst_word x1 e)

theorem d2_loop (k : Fin 10000) : val_main_v46 (F := Ideal) x1 (ix1 (loopP k)) = BitVec.ofNat 32 k.val :=
  cat_loop _ _ k

variable (hrange : ∀ i, (x1 i).toNat < 10000)
include hrange

-- A list holding an index word at each edge's position and a node's own number at its self loop's holds only nodes.
theorem list_lt (v : S330000.Idx → BitVec 32) (r : Fin 2) (he : ∀ e, v (ix1 (edgeP e)) = x1 (ix2 r e))
    (hl : ∀ k, v (ix1 (loopP k)) = BitVec.ofNat 32 k.val) (p : Fin 330000) : (v (ix1 p)).toNat < 10000 := by
  rcases pos_cases p with ⟨e, rfl⟩ | ⟨k, rfl⟩
  · rw [he]; exact hrange _
  · rw [hl, ofNat_toNat]; exact k.isLt

theorem s2_lt (p : Fin 330000) : (val_main_v45 (F := Ideal) x1 (ix1 p)).toNat < 10000 :=
  list_lt x1 hrange _ 0 (s2_edge x1) (s2_loop x1) p

theorem d2_lt (p : Fin 330000) : (val_main_v46 (F := Ideal) x1 (ix1 p)).toNat < 10000 :=
  list_lt x1 hrange _ 1 (d2_edge x1) (d2_loop x1) p

-- The update rows landing on node i: the edges into i, then i's self loop.
theorem sum_filter_split (G : Fin 330000 → EReal) (i : Fin 10000) :
    ∑ p ∈ univ.filter (fun p : Fin 330000 => (val_main_v46 (F := Ideal) x1 (ix1 p)).toInt = (i.val : Int)), G p
      = ∑ e ∈ univ.filter (fun e : Fin 320000 => node (x1 (ix2 (1 : Fin 2) e)) = i), G (edgeP e) + G (loopP i) := by
  rw [Finset.sum_filter, sum_split, Finset.sum_filter]
  refine congrArg₂ (· + ·) ?_ ?_
  · refine Finset.sum_congr rfl fun e _ => if_congr ?_ rfl rfl
    rw [d2_edge]
    exact toInt_eq_iff_node (hrange _) i
  · rw [Finset.sum_eq_single i]
    · rw [if_pos]
      rw [d2_loop, toInt_ofNat]
    · intro k _ hk
      rw [if_neg]
      rw [d2_loop, toInt_ofNat]
      intro h
      exact hk (Fin.ext (by exact_mod_cast h))
    · intro h; exact absurd (Finset.mem_univ _) h

theorem s2n_word (p : Fin 330000) :
    val_main_v60 (F := Ideal) x1 (ix2 p (0 : Fin 1)) = val_main_v45 (F := Ideal) x1 (ix1 p) := by
  rw [val_main_v60_apply, show idx_main_v60 (ix2 p (0 : Fin 1)) = ix1 p from eq_ix1 _]
  exact norm_word (s2_lt x1 hrange p)

theorem d2n_word (p : Fin 330000) :
    val_main_v67 (F := Ideal) x1 (ix2 p (0 : Fin 1)) = val_main_v46 (F := Ideal) x1 (ix1 p) := by
  rw [val_main_v67_apply, show idx_main_v67 (ix2 p (0 : Fin 1)) = ix1 p from eq_ix1 _]
  exact norm_word (d2_lt x1 hrange p)

theorem sNode_edge (e : Fin 320000) :
    clampNode (val_main_v45 (F := Ideal) x1 (ix1 (edgeP e))) = node (x1 (ix2 (0 : Fin 2) e)) := by
  rw [s2_edge, clampNode_of_lt (hrange _)]
theorem sNode_loop (k : Fin 10000) : clampNode (val_main_v45 (F := Ideal) x1 (ix1 (loopP k))) = k := by
  rw [s2_loop, clampNode_ofNat]
theorem dNode_edge (e : Fin 320000) :
    clampNode (val_main_v46 (F := Ideal) x1 (ix1 (edgeP e))) = node (x1 (ix2 (1 : Fin 2) e)) := by
  rw [d2_edge, clampNode_of_lt (hrange _)]
theorem dNode_loop (k : Fin 10000) : clampNode (val_main_v46 (F := Ideal) x1 (ix1 (loopP k))) = k := by
  rw [d2_loop, clampNode_ofNat]

-- The two gathers of the inverse square roots, read at a position.
theorem dinv_src (p : Fin 330000) : val_main_v61 (F := Ideal) x1 (ix1 p)
    = val_main_v54 (F := Ideal) x1 (ix1 (clampNode (val_main_v45 (F := Ideal) x1 (ix1 p)))) :=
  (vecGather_apply (by decide) gather_S10000_S330000x1_S330000_n_0_n_n_0_1_1 rfl rfl rfl rfl _ _ p).trans
    (congrArg (fun w => val_main_v54 (F := Ideal) x1 (ix1 (clampNode w))) (s2n_word x1 hrange p))

theorem dinv_dst (p : Fin 330000) : val_main_v68 (F := Ideal) x1 (ix1 p)
    = val_main_v54 (F := Ideal) x1 (ix1 (clampNode (val_main_v46 (F := Ideal) x1 (ix1 p)))) :=
  (vecGather_apply (by decide) gather_S10000_S330000x1_S330000_n_0_n_n_0_1_1 rfl rfl rfl rfl _ _ p).trans
    (congrArg (fun w => val_main_v54 (F := Ideal) x1 (ix1 (clampNode w))) (d2n_word x1 hrange p))

end

section
variable (x0 : (⟨S10000x256, .f32⟩ : BufTy).Contents (Elt Ideal)) (x1 : (⟨S2x320000, .i32⟩ : BufTy).Contents (Elt Ideal))
  (x2 : (⟨S256x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x256, .f32⟩ : BufTy).Contents (Elt Ideal)) (x9 : (⟨S256, .f32⟩ : BufTy).Contents (Elt Ideal))
  (x10 : (⟨S64x64, .f32⟩ : BufTy).Contents (Elt Ideal)) (x11 : (⟨S64, .f32⟩ : BufTy).Contents (Elt Ideal))

local notation "𝔻" => Cert.SpecData.data x0 x1 x2 x3 x4 x5 x6 x7 x8 x9 x10 x11

theorem deg_pos (i : Fin 10000) : 0 < Cert.Spec.deg 𝔻 i := by
  unfold Cert.Spec.deg; positivity

variable (hrange : ∀ i, (x1 i).toNat < 10000)
include hrange

theorem deg_stage (i : Fin 10000) : val_main_v50 (F := Ideal) x1 (ix1 i) = ((Cert.Spec.deg 𝔻 i : ℝ) : EReal) := by
  have h1 : val_main_v50 (F := Ideal) x1 = Ideal.hostScatterAdd scatter_S10000_S330000x1_S330000_n_0_0_1
      (val_main_v48 (F := Ideal)) (val_main_v49 (F := Ideal) x1) (val_main_v47 (F := Ideal)) := rfl
  rw [h1]
  refine (vecScatter_apply scatter_S10000_S330000x1_S330000_n_0_0_1 rfl rfl rfl rfl _ _ _ i).trans ?_
  have h48 : val_main_v48 (F := Ideal) (ix1 i) = 0 := Ideal.ofBits_zero_f32
  have h47 : ∀ p : Fin 330000, val_main_v47 (F := Ideal) (ix1 p) = ((1 : ℝ) : EReal) := fun p => Cert.Consts.one_val
  have h49 : ∀ p : Fin 330000, val_main_v49 (F := Ideal) x1 (ix2 p (0 : Fin 1)) = val_main_v46 (F := Ideal) x1 (ix1 p) := fun p => by
    rw [val_main_v49_apply]; exact congrArg _ (eq_ix1 _)
  simp only [h48, h47, h49, zero_add]
  rw [sum_filter_split x1 hrange (fun _ => ((1 : ℝ) : EReal)) i, Cert.LibCoe.sum_coe, Finset.sum_const, nsmul_eq_mul, mul_one,
    ← EReal.coe_add]
  rfl

theorem dinv_stage (i : Fin 10000) : val_main_v54 (F := Ideal) x1 (ix1 i) = ((Cert.Spec.dinv 𝔻 i : ℝ) : EReal) := by
  rw [val_main_v54_apply, val_main_v52_apply, val_main_v53_apply]
  have h51 : val_main_v51 (F := Ideal) (ix1 i) = ((0 : ℝ) : EReal) := by
    rw [EReal.coe_zero]; exact Ideal.ofBits_zero_f32
  rw [deg_stage x0 x1 x2 x3 x4 x5 x6 x7 x8 x9 x10 x11 hrange i, h51]
  have hp := deg_pos x0 x1 x2 x3 x4 x5 x6 x7 x8 x9 x10 x11 i
  have hc : FloatOps.cmpf (F := Ideal) (φ := .f32) .ogt ((Cert.Spec.deg 𝔻 i : ℝ) : EReal) ((0 : ℝ) : EReal) = 1#1 := by
    show Ideal.cmp .ogt _ _ = 1#1
    rw [Cert.LibCoe.cmp_ogt_coe, decide_eq_true hp]; rfl
  rw [hc, select_one]
  refine (Ideal.hostUnary_rsqrt_def (φ := .f32) _).trans ?_
  rw [Cert.LibCoe.rsqrt_coe_toReal hp]
  unfold Cert.Spec.dinv
  rw [if_pos hp]
  rfl

-- The weight of a position: the inverse square roots at its two ends, multiplied.
theorem norm_pos (p : Fin 330000) (s d : Fin 10000) (hs : clampNode (val_main_v45 (F := Ideal) x1 (ix1 p)) = s)
    (hd : clampNode (val_main_v46 (F := Ideal) x1 (ix1 p)) = d) :
    val_main_v69 (F := Ideal) x1 (ix1 p) = ((Cert.Spec.dinv 𝔻 s * Cert.Spec.dinv 𝔻 d : ℝ) : EReal) := by
  rw [val_main_v69_apply, dinv_src x1 hrange, dinv_dst x1 hrange, hs, hd,
    dinv_stage x0 x1 x2 x3 x4 x5 x6 x7 x8 x9 x10 x11 hrange, dinv_stage x0 x1 x2 x3 x4 x5 x6 x7 x8 x9 x10 x11 hrange, EReal.coe_mul]
  rfl

theorem norm_edge (e : Fin 320000) : val_main_v69 (F := Ideal) x1 (ix1 (edgeP e))
    = ((Cert.Spec.dinv 𝔻 ((𝔻).src e) * Cert.Spec.dinv 𝔻 ((𝔻).dst e) : ℝ) : EReal) :=
  norm_pos x0 x1 x2 x3 x4 x5 x6 x7 x8 x9 x10 x11 hrange _ _ _ (sNode_edge x1 hrange e) (dNode_edge x1 hrange e)

theorem norm_loop (k : Fin 10000) : val_main_v69 (F := Ideal) x1 (ix1 (loopP k))
    = ((Cert.Spec.dinv 𝔻 k * Cert.Spec.dinv 𝔻 k : ℝ) : EReal) :=
  norm_pos x0 x1 x2 x3 x4 x5 x6 x7 x8 x9 x10 x11 hrange _ _ _ (sNode_loop x1 hrange k) (dNode_loop x1 hrange k)

end

end Cert.ReferenceIdeal.HandValue

end
-- ==== Proof.RefValue.Layer.lean ====
import proofs.«430304_j36258113913429_2_alg».proof.Proof.RefRead
import proofs.«430304_j36258113913429_2_alg».proof.Proof.SpecData
import proofs.«430304_j36258113913429_2_alg».proof.Proof.LibCoe
import proofs.«430304_j36258113913429_2_alg».proof.Proof.Consts
import Idealize.ShloMosaic.Lib.Pipeline.Value
import Idealize.ShloMosaic.PureOps.Contract
import proofs.«430304_j36258113913429_2_alg».proof.Proof.RefValue.Reads
import proofs.«430304_j36258113913429_2_alg».proof.Proof.RefValue.Norm

noncomputable section

namespace Cert.ReferenceIdeal.HandValue

open Finset Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo Cert.SpecData

-- The real-valued layer after its matrix product XW: the edges into i, then i's self loop, then the bias.
def layerSum (D : Cert.Spec.Data) {C : ℕ} (XW : Fin 10000 → Fin C → ℝ) (b : Fin C → ℝ) (i : Fin 10000) (f : Fin C) : ℝ :=
  (∑ e ∈ univ.filter (fun e : Fin 320000 => D.dst e = i), XW (D.src e) f * (Cert.Spec.dinv D (D.src e) * Cert.Spec.dinv D i))
    + XW i f * (Cert.Spec.dinv D i * Cert.Spec.dinv D i) + b f

def aggr64 (xw : (⟨S10000x64, .f32⟩ : BufTy).Contents (Elt Ideal)) (x1 : (⟨S2x320000, .i32⟩ : BufTy).Contents (Elt Ideal))
    (bias : (⟨S64, .f32⟩ : BufTy).Contents (Elt Ideal)) : (⟨S10000x64, .f32⟩ : BufTy).Contents (Elt Ideal) :=
  addf (F := Ideal) (φ := .f32) (Host.scatterAdd (F := Ideal) (φ := .f32) scatter_S10000x64_S330000x1_S330000x64_1_0_0_1 (val_main_v80 (F := Ideal)) (val_main_v81 (F := Ideal) x1)
      (mulf (F := Ideal) (φ := .f32) (Host.gather gather_S10000x64_S330000x1_S330000x64_1_0_n_n_0_1_164 xw (val_main_v75 (F := Ideal) x1)) (val_main_v78 (F := Ideal) x1)))
    (val_main_v84 (F := Ideal) bias)

def aggr256 (xw : (⟨S10000x256, .f32⟩ : BufTy).Contents (Elt Ideal)) (x1 : (⟨S2x320000, .i32⟩ : BufTy).Contents (Elt Ideal))
    (bias : (⟨S256, .f32⟩ : BufTy).Contents (Elt Ideal)) : (⟨S10000x256, .f32⟩ : BufTy).Contents (Elt Ideal) :=
  addf (F := Ideal) (φ := .f32) (Host.scatterAdd (F := Ideal) (φ := .f32) scatter_S10000x256_S330000x1_S330000x256_1_0_0_1 (val_main_v211 (F := Ideal)) (val_main_v212 (F := Ideal) x1)
      (mulf (F := Ideal) (φ := .f32) (Host.gather gather_S10000x256_S330000x1_S330000x256_1_0_n_n_0_1_1256 xw (val_main_v206 (F := Ideal) x1)) (val_main_v209 (F := Ideal) x1)))
    (val_main_v215 (F := Ideal) bias)

section
variable (x0 : (⟨S10000x256, .f32⟩ : BufTy).Contents (Elt Ideal)) (x1 : (⟨S2x320000, .i32⟩ : BufTy).Contents (Elt Ideal))
  (x2 : (⟨S256x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x256, .f32⟩ : BufTy).Contents (Elt Ideal)) (x9 : (⟨S256, .f32⟩ : BufTy).Contents (Elt Ideal))
  (x10 : (⟨S64x64, .f32⟩ : BufTy).Contents (Elt Ideal)) (x11 : (⟨S64, .f32⟩ : BufTy).Contents (Elt Ideal))

local notation "𝔻" => Cert.SpecData.data x0 x1 x2 x3 x4 x5 x6 x7 x8 x9 x10 x11

theorem v85_eq : val_main_v85 (F := Ideal) x0 x1 x2 x3 = aggr64 (val_main_v43 (F := Ideal) x0 x1 x2) x1 x3 := rfl
theorem v129_eq : val_main_v129 (F := Ideal) x0 x1 x2 x3 x4 x5 = aggr64 (val_main_v87 (F := Ideal) x0 x1 x2 x3 x4) x1 x5 := rfl
theorem v172_eq : val_main_v172 (F := Ideal) x0 x1 x2 x3 x4 x5 x6 x7
    = aggr64 (val_main_v130 (F := Ideal) x0 x1 x2 x3 x4 x5 x6) x1 x7 := rfl
theorem v216_eq : val_main_v216 (F := Ideal) x0 x1 x2 x3 x4 x5 x6 x7 x8 x9
    = aggr256 (val_main_v174 (F := Ideal) x0 x1 x2 x3 x4 x5 x6 x7 x8) x1 x9 := rfl
theorem v259_eq : val_main_v259 (F := Ideal) x0 x1 x2 x3 x4 x5 x10 x11
    = aggr64 (val_main_v217 (F := Ideal) x0 x1 x2 x3 x4 x5 x10) x1 x11 := rfl

variable (hrange : ∀ i, (x1 i).toNat < 10000)
include hrange

-- The rows of xw gathered at the sources, scaled by the edge weights, scatter-added at the targets, plus the bias.
theorem aggr_apply {C : ℕ} (ds : ScatterDims ⟨2, ![10000, C]⟩ ⟨2, ![330000, 1]⟩ ⟨2, ![330000, C]⟩)
    (hu : ds.updateWindowDims = [1]) (hi : ds.insertedWindowDims = [0]) (hs : ds.scatterDimsToOperandDims = [0])
    (hv : ds.indexVectorDim = 1) (dg : GatherDims ⟨2, ![10000, C]⟩ ⟨2, ![330000, 1]⟩ ⟨2, ![330000, C]⟩)
    (ho : dg.offsetDims = [1]) (hcoll : dg.collapsedSliceDims = [0]) (hob : dg.operandBatchingDims = [])
    (hsim : dg.startIndexMap = [0]) (hivd : dg.indexVectorDim = 1) (hsl : dg.sliceSizes = ![1, C])
    (z : (⟨2, ![10000, C]⟩ : Shape).Idx → EReal) (di si : IVec ⟨2, ![330000, 1]⟩ 32)
    (nrm : (⟨2, ![330000, C]⟩ : Shape).Idx → EReal) (bb xw : (⟨2, ![10000, C]⟩ : Shape).Idx → EReal)
    (hz : ∀ j, z j = 0) (hd : ∀ p, di (ix2 p (0 : Fin 1)) = val_main_v46 (F := Ideal) x1 (ix1 p))
    (hsi : ∀ p, si (ix2 p (0 : Fin 1)) = val_main_v45 (F := Ideal) x1 (ix1 p))
    (hn : ∀ p f, nrm (ix2 p f) = val_main_v69 (F := Ideal) x1 (ix1 p))
    (XW : Fin 10000 → Fin C → ℝ) (b : Fin C → ℝ) (hxw : ∀ j f, xw (ix2 j f) = ((XW j f : ℝ) : EReal))
    (hb : ∀ i f, bb (ix2 i f) = ((b f : ℝ) : EReal)) (i : Fin 10000) (f : Fin C) :
    Ideal.hostScatterAdd ds z di (fun j => Host.gather dg xw si j * nrm j) (ix2 i f) + bb (ix2 i f)
      = ((layerSum 𝔻 XW b i f : ℝ) : EReal) := by
  rw [rowScatter_apply ds hu hi hs hv, hz, zero_add]
  have hupd : ∀ p : Fin 330000, Host.gather dg xw si (ix2 p f) * nrm (ix2 p f)
      = xw (ix2 (clampNode (val_main_v45 (F := Ideal) x1 (ix1 p))) f) * val_main_v69 (F := Ideal) x1 (ix1 p) := fun p => by
    rw [hn]
    exact congrArg (· * val_main_v69 (F := Ideal) x1 (ix1 p))
      ((rowGather_apply (by decide) dg ho hcoll hob hsim hivd hsl xw _ p f).trans
        (congrArg (fun w => xw (ix2 (clampNode w) f)) (hsi p)))
  simp only [hd, hupd]
  rw [sum_filter_split x1 hrange (fun p => xw (ix2 (clampNode (val_main_v45 (F := Ideal) x1 (ix1 p))) f) * val_main_v69 (F := Ideal) x1 (ix1 p)) i,
    sNode_loop x1 hrange, norm_loop x0 x1 x2 x3 x4 x5 x6 x7 x8 x9 x10 x11 hrange, hxw, hb]
  have hedge : ∀ e ∈ univ.filter (fun e : Fin 320000 => node (x1 (ix2 (1 : Fin 2) e)) = i),
      xw (ix2 (clampNode (val_main_v45 (F := Ideal) x1 (ix1 (edgeP e)))) f) * val_main_v69 (F := Ideal) x1 (ix1 (edgeP e))
        = ((XW ((𝔻).src e) f * (Cert.Spec.dinv 𝔻 ((𝔻).src e) * Cert.Spec.dinv 𝔻 i) : ℝ) : EReal) := by
    intro e he
    have hde : (𝔻).dst e = i := (Finset.mem_filter.1 he).2
    rw [sNode_edge x1 hrange, norm_edge x0 x1 x2 x3 x4 x5 x6 x7 x8 x9 x10 x11 hrange, hxw, hde]
    exact (EReal.coe_mul _ _).symm
  rw [Finset.sum_congr rfl hedge, Cert.LibCoe.sum_coe, ← EReal.coe_mul, ← EReal.coe_add, ← EReal.coe_add]
  rfl

theorem aggr64_apply (xw : (⟨S10000x64, .f32⟩ : BufTy).Contents (Elt Ideal)) (bias : (⟨S64, .f32⟩ : BufTy).Contents (Elt Ideal))
    (XW : Fin 10000 → Fin 64 → ℝ) (b : Fin 64 → ℝ) (hxw : ∀ j f, xw (ix2 j f) = ((XW j f : ℝ) : EReal))
    (hb : ∀ f, bias (ix1 f) = ((b f : ℝ) : EReal)) (i : Fin 10000) (f : Fin 64) :
    aggr64 xw x1 bias (ix2 i f)
      = ((layerSum 𝔻 XW b i f : ℝ) : EReal) :=
  aggr_apply x0 x1 x2 x3 x4 x5 x6 x7 x8 x9 x10 x11 hrange scatter_S10000x64_S330000x1_S330000x64_1_0_0_1 rfl rfl rfl rfl
    gather_S10000x64_S330000x1_S330000x64_1_0_n_n_0_1_164 rfl rfl rfl rfl rfl rfl
    (val_main_v80 (F := Ideal)) (val_main_v81 (F := Ideal) x1) (val_main_v75 (F := Ideal) x1) (val_main_v78 (F := Ideal) x1)
    (val_main_v84 (F := Ideal) bias) xw (fun _ => Ideal.ofBits_zero_f32)
    (fun p => by rw [val_main_v81_apply]; exact congrArg (val_main_v46 (F := Ideal) x1) (eq_ix1 _))
    (s2n_word x1 hrange)
    (fun p f => by rw [val_main_v78_apply, val_main_v77_apply]; exact congrArg (val_main_v69 (F := Ideal) x1) (eq_ix1 _))
    XW b hxw (fun i f => by rw [val_main_v84_apply, val_main_v83_apply]; exact (congrArg bias (eq_ix1 _)).trans (hb f)) i f

theorem aggr256_apply (xw : (⟨S10000x256, .f32⟩ : BufTy).Contents (Elt Ideal)) (bias : (⟨S256, .f32⟩ : BufTy).Contents (Elt Ideal))
    (XW : Fin 10000 → Fin 256 → ℝ) (b : Fin 256 → ℝ) (hxw : ∀ j f, xw (ix2 j f) = ((XW j f : ℝ) : EReal))
    (hb : ∀ f, bias (ix1 f) = ((b f : ℝ) : EReal)) (i : Fin 10000) (f : Fin 256) :
    aggr256 xw x1 bias (ix2 i f)
      = ((layerSum 𝔻 XW b i f : ℝ) : EReal) :=
  aggr_apply x0 x1 x2 x3 x4 x5 x6 x7 x8 x9 x10 x11 hrange scatter_S10000x256_S330000x1_S330000x256_1_0_0_1 rfl rfl rfl rfl
    gather_S10000x256_S330000x1_S330000x256_1_0_n_n_0_1_1256 rfl rfl rfl rfl rfl rfl
    (val_main_v211 (F := Ideal)) (val_main_v212 (F := Ideal) x1) (val_main_v206 (F := Ideal) x1) (val_main_v209 (F := Ideal) x1)
    (val_main_v215 (F := Ideal) bias) xw (fun _ => Ideal.ofBits_zero_f32)
    (fun p => by rw [val_main_v212_apply]; exact congrArg (val_main_v46 (F := Ideal) x1) (eq_ix1 _))
    (s2n_word x1 hrange)
    (fun p f => by rw [val_main_v209_apply, val_main_v208_apply]; exact congrArg (val_main_v69 (F := Ideal) x1) (eq_ix1 _))
    XW b hxw (fun i f => by rw [val_main_v215_apply, val_main_v214_apply]; exact (congrArg bias (eq_ix1 _)).trans (hb f)) i f

end

end Cert.ReferenceIdeal.HandValue

end
-- ==== Proof.RefValue.Adj.lean ====
import proofs.«430304_j36258113913429_2_alg».proof.Proof.RefRead
import proofs.«430304_j36258113913429_2_alg».proof.Proof.Spec
import proofs.«430304_j36258113913429_2_alg».proof.Proof.SpecData
import proofs.«430304_j36258113913429_2_alg».proof.Proof.LibCoe
import proofs.«430304_j36258113913429_2_alg».proof.Proof.Consts
import proofs.«430304_j36258113913429_2_alg».proof.Proof.RefValue.Norm

noncomputable section

namespace Cert.ReferenceIdeal.HandValue

open Finset Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo Cert.SpecData

theorem dot_coe {K : ℕ} {A B : Fin K → EReal} {a b : Fin K → ℝ} (hA : ∀ k, A k = ((a k : ℝ) : EReal))
    (hB : ∀ k, B k = ((b k : ℝ) : EReal)) : ∑ k, A k * B k = ((∑ k, a k * b k : ℝ) : EReal) := by
  rw [Cert.LibCoe.coe_sum]
  exact Finset.sum_congr rfl fun k _ => by rw [hA, hB, EReal.coe_mul]

-- A product of an array of reals with a finite weight array, read at (j, f), is the real product.
theorem mm_coe {n K m : ℕ} {A : (⟨2, ![n, K]⟩ : Shape).Idx → EReal} {B : (⟨2, ![K, m]⟩ : Shape).Idx → EReal}
    {a : Fin n → Fin K → ℝ} (hA : ∀ j k, A (ix2 j k) = ((a j k : ℝ) : EReal)) (hB : ∀ i, ∃ r : ℝ, B i = (r : EReal))
    (j : Fin n) (f : Fin m) {li : Fin K → (⟨2, ![n, K]⟩ : Shape).Idx} {ri : Fin K → (⟨2, ![K, m]⟩ : Shape).Idx}
    (hl : ∀ k, li k = ix2 j k) (hr : ∀ k, ri k = ix2 k f) :
    ∑ k, A (li k) * B (ri k) = ((∑ k, a j k * EReal.toReal (B (ix2 k f)) : ℝ) : EReal) :=
  dot_coe (fun k => by rw [hl]; exact hA j k) (fun k => by rw [hr]; exact Cert.LibCoe.eq_coe_toReal (hB _))

theorem zero_elt : FloatOps.ofBits (F := Ideal) .f32 0x00000000#32 = ((0 : ℝ) : EReal) := by
  rw [EReal.coe_zero]; exact Ideal.ofBits_zero_f32

theorem one_elt : FloatOps.ofBits (F := Ideal) .f32 0x3F800000#32 = ((1 : ℝ) : EReal) := Cert.Consts.one_val

section Front

variable (x0 : FVec Ideal ⟨2, ![10000, 256]⟩ .f32) (x1 : IVec ⟨2, ![2, 320000]⟩ 32)
  (x2 : FVec Ideal ⟨2, ![256, 64]⟩ .f32) (x3 : FVec Ideal ⟨1, ![64]⟩ .f32)
  (x4 : FVec Ideal ⟨2, ![64, 64]⟩ .f32) (x5 : FVec Ideal ⟨1, ![64]⟩ .f32)
  (x6 : FVec Ideal ⟨2, ![64, 64]⟩ .f32) (x7 : FVec Ideal ⟨1, ![64]⟩ .f32)
  (x8 : FVec Ideal ⟨2, ![64, 256]⟩ .f32) (x9 : FVec Ideal ⟨1, ![256]⟩ .f32)
  (x10 : FVec Ideal ⟨2, ![64, 64]⟩ .f32) (x11 : FVec Ideal ⟨1, ![64]⟩ .f32)

local notation "𝔻" => Cert.SpecData.data x0 x1 x2 x3 x4 x5 x6 x7 x8 x9 x10 x11

theorem eps_elt : FloatOps.ofBits (F := Ideal) .f32 0x2EDBE6FF#32 = (((𝔻).ε : ℝ) : EReal) := Cert.Consts.eps_coe
theorem c8_elt : FloatOps.ofBits (F := Ideal) .f32 0x3F4CCCCD#32 = (((𝔻).c8 : ℝ) : EReal) := Cert.Consts.c8_coe
theorem c1_elt : FloatOps.ofBits (F := Ideal) .f32 0x3DCCCCCD#32 = (((𝔻).c1 : ℝ) : EReal) := Cert.Consts.c1_coe
theorem eps_pos : 0 < (𝔻).ε := Cert.Consts.eps_pos

theorem x_elt (hfin0 : ∀ i, ∃ r : ℝ, x0 i = (r : EReal)) (k : Fin 10000) (f : Fin 256) :
    x0 (ix2 k f) = (((𝔻).x k f : ℝ) : EReal) := Cert.LibCoe.eq_coe_toReal (hfin0 _)

theorem v9_apply (e : Fin 320000) (hr : (x1 (ix2 (0 : Fin 2) e)).toNat < 10000) :
    val_main_v9 (F := Ideal) x1 (ix1 e) = x1 (ix2 (0 : Fin 2) e) := by
  rw [val_main_v9_apply, val_main_v6_apply, val_main_v8_apply, val_main_v5_apply, val_main_v7_apply, val_main_c_apply,
    val_main_c_0_apply, src_word]
  exact norm_word hr

theorem v14_apply (e : Fin 320000) (hr : (x1 (ix2 (1 : Fin 2) e)).toNat < 10000) :
    val_main_v14 (F := Ideal) x1 (ix1 e) = x1 (ix2 (1 : Fin 2) e) := by
  rw [val_main_v14_apply, val_main_v11_apply, val_main_v13_apply, val_main_v10_apply, val_main_v12_apply, val_main_c_1_apply,
    val_main_c_2_apply, dst_word]
  exact norm_word hr

theorem v17_apply0 (e : Fin 320000) (hr : (x1 (ix2 (0 : Fin 2) e)).toNat < 10000) :
    val_main_v17 (F := Ideal) x1 (ix2 e (0 : Fin 2)) = x1 (ix2 (0 : Fin 2) e) := by
  unfold val_main_v17
  refine (concatenate_pair_apply_left (t := S320000x2) (s₁ := S320000x1) (s₂ := S320000x1) _ _ _ _ (ix2 e (0 : Fin 2)) rfl (ix2 e (0 : Fin 1))
    (fun b => by match b with | ⟨0, _⟩ => rfl | ⟨1, _⟩ => rfl)).trans ?_
  rw [val_main_v15_apply]
  rw [show idx_main_v15 (ix2 e (0 : Fin 1)) = ix1 e from eq_ix1 _]; exact v9_apply x1 e hr

theorem v17_apply1 (e : Fin 320000) (hr : (x1 (ix2 (1 : Fin 2) e)).toNat < 10000) :
    val_main_v17 (F := Ideal) x1 (ix2 e (1 : Fin 2)) = x1 (ix2 (1 : Fin 2) e) := by
  unfold val_main_v17
  refine (concatenate_pair_apply_right (t := S320000x2) (s₁ := S320000x1) (s₂ := S320000x1) _ _ _ _ (ix2 e (1 : Fin 2)) rfl rfl (ix2 e (0 : Fin 1))
    (fun b hb => by match b with | ⟨0, _⟩ => rfl | ⟨1, _⟩ => exact absurd rfl hb) rfl).trans ?_
  rw [val_main_v16_apply]
  rw [show idx_main_v16 (ix2 e (0 : Fin 1)) = ix1 e from eq_ix1 _]; exact v14_apply x1 e hr

theorem odeg_pos (i : Fin 10000) : 0 < Cert.Spec.odeg (𝔻) i :=
  lt_of_lt_of_le (eps_pos x0 x1 x2 x3 x4 x5 x6 x7 x8 x9 x10 x11) (le_max_right _ _)

theorem ideg_pos (i : Fin 10000) : 0 < Cert.Spec.ideg (𝔻) i :=
  lt_of_lt_of_le (eps_pos x0 x1 x2 x3 x4 x5 x6 x7 x8 x9 x10 x11) (le_max_right _ _)

variable (hfin0 : ∀ i, ∃ r : ℝ, x0 i = (r : EReal)) (hrange : ∀ i, (x1 i).toNat < 10000)
include hrange

theorem v19_apply (p q : Fin 10000) :
    val_main_v19 (F := Ideal) x1 (ix2 p q) = ((Cert.Spec.cnt (𝔻) p q : ℝ) : EReal) := by
  have h0 : ∀ e : Fin 320000, val_main_v17 (F := Ideal) x1 (ix2 e (0 : Fin 2)) = x1 (ix2 (0 : Fin 2) e) :=
    fun e => v17_apply0 x1 e (hrange _)
  have h1 : ∀ e : Fin 320000, val_main_v17 (F := Ideal) x1 (ix2 e (1 : Fin 2)) = x1 (ix2 (1 : Fin 2) e) :=
    fun e => v17_apply1 x1 e (hrange _)
  have h18 : ∀ e : Fin 320000, val_main_v18 (F := Ideal) (ix1 e) = ((1 : ℝ) : EReal) := fun e => by
    rw [val_main_v18_apply, val_main_cst_3_apply]; exact one_elt
  have h4 : val_main_v4 (F := Ideal) (ix2 p q) = ((0 : ℝ) : EReal) := by
    rw [val_main_v4_apply, val_main_cst_apply]; exact zero_elt
  unfold val_main_v19
  generalize val_main_v17 (F := Ideal) x1 = idx at h0 h1 ⊢
  generalize val_main_v18 (F := Ideal) = upd at h18 ⊢
  generalize val_main_v4 (F := Ideal) = z at h4 ⊢
  simp only [Host.scatterAdd, Ideal.hostScatterAdd_def]
  rw [pairScatter_apply _ rfl rfl rfl rfl, h4, Finset.sum_congr rfl (fun e _ => h18 e), Cert.LibCoe.sum_coe, ← EReal.coe_add]
  refine congrArg (fun r : ℝ => (r : EReal)) ?_
  rw [zero_add, Finset.sum_const, nsmul_eq_mul, mul_one]
  unfold Cert.Spec.cnt
  refine congrArg (fun s : Finset (Fin 320000) => (s.card : ℝ)) (Finset.filter_congr fun e _ => ?_)
  rw [h0 e, h1 e, toInt_eq_iff_node (hrange _), toInt_eq_iff_node (hrange _)]
  rfl

theorem v22_apply (i : Fin 10000) :
    val_main_v22 (F := Ideal) x1 (ix1 i) = ((Cert.Spec.odeg (𝔻) i : ℝ) : EReal) := by
  have hs : ∀ k : Fin 10000, val_main_v19 (F := Ideal) x1 (idx_main_v20 (ix1 i) k) = ((Cert.Spec.cnt (𝔻) i k : ℝ) : EReal) := fun k => by
    rw [show idx_main_v20 (ix1 i) k = ix2 i k from eq_ix2 _]; exact v19_apply x0 x1 x2 x3 x4 x5 x6 x7 x8 x9 x10 x11 hrange i k
  rw [val_main_v22_apply, val_main_v20_apply, val_main_v21_apply, val_main_cst_5_apply, val_main_cst_4_apply,
    Finset.sum_congr rfl (fun k _ => hs k), Cert.LibCoe.sum_coe, zero_elt, ← EReal.coe_add,
    eps_elt x0 x1 x2 x3 x4 x5 x6 x7 x8 x9 x10 x11, Ideal.maximumf_def, Cert.LibCoe.max_coe, zero_add]
  rfl

theorem v29_apply (i : Fin 10000) :
    val_main_v29 (F := Ideal) x1 (ix1 i) = ((Cert.Spec.ideg (𝔻) i : ℝ) : EReal) := by
  have hs : ∀ k : Fin 10000, val_main_v19 (F := Ideal) x1 (idx_main_v27 (ix1 i) k) = ((Cert.Spec.cnt (𝔻) k i : ℝ) : EReal) := fun k => by
    rw [show idx_main_v27 (ix1 i) k = ix2 k i from eq_ix2 _]; exact v19_apply x0 x1 x2 x3 x4 x5 x6 x7 x8 x9 x10 x11 hrange k i
  rw [val_main_v29_apply, val_main_v27_apply, val_main_v28_apply, val_main_cst_7_apply, val_main_cst_6_apply,
    Finset.sum_congr rfl (fun k _ => hs k), Cert.LibCoe.sum_coe, zero_elt, ← EReal.coe_add,
    eps_elt x0 x1 x2 x3 x4 x5 x6 x7 x8 x9 x10 x11, Ideal.maximumf_def, Cert.LibCoe.max_coe, zero_add]
  rfl

theorem v25_apply (i k : Fin 10000) :
    val_main_v25 (F := Ideal) x1 (ix2 i k) = ((Cert.Spec.cnt (𝔻) i k / Cert.Spec.odeg (𝔻) i : ℝ) : EReal) := by
  have hi : idx_main_v23 (idx_main_v24 (ix2 i k)) = ix1 i := eq_ix1 _
  rw [val_main_v25_apply, val_main_v24_apply, val_main_v23_apply, hi,
    v19_apply x0 x1 x2 x3 x4 x5 x6 x7 x8 x9 x10 x11 hrange, v22_apply x0 x1 x2 x3 x4 x5 x6 x7 x8 x9 x10 x11 hrange,
    Ideal.hostDivf_def, Cert.LibCoe.div_coe (odeg_pos x0 x1 x2 x3 x4 x5 x6 x7 x8 x9 x10 x11 i).ne']

theorem v31_apply (i : Fin 10000) :
    val_main_v31 (F := Ideal) x1 (ix1 i) = ((1 / Cert.Spec.ideg (𝔻) i : ℝ) : EReal) := by
  rw [val_main_v31_apply, val_main_v30_apply, val_main_cst_8_apply, one_elt,
    v29_apply x0 x1 x2 x3 x4 x5 x6 x7 x8 x9 x10 x11 hrange,
    Ideal.hostDivf_def, Cert.LibCoe.div_coe (ideg_pos x0 x1 x2 x3 x4 x5 x6 x7 x8 x9 x10 x11 i).ne']

theorem v35_apply (i k : Fin 10000) :
    val_main_v35 (F := Ideal) x1 (ix2 i k) = ((Cert.Spec.cnt (𝔻) k i * (1 / Cert.Spec.ideg (𝔻) i) : ℝ) : EReal) := by
  have ht : idx_main_v35 (ix2 i k) = ix2 k i := eq_ix2 _
  have hi : idx_main_v32 (idx_main_v33 (ix2 k i)) = ix1 i := eq_ix1 _
  rw [val_main_v35_apply, ht, val_main_v34_apply, val_main_v33_apply, val_main_v32_apply, hi,
    v19_apply x0 x1 x2 x3 x4 x5 x6 x7 x8 x9 x10 x11 hrange, v31_apply x0 x1 x2 x3 x4 x5 x6 x7 x8 x9 x10 x11 hrange,
    Ideal.mulf_def, ← EReal.coe_mul]

include hfin0

theorem v26_apply (i : Fin 10000) (f : Fin 256) :
    val_main_v26 (F := Ideal) x0 x1 (ix2 i f) = ((Cert.Spec.outnb (𝔻) i f : ℝ) : EReal) := by
  rw [val_main_v26_apply]
  refine mm_coe (v25_apply x0 x1 x2 x3 x4 x5 x6 x7 x8 x9 x10 x11 hrange) hfin0 i f (fun k => ?_) (fun k => ?_) <;> exact eq_ix2 _

theorem v36_apply (i : Fin 10000) (f : Fin 256) :
    val_main_v36 (F := Ideal) x0 x1 (ix2 i f) = ((Cert.Spec.innb (𝔻) i f : ℝ) : EReal) := by
  rw [val_main_v36_apply]
  refine mm_coe (v35_apply x0 x1 x2 x3 x4 x5 x6 x7 x8 x9 x10 x11 hrange) hfin0 i f (fun k => ?_) (fun k => ?_) <;> exact eq_ix2 _

theorem v42_apply (i : Fin 10000) (f : Fin 256) :
    val_main_v42 (F := Ideal) x0 x1 (ix2 i f) = ((Cert.Spec.xaug (𝔻) i f : ℝ) : EReal) := by
  rw [val_main_v42_apply, val_main_v38_apply, val_main_v41_apply, val_main_v39_apply, val_main_v37_apply, val_main_v40_apply,
    val_main_cst_9_apply, val_main_cst_10_apply,
    v26_apply x0 x1 x2 x3 x4 x5 x6 x7 x8 x9 x10 x11 hfin0 hrange, v36_apply x0 x1 x2 x3 x4 x5 x6 x7 x8 x9 x10 x11 hfin0 hrange,
    x_elt x0 x1 x2 x3 x4 x5 x6 x7 x8 x9 x10 x11 hfin0,
    c8_elt x0 x1 x2 x3 x4 x5 x6 x7 x8 x9 x10 x11, c1_elt x0 x1 x2 x3 x4 x5 x6 x7 x8 x9 x10 x11,
    Ideal.addf_def, Ideal.addf_def, Ideal.mulf_def, Ideal.mulf_def, ← EReal.coe_add, ← EReal.coe_mul, ← EReal.coe_mul, ← EReal.coe_add]
  rfl

theorem xaug_stage :
    val_main_v42 (F := Ideal) x0 x1 = fun j => ((Cert.Spec.xaug (𝔻) (j 0) (j 1) : ℝ) : EReal) := by
  funext j
  obtain ⟨i, f, rfl⟩ : ∃ (i : Fin 10000) (f : Fin 256), j = ix2 i f := ⟨j 0, j 1, eq_ix2 j⟩
  exact v42_apply x0 x1 x2 x3 x4 x5 x6 x7 x8 x9 x10 x11 hfin0 hrange i f

end Front

end Cert.ReferenceIdeal.HandValue

end
-- ==== Proof.RefValue.Main.lean ====
import proofs.«430304_j36258113913429_2_alg».proof.Proof.RefRead
import proofs.«430304_j36258113913429_2_alg».proof.Proof.SpecData
import proofs.«430304_j36258113913429_2_alg».proof.Proof.LibCoe
import proofs.«430304_j36258113913429_2_alg».proof.Proof.Consts
import Idealize.ShloMosaic.Lib.Pipeline.Value
import Idealize.ShloMosaic.PureOps.Contract
import proofs.«430304_j36258113913429_2_alg».proof.Proof.RefValue.Reads
import proofs.«430304_j36258113913429_2_alg».proof.Proof.RefValue.Norm
import proofs.«430304_j36258113913429_2_alg».proof.Proof.RefValue.Layer
import proofs.«430304_j36258113913429_2_alg».proof.Proof.RefValue.Adj

noncomputable section

namespace Cert.ReferenceIdeal.HandValue

open Finset Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo Cert.SpecData

theorem relu_coe {r : ℝ} {z : EReal} (hz : z = 0) : max (r : EReal) z = ((max r 0 : ℝ) : EReal) := by
  rw [hz, ← EReal.coe_zero]; exact Cert.LibCoe.max_coe _ _

section
variable (x0 : (⟨S10000x256, .f32⟩ : BufTy).Contents (Elt Ideal)) (x1 : (⟨S2x320000, .i32⟩ : BufTy).Contents (Elt Ideal))
  (x2 : (⟨S256x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x256, .f32⟩ : BufTy).Contents (Elt Ideal)) (x9 : (⟨S256, .f32⟩ : BufTy).Contents (Elt Ideal))
  (x10 : (⟨S64x64, .f32⟩ : BufTy).Contents (Elt Ideal)) (x11 : (⟨S64, .f32⟩ : BufTy).Contents (Elt Ideal))

local notation "𝔻" => Cert.SpecData.data x0 x1 x2 x3 x4 x5 x6 x7 x8 x9 x10 x11

variable (h0 : ∀ i, ∃ r : ℝ, x0 i = (r : EReal)) (h2 : ∀ i, ∃ r : ℝ, x2 i = (r : EReal)) (h3 : ∀ i, ∃ r : ℝ, x3 i = (r : EReal))
  (h4 : ∀ i, ∃ r : ℝ, x4 i = (r : EReal)) (h5 : ∀ i, ∃ r : ℝ, x5 i = (r : EReal)) (h6 : ∀ i, ∃ r : ℝ, x6 i = (r : EReal))
  (h7 : ∀ i, ∃ r : ℝ, x7 i = (r : EReal)) (h8 : ∀ i, ∃ r : ℝ, x8 i = (r : EReal)) (h9 : ∀ i, ∃ r : ℝ, x9 i = (r : EReal))
  (h10 : ∀ i, ∃ r : ℝ, x10 i = (r : EReal)) (h11 : ∀ i, ∃ r : ℝ, x11 i = (r : EReal))
  (hrange : ∀ i, (x1 i).toNat < 10000)
include h0 h2 h3 h4 h5 h6 h7 h8 h9 h10 h11 hrange

-- The five layers in a chain: each product is the real product, each layer the description's, each relu the real maximum with zero.
theorem results : val_main_v216 (F := Ideal) x0 x1 x2 x3 x4 x5 x6 x7 x8 x9 = (fun i => ((Cert.Spec.Rx 𝔻 (i 0) (i 1) : ℝ) : EReal))
    ∧ val_main_v261 (F := Ideal) x0 x1 x2 x3 x4 x5 x10 x11 = fun i => ((Cert.Spec.Rs 𝔻 (i 0) (i 1) : ℝ) : EReal) := by
  have in1 : ∀ j k, val_main_v42 (F := Ideal) x0 x1 (ix2 j k) = ((Cert.Spec.xaug 𝔻 j k : ℝ) : EReal) :=
    fun j k => congrFun (xaug_stage x0 x1 x2 x3 x4 x5 x6 x7 x8 x9 x10 x11 h0 hrange) _
  have xw1 : ∀ j f, val_main_v43 (F := Ideal) x0 x1 x2 (ix2 j f)
      = ((∑ k, Cert.Spec.xaug 𝔻 j k * (𝔻).W1 k f : ℝ) : EReal) := fun j f => by
    rw [val_main_v43_apply]; refine mm_coe in1 h2 j f (fun k => ?_) (fun k => ?_) <;> exact eq_ix2 _
  have l1 : ∀ i f, val_main_v85 (F := Ideal) x0 x1 x2 x3 (ix2 i f)
      = ((Cert.Spec.gcn 𝔻 (Cert.Spec.xaug 𝔻) (𝔻).W1 (𝔻).b1 i f : ℝ) : EReal) :=
    fun i f => by
      rw [v85_eq]; exact aggr64_apply x0 x1 x2 x3 x4 x5 x6 x7 x8 x9 x10 x11 hrange _ _ _ (𝔻).b1 xw1 (fun f => Cert.LibCoe.eq_coe_toReal (h3 _)) i f
  have r1 : ∀ i f, val_main_v86 (F := Ideal) x0 x1 x2 x3 (ix2 i f) = ((Cert.Spec.h1 𝔻 i f : ℝ) : EReal) := fun i f => by
    rw [val_main_v86_apply, l1]; exact relu_coe Ideal.ofBits_zero_f32
  have xw2 : ∀ j f, val_main_v87 (F := Ideal) x0 x1 x2 x3 x4 (ix2 j f)
      = ((∑ k, Cert.Spec.h1 𝔻 j k * (𝔻).W2 k f : ℝ) : EReal) := fun j f => by
    rw [val_main_v87_apply]; refine mm_coe r1 h4 j f (fun k => ?_) (fun k => ?_) <;> exact eq_ix2 _
  have l2 : ∀ i f, val_main_v129 (F := Ideal) x0 x1 x2 x3 x4 x5 (ix2 i f) = ((Cert.Spec.emb 𝔻 i f : ℝ) : EReal) :=
    fun i f => by
      rw [v129_eq]; exact aggr64_apply x0 x1 x2 x3 x4 x5 x6 x7 x8 x9 x10 x11 hrange _ _ _ (𝔻).b2 xw2 (fun f => Cert.LibCoe.eq_coe_toReal (h5 _)) i f
  have xw3 : ∀ j f, val_main_v130 (F := Ideal) x0 x1 x2 x3 x4 x5 x6 (ix2 j f)
      = ((∑ k, Cert.Spec.emb 𝔻 j k * (𝔻).Wa1 k f : ℝ) : EReal) := fun j f => by
    rw [val_main_v130_apply]; refine mm_coe l2 h6 j f (fun k => ?_) (fun k => ?_) <;> exact eq_ix2 _
  have l3 : ∀ i f, val_main_v172 (F := Ideal) x0 x1 x2 x3 x4 x5 x6 x7 (ix2 i f)
      = ((Cert.Spec.gcn 𝔻 (Cert.Spec.emb 𝔻) (𝔻).Wa1 (𝔻).ba1 i f : ℝ) : EReal) :=
    fun i f => by
      rw [v172_eq]; exact aggr64_apply x0 x1 x2 x3 x4 x5 x6 x7 x8 x9 x10 x11 hrange _ _ _ (𝔻).ba1 xw3 (fun f => Cert.LibCoe.eq_coe_toReal (h7 _)) i f
  have r3 : ∀ i f, val_main_v173 (F := Ideal) x0 x1 x2 x3 x4 x5 x6 x7 (ix2 i f) = ((Cert.Spec.h2 𝔻 i f : ℝ) : EReal) := fun i f => by
    rw [val_main_v173_apply, l3]; exact relu_coe Ideal.ofBits_zero_f32
  have xw4 : ∀ j f, val_main_v174 (F := Ideal) x0 x1 x2 x3 x4 x5 x6 x7 x8 (ix2 j f)
      = ((∑ k, Cert.Spec.h2 𝔻 j k * (𝔻).Wa2 k f : ℝ) : EReal) := fun j f => by
    rw [val_main_v174_apply]; refine mm_coe r3 h8 j f (fun k => ?_) (fun k => ?_) <;> exact eq_ix2 _
  have l4 : ∀ i f, val_main_v216 (F := Ideal) x0 x1 x2 x3 x4 x5 x6 x7 x8 x9 (ix2 i f) = ((Cert.Spec.Rx 𝔻 i f : ℝ) : EReal) :=
    fun i f => by
      rw [v216_eq]; exact aggr256_apply x0 x1 x2 x3 x4 x5 x6 x7 x8 x9 x10 x11 hrange _ _ _ (𝔻).ba2 xw4 (fun f => Cert.LibCoe.eq_coe_toReal (h9 _)) i f
  have xw5 : ∀ j f, val_main_v217 (F := Ideal) x0 x1 x2 x3 x4 x5 x10 (ix2 j f)
      = ((∑ k, Cert.Spec.emb 𝔻 j k * (𝔻).Ws k f : ℝ) : EReal) := fun j f => by
    rw [val_main_v217_apply]; refine mm_coe l2 h10 j f (fun k => ?_) (fun k => ?_) <;> exact eq_ix2 _
  have l5 : ∀ i f, val_main_v259 (F := Ideal) x0 x1 x2 x3 x4 x5 x10 x11 (ix2 i f) = ((Cert.Spec.hs 𝔻 i f : ℝ) : EReal) :=
    fun i f => by
      rw [v259_eq]; exact aggr64_apply x0 x1 x2 x3 x4 x5 x6 x7 x8 x9 x10 x11 hrange _ _ _ (𝔻).bs xw5 (fun f => Cert.LibCoe.eq_coe_toReal (h11 _)) i f
  have l6 : ∀ i j, val_main_v261 (F := Ideal) x0 x1 x2 x3 x4 x5 x10 x11 (ix2 i j) = ((Cert.Spec.Rs 𝔻 i j : ℝ) : EReal) := fun i j => by
    rw [val_main_v261_apply]
    refine dot_coe (fun k => ?_) (fun k => ?_)
    · rw [show lidx_main_v261 (ix2 i j) k = ix2 i k from eq_ix2 _]; exact l5 i k
    · rw [show ridx_main_v261 (ix2 i j) k = ix2 k j from eq_ix2 _, val_main_v260_apply,
        show idx_main_v260 (ix2 k j) = ix2 j k from eq_ix2 _]; exact l5 j k
  exact ⟨funext fun i => (congrArg (val_main_v216 (F := Ideal) x0 x1 x2 x3 x4 x5 x6 x7 x8 x9) (eq_ix2 i)).trans (l4 (i 0) (i 1)),
    funext fun i => (congrArg (val_main_v261 (F := Ideal) x0 x1 x2 x3 x4 x5 x10 x11) (eq_ix2 i)).trans (l6 (i 0) (i 1))⟩

theorem ref_x : ReadP.val_main_v216 (F := Ideal) x0 x1 x2 x3 x4 x5 x6 x7 x8 x9
      = fun i => ((Cert.Spec.Rx (Cert.SpecData.data x0 x1 x2 x3 x4 x5 x6 x7 x8 x9 x10 x11) (i 0) (i 1) : ℝ) : EReal) :=
  (results x0 x1 x2 x3 x4 x5 x6 x7 x8 x9 x10 x11 h0 h2 h3 h4 h5 h6 h7 h8 h9 h10 h11 hrange).1

theorem ref_s : ReadP.val_main_v261 (F := Ideal) x0 x1 x2 x3 x4 x5 x10 x11
      = fun i => ((Cert.Spec.Rs (Cert.SpecData.data x0 x1 x2 x3 x4 x5 x6 x7 x8 x9 x10 x11) (i 0) (i 1) : ℝ) : EReal) :=
  (results x0 x1 x2 x3 x4 x5 x6 x7 x8 x9 x10 x11 h0 h2 h3 h4 h5 h6 h7 h8 h9 h10 h11 hrange).2

end

end Cert.ReferenceIdeal.HandValue

end
-- ==== Proof.Math.lean ====
import Mathlib.Algebra.BigOperators.Ring.Finset
import Mathlib.Tactic.Ring
import proofs.«430304_j36258113913429_2_alg».proof.Proof.Spec

open Finset

namespace Cert.Spec

variable (D : Data)

theorem up_val (i : Fin 10000) : (up i).val = i.val := rfl

theorem up_injective : Function.Injective up := by
  intro i j h
  have hv : (up i).val = (up j).val := congrArg Fin.val h
  exact Fin.ext hv

theorem sum_pad (F : Fin 10240 → ℝ) (h0 : ∀ a : Fin 10240, ¬ a.val < 10000 → F a = 0) :
    ∑ a, F a = ∑ i : Fin 10000, F (up i) := by
  symm
  refine Fintype.sum_of_injective up up_injective _ _ ?_ (fun _ => rfl)
  intro a ha
  apply h0
  intro hlt
  exact ha ⟨⟨a.val, hlt⟩, Fin.ext rfl⟩

theorem mask_up (i : Fin 10000) : mask (up i) = 1 := by
  unfold mask
  rw [if_pos (show (up i).val < 10000 from i.isLt)]

theorem xpad_up (i : Fin 10000) (f : Fin 256) : xpad D (up i) f = D.x i f := by
  unfold xpad
  rw [dif_pos (show (up i).val < 10000 from i.isLt)]
  rfl

theorem filter_dst_up (i : Fin 10000) :
    (univ.filter fun e : Fin 320000 => (D.dst e).val = (up i).val) = univ.filter fun e : Fin 320000 => D.dst e = i := by
  apply Finset.filter_congr
  intro e _
  rw [up_val, Fin.val_inj]

theorem filter_src_up (i : Fin 10000) :
    (univ.filter fun e : Fin 320000 => (D.src e).val = (up i).val) = univ.filter fun e : Fin 320000 => D.src e = i := by
  apply Finset.filter_congr
  intro e _
  rw [up_val, Fin.val_inj]

theorem T_up (i j : Fin 10000) : T D (up i) (up j) = cnt D j i := by
  have hf : (univ.filter fun e : Fin 320000 => (D.dst e).val = (up i).val ∧ (D.src e).val = (up j).val)
      = univ.filter fun e : Fin 320000 => D.src e = j ∧ D.dst e = i := by
    apply Finset.filter_congr
    intro e _
    rw [up_val, up_val, Fin.val_inj, Fin.val_inj]
    exact and_comm
  unfold T cnt
  rw [hf]

theorem T_row_pad (a b : Fin 10240) (h : ¬ a.val < 10000) : T D a b = 0 := by
  have hf : (univ.filter fun e : Fin 320000 => (D.dst e).val = a.val ∧ (D.src e).val = b.val) = ∅ := by
    apply Finset.filter_false_of_mem
    intro e _ he
    exact h (he.1 ▸ (D.dst e).isLt)
  unfold T
  rw [hf, Finset.card_empty, Nat.cast_zero]

theorem T_col_pad (a b : Fin 10240) (h : ¬ b.val < 10000) : T D a b = 0 := by
  have hf : (univ.filter fun e : Fin 320000 => (D.dst e).val = a.val ∧ (D.src e).val = b.val) = ∅ := by
    apply Finset.filter_false_of_mem
    intro e _ he
    exact h (he.2 ▸ (D.src e).isLt)
  unfold T
  rw [hf, Finset.card_empty, Nat.cast_zero]

theorem sum_cnt_out (i : Fin 10000) :
    ∑ j, cnt D i j = ((univ.filter fun e : Fin 320000 => D.src e = i).card : ℝ) := by
  have hN : (univ.filter fun e : Fin 320000 => D.src e = i).card
      = ∑ j, (univ.filter fun e : Fin 320000 => D.src e = i ∧ D.dst e = j).card := by
    rw [Finset.card_eq_sum_card_fiberwise (f := D.dst) (s := univ.filter fun e : Fin 320000 => D.src e = i)
      (t := univ) (fun _ _ => Finset.mem_coe.2 (Finset.mem_univ _))]
    apply Finset.sum_congr rfl
    intro j _
    rw [Finset.filter_filter]
  unfold cnt
  rw [hN, Nat.cast_sum]

theorem sum_cnt_in (i : Fin 10000) :
    ∑ j, cnt D j i = ((univ.filter fun e : Fin 320000 => D.dst e = i).card : ℝ) := by
  have hN : (univ.filter fun e : Fin 320000 => D.dst e = i).card
      = ∑ j, (univ.filter fun e : Fin 320000 => D.src e = j ∧ D.dst e = i).card := by
    rw [Finset.card_eq_sum_card_fiberwise (f := D.src) (s := univ.filter fun e : Fin 320000 => D.dst e = i)
      (t := univ) (fun _ _ => Finset.mem_coe.2 (Finset.mem_univ _))]
    apply Finset.sum_congr rfl
    intro j _
    rw [Finset.filter_filter]
    exact congrArg Finset.card (Finset.filter_congr (fun e _ => and_comm))
  unfold cnt
  rw [hN, Nat.cast_sum]

theorem sum_edges_into (i : Fin 10000) (g : Fin 10000 → ℝ) :
    ∑ e ∈ univ.filter (fun e : Fin 320000 => D.dst e = i), g (D.src e) = ∑ j, cnt D j i * g j := by
  rw [← Finset.sum_fiberwise (univ.filter fun e : Fin 320000 => D.dst e = i) D.src (fun e => g (D.src e))]
  apply Finset.sum_congr rfl
  intro j _
  have hc : ∀ e ∈ (univ.filter fun e : Fin 320000 => D.dst e = i).filter (fun e => D.src e = j),
      g (D.src e) = g j := by
    intro e he
    rw [(Finset.mem_filter.1 he).2]
  have hf : (univ.filter fun e : Fin 320000 => D.dst e = i ∧ D.src e = j)
      = univ.filter fun e : Fin 320000 => D.src e = j ∧ D.dst e = i :=
    Finset.filter_congr (fun e _ => and_comm)
  rw [Finset.sum_congr rfl hc, Finset.sum_const, nsmul_eq_mul, Finset.filter_filter, hf]
  unfold cnt
  rfl

theorem degK_up (i : Fin 10000) : degK D (up i) = deg D i := by
  unfold degK deg
  rw [filter_dst_up, mask_up]

theorem dinvK_up (i : Fin 10000) : dinvK D (up i) = dinv D i := by
  unfold dinvK dinv
  rw [degK_up]

theorem odegK_up (i : Fin 10000) : odegK D (up i) = odeg D i := by
  unfold odegK odeg
  rw [filter_src_up, sum_cnt_out]

theorem idegK_up (i : Fin 10000) : idegK D (up i) = ideg D i := by
  unfold idegK ideg
  rw [filter_dst_up, sum_cnt_in]

theorem gcnK_col {a b b' : ℕ} (h : Fin 10240 → Fin a → ℝ) (W : Fin a → Fin b → ℝ) (W' : Fin a → Fin b' → ℝ)
    (bias : Fin b → ℝ) (bias' : Fin b' → ℝ) (f : Fin b) (f' : Fin b')
    (hW : ∀ k, W k f = W' k f') (hb : bias f = bias' f') (p : Fin 10240) :
    gcnK D h W bias p f = gcnK D h W' bias' p f' := by
  unfold gcnK adjmm
  simp only [hW, hb]

theorem gcnK_up {a b : ℕ} (hK : Fin 10240 → Fin a → ℝ) (hR : Fin 10000 → Fin a → ℝ)
    (W : Fin a → Fin b → ℝ) (bias : Fin b → ℝ) (hh : ∀ i k, hK (up i) k = hR i k)
    (i : Fin 10000) (f : Fin b) : gcnK D hK W bias (up i) f = gcn D hR W bias i f := by
  unfold gcnK adjmm gcn

  rw [sum_pad (fun q => T D (up i) q * (dinvK D q * ∑ k, hK q k * W k f))
    (fun q hq => by rw [T_col_pad D (up i) q hq, zero_mul])]

  rw [sum_edges_into D i (fun j => (∑ k, hR j k * W k f) * (dinv D j * dinv D i))]
  simp only [T_up, dinvK_up, hh]
  rw [Finset.sum_mul]
  have hs : ∀ j ∈ (univ : Finset (Fin 10000)),
      cnt D j i * (dinv D j * ∑ k, hR j k * W k f) * dinv D i
        = cnt D j i * ((∑ k, hR j k * W k f) * (dinv D j * dinv D i)) := by
    intro j _
    ring
  rw [Finset.sum_congr rfl hs]
  ring

theorem outnbK_up (i : Fin 10000) (f : Fin 256) : outnbK D (up i) f = outnb D i f := by
  unfold outnbK adjmm outnb invout
  rw [sum_pad (fun q => T D q (up i) * xpad D q f)
    (fun q hq => by rw [T_row_pad D q (up i) hq, zero_mul])]
  simp only [T_up, xpad_up, odegK_up, mask_up]
  rw [add_zero, mul_one, Finset.sum_mul]
  apply Finset.sum_congr rfl
  intro j _
  ring

theorem innbK_up (i : Fin 10000) (f : Fin 256) : innbK D (up i) f = innb D i f := by
  unfold innbK adjmm innb invin
  rw [sum_pad (fun q => T D (up i) q * xpad D q f)
    (fun q hq => by rw [T_col_pad D (up i) q hq, zero_mul])]
  simp only [T_up, xpad_up, idegK_up, mask_up]
  rw [add_zero, mul_one, Finset.sum_mul]
  apply Finset.sum_congr rfl
  intro j _
  ring

theorem xaugK_up (i : Fin 10000) (f : Fin 256) : xaugK D (up i) f = xaug D i f := by
  unfold xaugK xaug
  rw [xpad_up, outnbK_up, innbK_up]

theorem h1K_up (i : Fin 10000) (f : Fin 64) : h1K D (up i) f = h1 D i f := by
  unfold h1K h1
  rw [gcnK_up D (xaugK D) (xaug D) D.W1 D.b1 (xaugK_up D) i f]

theorem embK_up (i : Fin 10000) (f : Fin 64) : embK D (up i) f = emb D i f := by
  unfold embK emb
  rw [gcnK_up D (h1K D) (h1 D) D.W2 D.b2 (h1K_up D) i f]

theorem catK_lo (i : Fin 10000) (f : Fin 64) :
    catK D (up i) ⟨f.val, by omega⟩ = gcn D (emb D) D.Wa1 D.ba1 i f := by
  unfold catK
  rw [gcnK_col D (embK D) (Wcat D) D.Wa1 (bcat D) D.ba1 ⟨f.val, by omega⟩ f
    (fun k => by unfold Wcat; rw [dif_pos (show (⟨f.val, by omega⟩ : Fin 128).val < 64 from f.isLt)])
    (by unfold bcat; rw [dif_pos (show (⟨f.val, by omega⟩ : Fin 128).val < 64 from f.isLt)])]
  exact gcnK_up D (embK D) (emb D) D.Wa1 D.ba1 (embK_up D) i f

theorem catK_hi (i : Fin 10000) (f : Fin 64) :
    catK D (up i) ⟨f.val + 64, by omega⟩ = gcn D (emb D) D.Ws D.bs i f := by
  have hn : ¬ (⟨f.val + 64, by omega⟩ : Fin 128).val < 64 := by
    show ¬ f.val + 64 < 64
    omega
  have hf : (⟨(⟨f.val + 64, by omega⟩ : Fin 128).val - 64, by omega⟩ : Fin 64) = f :=
    Fin.ext (show f.val + 64 - 64 = f.val by omega)
  unfold catK
  rw [gcnK_col D (embK D) (Wcat D) D.Ws (bcat D) D.bs ⟨f.val + 64, by omega⟩ f
    (fun k => by unfold Wcat; rw [dif_neg hn, hf])
    (by unfold bcat; rw [dif_neg hn, hf])]
  exact gcnK_up D (embK D) (emb D) D.Ws D.bs (embK_up D) i f

theorem h2K_up (i : Fin 10000) (f : Fin 64) : h2K D (up i) f = h2 D i f := by
  unfold h2K h2
  rw [catK_lo]

theorem hsK_up (i : Fin 10000) (f : Fin 64) : hsK D (up i) f = hs D i f := by
  unfold hsK hs
  rw [catK_hi]

theorem Kx_eq_Rx (i : Fin 10000) (f : Fin 256) : Kx D i f = Rx D i f := by
  unfold Kx Rx
  exact gcnK_up D (h2K D) (h2 D) D.Wa2 D.ba2 (h2K_up D) i f

theorem Ks_eq_Rs (i j : Fin 10000) : Ks D i j = Rs D i j := by
  unfold Ks Rs
  simp only [hsK_up]

end Cert.Spec
-- ==== Proof.lean ====
import proofs.«430304_j36258113913429_2_alg».proof.Defs
import proofs.«430304_j36258113913429_2_alg».proof.Proof.K.RunMain
import proofs.«430304_j36258113913429_2_alg».proof.Proof.KI.RunMain
import proofs.«430304_j36258113913429_2_alg».proof.Proof.KV.FinalPre
import proofs.«430304_j36258113913429_2_alg».proof.Proof.Ref.Run
import proofs.«430304_j36258113913429_2_alg».proof.Proof.RefValue.Main
import proofs.«430304_j36258113913429_2_alg».proof.Proof.PreFacts
import proofs.«430304_j36258113913429_2_alg».proof.Proof.Math

noncomputable section

namespace Cert.Proof

open Idealize.ShloMosaic Idealize.ShloMosaic.TcCoe Idealize.SL.Sem
open Cert.KernelIdeal.Hand

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Hand.run (F := Ideal) m ρ)

set_option maxHeartbeats 1000000 in

theorem algebraic : Cert.algebraic_KernelIdeal_ReferenceIdeal := by
  intro m ρ m' ρ' hpre hagree
  refine ⟨fun c => fun i => ((Cert.Spec.Rx (Cert.KernelIdeal.HandValue.DD m ρ c) (i 0) (i 1) : ℝ) : EReal),
    fun c => fun i => ((Cert.Spec.Rs (Cert.KernelIdeal.HandValue.DD m ρ c) (i 0) (i 1) : ℝ) : EReal), ?_, ?_⟩
  · refine (θ_run Cert.KernelIdeal.defs _ _).mono (fun r h c => ?_) (Cert.KernelIdeal.Hand.run_all m ρ)
    refine ⟨(h c _ (mem_uc Cert.KernelIdeal.main_v116 (by decide))).trans ?_, (h c _ (mem_uc Cert.KernelIdeal.main_v119 (by decide))).trans ?_,
      (h c _ (mem_uc Cert.KernelIdeal.main_arg0 (by decide))).trans (W17_main_arg0 m ρ c),
      (h c _ (mem_uc Cert.KernelIdeal.main_arg1 (by decide))).trans (W17_main_arg1 m ρ c),
      (h c _ (mem_uc Cert.KernelIdeal.main_arg2 (by decide))).trans (W17_main_arg2 m ρ c),
      (h c _ (mem_uc Cert.KernelIdeal.main_arg3 (by decide))).trans (W17_main_arg3 m ρ c),
      (h c _ (mem_uc Cert.KernelIdeal.main_arg4 (by decide))).trans (W17_main_arg4 m ρ c),
      (h c _ (mem_uc Cert.KernelIdeal.main_arg5 (by decide))).trans (W17_main_arg5 m ρ c),
      (h c _ (mem_uc Cert.KernelIdeal.main_arg6 (by decide))).trans (W17_main_arg6 m ρ c),
      (h c _ (mem_uc Cert.KernelIdeal.main_arg7 (by decide))).trans (W17_main_arg7 m ρ c),
      (h c _ (mem_uc Cert.KernelIdeal.main_arg8 (by decide))).trans (W17_main_arg8 m ρ c),
      (h c _ (mem_uc Cert.KernelIdeal.main_arg9 (by decide))).trans (W17_main_arg9 m ρ c),
      (h c _ (mem_uc Cert.KernelIdeal.main_arg10 (by decide))).trans (W17_main_arg10 m ρ c),
      (h c _ (mem_uc Cert.KernelIdeal.main_arg11 (by decide))).trans (W17_main_arg11 m ρ c)⟩
    · rw [Cert.KernelIdeal.HandValue.ker_x_pre m ρ c hpre]
      exact funext fun i => congrArg (fun r : ℝ => (r : EReal)) (Cert.Spec.Kx_eq_Rx _ _ _)
    · rw [Cert.KernelIdeal.HandValue.ker_s_pre m ρ c hpre]
      exact funext fun i => congrArg (fun r : ℝ => (r : EReal)) (Cert.Spec.Ks_eq_Rs _ _ _)
  · refine (θ_run Cert.ReferenceIdeal.defs _ _).mono (fun r h c => ?_) (Cert.ReferenceIdeal.Hand.run (F := Ideal) m' ρ')
    obtain ⟨h1, h2, hargs⟩ := h c
    obtain ⟨e0, e1, e2, e3, e4, e5, e6, e7, e8, e9, e10, e11⟩ := hagree c
    have hr := fun i => (Cert.PreFacts.edge_range_nat hpre c i).1
    refine ⟨h1.trans ?_, h2.trans ?_, hargs⟩
    · rw [e0, e1, e2, e3, e4, e5, e6, e7, e8, e9]
      exact Cert.ReferenceIdeal.HandValue.ref_x _ _ _ _ _ _ _ _ _ _ _ _ (Cert.PreFacts.finite_arg0 hpre c) (Cert.PreFacts.finite_arg2 hpre c) (Cert.PreFacts.finite_arg3 hpre c) (Cert.PreFacts.finite_arg4 hpre c) (Cert.PreFacts.finite_arg5 hpre c) (Cert.PreFacts.finite_arg6 hpre c) (Cert.PreFacts.finite_arg7 hpre c) (Cert.PreFacts.finite_arg8 hpre c) (Cert.PreFacts.finite_arg9 hpre c) (Cert.PreFacts.finite_arg10 hpre c) (Cert.PreFacts.finite_arg11 hpre c) hr
    · rw [e0, e1, e2, e3, e4, e5, e10, e11]
      exact Cert.ReferenceIdeal.HandValue.ref_s _ _ _ _ _ _ _ _ _ _ _ _ (Cert.PreFacts.finite_arg0 hpre c) (Cert.PreFacts.finite_arg2 hpre c) (Cert.PreFacts.finite_arg3 hpre c) (Cert.PreFacts.finite_arg4 hpre c) (Cert.PreFacts.finite_arg5 hpre c) (Cert.PreFacts.finite_arg6 hpre c) (Cert.PreFacts.finite_arg7 hpre c) (Cert.PreFacts.finite_arg8 hpre c) (Cert.PreFacts.finite_arg9 hpre c) (Cert.PreFacts.finite_arg10 hpre c) (Cert.PreFacts.finite_arg11 hpre c) hr

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
